-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 64]⟩ ⟨2, ![4096, 64]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 64]⟩ ⟨2, ![4096, 64]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 64]⟩ ⟨2, ![4096, 64]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 64]⟩ ⟨2, ![4096, 64]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x64 : Shape := ⟨2, ![256, 64]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel

variable [Facts]

def fn {F : FTy → Type} [FloatOps F] (main_arg0 : FVec F S256x64 .f32) (main_arg1 : FVec F S256x64 .f32) (main_arg2 : FVec F S256x64 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Pre_finite_inputs_ReferenceIdeal.lean ====
abbrev S4096x64 : Shape := ⟨2, ![4096, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel

variable [Facts]

def fn {F : FTy → Type} [FloatOps F] (main_arg0 : FVec F S4096x64 .f32) (main_arg1 : FVec F S4096x64 .f32) (main_arg2 : FVec F S4096x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Kernel.lean ====
abbrev S256x64 : Shape := ⟨2, ![256, 64]⟩
abbrev S4x256x64 : Shape := ⟨3, ![4, 256, 64]⟩
abbrev S4x2x256x64 : Shape := ⟨4, ![4, 2, 256, 64]⟩
abbrev S4x256x128 : Shape := ⟨3, ![4, 256, 128]⟩
abbrev S3x256x128 : Shape := ⟨3, ![3, 256, 128]⟩
abbrev S3 : Shape := ⟨1, ![3]⟩
abbrev S4 : Shape := ⟨1, ![4]⟩
abbrev S1x256x64 : Shape := ⟨3, ![1, 256, 64]⟩
abbrev S1x1x256x64 : Shape := ⟨4, ![1, 1, 256, 64]⟩
abbrev S256x1 : Shape := ⟨2, ![256, 1]⟩
abbrev S1x256x1 : Shape := ⟨3, ![1, 256, 1]⟩
abbrev S_ : Shape := ⟨0, ![]⟩
abbrev S1 : Shape := ⟨1, ![1]⟩
abbrev S1x2x256x64 : Shape := ⟨4, ![1, 2, 256, 64]⟩
abbrev S2x256x64 : Shape := ⟨3, ![2, 256, 64]⟩
abbrev S256x128 : Shape := ⟨2, ![256, 128]⟩
abbrev S256x256 : Shape := ⟨2, ![256, 256]⟩
abbrev S1x256x128 : Shape := ⟨3, ![1, 256, 128]⟩

abbrev nBuf : Space → Nat
  | .hbm => 4
  | .vmem => 9
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256x64, .f32⟩
  | .hbm, ⟨3, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S4x256x64, .bf16⟩
  | .local _ .vmem, ⟨5, _⟩ => ⟨S4x2x256x64, .bf16⟩
  | .local _ .vmem, ⟨6, _⟩ => ⟨S4x256x128, .bf16⟩
  | .local _ .vmem, ⟨7, _⟩ => ⟨S3x256x128, .bf16⟩
  | .local _ .vmem, ⟨8, _⟩ => ⟨S4x256x128, .bf16⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v26 : Index := Scalar.indexCast v19
  let c0_7 : Index := 0#32
  let c0_8 : Index := 0#32
  ![v26.toNat, 0, 0]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v33 : Index := Scalar.indexCast v20
  let c0_11 : Index := 0#32
  let c0_12 : Index := 0#32
  let c0_13 : Index := 0#32
  ![v33.toNat, 0, 0, 0]
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v40 : Index := Scalar.indexCast v20
  let c1 : Index := 1#32
  let c0_16 : Index := 0#32
  let c0_17 : Index := 0#32
  ![v40.toNat, 1, 0, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v52 : Index := Scalar.indexCast v20
  let c0_26 : Index := 0#32
  let c0_27 : Index := 0#32
  ![v52.toNat, 0, 0]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v56 : Index := Scalar.indexCast v20
  let c0_28 : Index := 0#32
  let c64 : Index := 64#32
  ![v56.toNat, 0, 64]
def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_29 : BitVec 32 := 1#32
  let v61 : BitVec 32 := Scalar.addi v19 c1_i32_29
  let c4_i32_30 : BitVec 32 := 4#32
  let v62 : BitVec 32 := Scalar.remsi v61 c4_i32_30
  let c4_i32_31 : BitVec 32 := 4#32
  let v63 : BitVec 32 := Scalar.muli v62 c4_i32_31
  let c4_i32_5 : BitVec 32 := 4#32
  let v20 : BitVec 32 := Scalar.remsi v2 c4_i32_5
  let v64 : BitVec 32 := Scalar.addi v63 v20
  let c1_i32_33 : BitVec 32 := 1#32
  let v65 : BitVec 32 := Scalar.muli v64 c1_i32_33
  let v66 : BitVec 32 := Scalar.addi c0_i32_34 v65
  v66.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v67 : BitVec 32 := Scalar.addi v19 c2_i32
  let c4_i32_35 : BitVec 32 := 4#32
  let v68 : BitVec 32 := Scalar.remsi v67 c4_i32_35
  let c4_i32_36 : BitVec 32 := 4#32
  let v69 : BitVec 32 := Scalar.muli v68 c4_i32_36
  let c4_i32_5 : BitVec 32 := 4#32
  let v20 : BitVec 32 := Scalar.remsi v2 c4_i32_5
  let v70 : BitVec 32 := Scalar.addi v69 v20
  let c1_i32_38 : BitVec 32 := 1#32
  let v71 : BitVec 32 := Scalar.muli v70 c1_i32_38
  let v72 : BitVec 32 := Scalar.addi c0_i32_39 v71
  v72.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v73 : BitVec 32 := Scalar.addi v19 c3_i32
  let c4_i32_40 : BitVec 32 := 4#32
  let v74 : BitVec 32 := Scalar.remsi v73 c4_i32_40
  let c4_i32_41 : BitVec 32 := 4#32
  let v75 : BitVec 32 := Scalar.muli v74 c4_i32_41
  let c4_i32_5 : BitVec 32 := 4#32
  let v20 : BitVec 32 := Scalar.remsi v2 c4_i32_5
  let v76 : BitVec 32 := Scalar.addi v75 v20
  let c1_i32_43 : BitVec 32 := 1#32
  let v77 : BitVec 32 := Scalar.muli v76 c1_i32_43
  let v78 : BitVec 32 := Scalar.addi c0_i32_44 v77
  v78.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_45 : BitVec 32 := 4#32
  let v79 : BitVec 32 := Scalar.muli v19 c4_i32_45
  let c4_i32_5 : BitVec 32 := 4#32
  let v20 : BitVec 32 := Scalar.remsi v2 c4_i32_5
  let c1_i32_46 : BitVec 32 := 1#32
  let v80 : BitVec 32 := Scalar.addi v20 c1_i32_46
  let c4_i32_47 : BitVec 32 := 4#32
  let v81 : BitVec 32 := Scalar.remsi v80 c4_i32_47
  let v82 : BitVec 32 := Scalar.addi v79 v81
  let c1_i32_48 : BitVec 32 := 1#32
  let v83 : BitVec 32 := Scalar.muli v82 c1_i32_48
  let v84 : BitVec 32 := Scalar.addi c0_i32_49 v83
  v84.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_50 : BitVec 32 := 4#32
  let v85 : BitVec 32 := Scalar.muli v19 c4_i32_50
  let c4_i32_5 : BitVec 32 := 4#32
  let v20 : BitVec 32 := Scalar.remsi v2 c4_i32_5
  let c2_i32_51 : BitVec 32 := 2#32
  let v86 : BitVec 32 := Scalar.addi v20 c2_i32_51
  let c4_i32_52 : BitVec 32 := 4#32
  let v87 : BitVec 32 := Scalar.remsi v86 c4_i32_52
  let v88 : BitVec 32 := Scalar.addi v85 v87
  let c1_i32_54 : BitVec 32 := 1#32
  let v89 : BitVec 32 := Scalar.muli v88 c1_i32_54
  let v90 : BitVec 32 := Scalar.addi c0_i32_55 v89
  v90.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_56 : BitVec 32 := 4#32
  let v91 : BitVec 32 := Scalar.muli v19 c4_i32_56
  let c4_i32_5 : BitVec 32 := 4#32
  let v20 : BitVec 32 := Scalar.remsi v2 c4_i32_5
  let c3_i32_57 : BitVec 32 := 3#32
  let v92 : BitVec 32 := Scalar.addi v20 c3_i32_57
  let c4_i32_58 : BitVec 32 := 4#32
  let v93 : BitVec 32 := Scalar.remsi v92 c4_i32_58
  let v94 : BitVec 32 := Scalar.addi v91 v93
  let c1_i32_60 : BitVec 32 := 1#32
  let v95 : BitVec 32 := Scalar.muli v94 c1_i32_60
  let v96 : BitVec 32 := Scalar.addi c0_i32_61 v95
  v96.toNat
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  ![v20.toNat]
def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_68 : BitVec 32 := 0#32
  let c0_i32_69 : BitVec 32 := 0#32
  let c0_i32_70 : BitVec 32 := 0#32
  ![v20.toNat, 0, 0, 0]
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_62 : BitVec 32 := 4#32
  let v97 : BitVec 32 := Scalar.muli v19 c4_i32_62
  let c4_i32_5 : BitVec 32 := 4#32
  let v20 : BitVec 32 := Scalar.remsi v2 c4_i32_5
  let c2_i32_63 : BitVec 32 := 2#32
  let v98 : BitVec 32 := Scalar.addi v20 c2_i32_63
  let c4_i32_64 : BitVec 32 := 4#32
  let v99 : BitVec 32 := Scalar.remsi v98 c4_i32_64
  let v100 : BitVec 32 := Scalar.addi v97 v99
  let c1_i32_66 : BitVec 32 := 1#32
  let v101 : BitVec 32 := Scalar.muli v100 c1_i32_66
  let v102 : BitVec 32 := Scalar.addi c0_i32_67 v101
  v102.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_74 : BitVec 32 := 4#32
  let v111 : BitVec 32 := Scalar.muli v19 c4_i32_74
  let c4_i32_5 : BitVec 32 := 4#32
  let v20 : BitVec 32 := Scalar.remsi v2 c4_i32_5
  let c1_i32_75 : BitVec 32 := 1#32
  let v112 : BitVec 32 := Scalar.addi v20 c1_i32_75
  let c4_i32_76 : BitVec 32 := 4#32
  let v113 : BitVec 32 := Scalar.remsi v112 c4_i32_76
  let v114 : BitVec 32 := Scalar.addi v111 v113
  let c1_i32_78 : BitVec 32 := 1#32
  let v115 : BitVec 32 := Scalar.muli v114 c1_i32_78
  let v116 : BitVec 32 := Scalar.addi c0_i32_79 v115
  v116.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_86 : BitVec 32 := 4#32
  let v125 : BitVec 32 := Scalar.muli v19 c4_i32_86
  let c4_i32_5 : BitVec 32 := 4#32
  let v20 : BitVec 32 := Scalar.remsi v2 c4_i32_5
  let c3_i32_87 : BitVec 32 := 3#32
  let v126 : BitVec 32 := Scalar.addi v20 c3_i32_87
  let c4_i32_88 : BitVec 32 := 4#32
  let v127 : BitVec 32 := Scalar.remsi v126 c4_i32_88
  let v128 : BitVec 32 := Scalar.addi v125 v127
  let c1_i32_90 : BitVec 32 := 1#32
  let v129 : BitVec 32 := Scalar.muli v128 c1_i32_90
  let v130 : BitVec 32 := Scalar.addi c0_i32_91 v129
  v130.toNat
def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_106 : BitVec 32 := 0#32
  let c0_i32_107 : BitVec 32 := 0#32
  ![v19.toNat, 0, 0]
def k0_dev10 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_100 : BitVec 32 := 1#32
  let v139 : BitVec 32 := Scalar.addi v19 c1_i32_100
  let c4_i32_101 : BitVec 32 := 4#32
  let v140 : BitVec 32 := Scalar.remsi v139 c4_i32_101
  let c4_i32_102 : BitVec 32 := 4#32
  let v141 : BitVec 32 := Scalar.muli v140 c4_i32_102
  let c4_i32_5 : BitVec 32 := 4#32
  let v20 : BitVec 32 := Scalar.remsi v2 c4_i32_5
  let v142 : BitVec 32 := Scalar.addi v141 v20
  let c1_i32_104 : BitVec 32 := 1#32
  let v143 : BitVec 32 := Scalar.muli v142 c1_i32_104
  let v144 : BitVec 32 := Scalar.addi c0_i32_105 v143
  v144.toNat
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v153 : BitVec 32 := Scalar.addi v19 c2_i32_110
  let c4_i32_111 : BitVec 32 := 4#32
  let v154 : BitVec 32 := Scalar.remsi v153 c4_i32_111
  let c4_i32_112 : BitVec 32 := 4#32
  let v155 : BitVec 32 := Scalar.muli v154 c4_i32_112
  let c4_i32_5 : BitVec 32 := 4#32
  let v20 : BitVec 32 := Scalar.remsi v2 c4_i32_5
  let v156 : BitVec 32 := Scalar.addi v155 v20
  let c1_i32_114 : BitVec 32 := 1#32
  let v157 : BitVec 32 := Scalar.muli v156 c1_i32_114
  let v158 : BitVec 32 := Scalar.addi c0_i32_115 v157
  v158.toNat
def k0_dev12 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_120 : BitVec 32 := 3#32
  let v167 : BitVec 32 := Scalar.addi v19 c3_i32_120
  let c4_i32_121 : BitVec 32 := 4#32
  let v168 : BitVec 32 := Scalar.remsi v167 c4_i32_121
  let c4_i32_122 : BitVec 32 := 4#32
  let v169 : BitVec 32 := Scalar.muli v168 c4_i32_122
  let c4_i32_5 : BitVec 32 := 4#32
  let v20 : BitVec 32 := Scalar.remsi v2 c4_i32_5
  let v170 : BitVec 32 := Scalar.addi v169 v20
  let c1_i32_124 : BitVec 32 := 1#32
  let v171 : BitVec 32 := Scalar.muli v170 c1_i32_124
  let v172 : BitVec 32 := Scalar.addi c0_i32_125 v171
  v172.toNat
def k0_off10 (d0 : Dev nD) (c1_i32_136 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v187 : BitVec 32 := Scalar.addi v19 c1_i32_136
  let c4_i32_137 : BitVec 32 := 4#32
  let v188 : BitVec 32 := Scalar.remsi v187 c4_i32_137
  ![v188.toNat]
def k0_off11 (d0 : Dev nD) (c1_i32_134 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v185 : BitVec 32 := Scalar.addi v19 c1_i32_134
  let c4_i32_135 : BitVec 32 := 4#32
  let v186 : BitVec 32 := Scalar.remsi v185 c4_i32_135
  let c0_i32_141 : BitVec 32 := 0#32
  let c0_i32_142 : BitVec 32 := 0#32
  ![v186.toNat, 0, 0]
def k0_off12 (d0 : Dev nD) (c1_i32_145 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v197 : BitVec 32 := Scalar.addi v19 c1_i32_145
  let c4_i32_146 : BitVec 32 := 4#32
  let v198 : BitVec 32 := Scalar.remsi v197 c4_i32_146
  let v199 : Index := Scalar.indexCast v198
  let c0_147 : Index := 0#32
  let c0_148 : Index := 0#32
  ![v199.toNat, 0, 0]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v208 : Index := Scalar.indexCast v20
  let c0_153 : Index := 0#32
  let c0_154 : Index := 0#32
  ![v208.toNat, 0, 0]
def k0_off14 (d0 : Dev nD) (c1_i32_200 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v269 : BitVec 32 := Scalar.addi v20 c1_i32_200
  let c4_i32_201 : BitVec 32 := 4#32
  let v270 : BitVec 32 := Scalar.remsi v269 c4_i32_201
  ![v270.toNat]
def k0_off15 (d0 : Dev nD) (c1_i32_200 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v269 : BitVec 32 := Scalar.addi v20 c1_i32_200
  let c4_i32_201 : BitVec 32 := 4#32
  let v270 : BitVec 32 := Scalar.remsi v269 c4_i32_201
  let c0_i32_205 : BitVec 32 := 0#32
  let c0_i32_206 : BitVec 32 := 0#32
  let c0_i32_207 : BitVec 32 := 0#32
  ![v270.toNat, 0, 0, 0]
def k0_off16 (d0 : Dev nD) (c1_i32_200 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v269 : BitVec 32 := Scalar.addi v20 c1_i32_200
  let c4_i32_201 : BitVec 32 := 4#32
  let v270 : BitVec 32 := Scalar.remsi v269 c4_i32_201
  let v279 : Index := Scalar.indexCast v270
  let c1_211 : Index := 1#32
  let c0_212 : Index := 0#32
  let c0_213 : Index := 0#32
  ![v279.toNat, 1, 0, 0]
def k0_off17 (d0 : Dev nD) (c1_i32_200 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v269 : BitVec 32 := Scalar.addi v20 c1_i32_200
  let c4_i32_201 : BitVec 32 := 4#32
  let v270 : BitVec 32 := Scalar.remsi v269 c4_i32_201
  let v282 : Index := Scalar.indexCast v270
  let c0_214 : Index := 0#32
  let c0_215 : Index := 0#32
  ![v282.toNat, 0, 0]
def k0_off18 (d0 : Dev nD) (c1_i32_200 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v269 : BitVec 32 := Scalar.addi v20 c1_i32_200
  let c4_i32_201 : BitVec 32 := 4#32
  let v270 : BitVec 32 := Scalar.remsi v269 c4_i32_201
  let v286 : Index := Scalar.indexCast v270
  let c0_216 : Index := 0#32
  let c64_217 : Index := 64#32
  ![v286.toNat, 0, 64]
def k0_off19 (d0 : Dev nD) (c1_i32_200 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v269 : BitVec 32 := Scalar.addi v20 c1_i32_200
  let c4_i32_201 : BitVec 32 := 4#32
  let v270 : BitVec 32 := Scalar.remsi v269 c4_i32_201
  let v295 : Index := Scalar.indexCast v270
  let c0_222 : Index := 0#32
  let c0_223 : Index := 0#32
  let c0_224 : Index := 0#32
  ![v295.toNat, 0, 0, 0]
def k0_off20 (d0 : Dev nD) (c1_i32_200 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v269 : BitVec 32 := Scalar.addi v20 c1_i32_200
  let c4_i32_201 : BitVec 32 := 4#32
  let v270 : BitVec 32 := Scalar.remsi v269 c4_i32_201
  let v301 : Index := Scalar.indexCast v270
  let c0_226 : Index := 0#32
  let c0_227 : Index := 0#32
  ![v301.toNat, 0, 0]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_341 : BitVec 32 := 0#32
  let c0_i32_342 : BitVec 32 := 0#32
  ![v19.toNat, 0, 0]
def k0_dev13 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_334 : BitVec 32 := 1#32
  let v448 : BitVec 32 := Scalar.addi v19 c1_i32_334
  let c4_i32_335 : BitVec 32 := 4#32
  let v449 : BitVec 32 := Scalar.remsi v448 c4_i32_335
  let c4_i32_336 : BitVec 32 := 4#32
  let v450 : BitVec 32 := Scalar.muli v449 c4_i32_336
  let c4_i32_5 : BitVec 32 := 4#32
  let v20 : BitVec 32 := Scalar.remsi v2 c4_i32_5
  let v451 : BitVec 32 := Scalar.addi v450 v20
  let c1_i32_339 : BitVec 32 := 1#32
  let v452 : BitVec 32 := Scalar.muli v451 c1_i32_339
  let v453 : BitVec 32 := Scalar.addi c0_i32_340 v452
  v453.toNat
def k0_dev14 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_359 : BitVec 32 := 2#32
  let v482 : BitVec 32 := Scalar.addi v19 c2_i32_359
  let c4_i32_360 : BitVec 32 := 4#32
  let v483 : BitVec 32 := Scalar.remsi v482 c4_i32_360
  let c4_i32_361 : BitVec 32 := 4#32
  let v484 : BitVec 32 := Scalar.muli v483 c4_i32_361
  let c4_i32_5 : BitVec 32 := 4#32
  let v20 : BitVec 32 := Scalar.remsi v2 c4_i32_5
  let v485 : BitVec 32 := Scalar.addi v484 v20
  let c1_i32_364 : BitVec 32 := 1#32
  let v486 : BitVec 32 := Scalar.muli v485 c1_i32_364
  let v487 : BitVec 32 := Scalar.addi c0_i32_365 v486
  v487.toNat
def k0_dev15 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_383 : BitVec 32 := 3#32
  let v516 : BitVec 32 := Scalar.addi v19 c3_i32_383
  let c4_i32_384 : BitVec 32 := 4#32
  let v517 : BitVec 32 := Scalar.remsi v516 c4_i32_384
  let c4_i32_385 : BitVec 32 := 4#32
  let v518 : BitVec 32 := Scalar.muli v517 c4_i32_385
  let c4_i32_5 : BitVec 32 := 4#32
  let v20 : BitVec 32 := Scalar.remsi v2 c4_i32_5
  let v519 : BitVec 32 := Scalar.addi v518 v20
  let c1_i32_388 : BitVec 32 := 1#32
  let v520 : BitVec 32 := Scalar.muli v519 c1_i32_388
  let v521 : BitVec 32 := Scalar.addi c0_i32_389 v520
  v521.toNat
def k0_off22 (d0 : Dev nD) (c1_i32_446 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v602 : BitVec 32 := Scalar.addi v19 c1_i32_446
  let c4_i32_447 : BitVec 32 := 4#32
  let v603 : BitVec 32 := Scalar.remsi v602 c4_i32_447
  let c0_i32_451 : BitVec 32 := 0#32
  let c0_i32_452 : BitVec 32 := 0#32
  ![v603.toNat, 0, 0]
def k0_off23 (d0 : Dev nD) (c1_i32_446 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v602 : BitVec 32 := Scalar.addi v19 c1_i32_446
  let c4_i32_447 : BitVec 32 := 4#32
  let v603 : BitVec 32 := Scalar.remsi v602 c4_i32_447
  let v612 : Index := Scalar.indexCast v603
  let c0_455 : Index := 0#32
  let c0_456 : Index := 0#32
  ![v612.toNat, 0, 0]
abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  h_S1x256x64 : 0 < S1x256x64.numel
  shapeCasts_S1x256x64_S256x64 : S1x256x64.ShapeCasts S256x64
  shapeCasts_S256x64_S1x256x64 : S256x64.ShapeCasts S1x256x64
  h_S1x1x256x64 : 0 < S1x1x256x64.numel
  shapeCasts_S1x1x256x64_S256x64 : S1x1x256x64.ShapeCasts S256x64
  shapeCasts_S256x64_S1x1x256x64 : S256x64.ShapeCasts S1x1x256x64
  inb_S4x256x128_S4x256x128_0_0_0 : ∀ a, (![0, 0, 0] : Fin 3 → Nat) a + S4x256x128.size a ≤ S4x256x128.size a
  h_S4x256x128 : 0 < S4x256x128.numel
  shapeCasts_S4x256x128_S4x256x128 : S4x256x128.ShapeCasts S4x256x128
  packedbf16_S4x256x128_S4x256x128_0_0_0 : (Rect.unit (s := S4x256x128) ![0, 0, 0] S4x256x128.size inb_S4x256x128_S4x256x128_0_0_0).PackedRows (EltTy.packing .bf16)
  h_S1x256x1 : 0 < S1x256x1.numel
  shapeCasts_S1x256x1_S256x1 : S1x256x1.ShapeCasts S256x1
  shapeCasts_S256x1_S1x256x1 : S256x1.ShapeCasts S1x256x1
  hamt_1 : (1#32 : BitVec 32).msb = false
  hamt_8 : (8#32 : BitVec 32).msb = false
  hamt_24 : (24#32 : BitVec 32).msb = false
  inb_S3_S1_1 : ∀ a, (![1] : Fin 1 → Nat) a + S1.size a ≤ S3.size a
  squeezes_S1_S_ : S1.Squeezes S_
  squeezes_S1x2x256x64_S2x256x64 : S1x2x256x64.Squeezes S2x256x64
  inb_S3_S1_0 : ∀ a, (![0] : Fin 1 → Nat) a + S1.size a ≤ S3.size a
  inb_S3_S1_2 : ∀ a, (![2] : Fin 1 → Nat) a + S1.size a ≤ S3.size a
  hamt_3 : (3#32 : BitVec 32).msb = false
  squeezes_S1x256x64_S256x64 : S1x256x64.Squeezes S256x64
  h_S1x256x128 : 0 < S1x256x128.numel
  shapeCasts_S1x256x128_S256x128 : S1x256x128.ShapeCasts S256x128
  inb_S3x256x128_S1x256x128_0_0_0 : ∀ a, (![0, 0, 0] : Fin 3 → Nat) a + S1x256x128.size a ≤ S3x256x128.size a
  shapeCasts_S256x128_S1x256x128 : S256x128.ShapeCasts S1x256x128
  packedbf16_S3x256x128_S1x256x128_0_0_0 : (Rect.unit (s := S3x256x128) ![0, 0, 0] S1x256x128.size inb_S3x256x128_S1x256x128_0_0_0).PackedRows (EltTy.packing .bf16)
  squeezes_S1x256x128_S256x128 : S1x256x128.Squeezes S256x128
  wordsbf16_S3x256x128_S1x256x128_0_0_0 : (Rect.unit (s := S3x256x128) ![0, 0, 0] S1x256x128.size inb_S3x256x128_S1x256x128_0_0_0).WholeWords (EltTy.packing .bf16)
  inb_S3x256x128_S1x256x128_1_0_0 : ∀ a, (![1, 0, 0] : Fin 3 → Nat) a + S1x256x128.size a ≤ S3x256x128.size a
  packedbf16_S3x256x128_S1x256x128_1_0_0 : (Rect.unit (s := S3x256x128) ![1, 0, 0] S1x256x128.size inb_S3x256x128_S1x256x128_1_0_0).PackedRows (EltTy.packing .bf16)
  wordsbf16_S3x256x128_S1x256x128_1_0_0 : (Rect.unit (s := S3x256x128) ![1, 0, 0] S1x256x128.size inb_S3x256x128_S1x256x128_1_0_0).WholeWords (EltTy.packing .bf16)
  inb_S3x256x128_S1x256x128_2_0_0 : ∀ a, (![2, 0, 0] : Fin 3 → Nat) a + S1x256x128.size a ≤ S3x256x128.size a
  packedbf16_S3x256x128_S1x256x128_2_0_0 : (Rect.unit (s := S3x256x128) ![2, 0, 0] S1x256x128.size inb_S3x256x128_S1x256x128_2_0_0).PackedRows (EltTy.packing .bf16)
  wordsbf16_S3x256x128_S1x256x128_2_0_0 : (Rect.unit (s := S3x256x128) ![2, 0, 0] S1x256x128.size inb_S3x256x128_S1x256x128_2_0_0).WholeWords (EltTy.packing .bf16)
  slices_S256x128_o0_0_S256x64 : S256x128.Slices ![0, 0] S256x64
  slices_S256x128_o0_64_S256x1 : S256x128.Slices ![0, 64] S256x1
  broadcasts_S256x1_S256x64 : S256x1.Broadcasts S256x64
  dot_S256x64_S256x64_S256x256_1_1_0_0_n_n_wf : DotDims.WF S256x64 S256x64 S256x256 [1] [1] [0] [0] [] []
  dot_S256x256_S256x128_S256x128_1_0_0_1_n_n_wf : DotDims.WF S256x256 S256x128 S256x128 [1] [0] [0] [1] [] []
  hcc0_scratch5 : 4 + S3.numel ≤ 25
  hcc0_scratch6 : 7 + S4.numel ≤ 25
  hcc0_scratch7 : 11 + S3.numel ≤ 25
  hcc0_scratch8 : 14 + S4.numel ≤ 25
  hcc0_scratch9 : 18 + S3.numel ≤ 25
  hcc0_scratch10 : 21 + S4.numel ≤ 25
  k0_off1_inb : ∀ d0 : Dev nD, ∀ a, (k0_off1 d0) a + S1x256x64.size a ≤ S4x256x64.size a
  k0_off1_packedbf16 : ∀ d0 : Dev nD, (Rect.unit (s := S4x256x64) (k0_off1 d0) S1x256x64.size (k0_off1_inb d0)).PackedRows (EltTy.packing .bf16)
  k0_off2_inb : ∀ d0 : Dev nD, ∀ a, (k0_off2 d0) a + S1x1x256x64.size a ≤ S4x2x256x64.size a
  k0_off2_packedbf16 : ∀ d0 : Dev nD, (Rect.unit (s := S4x2x256x64) (k0_off2 d0) S1x1x256x64.size (k0_off2_inb d0)).PackedRows (EltTy.packing .bf16)
  k0_off3_inb : ∀ d0 : Dev nD, ∀ a, (k0_off3 d0) a + S1x1x256x64.size a ≤ S4x2x256x64.size a
  k0_off3_packedbf16 : ∀ d0 : Dev nD, (Rect.unit (s := S4x2x256x64) (k0_off3 d0) S1x1x256x64.size (k0_off3_inb d0)).PackedRows (EltTy.packing .bf16)
  k0_off4_inb : ∀ d0 : Dev nD, ∀ a, (k0_off4 d0) a + S1x256x64.size a ≤ S4x256x128.size a
  k0_off4_packedbf16 : ∀ d0 : Dev nD, (Rect.unit (s := S4x256x128) (k0_off4 d0) S1x256x64.size (k0_off4_inb d0)).PackedRows (EltTy.packing .bf16)
  k0_off5_inb : ∀ d0 : Dev nD, ∀ a, (k0_off5 d0) a + S1x256x1.size a ≤ S4x256x128.size a
  k0_off5_packedbf16 : ∀ d0 : Dev nD, (Rect.unit (s := S4x256x128) (k0_off5 d0) S1x256x1.size (k0_off5_inb d0)).PackedRows (EltTy.packing .bf16)
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off6_inb : ∀ d0 : Dev nD, ∀ a, (k0_off6 d0) a + S1.size a ≤ S4.size a
  k0_off7_inb : ∀ d0 : Dev nD, ∀ a, (k0_off7 d0) a + S1x2x256x64.size a ≤ S4x2x256x64.size a
  k0_off7_wordsbf16 : ∀ d0 : Dev nD, (Rect.unit (s := S4x2x256x64) (k0_off7 d0) S1x2x256x64.size (k0_off7_inb d0)).WholeWords (EltTy.packing .bf16)
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off8_inb : ∀ d0 : Dev nD, ∀ a, (k0_off8 d0) a + S1.size a ≤ S4.size a
  k0_off9_inb : ∀ d0 : Dev nD, ∀ a, (k0_off9 d0) a + S1x256x64.size a ≤ S4x256x64.size a
  k0_off9_wordsbf16 : ∀ d0 : Dev nD, (Rect.unit (s := S4x256x64) (k0_off9 d0) S1x256x64.size (k0_off9_inb d0)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off10_inb : ∀ d0 : Dev nD, ∀ (r : Fin 3), ∀ a, (k0_off10 d0 (BitVec.ofNat 32 (1 + r.val))) a + S1.size a ≤ S4.size a
  k0_off11_inb : ∀ d0 : Dev nD, ∀ (r : Fin 3), ∀ a, (k0_off11 d0 (BitVec.ofNat 32 (1 + r.val))) a + S1x256x64.size a ≤ S4x256x64.size a
  k0_off11_wordsbf16 : ∀ d0 : Dev nD, ∀ (r : Fin 3), (Rect.unit (s := S4x256x64) (k0_off11 d0 (BitVec.ofNat 32 (1 + r.val))) S1x256x64.size (k0_off11_inb d0 r)).WholeWords (EltTy.packing .bf16)
  k0_off12_inb : ∀ d0 : Dev nD, ∀ (r : Fin 4), ∀ a, (k0_off12 d0 (BitVec.ofNat 32 r.val)) a + S1x256x64.size a ≤ S4x256x64.size a
  k0_off13_inb : ∀ d0 : Dev nD, ∀ a, (k0_off13 d0) a + S1x256x128.size a ≤ S4x256x128.size a
  k0_off14_inb : ∀ d0 : Dev nD, ∀ (r : Fin 3), ∀ a, (k0_off14 d0 (BitVec.ofNat 32 (1 + r.val))) a + S1.size a ≤ S4.size a
  k0_off15_inb : ∀ d0 : Dev nD, ∀ (r : Fin 3), ∀ a, (k0_off15 d0 (BitVec.ofNat 32 (1 + r.val))) a + S1x2x256x64.size a ≤ S4x2x256x64.size a
  k0_off15_wordsbf16 : ∀ d0 : Dev nD, ∀ (r : Fin 3), (Rect.unit (s := S4x2x256x64) (k0_off15 d0 (BitVec.ofNat 32 (1 + r.val))) S1x2x256x64.size (k0_off15_inb d0 r)).WholeWords (EltTy.packing .bf16)
  k0_off16_inb : ∀ d0 : Dev nD, ∀ (r : Fin 3), ∀ a, (k0_off16 d0 (BitVec.ofNat 32 (1 + r.val))) a + S1x1x256x64.size a ≤ S4x2x256x64.size a
  k0_off17_inb : ∀ d0 : Dev nD, ∀ (r : Fin 3), ∀ a, (k0_off17 d0 (BitVec.ofNat 32 (1 + r.val))) a + S1x256x64.size a ≤ S4x256x128.size a
  k0_off17_packedbf16 : ∀ d0 : Dev nD, ∀ (r : Fin 3), (Rect.unit (s := S4x256x128) (k0_off17 d0 (BitVec.ofNat 32 (1 + r.val))) S1x256x64.size (k0_off17_inb d0 r)).PackedRows (EltTy.packing .bf16)
  k0_off18_inb : ∀ d0 : Dev nD, ∀ (r : Fin 3), ∀ a, (k0_off18 d0 (BitVec.ofNat 32 (1 + r.val))) a + S1x256x1.size a ≤ S4x256x128.size a
  k0_off18_packedbf16 : ∀ d0 : Dev nD, ∀ (r : Fin 3), (Rect.unit (s := S4x256x128) (k0_off18 d0 (BitVec.ofNat 32 (1 + r.val))) S1x256x1.size (k0_off18_inb d0 r)).PackedRows (EltTy.packing .bf16)
  k0_off19_inb : ∀ d0 : Dev nD, ∀ (r : Fin 4), ∀ a, (k0_off19 d0 (BitVec.ofNat 32 r.val)) a + S1x1x256x64.size a ≤ S4x2x256x64.size a
  k0_off20_inb : ∀ d0 : Dev nD, ∀ (r : Fin 4), ∀ a, (k0_off20 d0 (BitVec.ofNat 32 r.val)) a + S1x256x128.size a ≤ S4x256x128.size a
  k0_off21_inb : ∀ d0 : Dev nD, ∀ a, (k0_off21 d0) a + S1x256x128.size a ≤ S4x256x128.size a
  k0_off21_wordsbf16 : ∀ d0 : Dev nD, (Rect.unit (s := S4x256x128) (k0_off21 d0) S1x256x128.size (k0_off21_inb d0)).WholeWords (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off22_inb : ∀ d0 : Dev nD, ∀ (r : Fin 3), ∀ a, (k0_off22 d0 (BitVec.ofNat 32 (1 + r.val))) a + S1x256x128.size a ≤ S4x256x128.size a
  k0_off22_wordsbf16 : ∀ d0 : Dev nD, ∀ (r : Fin 3), (Rect.unit (s := S4x256x128) (k0_off22 d0 (BitVec.ofNat 32 (1 + r.val))) S1x256x128.size (k0_off22_inb d0 r)).WholeWords (EltTy.packing .bf16)
  k0_off23_inb : ∀ d0 : Dev nD, ∀ (r : Fin 3), ∀ a, (k0_off23 d0 (BitVec.ofNat 32 (1 + r.val))) a + S1x256x128.size a ≤ S4x256x128.size a
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch5 : DmaSems sig S3 := SemArray.consecutive 4 S3 hcc0_scratch5
abbrev cc0_scratch6 : DmaSems sig S4 := SemArray.consecutive 7 S4 hcc0_scratch6
abbrev cc0_scratch7 : DmaSems sig S3 := SemArray.consecutive 11 S3 hcc0_scratch7
abbrev cc0_scratch8 : DmaSems sig S4 := SemArray.consecutive 14 S4 hcc0_scratch8
abbrev cc0_scratch9 : DmaSems sig S3 := SemArray.consecutive 18 S3 hcc0_scratch9
abbrev cc0_scratch10 : DmaSems sig S4 := SemArray.consecutive 21 S4 hcc0_scratch10
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S64x4096 : Shape := ⟨2, ![64, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S64x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S4096x64_S64x4096_1_0 : S4096x64.Transposes [1, 0] S64x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x64_S64x4096_S4096x4096_1_0_0_1_n_n_wf : DotDims.WF S4096x64 S64x4096 S4096x4096 [1] [0] [0] [1] [] []
  dot_S4096x4096_S4096x64_S4096x64_1_0_0_1_n_n_wf : DotDims.WF S4096x4096 S4096x64 S4096x64 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.LibRowMax.lean ====
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

theorem ofBits_neg_inf_f32 : Ideal.ofBits .f32 0xFF800000#32 = (⊥ : EReal) := by
  simp [Ideal.ofBits, Ideal.ieee]

theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

-- A row maximum is the fold of max over the row, from −∞.
theorem hostReduce_max_row {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun J => x (ix2 r J)) := by
  rw [Host.reduce_eq_fold_single FloatOps.maximumf x _ h' h hu]
  have hf : (x ∘ h.lift (ix1 r)) = fun k : Fin n => x (ix2 r k) := funext fun k => congrArg x (lift_row h r k)
  have hi : (constant (⟨0, ![]⟩ : Shape) .f32 0xFF800000#32 : FVec Ideal ⟨0, ![]⟩ .f32) (Shape.Idx.first hu) = (⊥ : EReal) :=
    ofBits_neg_inf_f32
  rw [hi]
  exact congrArg (fun f => Finset.fold max (⊥ : EReal) f (Finset.univ : Finset (Fin n))) hf

end Cert.LibRowMax

end
-- ==== Proof.AttnMath.lean ====
import Idealize.ShloMosaic.PureOps.Ideal
import Mathlib.Data.EReal.Basic
import Mathlib.Data.EReal.Operations
import Mathlib.Data.EReal.Inv
import Mathlib.Analysis.SpecialFunctions.Exp
import Mathlib.Analysis.SpecialFunctions.Sqrt
import Mathlib.Algebra.BigOperators.Group.Finset.Basic
import Mathlib.Algebra.Order.BigOperators.Group.Finset
import Mathlib.Data.Finset.Fold
import Mathlib.Tactic.Ring
import Mathlib.Tactic.FieldSimp
import Mathlib.Tactic.NormNum

noncomputable section

namespace Cert.AttnMath

open Idealize.ShloMosaic
open scoped BigOperators

theorem scale_eq : Ideal.ofBits .f32 0x3E000000#32 = ((1 / 8 : ℝ) : EReal) := by
  simp [Ideal.ofBits, Ideal.ieee, -EReal.coe_mul]; norm_num

theorem dModel_eq : Ideal.ofBits .f32 0x42800000#32 = ((64 : ℝ) : EReal) := by
  simp [Ideal.ofBits, Ideal.ieee, -EReal.coe_mul]; norm_num

theorem sqrt_dModel : Ideal.sqrt (Ideal.ofBits .f32 0x42800000#32) = ((8 : ℝ) : EReal) := by
  rw [dModel_eq, Ideal.sqrt_coe, if_neg (by norm_num)]
  congr 1
  rw [show (64 : ℝ) = 8 * 8 by norm_num]
  exact Real.sqrt_mul_self (by norm_num)

section Defs

variable {ρ ι κ γ : Type} [Fintype ι] [Fintype κ]

def kerScore (Q : ρ → κ → EReal) (K : ι → κ → EReal) (r : ρ) (J : ι) : EReal :=
  ∑ k, (Q r k * Ideal.ofBits .f32 0x3E000000#32) * K J k

def kerE (Q : ρ → κ → EReal) (K : ι → κ → EReal) (r : ρ) (J : ι) : EReal :=
  Ideal.exp (kerScore Q K r J)

def kerNum (Q : ρ → κ → EReal) (K : ι → κ → EReal) (V : ι → γ → EReal) (r : ρ) (c : γ) : EReal :=
  ∑ J, kerE Q K r J * V J c

def kerDen (Q : ρ → κ → EReal) (K : ι → κ → EReal) (r : ρ) : EReal :=
  ∑ J, kerE Q K r J * 1

def kerOut (Q : ρ → κ → EReal) (K : ι → κ → EReal) (V : ι → γ → EReal) (r : ρ) (c : γ) : EReal :=
  Ideal.div (kerNum Q K V r c) (kerDen Q K r)

def refDot (Q : ρ → κ → EReal) (K : ι → κ → EReal) (r : ρ) (J : ι) : EReal :=
  ∑ k, Q r k * K J k

def refScore (Q : ρ → κ → EReal) (K : ι → κ → EReal) (r : ρ) (J : ι) : EReal :=
  Ideal.div (refDot Q K r J) (Ideal.sqrt (Ideal.ofBits .f32 0x42800000#32))

def refMax (Q : ρ → κ → EReal) (K : ι → κ → EReal) (r : ρ) : EReal :=
  (Finset.univ : Finset ι).fold max ⊥ (fun J => refScore Q K r J)

def refW (Q : ρ → κ → EReal) (K : ι → κ → EReal) (r : ρ) (J : ι) : EReal :=
  Ideal.exp (refScore Q K r J - refMax Q K r)

def refZ (Q : ρ → κ → EReal) (K : ι → κ → EReal) (r : ρ) : EReal :=
  0 + ∑ J, refW Q K r J

def refOut (Q : ρ → κ → EReal) (K : ι → κ → EReal) (V : ι → γ → EReal) (r : ρ) (c : γ) : EReal :=
  ∑ J, Ideal.div (refW Q K r J) (refZ Q K r) * V J c

end Defs

theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_coe {α : Type} (s : Finset α) (f : α → ℝ) (hs : s.Nonempty) :
    ∃ m : ℝ, s.fold max (⊥ : EReal) (fun J => (f J : EReal)) = (m : EReal) := by
  classical
  induction s using Finset.induction_on with
  | empty => exact absurd hs (by simp)
  | insert a s ha ih =>
    rw [Finset.fold_insert ha]
    rcases s.eq_empty_or_nonempty with rfl | hne
    · exact ⟨f a, by simp⟩
    · obtain ⟨m, hm⟩ := ih hne
      exact ⟨max (f a) m, by rw [hm]; exact (EReal.coe_strictMono.monotone.map_max).symm⟩

theorem real_softmax {ι : Type} [Fintype ι] [Nonempty ι] (b v : ι → ℝ) (m : ℝ) :
    (∑ J, Real.exp (b J) * v J) * (1 / ∑ J, Real.exp (b J) * 1)
      = ∑ J, Real.exp (b J - m) * (1 / ∑ J', Real.exp (b J' - m)) * v J := by
  have hz : (∑ J, Real.exp (b J - m)) ≠ 0 :=
    (Finset.sum_pos (fun J _ => Real.exp_pos _) Finset.univ_nonempty).ne'
  have hm : Real.exp m ≠ 0 := Real.exp_ne_zero m
  have hE : ∀ J, Real.exp (b J) = Real.exp (b J - m) * Real.exp m := by
    intro J; rw [Real.exp_sub, div_mul_cancel₀ _ hm]
  have h1 : (∑ J, Real.exp (b J) * v J) = Real.exp m * ∑ J, Real.exp (b J - m) * v J := by
    rw [Finset.mul_sum]; exact Finset.sum_congr rfl (fun J _ => by rw [hE J]; ring)
  have h2 : (∑ J, Real.exp (b J) * 1) = Real.exp m * ∑ J, Real.exp (b J - m) := by
    rw [Finset.mul_sum]; exact Finset.sum_congr rfl (fun J _ => by rw [hE J]; ring)
  have h3 : (∑ J, Real.exp (b J - m) * (1 / ∑ J', Real.exp (b J' - m)) * v J)
      = (∑ J, Real.exp (b J - m) * v J) * (1 / ∑ J', Real.exp (b J' - m)) := by
    rw [Finset.sum_mul]; exact Finset.sum_congr rfl (fun J _ => by ring)
  rw [h1, h2, h3]
  field_simp

section Main

variable {ρ ι κ γ : Type} [Fintype ι] [Fintype κ] [Nonempty ι]

-- For real inputs exp(s − M) = exp(s)·exp(−M) with M the finite row maximum, and the positive factor exp(−M) cancels between numerator and denominator.
theorem ker_eq_ref_gen (Q : ρ → κ → EReal) (K : ι → κ → EReal) (V : ι → γ → EReal)
    (hQ : ∀ r k, ∃ x : ℝ, Q r k = (x : EReal)) (hK : ∀ J k, ∃ x : ℝ, K J k = (x : EReal))
    (hV : ∀ J c, ∃ x : ℝ, V J c = (x : EReal)) (r : ρ) (c : γ) :
    kerOut Q K V r c = refOut Q K V r c := by
  choose q hq using hQ
  choose kk hk using hK
  choose vv hv using hV

  have hkerScore : ∀ J, kerScore Q K r J = ((∑ k, (q r k * (1 / 8)) * kk J k : ℝ) : EReal) := by
    intro J
    simp only [kerScore, scale_eq, hq, hk]
    rw [coe_sum]
    exact Finset.sum_congr rfl (fun k _ => by rw [EReal.coe_mul, EReal.coe_mul])
  have hrefScore : ∀ J, refScore Q K r J = ((∑ k, (q r k * (1 / 8)) * kk J k : ℝ) : EReal) := by
    intro J
    simp only [refScore, refDot, sqrt_dModel, hq, hk]
    rw [Ideal.div_coe (by norm_num : (8 : ℝ) ≠ 0)]
    have e : (∑ k, (q r k : EReal) * (kk J k : EReal)) = ((∑ k, q r k * kk J k : ℝ) : EReal) := by
      rw [coe_sum]; exact Finset.sum_congr rfl (fun k _ => by rw [EReal.coe_mul])
    rw [e, ← EReal.coe_mul]
    congr 1
    rw [Finset.sum_mul]; exact Finset.sum_congr rfl (fun k _ => by ring)
  generalize hb : (fun J => (∑ k, (q r k * (1 / 8)) * kk J k : ℝ)) = b at *
  have hkerScore' : ∀ J, kerScore Q K r J = (b J : EReal) := fun J => by rw [hkerScore J, ← hb]
  have hrefScore' : ∀ J, refScore Q K r J = (b J : EReal) := fun J => by rw [hrefScore J, ← hb]

  obtain ⟨m, hm⟩ : ∃ m : ℝ, refMax Q K r = (m : EReal) := by
    unfold refMax
    rw [show (fun J => refScore Q K r J) = fun J => (b J : EReal) from funext hrefScore']
    exact fold_max_coe _ _ Finset.univ_nonempty
  have hE : ∀ J, kerE Q K r J = (Real.exp (b J) : EReal) := by
    intro J; rw [kerE, hkerScore' J, Ideal.exp_coe]
  have hW : ∀ J, refW Q K r J = (Real.exp (b J - m) : EReal) := by
    intro J; rw [refW, hrefScore' J, hm, ← EReal.coe_sub, Ideal.exp_coe]
  have hZ : refZ Q K r = ((∑ J, Real.exp (b J - m) : ℝ) : EReal) := by
    rw [refZ, zero_add, coe_sum]; exact Finset.sum_congr rfl (fun J _ => hW J)
  have hNum : kerNum Q K V r c = ((∑ J, Real.exp (b J) * vv J c : ℝ) : EReal) := by
    rw [kerNum, coe_sum]
    exact Finset.sum_congr rfl (fun J _ => by rw [hE J, hv J c, EReal.coe_mul])
  have hDen : kerDen Q K r = ((∑ J, Real.exp (b J) * 1 : ℝ) : EReal) := by
    rw [kerDen, coe_sum]
    exact Finset.sum_congr rfl (fun J _ => by rw [hE J, EReal.coe_mul, EReal.coe_one])
  have hden0 : (∑ J, Real.exp (b J) * 1 : ℝ) ≠ 0 := by
    refine (Finset.sum_pos (fun J _ => ?_) Finset.univ_nonempty).ne'
    rw [mul_one]; exact Real.exp_pos _
  have hz0 : (∑ J, Real.exp (b J - m) : ℝ) ≠ 0 :=
    (Finset.sum_pos (fun J _ => Real.exp_pos _) Finset.univ_nonempty).ne'
  rw [kerOut, hNum, hDen, Ideal.div_coe hden0, ← EReal.coe_mul,
    real_softmax b (fun J => vv J c) m, coe_sum, refOut]
  refine Finset.sum_congr rfl (fun J _ => ?_)
  rw [hW J, hZ, Ideal.div_coe hz0, hv J c, EReal.coe_mul, EReal.coe_mul]

end Main

theorem ker_eq_ref (Q K V : Fin 4096 → Fin 64 → EReal)
    (hQ : ∀ r k, ∃ x : ℝ, Q r k = (x : EReal)) (hK : ∀ r k, ∃ x : ℝ, K r k = (x : EReal))
    (hV : ∀ r k, ∃ x : ℝ, V r k = (x : EReal)) (r : Fin 4096) (c : Fin 64) :
    kerOut Q K V r c = refOut Q K V r c :=
  ker_eq_ref_gen Q K V hQ hK hV r c

end Cert.AttnMath

end
-- ==== Proof.RefValue.lean ====
import proofs.«900582_g7700000000000583_dist_ring_attn_i_s256_d64_v7x_i16_f32_1_alg».proof.Defs
import proofs.«900582_g7700000000000583_dist_ring_attn_i_s256_d64_v7x_i16_f32_1_alg».proof.Proof.Gen.ReferenceIdeal
import proofs.«900582_g7700000000000583_dist_ring_attn_i_s256_d64_v7x_i16_f32_1_alg».proof.Proof.Gen.Pre_finite_inputs_ReferenceIdeal
import proofs.«900582_g7700000000000583_dist_ring_attn_i_s256_d64_v7x_i16_f32_1_alg».proof.Proof.Gen.ReferenceIdeal.Read
import proofs.«900582_g7700000000000583_dist_ring_attn_i_s256_d64_v7x_i16_f32_1_alg».proof.Proof.LibRowMax
import proofs.«900582_g7700000000000583_dist_ring_attn_i_s256_d64_v7x_i16_f32_1_alg».proof.Proof.AttnMath

noncomputable section

namespace Cert.RefValue

open Idealize.ShloMosaic Idealize.ShloMosaic.ValueIdx Idealize.SL.Sem

abbrev Arr : Type := (⟨2, ![4096, 64]⟩ : Shape).Idx → EReal

def refArr (Q K V : Arr) : Arr := Cert.ReferenceIdeal.Read.val_main_v15 (F := Ideal) Q K V

theorem frame_ri : Cert.frame_ReferenceIdeal :=
  fun m ρ _ => (θ_run Cert.ReferenceIdeal.defs _ _).mono (fun _ h c => (h c).2)
    (Cert.ReferenceIdeal.Value.run (F := Ideal) m ρ)

theorem run_ri (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v15) = refArr (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)) :=
  (θ_run Cert.ReferenceIdeal.defs _ _).mono
    (fun _ h => ⟨(h 0).1.trans (Cert.ReferenceIdeal.Read.val_main_v15_eq (F := Ideal) _ _ _), (h 0).2⟩)
    (Cert.ReferenceIdeal.Value.run (F := Ideal) m' g')

section Stages

open Cert.ReferenceIdeal Cert.ReferenceIdeal.Read Cert.AttnMath

theorem lidx_score (r J : Fin 4096) (k : Fin 64) : lidx_main_v1 (ix2 r J) k = ix2 r k :=
  funext fun a => Fin.ext (by match a with | ⟨0, _⟩ => rfl | ⟨1, _⟩ => rfl)

theorem ridx_score (r J : Fin 4096) (k : Fin 64) : idx_main_v0 (ridx_main_v1 (ix2 r J) k) = ix2 J k :=
  funext fun a => Fin.ext (by match a with | ⟨0, _⟩ => rfl | ⟨1, _⟩ => rfl)

theorem score_apply (Q K : Arr) (r J : Fin 4096) :
    val_main_v5 (F := Ideal) Q K (ix2 r J) = refScore (fun r k => Q (ix2 r k)) (fun j k => K (ix2 j k)) r J := by
  rw [val_main_v5_apply, val_main_v1_apply, val_main_v4_apply, val_main_v3_apply, val_main_v2_apply, val_main_cst_apply]
  simp only [val_main_v0_apply, lidx_score, ridx_score, Ideal.hostDivf_def, Ideal.hostUnary_sqrt_def, Ideal.ofBits_def]
  rfl

theorem max_apply (Q K : Arr) (r : Fin 4096) :
    val_main_v6 (F := Ideal) Q K (ix1 r) = refMax (fun r k => Q (ix2 r k)) (fun j k => K (ix2 j k)) r := by
  unfold val_main_v6 val_main_cst_0 refMax
  refine (Cert.LibRowMax.hostReduce_max_row _ _ (by decide) _ r).trans ?_
  exact congrArg (fun f => Finset.fold max (⊥ : EReal) f (Finset.univ : Finset (Fin 4096)))
    (funext fun J => score_apply Q K r J)

theorem idx_max (r J : Fin 4096) : idx_main_v7 (idx_main_v8 (ix2 r J)) = ix1 r :=
  funext fun a => Fin.ext (by match a with | ⟨0, _⟩ => rfl)

theorem weight_apply (Q K : Arr) (r J : Fin 4096) :
    val_main_v10 (F := Ideal) Q K (ix2 r J) = refW (fun r k => Q (ix2 r k)) (fun j k => K (ix2 j k)) r J := by
  rw [val_main_v10_apply, val_main_v9_apply, val_main_v8_apply, val_main_v7_apply, idx_max, score_apply, max_apply]
  rfl

theorem idx_sum (r k : Fin 4096) : idx_main_v11 (ix1 r) k = ix2 r k :=
  funext fun a => Fin.ext (by match a with | ⟨0, _⟩ => rfl | ⟨1, _⟩ => rfl)

theorem norm_apply (Q K : Arr) (r : Fin 4096) :
    val_main_v11 (F := Ideal) Q K (ix1 r) = refZ (fun r k => Q (ix2 r k)) (fun j k => K (ix2 j k)) r := by
  rw [val_main_v11_apply, val_main_cst_1_apply]
  simp only [idx_sum, weight_apply, Ideal.ofBits_def, Ideal.ofBits_zero_f32]
  rfl

theorem idx_norm (r J : Fin 4096) : idx_main_v12 (idx_main_v13 (ix2 r J)) = ix1 r :=
  funext fun a => Fin.ext (by match a with | ⟨0, _⟩ => rfl)

theorem prob_apply (Q K : Arr) (r J : Fin 4096) :
    val_main_v14 (F := Ideal) Q K (ix2 r J) = Ideal.div (refW (fun r k => Q (ix2 r k)) (fun j k => K (ix2 j k)) r J) (refZ (fun r k => Q (ix2 r k)) (fun j k => K (ix2 j k)) r) := by
  rw [val_main_v14_apply, val_main_v13_apply, val_main_v12_apply, idx_norm, weight_apply, norm_apply]
  rfl

theorem lidx_out (r : Fin 4096) (c : Fin 64) (k : Fin 4096) : lidx_main_v15 (ix2 r c) k = ix2 r k :=
  funext fun a => Fin.ext (by match a with | ⟨0, _⟩ => rfl | ⟨1, _⟩ => rfl)

theorem ridx_out (r : Fin 4096) (c : Fin 64) (k : Fin 4096) : ridx_main_v15 (ix2 r c) k = ix2 k c :=
  funext fun a => Fin.ext (by match a with | ⟨0, _⟩ => rfl | ⟨1, _⟩ => rfl)

theorem refArr_apply (Q K V : Arr) (r : Fin 4096) (c : Fin 64) :
    refArr Q K V (ix2 r c) = refOut (fun r k => Q (ix2 r k)) (fun j k => K (ix2 j k)) (fun j c => V (ix2 j c)) r c := by
  unfold refArr
  rw [val_main_v15_apply]
  simp only [lidx_out, ridx_out, prob_apply]
  rfl

end Stages

end Cert.RefValue

end
-- ==== Proof.Mesh.lean ====
import proofs.«900582_g7700000000000583_dist_ring_attn_i_s256_d64_v7x_i16_f32_1_alg».proof.Proof.Gen.KernelIdeal

set_option synthInstance.maxSize 4096
set_option Elab.async false

namespace Cert.KernelIdeal.Mesh

open Idealize.ShloMosaic Idealize.SL.Sem
open Cert.KernelIdeal Cert.KernelIdeal.Gen

def zOf (c : Dev nD) : Nat := c.val / 4

-- Device c sits in plane z = c / 4 at position s = c % 4: a column peer keeps s and moves z cyclically, a plane peer keeps z and moves s.
def colPeer (c : Dev nD) (dz : Fin 4) : Dev nD :=
  ⟨((c.val / 4 + dz.val) % 4) * 4 + c.val % 4, by show _ < 16; omega⟩

def planePeer (c : Dev nD) (ds : Fin 4) : Dev nD :=
  ⟨(c.val / 4) * 4 + (c.val % 4 + ds.val) % 4, by have h : c.val < 16 := c.isLt; show _ < 16; omega⟩

theorem zOf_lt (c : Dev nD) : zOf c < 4 := by have h : c.val < 16 := c.isLt; unfold zOf; omega
theorem zOf_colPeer (c : Dev nD) (dz : Fin 4) : zOf (colPeer c dz) = (zOf c + dz.val) % 4 := by
  revert c dz; decide
theorem zOf_planePeer (c : Dev nD) (ds : Fin 4) : zOf (planePeer c ds) = zOf c := by
  revert c ds; decide
theorem colPeer_zero (c : Dev nD) : colPeer c 0 = c := by revert c; decide
theorem planePeer_zero (c : Dev nD) : planePeer c 0 = c := by revert c; decide

theorem colPeer_colPeer (c : Dev nD) (a b : Fin 4) (h : (a.val + b.val) % 4 = 0) :
    colPeer (colPeer c a) b = c := by revert c a b; decide

theorem planePeer_planePeer (c : Dev nD) (a b : Fin 4) (h : (a.val + b.val) % 4 = 0) :
    planePeer (planePeer c a) b = c := by revert c a b; decide

theorem planePeer_inj_right (c : Dev nD) (a b : Fin 4) : planePeer c a = planePeer c b ↔ a = b := by
  revert c a b; decide

theorem k0_dev1_val : ∀ c : Dev nD, k0_dev1 c = (colPeer c 1).val := by decide +kernel

theorem k0_dev1_eq (c : Dev nD) (h : k0_dev1 c < nD) : (⟨k0_dev1 c, h⟩ : Dev nD) = colPeer c 1 :=
  Fin.ext (k0_dev1_val c)
theorem k0_dev2_val : ∀ c : Dev nD, k0_dev2 c = (colPeer c 2).val := by decide +kernel

theorem k0_dev2_eq (c : Dev nD) (h : k0_dev2 c < nD) : (⟨k0_dev2 c, h⟩ : Dev nD) = colPeer c 2 :=
  Fin.ext (k0_dev2_val c)
theorem k0_dev3_val : ∀ c : Dev nD, k0_dev3 c = (colPeer c 3).val := by decide +kernel

theorem k0_dev3_eq (c : Dev nD) (h : k0_dev3 c < nD) : (⟨k0_dev3 c, h⟩ : Dev nD) = colPeer c 3 :=
  Fin.ext (k0_dev3_val c)
theorem k0_dev4_val : ∀ c : Dev nD, k0_dev4 c = (planePeer c 1).val := by decide +kernel

theorem k0_dev4_eq (c : Dev nD) (h : k0_dev4 c < nD) : (⟨k0_dev4 c, h⟩ : Dev nD) = planePeer c 1 :=
  Fin.ext (k0_dev4_val c)
theorem k0_dev5_val : ∀ c : Dev nD, k0_dev5 c = (planePeer c 2).val := by decide +kernel

theorem k0_dev5_eq (c : Dev nD) (h : k0_dev5 c < nD) : (⟨k0_dev5 c, h⟩ : Dev nD) = planePeer c 2 :=
  Fin.ext (k0_dev5_val c)
theorem k0_dev6_val : ∀ c : Dev nD, k0_dev6 c = (planePeer c 3).val := by decide +kernel

theorem k0_dev6_eq (c : Dev nD) (h : k0_dev6 c < nD) : (⟨k0_dev6 c, h⟩ : Dev nD) = planePeer c 3 :=
  Fin.ext (k0_dev6_val c)
theorem k0_dev7_val : ∀ c : Dev nD, k0_dev7 c = (planePeer c 2).val := by decide +kernel

theorem k0_dev7_eq (c : Dev nD) (h : k0_dev7 c < nD) : (⟨k0_dev7 c, h⟩ : Dev nD) = planePeer c 2 :=
  Fin.ext (k0_dev7_val c)
theorem k0_dev8_val : ∀ c : Dev nD, k0_dev8 c = (planePeer c 1).val := by decide +kernel

theorem k0_dev8_eq (c : Dev nD) (h : k0_dev8 c < nD) : (⟨k0_dev8 c, h⟩ : Dev nD) = planePeer c 1 :=
  Fin.ext (k0_dev8_val c)
theorem k0_dev9_val : ∀ c : Dev nD, k0_dev9 c = (planePeer c 3).val := by decide +kernel

theorem k0_dev9_eq (c : Dev nD) (h : k0_dev9 c < nD) : (⟨k0_dev9 c, h⟩ : Dev nD) = planePeer c 3 :=
  Fin.ext (k0_dev9_val c)
theorem k0_dev10_val : ∀ c : Dev nD, k0_dev10 c = (colPeer c 1).val := by decide +kernel

theorem k0_dev10_eq (c : Dev nD) (h : k0_dev10 c < nD) : (⟨k0_dev10 c, h⟩ : Dev nD) = colPeer c 1 :=
  Fin.ext (k0_dev10_val c)
theorem k0_dev11_val : ∀ c : Dev nD, k0_dev11 c = (colPeer c 2).val := by decide +kernel

theorem k0_dev11_eq (c : Dev nD) (h : k0_dev11 c < nD) : (⟨k0_dev11 c, h⟩ : Dev nD) = colPeer c 2 :=
  Fin.ext (k0_dev11_val c)
theorem k0_dev12_val : ∀ c : Dev nD, k0_dev12 c = (colPeer c 3).val := by decide +kernel

theorem k0_dev12_eq (c : Dev nD) (h : k0_dev12 c < nD) : (⟨k0_dev12 c, h⟩ : Dev nD) = colPeer c 3 :=
  Fin.ext (k0_dev12_val c)
theorem k0_dev13_val : ∀ c : Dev nD, k0_dev13 c = (colPeer c 1).val := by decide +kernel

theorem k0_dev13_eq (c : Dev nD) (h : k0_dev13 c < nD) : (⟨k0_dev13 c, h⟩ : Dev nD) = colPeer c 1 :=
  Fin.ext (k0_dev13_val c)
theorem k0_dev14_val : ∀ c : Dev nD, k0_dev14 c = (colPeer c 2).val := by decide +kernel

theorem k0_dev14_eq (c : Dev nD) (h : k0_dev14 c < nD) : (⟨k0_dev14 c, h⟩ : Dev nD) = colPeer c 2 :=
  Fin.ext (k0_dev14_val c)
theorem k0_dev15_val : ∀ c : Dev nD, k0_dev15 c = (colPeer c 3).val := by decide +kernel

theorem k0_dev15_eq (c : Dev nD) (h : k0_dev15 c < nD) : (⟨k0_dev15 c, h⟩ : Dev nD) = colPeer c 3 :=
  Fin.ext (k0_dev15_val c)

theorem k0_off1_eq : ∀ d0 : Dev nD, k0_off1 d0 = ![(d0.val / 4), 0, 0] := by decide +kernel
instance closedOff_k0_off1 (d0 : Dev nD) : ClosedOff (k0_off1 d0) := ⟨![(d0.val / 4), 0, 0], k0_off1_eq d0⟩
theorem k0_off8_eq : ∀ d0 : Dev nD, k0_off8 d0 = ![(d0.val / 4)] := by decide +kernel
instance closedOff_k0_off8 (d0 : Dev nD) : ClosedOff (k0_off8 d0) := ⟨![(d0.val / 4)], k0_off8_eq d0⟩
theorem k0_off9_eq : ∀ d0 : Dev nD, k0_off9 d0 = ![(d0.val / 4), 0, 0] := by decide +kernel
instance closedOff_k0_off9 (d0 : Dev nD) : ClosedOff (k0_off9 d0) := ⟨![(d0.val / 4), 0, 0], k0_off9_eq d0⟩
theorem k0_off21_eq : ∀ d0 : Dev nD, k0_off21 d0 = ![(d0.val / 4), 0, 0] := by decide +kernel
instance closedOff_k0_off21 (d0 : Dev nD) : ClosedOff (k0_off21 d0) := ⟨![(d0.val / 4), 0, 0], k0_off21_eq d0⟩

theorem k0_off10_eq : ∀ d0 : Dev nD, ∀ (r : Fin 3), k0_off10 d0 (BitVec.ofNat 32 (1 + r.val)) = ![(((d0.val / 4) + r.val + 1) % 4)] := by decide +kernel
instance closedOff_k0_off10_0 (d0 : Dev nD) : ClosedOff (k0_off10 d0 (BitVec.ofNat 32 1)) := ⟨![(((d0.val / 4) + 0 + 1) % 4)], k0_off10_eq d0 ⟨0, by decide⟩⟩
instance closedOff_k0_off10_1 (d0 : Dev nD) : ClosedOff (k0_off10 d0 (BitVec.ofNat 32 2)) := ⟨![(((d0.val / 4) + 1 + 1) % 4)], k0_off10_eq d0 ⟨1, by decide⟩⟩
instance closedOff_k0_off10_2 (d0 : Dev nD) : ClosedOff (k0_off10 d0 (BitVec.ofNat 32 3)) := ⟨![(((d0.val / 4) + 2 + 1) % 4)], k0_off10_eq d0 ⟨2, by decide⟩⟩
theorem k0_off11_eq : ∀ d0 : Dev nD, ∀ (r : Fin 3), k0_off11 d0 (BitVec.ofNat 32 (1 + r.val)) = ![(((d0.val / 4) + r.val + 1) % 4), 0, 0] := by decide +kernel
instance closedOff_k0_off11_0 (d0 : Dev nD) : ClosedOff (k0_off11 d0 (BitVec.ofNat 32 1)) := ⟨![(((d0.val / 4) + 0 + 1) % 4), 0, 0], k0_off11_eq d0 ⟨0, by decide⟩⟩
instance closedOff_k0_off11_1 (d0 : Dev nD) : ClosedOff (k0_off11 d0 (BitVec.ofNat 32 2)) := ⟨![(((d0.val / 4) + 1 + 1) % 4), 0, 0], k0_off11_eq d0 ⟨1, by decide⟩⟩
instance closedOff_k0_off11_2 (d0 : Dev nD) : ClosedOff (k0_off11 d0 (BitVec.ofNat 32 3)) := ⟨![(((d0.val / 4) + 2 + 1) % 4), 0, 0], k0_off11_eq d0 ⟨2, by decide⟩⟩
theorem k0_off12_eq : ∀ d0 : Dev nD, ∀ (r : Fin 4), k0_off12 d0 (BitVec.ofNat 32 (r.val)) = ![(((d0.val / 4) + r.val) % 4), 0, 0] := by decide +kernel
instance closedOff_k0_off12_0 (d0 : Dev nD) : ClosedOff (k0_off12 d0 (BitVec.ofNat 32 0)) := ⟨![(((d0.val / 4) + 0) % 4), 0, 0], k0_off12_eq d0 ⟨0, by decide⟩⟩
instance closedOff_k0_off12_1 (d0 : Dev nD) : ClosedOff (k0_off12 d0 (BitVec.ofNat 32 1)) := ⟨![(((d0.val / 4) + 1) % 4), 0, 0], k0_off12_eq d0 ⟨1, by decide⟩⟩
instance closedOff_k0_off12_2 (d0 : Dev nD) : ClosedOff (k0_off12 d0 (BitVec.ofNat 32 2)) := ⟨![(((d0.val / 4) + 2) % 4), 0, 0], k0_off12_eq d0 ⟨2, by decide⟩⟩
instance closedOff_k0_off12_3 (d0 : Dev nD) : ClosedOff (k0_off12 d0 (BitVec.ofNat 32 3)) := ⟨![(((d0.val / 4) + 3) % 4), 0, 0], k0_off12_eq d0 ⟨3, by decide⟩⟩
theorem k0_off22_eq : ∀ d0 : Dev nD, ∀ (r : Fin 3), k0_off22 d0 (BitVec.ofNat 32 (1 + r.val)) = ![(((d0.val / 4) + r.val + 1) % 4), 0, 0] := by decide +kernel
instance closedOff_k0_off22_0 (d0 : Dev nD) : ClosedOff (k0_off22 d0 (BitVec.ofNat 32 1)) := ⟨![(((d0.val / 4) + 0 + 1) % 4), 0, 0], k0_off22_eq d0 ⟨0, by decide⟩⟩
instance closedOff_k0_off22_1 (d0 : Dev nD) : ClosedOff (k0_off22 d0 (BitVec.ofNat 32 2)) := ⟨![(((d0.val / 4) + 1 + 1) % 4), 0, 0], k0_off22_eq d0 ⟨1, by decide⟩⟩
instance closedOff_k0_off22_2 (d0 : Dev nD) : ClosedOff (k0_off22 d0 (BitVec.ofNat 32 3)) := ⟨![(((d0.val / 4) + 2 + 1) % 4), 0, 0], k0_off22_eq d0 ⟨2, by decide⟩⟩
theorem k0_off23_eq : ∀ d0 : Dev nD, ∀ (r : Fin 3), k0_off23 d0 (BitVec.ofNat 32 (1 + r.val)) = ![(((d0.val / 4) + r.val + 1) % 4), 0, 0] := by decide +kernel
instance closedOff_k0_off23_0 (d0 : Dev nD) : ClosedOff (k0_off23 d0 (BitVec.ofNat 32 1)) := ⟨![(((d0.val / 4) + 0 + 1) % 4), 0, 0], k0_off23_eq d0 ⟨0, by decide⟩⟩
instance closedOff_k0_off23_1 (d0 : Dev nD) : ClosedOff (k0_off23 d0 (BitVec.ofNat 32 2)) := ⟨![(((d0.val / 4) + 1 + 1) % 4), 0, 0], k0_off23_eq d0 ⟨1, by decide⟩⟩
instance closedOff_k0_off23_2 (d0 : Dev nD) : ClosedOff (k0_off23 d0 (BitVec.ofNat 32 3)) := ⟨![(((d0.val / 4) + 2 + 1) % 4), 0, 0], k0_off23_eq d0 ⟨2, by decide⟩⟩

abbrev dsem (n : Nat) (h : n < 25) : DmaSem sig := ⟨n, h⟩

theorem cc0_scratch5_sem_0_aux :
    ((cc0_scratch5.slice (Rect.unit (s := S3) ![0] S1.size inb_S3_S1_0)).squeeze S_ squeezes_S1_S_).sem = dsem 4 (by decide) := by
  decide +kernel

theorem cc0_scratch5_sem_0 (hi : ∀ a, (![0] : Fin 1 → Nat) a + S1.size a ≤ S3.size a) (hs : S1.Squeezes S_) :
    ((cc0_scratch5.slice (Rect.unit (s := S3) ![0] S1.size hi)).squeeze S_ hs).sem = dsem 4 (by decide) :=
  cc0_scratch5_sem_0_aux
theorem cc0_scratch5_sem_1_aux :
    ((cc0_scratch5.slice (Rect.unit (s := S3) ![1] S1.size inb_S3_S1_1)).squeeze S_ squeezes_S1_S_).sem = dsem 5 (by decide) := by
  decide +kernel

theorem cc0_scratch5_sem_1 (hi : ∀ a, (![1] : Fin 1 → Nat) a + S1.size a ≤ S3.size a) (hs : S1.Squeezes S_) :
    ((cc0_scratch5.slice (Rect.unit (s := S3) ![1] S1.size hi)).squeeze S_ hs).sem = dsem 5 (by decide) :=
  cc0_scratch5_sem_1_aux
theorem cc0_scratch5_sem_2_aux :
    ((cc0_scratch5.slice (Rect.unit (s := S3) ![2] S1.size inb_S3_S1_2)).squeeze S_ squeezes_S1_S_).sem = dsem 6 (by decide) := by
  decide +kernel

theorem cc0_scratch5_sem_2 (hi : ∀ a, (![2] : Fin 1 → Nat) a + S1.size a ≤ S3.size a) (hs : S1.Squeezes S_) :
    ((cc0_scratch5.slice (Rect.unit (s := S3) ![2] S1.size hi)).squeeze S_ hs).sem = dsem 6 (by decide) :=
  cc0_scratch5_sem_2_aux
theorem cc0_scratch7_sem_0_aux :
    ((cc0_scratch7.slice (Rect.unit (s := S3) ![0] S1.size inb_S3_S1_0)).squeeze S_ squeezes_S1_S_).sem = dsem 11 (by decide) := by
  decide +kernel

theorem cc0_scratch7_sem_0 (hi : ∀ a, (![0] : Fin 1 → Nat) a + S1.size a ≤ S3.size a) (hs : S1.Squeezes S_) :
    ((cc0_scratch7.slice (Rect.unit (s := S3) ![0] S1.size hi)).squeeze S_ hs).sem = dsem 11 (by decide) :=
  cc0_scratch7_sem_0_aux
theorem cc0_scratch7_sem_1_aux :
    ((cc0_scratch7.slice (Rect.unit (s := S3) ![1] S1.size inb_S3_S1_1)).squeeze S_ squeezes_S1_S_).sem = dsem 12 (by decide) := by
  decide +kernel

theorem cc0_scratch7_sem_1 (hi : ∀ a, (![1] : Fin 1 → Nat) a + S1.size a ≤ S3.size a) (hs : S1.Squeezes S_) :
    ((cc0_scratch7.slice (Rect.unit (s := S3) ![1] S1.size hi)).squeeze S_ hs).sem = dsem 12 (by decide) :=
  cc0_scratch7_sem_1_aux
theorem cc0_scratch7_sem_2_aux :
    ((cc0_scratch7.slice (Rect.unit (s := S3) ![2] S1.size inb_S3_S1_2)).squeeze S_ squeezes_S1_S_).sem = dsem 13 (by decide) := by
  decide +kernel

theorem cc0_scratch7_sem_2 (hi : ∀ a, (![2] : Fin 1 → Nat) a + S1.size a ≤ S3.size a) (hs : S1.Squeezes S_) :
    ((cc0_scratch7.slice (Rect.unit (s := S3) ![2] S1.size hi)).squeeze S_ hs).sem = dsem 13 (by decide) :=
  cc0_scratch7_sem_2_aux
theorem cc0_scratch9_sem_0_aux :
    ((cc0_scratch9.slice (Rect.unit (s := S3) ![0] S1.size inb_S3_S1_0)).squeeze S_ squeezes_S1_S_).sem = dsem 18 (by decide) := by
  decide +kernel

theorem cc0_scratch9_sem_0 (hi : ∀ a, (![0] : Fin 1 → Nat) a + S1.size a ≤ S3.size a) (hs : S1.Squeezes S_) :
    ((cc0_scratch9.slice (Rect.unit (s := S3) ![0] S1.size hi)).squeeze S_ hs).sem = dsem 18 (by decide) :=
  cc0_scratch9_sem_0_aux
theorem cc0_scratch9_sem_1_aux :
    ((cc0_scratch9.slice (Rect.unit (s := S3) ![1] S1.size inb_S3_S1_1)).squeeze S_ squeezes_S1_S_).sem = dsem 19 (by decide) := by
  decide +kernel

theorem cc0_scratch9_sem_1 (hi : ∀ a, (![1] : Fin 1 → Nat) a + S1.size a ≤ S3.size a) (hs : S1.Squeezes S_) :
    ((cc0_scratch9.slice (Rect.unit (s := S3) ![1] S1.size hi)).squeeze S_ hs).sem = dsem 19 (by decide) :=
  cc0_scratch9_sem_1_aux
theorem cc0_scratch9_sem_2_aux :
    ((cc0_scratch9.slice (Rect.unit (s := S3) ![2] S1.size inb_S3_S1_2)).squeeze S_ squeezes_S1_S_).sem = dsem 20 (by decide) := by
  decide +kernel

theorem cc0_scratch9_sem_2 (hi : ∀ a, (![2] : Fin 1 → Nat) a + S1.size a ≤ S3.size a) (hs : S1.Squeezes S_) :
    ((cc0_scratch9.slice (Rect.unit (s := S3) ![2] S1.size hi)).squeeze S_ hs).sem = dsem 20 (by decide) :=
  cc0_scratch9_sem_2_aux
theorem cc0_scratch6_sem_own_aux : ∀ d0 : Dev nD,
    ((cc0_scratch6.slice (Rect.unit (s := S4) (k0_off8 d0) S1.size (k0_off8_inb d0))).squeeze S_ squeezes_S1_S_).sem
      = dsem (7 + d0.val / 4) (by have h : d0.val < 16 := d0.isLt; omega) := by
  decide +kernel

theorem cc0_scratch6_sem_own (d0 : Dev nD) (hi : ∀ a, (k0_off8 d0) a + S1.size a ≤ S4.size a) (hs : S1.Squeezes S_) :
    ((cc0_scratch6.slice (Rect.unit (s := S4) (k0_off8 d0) S1.size hi)).squeeze S_ hs).sem
      = dsem (7 + d0.val / 4) (by have h : d0.val < 16 := d0.isLt; omega) :=
  cc0_scratch6_sem_own_aux d0
theorem cc0_scratch8_sem_own_aux : ∀ d0 : Dev nD,
    ((cc0_scratch8.slice (Rect.unit (s := S4) (k0_off6 d0) S1.size (k0_off6_inb d0))).squeeze S_ squeezes_S1_S_).sem
      = dsem (14 + d0.val % 4) (by have h : d0.val < 16 := d0.isLt; omega) := by
  decide +kernel

theorem cc0_scratch8_sem_own (d0 : Dev nD) (hi : ∀ a, (k0_off6 d0) a + S1.size a ≤ S4.size a) (hs : S1.Squeezes S_) :
    ((cc0_scratch8.slice (Rect.unit (s := S4) (k0_off6 d0) S1.size hi)).squeeze S_ hs).sem
      = dsem (14 + d0.val % 4) (by have h : d0.val < 16 := d0.isLt; omega) :=
  cc0_scratch8_sem_own_aux d0
theorem cc0_scratch10_sem_own_aux : ∀ d0 : Dev nD,
    ((cc0_scratch10.slice (Rect.unit (s := S4) (k0_off8 d0) S1.size (k0_off8_inb d0))).squeeze S_ squeezes_S1_S_).sem
      = dsem (21 + d0.val / 4) (by have h : d0.val < 16 := d0.isLt; omega) := by
  decide +kernel

theorem cc0_scratch10_sem_own (d0 : Dev nD) (hi : ∀ a, (k0_off8 d0) a + S1.size a ≤ S4.size a) (hs : S1.Squeezes S_) :
    ((cc0_scratch10.slice (Rect.unit (s := S4) (k0_off8 d0) S1.size hi)).squeeze S_ hs).sem
      = dsem (21 + d0.val / 4) (by have h : d0.val < 16 := d0.isLt; omega) :=
  cc0_scratch10_sem_own_aux d0
theorem cc0_scratch6_sem_wait_aux : ∀ d0 : Dev nD, ∀ r : Fin 3,
    ((cc0_scratch6.slice (Rect.unit (s := S4) (k0_off10 d0 (BitVec.ofNat 32 (1 + r.val))) S1.size (k0_off10_inb d0 r))).squeeze S_ squeezes_S1_S_).sem
      = dsem (7 + (d0.val / 4 + r.val + 1) % 4) (by omega) := by
  decide +kernel

theorem cc0_scratch6_sem_wait (d0 : Dev nD) (r : Fin 3)
    (hi : ∀ a, (k0_off10 d0 (BitVec.ofNat 32 (1 + r.val))) a + S1.size a ≤ S4.size a) (hs : S1.Squeezes S_) :
    ((cc0_scratch6.slice (Rect.unit (s := S4) (k0_off10 d0 (BitVec.ofNat 32 (1 + r.val))) S1.size hi)).squeeze S_ hs).sem
      = dsem (7 + (d0.val / 4 + r.val + 1) % 4) (by omega) :=
  cc0_scratch6_sem_wait_aux d0 r
theorem cc0_scratch8_sem_wait_aux : ∀ d0 : Dev nD, ∀ r : Fin 3,
    ((cc0_scratch8.slice (Rect.unit (s := S4) (k0_off14 d0 (BitVec.ofNat 32 (1 + r.val))) S1.size (k0_off14_inb d0 r))).squeeze S_ squeezes_S1_S_).sem
      = dsem (14 + (d0.val % 4 + r.val + 1) % 4) (by omega) := by
  decide +kernel

theorem cc0_scratch8_sem_wait (d0 : Dev nD) (r : Fin 3)
    (hi : ∀ a, (k0_off14 d0 (BitVec.ofNat 32 (1 + r.val))) a + S1.size a ≤ S4.size a) (hs : S1.Squeezes S_) :
    ((cc0_scratch8.slice (Rect.unit (s := S4) (k0_off14 d0 (BitVec.ofNat 32 (1 + r.val))) S1.size hi)).squeeze S_ hs).sem
      = dsem (14 + (d0.val % 4 + r.val + 1) % 4) (by omega) :=
  cc0_scratch8_sem_wait_aux d0 r
theorem cc0_scratch10_sem_wait_aux : ∀ d0 : Dev nD, ∀ r : Fin 3,
    ((cc0_scratch10.slice (Rect.unit (s := S4) (k0_off10 d0 (BitVec.ofNat 32 (1 + r.val))) S1.size (k0_off10_inb d0 r))).squeeze S_ squeezes_S1_S_).sem
      = dsem (21 + (d0.val / 4 + r.val + 1) % 4) (by omega) := by
  decide +kernel

theorem cc0_scratch10_sem_wait (d0 : Dev nD) (r : Fin 3)
    (hi : ∀ a, (k0_off10 d0 (BitVec.ofNat 32 (1 + r.val))) a + S1.size a ≤ S4.size a) (hs : S1.Squeezes S_) :
    ((cc0_scratch10.slice (Rect.unit (s := S4) (k0_off10 d0 (BitVec.ofNat 32 (1 + r.val))) S1.size hi)).squeeze S_ hs).sem
      = dsem (21 + (d0.val / 4 + r.val + 1) % 4) (by omega) :=
  cc0_scratch10_sem_wait_aux d0 r

end Cert.KernelIdeal.Mesh
-- ==== Proof.Contents.lean ====
import proofs.«900582_g7700000000000583_dist_ring_attn_i_s256_d64_v7x_i16_f32_1_alg».proof.Proof.Gen.KernelIdeal.Skeleton
import proofs.«900582_g7700000000000583_dist_ring_attn_i_s256_d64_v7x_i16_f32_1_alg».proof.Proof.Gen.KernelIdeal.Launch
import proofs.«900582_g7700000000000583_dist_ring_attn_i_s256_d64_v7x_i16_f32_1_alg».proof.Proof.Mesh
import Idealize.ShloMosaic.Lib.ValueIdx

noncomputable section

namespace Cert.KernelIdeal.Contents

open Cert.KernelIdeal Cert.KernelIdeal.Gen Cert.KernelIdeal.Mesh
open Idealize.ShloMosaic Idealize.ShloMosaic.TcCoe Idealize.SL.Sem

variable {F : FTy → Type} [FloatOps F]
variable (m : (ℓ : Loc nD τ sig) → Buf (Elt F) ℓ)

def X0 (c : Dev nD) : (cc0_stg0_0 : Ref sig .tc).ty.Contents (Elt F) :=
  (win0_0.blk (t0_0)).view.read (Elt F) (m ((c : Thread nD τ).loc main_arg0))
def X1 (c : Dev nD) : (cc0_stg1_0 : Ref sig .tc).ty.Contents (Elt F) :=
  (win0_1.blk (t0_0)).view.read (Elt F) (m ((c : Thread nD τ).loc main_arg1))
def X2 (c : Dev nD) : (cc0_stg2_0 : Ref sig .tc).ty.Contents (Elt F) :=
  (win0_2.blk (t0_0)).view.read (Elt F) (m ((c : Thread nD τ).loc main_arg2))

def TQ (c : Dev nD) : FVec F S1x256x64 .bf16 := k0_pay2 (X0 m c)
def TK (c : Dev nD) : FVec F S1x1x256x64 .bf16 := k0_pay3 (X1 m c)
def TV (c : Dev nD) : FVec F S1x1x256x64 .bf16 := k0_pay4 (X2 m c)

def vpadBlk (tv : FVec F S1x1x256x64 .bf16) : FVec F S1x256x128 .bf16 := fun i =>
  if h : (i 2).val < 64 then (k0_pay7 tv) (ValueIdx.ix3 (0 : Fin 1) (i 1) (⟨(i 2).val, h⟩ : Fin 64))
  else if (i 2).val = 64 then (k0_pay8 (F := F)) (ValueIdx.ix3 (0 : Fin 1) (i 1) (0 : Fin 1))
  else (k0_pay5 (F := F)) (ValueIdx.ix3 (0 : Fin 4) (i 1) (i 2))
def VP (c : Dev nD) : FVec F S1x256x128 .bf16 := vpadBlk (TV m c)

section Dev
variable (c : Dev nD)

def q (dz : Fin 4) : FVec F S1x256x64 .bf16 := TQ m (colPeer c dz)
def k (ds : Fin 4) : FVec F S1x1x256x64 .bf16 := TK m (planePeer c ds)
def vp (ds : Fin 4) : FVec F S1x256x128 .bf16 := VP m (planePeer c ds)

def zeros128 : FVec F S256x128 .f32 := constant S256x128 .f32 0x00000000#32

def A1_0 : FVec F S256x128 .f32 := k0_pay13 (k0_pay10 (F := F)) (q m c 1) (k m c 0) (vp m c 0)
def A2_0 : FVec F S256x128 .f32 := k0_pay14 (k0_pay11 (F := F)) (q m c 2) (k m c 0) (vp m c 0)
def A3_0 : FVec F S256x128 .f32 := k0_pay15 (k0_pay12 (F := F)) (q m c 3) (k m c 0) (vp m c 0)
def A1_1 : FVec F S256x128 .f32 := k0_pay18 (A1_0 m c) (q m c 1) (k m c 1) (vp m c 1)
def A2_1 : FVec F S256x128 .f32 := k0_pay21 (A2_0 m c) (k0_pay19 (q m c 2) (k m c 1)) (k0_pay20 (vp m c 1)) (zeros128 (F := F))
def A3_1 : FVec F S256x128 .f32 := k0_pay22 (A3_0 m c) (q m c 3) (k m c 1) (vp m c 1)
def A1_2 : FVec F S256x128 .f32 := k0_pay26 (A1_1 m c) (q m c 1) (k m c 2) (vp m c 2)
def A2_2 : FVec F S256x128 .f32 := k0_pay28 (A2_1 m c) (k0_pay27 (q m c 2) (k m c 2)) (vp m c 2)
def A3_2 : FVec F S256x128 .f32 := k0_pay29 (A3_1 m c) (q m c 3) (k m c 2) (vp m c 2)

def P1 : FVec F S1x256x128 .bf16 := k0_pay33 (A1_2 m c) (q m c 1) (k m c 3) (vp m c 3)
def P2 : FVec F S1x256x128 .bf16 := k0_pay34 (A2_2 m c) (q m c 2) (k m c 3) (vp m c 3)
def P3 : FVec F S1x256x128 .bf16 := k0_pay35 (A3_2 m c) (q m c 3) (k m c 3) (vp m c 3)

def A0_0 : FVec F S256x128 .f32 := k0_pay36 (k0_pay9 (F := F)) (q m c 0) (k m c 0) (vp m c 0)
def A0_2 : FVec F S256x128 .f32 := k0_pay37 (A0_0 m c) (q m c 0) (k m c 1) (vp m c 1) (q m c 0) (k m c 2) (vp m c 2)
end Dev

def R1 (c : Dev nD) : FVec F S1x256x128 .bf16 := P3 m (colPeer c 1)
def R2 (c : Dev nD) : FVec F S1x256x128 .bf16 := P2 m (colPeer c 2)
def R3 (c : Dev nD) : FVec F S1x256x128 .bf16 := P1 m (colPeer c 3)

def TOT1 (c : Dev nD) : FVec F S256x128 .f32 := k0_pay38 (A0_2 m c) (q m c 0) (k m c 3) (vp m c 3) (R1 m c)
def TOT (c : Dev nD) : FVec F S256x128 .f32 := k0_pay39 (TOT1 m c) (R2 m c) (R3 m c)

def OUT (c : Dev nD) : FVec F S256x64 .f32 := k0_pay1 (TOT m c)

end Cert.KernelIdeal.Contents

end
-- ==== Proof.KerPay.lean ====
import proofs.«900582_g7700000000000583_dist_ring_attn_i_s256_d64_v7x_i16_f32_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerPay

open Cert.KernelIdeal Cert.KernelIdeal.Gen
open Idealize.ShloMosaic Idealize.ShloMosaic.ValueIdx
open scoped BigOperators

section Layout
variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Layout

theorem lhs_qk_0 (i : S256x256.Idx) (q : dot_S256x64_S256x64_S256x256_1_1_0_0_n_n.contr.Idx) :
    (dot_S256x64_S256x64_S256x256_1_1_0_0_n_n.lhsIdx i q 0).val = (i 0).val := by
  unfold DotDims.lhsIdx
  rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
  rfl
theorem lhs_qk_1 (i : S256x256.Idx) (q : dot_S256x64_S256x64_S256x256_1_1_0_0_n_n.contr.Idx) :
    (dot_S256x64_S256x64_S256x256_1_1_0_0_n_n.lhsIdx i q 1).val = (q ⟨0, by decide⟩).val :=
  dot_S256x64_S256x64_S256x256_1_1_0_0_n_n.lhsIdx_val_of_single rfl i q
theorem rhs_qk_0 (i : S256x256.Idx) (q : dot_S256x64_S256x64_S256x256_1_1_0_0_n_n.contr.Idx) :
    (dot_S256x64_S256x64_S256x256_1_1_0_0_n_n.rhsIdx i q 0).val = (i 1).val := by
  unfold DotDims.rhsIdx
  rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
  rfl
theorem rhs_qk_1 (i : S256x256.Idx) (q : dot_S256x64_S256x64_S256x256_1_1_0_0_n_n.contr.Idx) :
    (dot_S256x64_S256x64_S256x256_1_1_0_0_n_n.rhsIdx i q 1).val = (q ⟨0, by decide⟩).val :=
  dot_S256x64_S256x64_S256x256_1_1_0_0_n_n.rhsIdx_val_of_single rfl i q

-- Entry (r, j) of q·kᵀ is the sum over the 64 feature columns.
theorem matmul_qk_apply {φ₁ φ₂ : FTy} (l : FVec Ideal S256x64 φ₁) (r : FVec Ideal S256x64 φ₂) (a b : Fin 256) :
    matmul dot_S256x64_S256x64_S256x256_1_1_0_0_n_n none l r (constant (F := Ideal) S256x256 .f32 0x00000000#32) (ix2 a b)
      = ∑ k : Fin 64, l (ix2 a k) * r (ix2 b k) := by
  show FloatOps.matmul dot_S256x64_S256x64_S256x256_1_1_0_0_n_n none l r (constant (F := Ideal) S256x256 .f32 0x00000000#32) (ix2 a b) = _
  rw [Ideal.matmul_constant_zero_apply, ← Equiv.sum_comp (contrEquiv1 dot_S256x64_S256x64_S256x256_1_1_0_0_n_n 64 rfl rfl).symm]
  refine Finset.sum_congr rfl fun k _ => ?_
  have hk := contrEquiv1_symm_val dot_S256x64_S256x64_S256x256_1_1_0_0_n_n 64 rfl rfl k
  have el : dot_S256x64_S256x64_S256x256_1_1_0_0_n_n.lhsIdx (ix2 a b) ((contrEquiv1 dot_S256x64_S256x64_S256x256_1_1_0_0_n_n 64 rfl rfl).symm k) = ix2 a k := funext fun x => Fin.ext (by
    match x with
    | ⟨0, _⟩ => exact lhs_qk_0 _ _
    | ⟨1, _⟩ => exact (lhs_qk_1 _ _).trans hk)
  have er : dot_S256x64_S256x64_S256x256_1_1_0_0_n_n.rhsIdx (ix2 a b) ((contrEquiv1 dot_S256x64_S256x64_S256x256_1_1_0_0_n_n 64 rfl rfl).symm k) = ix2 b k := funext fun x => Fin.ext (by
    match x with
    | ⟨0, _⟩ => exact rhs_qk_0 _ _
    | ⟨1, _⟩ => exact (rhs_qk_1 _ _).trans hk)
  rw [el, er]

theorem lhs_pv_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem lhs_pv_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
theorem rhs_pv_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
theorem rhs_pv_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

-- Entry (r, col) of p·[v | 1] is the sum over the block's 256 keys.
theorem matmul_pv_apply {φ₁ φ₂ : FTy} (l : FVec Ideal S256x256 φ₁) (r : FVec Ideal S256x128 φ₂) (a : Fin 256) (b : Fin 128) :
    matmul dot_S256x256_S256x128_S256x128_1_0_0_1_n_n none l r (constant (F := Ideal) S256x128 .f32 0x00000000#32) (ix2 a b)
      = ∑ k : Fin 256, l (ix2 a k) * r (ix2 k b) := by
  show FloatOps.matmul dot_S256x256_S256x128_S256x128_1_0_0_1_n_n none l r (constant (F := Ideal) S256x128 .f32 0x00000000#32) (ix2 a b) = _
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 a b) ((contrEquiv1 dot_S256x256_S256x128_S256x128_1_0_0_1_n_n 256 rfl rfl).symm k) = ix2 a k := funext fun x => Fin.ext (by
    match x with
    | ⟨0, _⟩ => exact lhs_pv_0 _ _
    | ⟨1, _⟩ => exact (lhs_pv_1 _ _).trans hk)
  have er : dot_S256x256_S256x128_S256x128_1_0_0_1_n_n.rhsIdx (ix2 a b) ((contrEquiv1 dot_S256x256_S256x128_S256x128_1_0_0_1_n_n 256 rfl rfl).symm k) = ix2 k b := funext fun x => Fin.ext (by
    match x with
    | ⟨0, _⟩ => exact (rhs_pv_0 _ _).trans hk
    | ⟨1, _⟩ => exact rhs_pv_1 _ _)
  rw [el, er]

theorem exp_apply {s : Shape} {φ : FTy} (a : FVec Ideal s φ) (i : s.Idx) : exp a i = Ideal.exp (a i) := rfl

def upd (q : FVec Ideal S1x256x64 .bf16) (k : FVec Ideal S1x1x256x64 .bf16) (vp : FVec Ideal S1x256x128 .bf16)
    (r : Fin 256) (col : Fin 128) : EReal :=
  ∑ j : Fin 256, Ideal.exp (∑ t : Fin 64, q (ix3 0 r t) * k (ix4 0 0 j t)) * vp (ix3 0 j col)

def expQK (q : FVec Ideal S1x256x64 .bf16) (k : FVec Ideal S1x1x256x64 .bf16) : FVec Ideal S256x256 .bf16 :=
  truncf .bf16 (exp (matmul dot_S256x64_S256x64_S256x256_1_1_0_0_n_n none (shapeCast S256x64 q shapeCasts_S1x256x64_S256x64)
    (shapeCast S256x64 k shapeCasts_S1x1x256x64_S256x64) (constant S256x256 .f32 0x00000000#32))) bitsLt_bf16_f32

def pairTerm (q : FVec Ideal S1x256x64 .bf16) (k : FVec Ideal S1x1x256x64 .bf16) (vp : FVec Ideal S1x256x128 .bf16) :
    FVec Ideal S256x128 .f32 :=
  matmul dot_S256x256_S256x128_S256x128_1_0_0_1_n_n none (expQK q k) (shapeCast S256x128 vp shapeCasts_S1x256x128_S256x128) (constant S256x128 .f32 0x00000000#32)

theorem expQK_apply (q : FVec Ideal S1x256x64 .bf16) (k : FVec Ideal S1x1x256x64 .bf16) (r j : Fin 256) :
    expQK q k (ix2 r j) = Ideal.exp (∑ t : Fin 64, q (ix3 0 r t) * k (ix4 0 0 j t)) := by
  unfold expQK
  rw [truncf_apply, exp_apply, matmul_qk_apply]
  congr 1
  refine Finset.sum_congr rfl fun t _ => ?_
  rw [shapeCast_1ab_ab_apply, shapeCast_11ab_ab_apply]

theorem pairTerm_apply (q : FVec Ideal S1x256x64 .bf16) (k : FVec Ideal S1x1x256x64 .bf16) (vp : FVec Ideal S1x256x128 .bf16)
    (r : Fin 256) (col : Fin 128) : pairTerm q k vp (ix2 r col) = upd q k vp r col := by
  unfold pairTerm upd
  rw [matmul_pv_apply]
  refine Finset.sum_congr rfl fun j _ => ?_
  rw [expQK_apply, shapeCast_1ab_ab_apply]

section Pay
variable (acc : FVec Ideal S256x128 .f32) (q : FVec Ideal S1x256x64 .bf16) (k : FVec Ideal S1x1x256x64 .bf16)
  (vp : FVec Ideal S1x256x128 .bf16) (r : Fin 256) (col : Fin 128)

theorem pay13_apply : k0_pay13 acc q k vp (ix2 r col) = acc (ix2 r col) + upd q k vp r col := by
  show addf acc (pairTerm q k vp) (ix2 r col) = _
  rw [addf_apply, pairTerm_apply]
theorem pay14_apply : k0_pay14 acc q k vp (ix2 r col) = acc (ix2 r col) + upd q k vp r col := pay13_apply acc q k vp r col
theorem pay15_apply : k0_pay15 acc q k vp (ix2 r col) = acc (ix2 r col) + upd q k vp r col := pay13_apply acc q k vp r col
theorem pay18_apply : k0_pay18 acc q k vp (ix2 r col) = acc (ix2 r col) + upd q k vp r col := pay13_apply acc q k vp r col
theorem pay22_apply : k0_pay22 acc q k vp (ix2 r col) = acc (ix2 r col) + upd q k vp r col := pay13_apply acc q k vp r col
theorem pay26_apply : k0_pay26 acc q k vp (ix2 r col) = acc (ix2 r col) + upd q k vp r col := pay13_apply acc q k vp r col
theorem pay29_apply : k0_pay29 acc q k vp (ix2 r col) = acc (ix2 r col) + upd q k vp r col := pay13_apply acc q k vp r col
theorem pay36_apply : k0_pay36 acc q k vp (ix2 r col) = acc (ix2 r col) + upd q k vp r col := pay13_apply acc q k vp r col

theorem pay19_apply (j : Fin 256) :
    k0_pay19 (F := Ideal) q k (ix2 r j) = Ideal.exp (∑ t : Fin 64, q (ix3 0 r t) * k (ix4 0 0 j t)) := expQK_apply q k r j
theorem pay27_apply (j : Fin 256) :
    k0_pay27 (F := Ideal) q k (ix2 r j) = Ideal.exp (∑ t : Fin 64, q (ix3 0 r t) * k (ix4 0 0 j t)) := expQK_apply q k r j

theorem pay20_apply (j : Fin 256) : k0_pay20 vp (ix2 j col) = vp (ix3 0 j col) := by
  show shapeCast S256x128 vp shapeCasts_S1x256x128_S256x128 (ix2 j col) = _
  rw [shapeCast_1ab_ab_apply]

theorem pay21_apply (p : FVec Ideal S256x256 .bf16) (v : FVec Ideal S256x128 .bf16) :
    k0_pay21 acc p v (constant (F := Ideal) S256x128 .f32 0x00000000#32) (ix2 r col)
      = acc (ix2 r col) + ∑ j : Fin 256, p (ix2 r j) * v (ix2 j col) := by
  show addf acc (matmul dot_S256x256_S256x128_S256x128_1_0_0_1_n_n none p v (constant (F := Ideal) S256x128 .f32 0x00000000#32)) (ix2 r col) = _
  rw [addf_apply, matmul_pv_apply]

theorem pay28_apply (p : FVec Ideal S256x256 .bf16) :
    k0_pay28 acc p vp (ix2 r col) = acc (ix2 r col) + ∑ j : Fin 256, p (ix2 r j) * vp (ix3 0 j col) := by
  show addf acc (matmul dot_S256x256_S256x128_S256x128_1_0_0_1_n_n none p (shapeCast S256x128 vp shapeCasts_S1x256x128_S256x128) (constant (F := Ideal) S256x128 .f32 0x00000000#32)) (ix2 r col) = _
  rw [addf_apply, matmul_pv_apply]
  congr 1
  refine Finset.sum_congr rfl fun j _ => ?_
  rw [shapeCast_1ab_ab_apply]

theorem pay33_apply (u : Fin 1) : k0_pay33 acc q k vp (ix3 u r col) = acc (ix2 r col) + upd q k vp r col := by
  show shapeCast S1x256x128 (truncf .bf16 (addf acc (pairTerm q k vp)) bitsLt_bf16_f32) shapeCasts_S256x128_S1x256x128 (ix3 u r col) = _
  rw [shapeCast_ab_1ab_apply, truncf_apply, addf_apply, pairTerm_apply]
theorem pay34_apply (u : Fin 1) : k0_pay34 acc q k vp (ix3 u r col) = acc (ix2 r col) + upd q k vp r col := pay33_apply acc q k vp r col u
theorem pay35_apply (u : Fin 1) : k0_pay35 acc q k vp (ix3 u r col) = acc (ix2 r col) + upd q k vp r col := pay33_apply acc q k vp r col u

theorem pay37_apply (q2 : FVec Ideal S1x256x64 .bf16) (k2 : FVec Ideal S1x1x256x64 .bf16) (vp2 : FVec Ideal S1x256x128 .bf16) :
    k0_pay37 acc q k vp q2 k2 vp2 (ix2 r col) = acc (ix2 r col) + upd q k vp r col + upd q2 k2 vp2 r col := by
  show addf (addf acc (pairTerm q k vp)) (pairTerm q2 k2 vp2) (ix2 r col) = _
  rw [addf_apply, addf_apply, pairTerm_apply, pairTerm_apply]

theorem pay38_apply (R : FVec Ideal S1x256x128 .bf16) :
    k0_pay38 acc q k vp R (ix2 r col) = acc (ix2 r col) + upd q k vp r col + R (ix3 0 r col) := by
  show addf (addf acc (pairTerm q k vp)) (extf .f32 (shapeCast S256x128 R shapeCasts_S1x256x128_S256x128) bitsLt_bf16_f32) (ix2 r col) = _
  rw [addf_apply, addf_apply, pairTerm_apply, extf_apply, shapeCast_1ab_ab_apply]

theorem pay39_apply (R2 R3 : FVec Ideal S1x256x128 .bf16) :
    k0_pay39 acc R2 R3 (ix2 r col) = acc (ix2 r col) + R2 (ix3 0 r col) + R3 (ix3 0 r col) := by
  show addf (addf acc (extf .f32 (shapeCast S256x128 R2 shapeCasts_S1x256x128_S256x128) bitsLt_bf16_f32))
    (extf .f32 (shapeCast S256x128 R3 shapeCasts_S1x256x128_S256x128) bitsLt_bf16_f32) (ix2 r col) = _
  rw [addf_apply, addf_apply, extf_apply, extf_apply, shapeCast_1ab_ab_apply, shapeCast_1ab_ab_apply]

end Pay

theorem pay1_apply (tot : FVec Ideal S256x128 .f32) (r : Fin 256) (c : Fin 64) :
    k0_pay1 tot (ix2 r c) = Ideal.div (tot (ix2 r ⟨c.val, by omega⟩)) (tot (ix2 r ⟨64, by decide⟩)) := by
  show divf (extractStridedSlice S256x64 ![0, 0] tot slices_S256x128_o0_0_S256x64)
    (broadcastTo S256x64 (extractStridedSlice S256x1 ![0, 64] tot slices_S256x128_o0_64_S256x1) broadcasts_S256x1_S256x64) (ix2 r c) = _
  rw [divf_apply, slice2_axis1_apply 0 tot slices_S256x128_o0_0_S256x64 r c ⟨c.val, by omega⟩ (Nat.zero_add _).symm,
    broadcastTo_apply _ broadcasts_S256x1_S256x64 (ix2 r c) (ix2 r (0 : Fin 1)) (fun ax => by
      match ax with
      | ⟨0, _⟩ => rfl
      | ⟨1, _⟩ => rfl),
    slice2_axis1_apply 64 tot slices_S256x128_o0_64_S256x1 r (0 : Fin 1) ⟨64, by decide⟩ rfl]

theorem pay9_apply (i : S256x128.Idx) : (k0_pay9 (F := Ideal)) i = 0 := Ideal.ofBits_zero_f32
theorem pay10_apply (i : S256x128.Idx) : (k0_pay10 (F := Ideal)) i = 0 := Ideal.ofBits_zero_f32
theorem pay11_apply (i : S256x128.Idx) : (k0_pay11 (F := Ideal)) i = 0 := Ideal.ofBits_zero_f32
theorem pay12_apply (i : S256x128.Idx) : (k0_pay12 (F := Ideal)) i = 0 := Ideal.ofBits_zero_f32

theorem pay2_apply (x : FVec Ideal S256x64 .f32) (u : Fin 1) (r : Fin 256) (t : Fin 64) :
    k0_pay2 (F := Ideal) x (ix3 u r t) = x (ix2 r t) * Ideal.ofBits .f32 0x3E000000#32 := by
  show shapeCast S1x256x64 (truncf .bf16 (mulf (shapeCast S256x64 x shapeCasts_S256x64_S256x64)
    (broadcast S256x64 (Scalar.ofBits (F := Ideal) .f32 0x3E000000#32))) bitsLt_bf16_f32) shapeCasts_S256x64_S1x256x64 (ix3 u r t) = _
  rw [shapeCast_ab_1ab_apply, truncf_apply, mulf_apply, shapeCast_self, broadcast_apply]
  rfl

theorem pay3_apply (x : FVec Ideal S256x64 .f32) (u u' : Fin 1) (j : Fin 256) (t : Fin 64) :
    k0_pay3 (F := Ideal) x (ix4 u u' j t) = x (ix2 j t) := by
  show shapeCast S1x1x256x64 (truncf .bf16 (shapeCast S256x64 x shapeCasts_S256x64_S256x64) bitsLt_bf16_f32)
    shapeCasts_S256x64_S1x1x256x64 (ix4 u u' j t) = _
  rw [shapeCast_ab_11ab_apply, truncf_apply, shapeCast_self]
theorem pay4_apply (x : FVec Ideal S256x64 .f32) (u u' : Fin 1) (j : Fin 256) (t : Fin 64) :
    k0_pay4 (F := Ideal) x (ix4 u u' j t) = x (ix2 j t) := pay3_apply x u u' j t

theorem pay7_apply (tv : FVec Ideal S1x1x256x64 .bf16) (u : Fin 1) (j : Fin 256) (t : Fin 64) :
    k0_pay7 tv (ix3 u j t) = tv (ix4 0 0 j t) := by
  show shapeCast S1x256x64 (shapeCast S256x64 tv shapeCasts_S1x1x256x64_S256x64) shapeCasts_S256x64_S1x256x64 (ix3 u j t) = _
  rw [shapeCast_ab_1ab_apply, shapeCast_11ab_ab_apply]

theorem pay5_apply (i : S4x256x128.Idx) : (k0_pay5 (F := Ideal)) i = 0 := by
  show shapeCast S4x256x128 (broadcast S4x256x128 (Scalar.ofBits (F := Ideal) .bf16 0x0000#16)) shapeCasts_S4x256x128_S4x256x128 i = _
  rw [shapeCast_self, broadcast_apply]
  show Ideal.ofBits .bf16 0x0000#16 = 0
  simp [Ideal.ofBits, Ideal.ieee]

theorem pay8_apply (i : S1x256x1.Idx) : (k0_pay8 (F := Ideal)) i = 1 := by
  obtain ⟨u, j, w, rfl⟩ : ∃ (u : Fin 1) (j : Fin 256) (w : Fin 1), i = ix3 u j w := ⟨i 0, i 1, i 2, eq_ix3 i⟩
  show shapeCast S1x256x1 (broadcast S256x1 (Scalar.ofBits (F := Ideal) .bf16 0x3F80#16)) shapeCasts_S256x1_S1x256x1 (ix3 u j w) = _
  rw [shapeCast_ab_1ab_apply, broadcast_apply]
  show Ideal.ofBits .bf16 0x3F80#16 = 1
  rw [show (1 : EReal) = ((1 : ℝ) : EReal) by norm_cast]
  simp [Ideal.ofBits, Ideal.ieee, -EReal.coe_mul]; norm_num

end Cert.KernelIdeal.KerPay

end
-- ==== Proof.KerValue.lean ====
import proofs.«900582_g7700000000000583_dist_ring_attn_i_s256_d64_v7x_i16_f32_1_alg».proof.Proof.Contents
import proofs.«900582_g7700000000000583_dist_ring_attn_i_s256_d64_v7x_i16_f32_1_alg».proof.Proof.KerPay
import proofs.«900582_g7700000000000583_dist_ring_attn_i_s256_d64_v7x_i16_f32_1_alg».proof.Proof.AttnMath
import Idealize.ShloMosaic.Lib.Layout
import Mathlib.Algebra.BigOperators.Fin
import Mathlib.Algebra.BigOperators.Group.Finset.Sigma
import Mathlib.Data.Fintype.Prod
import Mathlib.Data.Fintype.Card

noncomputable section

namespace Cert.KernelIdeal.KerValue

open Cert.KernelIdeal Cert.KernelIdeal.Gen Cert.KernelIdeal.Mesh Cert.KernelIdeal.KerPay
open Idealize.ShloMosaic Idealize.ShloMosaic.TcCoe Idealize.SL.Sem Idealize.ShloMosaic.ValueIdx
open Cert.AttnMath
open scoped BigOperators

def gRow (d : Dev nD) (j : Fin 256) : Fin 4096 := ⟨d.val * 256 + j.val, by have h : d.val < 16 := d.isLt; have := j.isLt; omega⟩

theorem tiles : Layout.Tiles (⟨2, ![256, 64]⟩ : Shape) ⟨2, ![4096, 64]⟩ 0 16 := by decide

-- Row J of a whole array is row j of device d's block, J = 256·d + j.
theorem sum_blocks {M : Type} [AddCommMonoid M] (f : Fin 4096 → M) :
    ∑ d : Dev nD, ∑ j : Fin 256, f (gRow d j) = ∑ J : Fin 4096, f J := by
  rw [← Fintype.sum_prod_type']
  refine Function.Bijective.sum_comp (e := fun x : Dev nD × Fin 256 => gRow x.1 x.2) ?_ f
  rw [Fintype.bijective_iff_injective_and_card]
  refine ⟨fun a b h => ?_, by rw [Fintype.card_prod, Fintype.card_fin, Fintype.card_fin, Fintype.card_fin]; decide⟩
  have hv : a.1.val * 256 + a.2.val = b.1.val * 256 + b.2.val := congrArg Fin.val h
  have h1 := a.2.isLt; have h2 := b.2.isLt
  exact Prod.ext (Fin.ext (by omega)) (Fin.ext (by omega))

theorem mesh_inj (c : Dev nD) (a b : Fin 4 × Fin 4)
    (h : planePeer (colPeer c a.1) a.2 = planePeer (colPeer c b.1) b.2) : a = b := by
  have hz := congrArg zOf h
  rw [zOf_planePeer, zOf_planePeer, zOf_colPeer, zOf_colPeer] at hz
  have h1 : a.1 = b.1 := Fin.ext (by have := zOf_lt c; have := a.1.isLt; have := b.1.isLt; omega)
  rw [h1] at h
  exact Prod.ext h1 ((planePeer_inj_right _ _ _).mp h)

-- Moving the plane by dz and the position by ds from any device reaches each device of the 4 × 4 mesh exactly once.
theorem sum_mesh {M : Type} [AddCommMonoid M] (c : Dev nD) (f : Dev nD → M) :
    ∑ dz : Fin 4, ∑ ds : Fin 4, f (planePeer (colPeer c dz) ds) = ∑ d : Dev nD, f d := by
  rw [← Fintype.sum_prod_type']
  refine Function.Bijective.sum_comp (e := fun x : Fin 4 × Fin 4 => planePeer (colPeer c x.1) x.2) ?_ f
  rw [Fintype.bijective_iff_injective_and_card]
  exact ⟨fun a b h => mesh_inj c a b h, by simp⟩

section Inputs
variable (m : (ℓ : Loc nD τ sig) → Buf (Elt Ideal) ℓ)

theorem emb_val_0 (i : S256x64.Idx) : ∀ a : Fin 2, (((win0_0.blk t0_0).view.emb i) a : Nat) = (i a : Nat)
  | ⟨0, _⟩ => by
    show win0_0.index t0_0 (0 : Fin 2) * 256 + 1 * (i 0).val = (i 0).val
    have h0 : win0_0.index t0_0 (0 : Fin 2) = 0 := by decide +kernel
    rw [h0]; omega
  | ⟨1, _⟩ => by
    show win0_0.index t0_0 (1 : Fin 2) * 64 + 1 * (i 1).val = (i 1).val
    have h1 : win0_0.index t0_0 (1 : Fin 2) = 0 := by decide +kernel
    rw [h1]; omega

theorem emb_val_1 (i : S256x64.Idx) : ∀ a : Fin 2, (((win0_1.blk t0_0).view.emb i) a : Nat) = (i a : Nat)
  | ⟨0, _⟩ => by
    show win0_1.index t0_0 (0 : Fin 2) * 256 + 1 * (i 0).val = (i 0).val
    have h0 : win0_1.index t0_0 (0 : Fin 2) = 0 := by decide +kernel
    rw [h0]; omega
  | ⟨1, _⟩ => by
    show win0_1.index t0_0 (1 : Fin 2) * 64 + 1 * (i 1).val = (i 1).val
    have h1 : win0_1.index t0_0 (1 : Fin 2) = 0 := by decide +kernel
    rw [h1]; omega

theorem emb_val_2 (i : S256x64.Idx) : ∀ a : Fin 2, (((win0_2.blk t0_0).view.emb i) a : Nat) = (i a : Nat)
  | ⟨0, _⟩ => by
    show win0_2.index t0_0 (0 : Fin 2) * 256 + 1 * (i 0).val = (i 0).val
    have h0 : win0_2.index t0_0 (0 : Fin 2) = 0 := by decide +kernel
    rw [h0]; omega
  | ⟨1, _⟩ => by
    show win0_2.index t0_0 (1 : Fin 2) * 64 + 1 * (i 1).val = (i 1).val
    have h1 : win0_2.index t0_0 (1 : Fin 2) = 0 := by decide +kernel
    rw [h1]; omega

theorem X0_apply (Q : (⟨2, ![4096, 64]⟩ : Shape).Idx → EReal) (c : Dev nD)
    (h : m ((c : Thread nD τ).loc main_arg0) = Layout.block ⟨2, ![256, 64]⟩ ⟨2, ![4096, 64]⟩ 0 16 c Q)
    (r : Fin 256) (t : Fin 64) : Contents.X0 m c (ix2 r t) = Q (ix2 (gRow c r) t) := by
  unfold Contents.X0
  rw [h, View.read_apply]
  show Layout.block (⟨2, ![256, 64]⟩ : Shape) ⟨2, ![4096, 64]⟩ 0 16 c Q tiles ((win0_0.blk t0_0).view.emb (ix2 r t)) = _
  rw [Layout.block_apply]
  refine congrArg Q (funext fun a => Fin.ext ?_)
  rw [Layout.Tiles.idx_val]
  have e := emb_val_0 (ix2 r t)
  match a with
  | ⟨0, _⟩ => exact congrArg (fun x => c.val * 256 + x) (e 0)
  | ⟨1, _⟩ => exact e 1

theorem X1_apply (K : (⟨2, ![4096, 64]⟩ : Shape).Idx → EReal) (c : Dev nD)
    (h : m ((c : Thread nD τ).loc main_arg1) = Layout.block ⟨2, ![256, 64]⟩ ⟨2, ![4096, 64]⟩ 0 16 c K)
    (r : Fin 256) (t : Fin 64) : Contents.X1 m c (ix2 r t) = K (ix2 (gRow c r) t) := by
  unfold Contents.X1
  rw [h, View.read_apply]
  show Layout.block (⟨2, ![256, 64]⟩ : Shape) ⟨2, ![4096, 64]⟩ 0 16 c K tiles ((win0_1.blk t0_0).view.emb (ix2 r t)) = _
  rw [Layout.block_apply]
  refine congrArg K (funext fun a => Fin.ext ?_)
  rw [Layout.Tiles.idx_val]
  have e := emb_val_1 (ix2 r t)
  match a with
  | ⟨0, _⟩ => exact congrArg (fun x => c.val * 256 + x) (e 0)
  | ⟨1, _⟩ => exact e 1

theorem X2_apply (V : (⟨2, ![4096, 64]⟩ : Shape).Idx → EReal) (c : Dev nD)
    (h : m ((c : Thread nD τ).loc main_arg2) = Layout.block ⟨2, ![256, 64]⟩ ⟨2, ![4096, 64]⟩ 0 16 c V)
    (r : Fin 256) (t : Fin 64) : Contents.X2 m c (ix2 r t) = V (ix2 (gRow c r) t) := by
  unfold Contents.X2
  rw [h, View.read_apply]
  show Layout.block (⟨2, ![256, 64]⟩ : Shape) ⟨2, ![4096, 64]⟩ 0 16 c V tiles ((win0_2.blk t0_0).view.emb (ix2 r t)) = _
  rw [Layout.block_apply]
  refine congrArg V (funext fun a => Fin.ext ?_)
  rw [Layout.Tiles.idx_val]
  have e := emb_val_2 (ix2 r t)
  match a with
  | ⟨0, _⟩ => exact congrArg (fun x => c.val * 256 + x) (e 0)
  | ⟨1, _⟩ => exact e 1

variable (Q K V : (⟨2, ![4096, 64]⟩ : Shape).Idx → EReal)
  (hq : ∀ c : Dev nD, m ((c : Thread nD τ).loc main_arg0) = Layout.block ⟨2, ![256, 64]⟩ ⟨2, ![4096, 64]⟩ 0 16 c Q)
  (hk : ∀ c : Dev nD, m ((c : Thread nD τ).loc main_arg1) = Layout.block ⟨2, ![256, 64]⟩ ⟨2, ![4096, 64]⟩ 0 16 c K)
  (hv : ∀ c : Dev nD, m ((c : Thread nD τ).loc main_arg2) = Layout.block ⟨2, ![256, 64]⟩ ⟨2, ![4096, 64]⟩ 0 16 c V)
include hq in
theorem TQ_apply (c : Dev nD) (r : Fin 256) (t : Fin 64) :
    Contents.TQ m c (ix3 0 r t) = Q (ix2 (gRow c r) t) * Ideal.ofBits .f32 0x3E000000#32 := by
  unfold Contents.TQ
  exact (pay2_apply (Contents.X0 m c) 0 r t).trans (by rw [X0_apply m Q c (hq c)])
include hk in
theorem TK_apply (d : Dev nD) (j : Fin 256) (t : Fin 64) :
    Contents.TK m d (ix4 0 0 j t) = K (ix2 (gRow d j) t) := by
  unfold Contents.TK
  exact (pay3_apply (Contents.X1 m d) 0 0 j t).trans (X1_apply m K d (hk d) j t)
include hv in
theorem TV_apply (d : Dev nD) (j : Fin 256) (t : Fin 64) :
    Contents.TV m d (ix4 0 0 j t) = V (ix2 (gRow d j) t) := by
  unfold Contents.TV
  exact (pay4_apply (Contents.X2 m d) 0 0 j t).trans (X2_apply m V d (hv d) j t)

def vpv (J : Fin 4096) (col : Fin 128) : EReal :=
  if h : col.val < 64 then V (ix2 J (⟨col.val, h⟩ : Fin 64)) else if col.val = 64 then 1 else 0

include hv in
theorem VP_apply (d : Dev nD) (j : Fin 256) (col : Fin 128) :
    Contents.VP m d (ix3 0 j col) = vpv V (gRow d j) col := by
  unfold Contents.VP Contents.vpadBlk vpv
  show (if h : col.val < 64 then (k0_pay7 (Contents.TV m d)) (ix3 (0 : Fin 1) j (⟨col.val, h⟩ : Fin 64))
    else if col.val = 64 then (k0_pay8 (F := Ideal)) (ix3 (0 : Fin 1) j (0 : Fin 1))
    else (k0_pay5 (F := Ideal)) (ix3 (0 : Fin 4) j col)) = _
  by_cases h : col.val < 64
  · rw [dif_pos h, dif_pos h, pay7_apply, TV_apply m V hv]
  · rw [dif_neg h, dif_neg h]
    by_cases h2 : col.val = 64
    · rw [if_pos h2, if_pos h2, pay8_apply]
    · rw [if_neg h2, if_neg h2, pay5_apply]

include hq hk hv in

theorem upd_eq (c d : Dev nD) (r : Fin 256) (col : Fin 128) :
    upd (Contents.TQ m c) (Contents.TK m d) (Contents.VP m d) r col
      = ∑ j : Fin 256, kerE (fun r k => Q (ix2 r k)) (fun j k => K (ix2 j k)) (gRow c r) (gRow d j) * vpv V (gRow d j) col := by
  unfold upd
  refine Finset.sum_congr rfl fun j _ => ?_
  rw [VP_apply m V hv]
  congr 1
  show _ = Ideal.exp (∑ t : Fin 64, (Q (ix2 (gRow c r) t) * Ideal.ofBits .f32 0x3E000000#32) * K (ix2 (gRow d j) t))
  congr 1
  refine Finset.sum_congr rfl fun t _ => ?_
  rw [TQ_apply m Q hq, TK_apply m K hk]

end Inputs

section Chain
variable (m : (ℓ : Loc nD τ sig) → Buf (Elt Ideal) ℓ) (c : Dev nD) (r : Fin 256) (col : Fin 128)

theorem P1_apply (u : Fin 1) : Contents.P1 m c (ix3 u r col)
    = ∑ ds : Fin 4, upd (Contents.q m c 1) (Contents.k m c ds) (Contents.vp m c ds) r col := by
  unfold Contents.P1 Contents.A1_2 Contents.A1_1 Contents.A1_0
  rw [pay33_apply, pay26_apply, pay18_apply, pay13_apply, pay10_apply, zero_add, Fin.sum_univ_four]

theorem P2_apply (u : Fin 1) : Contents.P2 m c (ix3 u r col)
    = ∑ ds : Fin 4, upd (Contents.q m c 2) (Contents.k m c ds) (Contents.vp m c ds) r col := by
  unfold Contents.P2 Contents.A2_2 Contents.A2_1 Contents.A2_0 Contents.zeros128
  rw [pay34_apply, pay28_apply, pay21_apply, pay14_apply, pay11_apply, zero_add, Fin.sum_univ_four]
  simp only [pay19_apply, pay27_apply, pay20_apply]
  rfl

theorem P3_apply (u : Fin 1) : Contents.P3 m c (ix3 u r col)
    = ∑ ds : Fin 4, upd (Contents.q m c 3) (Contents.k m c ds) (Contents.vp m c ds) r col := by
  unfold Contents.P3 Contents.A3_2 Contents.A3_1 Contents.A3_0
  rw [pay35_apply, pay29_apply, pay22_apply, pay15_apply, pay12_apply, zero_add, Fin.sum_univ_four]

theorem TOT_parts : Contents.TOT m c (ix2 r col)
    = (∑ ds : Fin 4, upd (Contents.q m c 0) (Contents.k m c ds) (Contents.vp m c ds) r col)
      + Contents.R1 m c (ix3 0 r col) + Contents.R2 m c (ix3 0 r col) + Contents.R3 m c (ix3 0 r col) := by
  unfold Contents.TOT Contents.TOT1 Contents.A0_2 Contents.A0_0
  rw [pay39_apply, pay38_apply, pay37_apply, pay36_apply, pay9_apply, zero_add, Fin.sum_univ_four]

theorem TOT_apply : Contents.TOT m c (ix2 r col)
    = ∑ dz : Fin 4, ∑ ds : Fin 4, upd (Contents.TQ m c) (Contents.TK m (planePeer (colPeer c dz) ds))
        (Contents.VP m (planePeer (colPeer c dz) ds)) r col := by
  rw [TOT_parts]
  unfold Contents.R1 Contents.R2 Contents.R3
  rw [P3_apply, P2_apply, P1_apply]
  unfold Contents.q Contents.k Contents.vp
  rw [colPeer_colPeer c 1 3 (by decide), colPeer_colPeer c 2 2 (by decide), colPeer_colPeer c 3 1 (by decide)]
  symm
  rw [Fin.sum_univ_four, colPeer_zero]

end Chain

section Result
variable (m : (ℓ : Loc nD τ sig) → Buf (Elt Ideal) ℓ) (Q K V : (⟨2, ![4096, 64]⟩ : Shape).Idx → EReal)
  (hq : ∀ c : Dev nD, m ((c : Thread nD τ).loc main_arg0) = Layout.block ⟨2, ![256, 64]⟩ ⟨2, ![4096, 64]⟩ 0 16 c Q)
  (hk : ∀ c : Dev nD, m ((c : Thread nD τ).loc main_arg1) = Layout.block ⟨2, ![256, 64]⟩ ⟨2, ![4096, 64]⟩ 0 16 c K)
  (hv : ∀ c : Dev nD, m ((c : Thread nD τ).loc main_arg2) = Layout.block ⟨2, ![256, 64]⟩ ⟨2, ![4096, 64]⟩ 0 16 c V)

include hq hk hv in

-- A device's total, its own sum plus the three it receives, runs over the keys of all sixteen devices.
theorem TOT_eq (c : Dev nD) (r : Fin 256) (col : Fin 128) : Contents.TOT m c (ix2 r col)
    = ∑ J : Fin 4096, kerE (fun r k => Q (ix2 r k)) (fun j k => K (ix2 j k)) (gRow c r) J * vpv V J col := by
  rw [TOT_apply, sum_mesh c (fun d => upd (Contents.TQ m c) (Contents.TK m d) (Contents.VP m d) r col)]
  rw [← sum_blocks (fun J => kerE (fun r k => Q (ix2 r k)) (fun j k => K (ix2 j k)) (gRow c r) J * vpv V J col)]
  exact Finset.sum_congr rfl fun d _ => upd_eq m Q K V hq hk hv c d r col

include hq hk hv in

-- Columns 0 to 63 of the total are the numerators and column 64 the denominator; their quotient is the device's row block of the attention output.
theorem out_eq (c : Dev nD) :
    Contents.OUT m c = Layout.block ⟨2, ![256, 64]⟩ ⟨2, ![4096, 64]⟩ 0 16 c
      (fun i => kerOut (fun r k => Q (ix2 r k)) (fun j k => K (ix2 j k)) (fun j c => V (ix2 j c)) (i 0) (i 1)) := by
  funext i
  obtain ⟨r, cc, rfl⟩ : ∃ (r : Fin 256) (cc : Fin 64), i = ix2 r cc := ⟨i 0, i 1, eq_ix2 i⟩
  rw [Layout.block_apply]
  unfold Contents.OUT
  rw [pay1_apply, TOT_eq m Q K V hq hk hv, TOT_eq m Q K V hq hk hv]
  have e0 : (tiles.idx c (ix2 r cc)) 0 = gRow c r := Fin.ext rfl
  have e1 : (tiles.idx c (ix2 r cc)) 1 = cc := Fin.ext rfl
  show _ = kerOut (fun r k => Q (ix2 r k)) (fun j k => K (ix2 j k)) (fun j c => V (ix2 j c)) ((tiles.idx c (ix2 r cc)) 0) ((tiles.idx c (ix2 r cc)) 1)
  rw [e0, e1]
  unfold kerOut kerNum kerDen
  have hn : ∀ J : Fin 4096, vpv V J (⟨cc.val, by omega⟩ : Fin 128) = V (ix2 J cc) := fun J => by
    unfold vpv; rw [dif_pos (show cc.val < 64 from cc.isLt)]
  have hd : ∀ J : Fin 4096, vpv V J (⟨64, by decide⟩ : Fin 128) = 1 := fun J => by
    unfold vpv; rw [dif_neg (show ¬ (64 : ℕ) < 64 by decide), if_pos rfl]
  simp only [hn, hd]

end Result

end Cert.KernelIdeal.KerValue

end
-- ==== Proof.Finite.lean ====
import proofs.«900582_g7700000000000583_dist_ring_attn_i_s256_d64_v7x_i16_f32_1_alg».proof.Defs
import proofs.«900582_g7700000000000583_dist_ring_attn_i_s256_d64_v7x_i16_f32_1_alg».proof.Proof.Gen.Pre_finite_inputs_Kernel
import Idealize.ShloMosaic.Lib.ReduceAll
import Idealize.ShloMosaic.Lib.Layout
import Idealize.ShloMosaic.Lib.ValueIdx
import Mathlib.Data.EReal.Basic

noncomputable section

namespace Cert.KernelIdeal.Finite

open Idealize.ShloMosaic Idealize.SL.Sem Idealize.ShloMosaic.ValueIdx

instance : Subsingleton (Cert.Pre_finite_inputs_Kernel.S_).Idx := ⟨fun a b => funext fun d => d.elim0⟩

theorem ofBits_inf : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

theorem block_real
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) := by
  have hc := congrFun (h c) ix0
  dsimp only [Cert.Pre_finite_inputs_Kernel.fn] at hc
  obtain ⟨h01, h2⟩ := IntOp.andi_eq_one.1 hc
  obtain ⟨h0, h1⟩ := IntOp.andi_eq_one.1 h01
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h2 i)⟩

theorem whole_real (Q : (⟨2, ![4096, 64]⟩ : Shape).Idx → EReal)
    (blk : Dev Cert.KernelIdeal.nD → (⟨2, ![256, 64]⟩ : Shape).Idx → EReal)
    (hb : ∀ c, blk c = Layout.block ⟨2, ![256, 64]⟩ ⟨2, ![4096, 64]⟩ 0 16 c Q)
    (hr : ∀ c i, ∃ x : ℝ, blk c i = (x : EReal)) :
    ∀ i, ∃ x : ℝ, Q i = (x : EReal) := by
  intro i
  have h0 : (i 0).val < 4096 := (i 0).isLt
  have h1 : (i 1).val < 64 := (i 1).isLt
  obtain ⟨x, hx⟩ := hr ⟨(i 0).val / 256, show (i 0).val / 256 < 16 by omega⟩ (ix2 ⟨(i 0).val % 256, by omega⟩ ⟨(i 1).val, h1⟩)
  refine ⟨x, ?_⟩
  rw [hb, Layout.block_apply] at hx
  rw [← hx]
  congr 1
  funext b
  refine Fin.ext ?_
  match b with
  | ⟨0, _⟩ =>
    show (i 0).val = (i 0).val / 256 * 256 + (i 0).val % 256
    omega
  | ⟨1, _⟩ => rfl

-- The precondition makes every entry of every device's block finite, and the blocks tile the whole arrays: every entry of q, k and v is a real number.
theorem args_real
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![256, 64]⟩ ⟨2, ![4096, 64]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 64]⟩ ⟨2, ![4096, 64]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 64]⟩ ⟨2, ![4096, 64]⟩ 0 16 c (m' (((0 : Dev Cert.ReferenceIdeal.nD).tc : Thread Cert.ReferenceIdeal.nD Cert.ReferenceIdeal.τ).loc Cert.ReferenceIdeal.main_arg2))) :
    (∀ i, ∃ x : ℝ, m' (((0 : Dev Cert.ReferenceIdeal.nD).tc : Thread Cert.ReferenceIdeal.nD Cert.ReferenceIdeal.τ).loc Cert.ReferenceIdeal.main_arg0) i = (x : EReal))
    ∧ (∀ i, ∃ x : ℝ, m' (((0 : Dev Cert.ReferenceIdeal.nD).tc : Thread Cert.ReferenceIdeal.nD Cert.ReferenceIdeal.τ).loc Cert.ReferenceIdeal.main_arg1) i = (x : EReal))
    ∧ (∀ i, ∃ x : ℝ, m' (((0 : Dev Cert.ReferenceIdeal.nD).tc : Thread Cert.ReferenceIdeal.nD Cert.ReferenceIdeal.τ).loc Cert.ReferenceIdeal.main_arg2) i = (x : EReal)) :=
  ⟨whole_real _ (fun c => m ((c.tc : Thread Cert.KernelIdeal.nD Cert.KernelIdeal.τ).loc Cert.KernelIdeal.main_arg0))
      (fun c => (hagree c).1) (fun c => (block_real m hpre c).1),
   whole_real _ (fun c => m ((c.tc : Thread Cert.KernelIdeal.nD Cert.KernelIdeal.τ).loc Cert.KernelIdeal.main_arg1))
      (fun c => (hagree c).2.1) (fun c => (block_real m hpre c).2.1),
   whole_real _ (fun c => m ((c.tc : Thread Cert.KernelIdeal.nD Cert.KernelIdeal.τ).loc Cert.KernelIdeal.main_arg2))
      (fun c => (hagree c).2.2) (fun c => (block_real m hpre c).2.2)⟩

end Cert.KernelIdeal.Finite

end
-- ==== Proof.Cells.lean ====
import proofs.«900582_g7700000000000583_dist_ring_attn_i_s256_d64_v7x_i16_f32_1_alg».proof.Proof.Gen.KernelIdeal.Skeleton
import proofs.«900582_g7700000000000583_dist_ring_attn_i_s256_d64_v7x_i16_f32_1_alg».proof.Proof.Gen.KernelIdeal.Launch
import proofs.«900582_g7700000000000583_dist_ring_attn_i_s256_d64_v7x_i16_f32_1_alg».proof.Proof.Gen.KernelIdeal.Points
import proofs.«900582_g7700000000000583_dist_ring_attn_i_s256_d64_v7x_i16_f32_1_alg».proof.Proof.Gen.KernelIdeal.Frame
import proofs.«900582_g7700000000000583_dist_ring_attn_i_s256_d64_v7x_i16_f32_1_alg».proof.Proof.Mesh
import Idealize.ShloMosaic.Lib.Pipeline.Launch
import Idealize.ShloMosaic.Lib.Pipeline.Kit
import Idealize.ShloMosaic.Lib.Tactic

noncomputable section

namespace Cert.KernelIdeal.Cells

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev DD : Type := Fin 9
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

abbrev qB : Memref sig .tc .vmem S4x256x64 .bf16 := Memref.whole cc0_scratch0
abbrev kvB : Memref sig .tc .vmem S4x2x256x64 .bf16 := Memref.whole cc0_scratch1
abbrev vpB : Memref sig .tc .vmem S4x256x128 .bf16 := Memref.whole cc0_scratch2
abbrev psB : Memref sig .tc .vmem S3x256x128 .bf16 := Memref.whole cc0_scratch3
abbrev prB : Memref sig .tc .vmem S4x256x128 .bf16 := Memref.whole cc0_scratch4

theorem hqB : (qB).IsWhole := Memref.isWhole_whole _
theorem hkvB : (kvB).IsWhole := Memref.isWhole_whole _
theorem hvpB : (vpB).IsWhole := Memref.isWhole_whole _
theorem hpsB : (psB).IsWhole := Memref.isWhole_whole _
theorem hprB : (prB).IsWhole := Memref.isWhole_whole _

abbrev qSlot (off : Fin 3 → Nat) (h : ∀ a, off a + S1x256x64.size a ≤ S4x256x64.size a) : Memref sig .tc .vmem S256x64 .bf16 :=
  ((qB).slice (Rect.unit (s := S4x256x64) off S1x256x64.size h) (fun _ => rfl)).squeeze S256x64 squeezes_S1x256x64_S256x64
abbrev kvSlot (off : Fin 4 → Nat) (h : ∀ a, off a + S1x2x256x64.size a ≤ S4x2x256x64.size a) : Memref sig .tc .vmem S2x256x64 .bf16 :=
  ((kvB).slice (Rect.unit (s := S4x2x256x64) off S1x2x256x64.size h) (fun _ => rfl)).squeeze S2x256x64 squeezes_S1x2x256x64_S2x256x64
abbrev psSlot (off : Fin 3 → Nat) (h : ∀ a, off a + S1x256x128.size a ≤ S3x256x128.size a) : Memref sig .tc .vmem S256x128 .bf16 :=
  ((psB).slice (Rect.unit (s := S3x256x128) off S1x256x128.size h) (fun _ => rfl)).squeeze S256x128 squeezes_S1x256x128_S256x128
abbrev prSlot (off : Fin 3 → Nat) (h : ∀ a, off a + S1x256x128.size a ≤ S4x256x128.size a) : Memref sig .tc .vmem S256x128 .bf16 :=
  ((prB).slice (Rect.unit (s := S4x256x128) off S1x256x128.size h) (fun _ => rfl)).squeeze S256x128 squeezes_S1x256x128_S256x128

abbrev offQ (i : Fin 4) : Fin 3 → Nat := ![i.val, 0, 0]
abbrev offKV (i : Fin 4) : Fin 4 → Nat := ![i.val, 0, 0, 0]
theorem inbQ (i : Fin 4) : ∀ a, offQ i a + S1x256x64.size a ≤ S4x256x64.size a := by revert i; decide
theorem inbKV (i : Fin 4) : ∀ a, offKV i a + S1x2x256x64.size a ≤ S4x2x256x64.size a := by revert i; decide
theorem inbPS (i : Fin 3) : ∀ a, (![i.val, 0, 0] : Fin 3 → Nat) a + S1x256x128.size a ≤ S3x256x128.size a := by revert i; decide
theorem inbPR (i : Fin 4) : ∀ a, offQ i a + S1x256x128.size a ≤ S4x256x128.size a := by revert i; decide

abbrev qS (i : Fin 4) : Memref sig .tc .vmem S256x64 .bf16 := qSlot (offQ i) (inbQ i)
abbrev kvS (i : Fin 4) : Memref sig .tc .vmem S2x256x64 .bf16 := kvSlot (offKV i) (inbKV i)
abbrev psS (i : Fin 3) : Memref sig .tc .vmem S256x128 .bf16 := psSlot ![i.val, 0, 0] (inbPS i)
abbrev prS (i : Fin 4) : Memref sig .tc .vmem S256x128 .bf16 := prSlot (offQ i) (inbPR i)

abbrev NQ : ℕ := (qS 0).view.dmaCredit
abbrev NKV : ℕ := (kvS 0).view.dmaCredit
abbrev NP : ℕ := (prS 0).view.dmaCredit

abbrev barS : Sem sig := (SemArray.scalar (sig.barrier 0 rfl) : Sems sig S_).sem
abbrev barCell (c : Dev nD) : GSem nD τ sig := ((c : Thread nD τ), .reg barS)

abbrev dmaCell (c : Dev nD) (n : DmaSem sig) : GSem nD τ sig := ((c : Thread nD τ), .dma n)

abbrev qSendSem (j : Fin 3) : DmaSem sig := ⟨4 + j.val, by have := j.isLt; show _ < 25; omega⟩
abbrev qRecvSem (i : Fin 4) : DmaSem sig := ⟨7 + i.val, by have := i.isLt; show _ < 25; omega⟩
abbrev kvSendSem (j : Fin 3) : DmaSem sig := ⟨11 + j.val, by have := j.isLt; show _ < 25; omega⟩
abbrev kvRecvSem (i : Fin 4) : DmaSem sig := ⟨14 + i.val, by have := i.isLt; show _ < 25; omega⟩
abbrev pSendSem (j : Fin 3) : DmaSem sig := ⟨18 + j.val, by have := j.isLt; show _ < 25; omega⟩
abbrev pRecvSem (i : Fin 4) : DmaSem sig := ⟨21 + i.val, by have := i.isLt; show _ < 25; omega⟩

end Cert.KernelIdeal.Cells

end
-- ==== Proof.Sched.lean ====
import proofs.«900582_g7700000000000583_dist_ring_attn_i_s256_d64_v7x_i16_f32_1_alg».proof.Proof.Cells
import proofs.«900582_g7700000000000583_dist_ring_attn_i_s256_d64_v7x_i16_f32_1_alg».proof.Proof.Contents

noncomputable section

namespace Cert.KernelIdeal.Sched

open Cert.KernelIdeal Cert.KernelIdeal.Gen Cert.KernelIdeal.Mesh Cert.KernelIdeal.Cells Cert.KernelIdeal.Contents
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

def mk (z s : Fin 4) : Dev nD := ⟨z.val * 4 + s.val, by have := z.isLt; have := s.isLt; show _ < 16; omega⟩
def zF (c : Dev nD) : Fin 4 := ⟨c.val / 4, by have h : c.val < 16 := c.isLt; omega⟩
def sF (c : Dev nD) : Fin 4 := ⟨c.val % 4, by omega⟩

def GQ (c : Dev nD) : Buf (Elt F) ((qB).view.loc (c : Thread nD τ)) := fun idx =>
  TQ m (mk (idx 0) (sF c)) (ValueIdx.ix3 (0 : Fin 1) (idx 1) (idx 2))
def GKV (c : Dev nD) : Buf (Elt F) ((kvB).view.loc (c : Thread nD τ)) := fun idx =>
  if (idx 1).val = 0 then TK m (mk (zF c) (idx 0)) (ValueIdx.ix4 (0 : Fin 1) (0 : Fin 1) (idx 2) (idx 3))
  else TV m (mk (zF c) (idx 0)) (ValueIdx.ix4 (0 : Fin 1) (0 : Fin 1) (idx 2) (idx 3))
def GVP (c : Dev nD) : Buf (Elt F) ((vpB).view.loc (c : Thread nD τ)) := fun idx =>
  VP m (mk (zF c) (idx 0)) (ValueIdx.ix3 (0 : Fin 1) (idx 1) (idx 2))

def Psel (k : Fin 4) (c : Dev nD) : FVec F S1x256x128 .bf16 :=
  if k.val = 2 then P2 m c else if k.val = 3 then P3 m c else P1 m c
def GPS (c : Dev nD) : Buf (Elt F) ((psB).view.loc (c : Thread nD τ)) := fun idx =>
  Psel m ⟨(idx 0).val + 1, by have h : (idx 0).val < 3 := (idx 0).isLt; show _ < 4; omega⟩ c (ValueIdx.ix3 (0 : Fin 1) (idx 1) (idx 2))
def GPR (c : Dev nD) : Buf (Elt F) ((prB).view.loc (c : Thread nD τ)) := fun idx =>
  Psel m ⟨((zF c).val + 4 - (idx 0).val) % 4, Nat.mod_lt _ (by decide)⟩ (mk (idx 0) (sF c)) (ValueIdx.ix3 (0 : Fin 1) (idx 1) (idx 2))

def ptQ (c : Dev nD) (i : Fin 4) (q : PosShare TreeShare) : sProp 𝕄 :=
  (qB).view.loc (c : Thread nD τ) ↦[(qS i).view.set]{q} GQ m c
def ptKV (c : Dev nD) (i : Fin 4) (q : PosShare TreeShare) : sProp 𝕄 :=
  (kvB).view.loc (c : Thread nD τ) ↦[(kvS i).view.set]{q} GKV m c
def ptPS (c : Dev nD) (j : Fin 3) (q : PosShare TreeShare) : sProp 𝕄 :=
  (psB).view.loc (c : Thread nD τ) ↦[(psS j).view.set]{q} GPS m c
def ptPR (c : Dev nD) (i : Fin 4) (q : PosShare TreeShare) : sProp 𝕄 :=
  (prB).view.loc (c : Thread nD τ) ↦[(prS i).view.set]{q} GPR m c

def lend (j : Fin 3) : PosShare TreeShare :=
  if j.val = 0 then fullShare.left.left else if j.val = 1 then fullShare.left.right else fullShare.right.left
def keep : PosShare TreeShare := fullShare.right.right

def usedSem (c : Dev nD) (n : DmaSem sig) : Bool :=
  (4 ≤ n.val && n.val ≤ 6) || (7 ≤ n.val && n.val ≤ 10 && n.val - 7 != c.val / 4)
  || (11 ≤ n.val && n.val ≤ 13) || (14 ≤ n.val && n.val ≤ 17 && n.val - 14 != c.val % 4)
  || (18 ≤ n.val && n.val ≤ 20) || (21 ≤ n.val && n.val ≤ 24 && n.val - 21 != c.val / 4)

def used (g : GSem nD τ sig) : Bool :=
  match g.1.2, g.2 with
  | .tc, .dma n => usedSem g.1.1 n
  | _, _ => false

def amt (n : DmaSem sig) : ℕ := if n.val < 11 then NQ else if n.val < 18 then NKV else NP

def payD (c : Dev nD) (n : DmaSem sig) : sProp 𝕄 :=
  if h : 4 ≤ n.val ∧ n.val ≤ 6 then ptQ m c (zF c) (lend ⟨n.val - 4, by omega⟩)
  else if h : 7 ≤ n.val ∧ n.val ≤ 10 then ptQ m c ⟨n.val - 7, by omega⟩ fullShare
  else if h : 11 ≤ n.val ∧ n.val ≤ 13 then ptKV m c (sF c) (lend ⟨n.val - 11, by omega⟩)
  else if h : 14 ≤ n.val ∧ n.val ≤ 17 then ptKV m c ⟨n.val - 14, by omega⟩ fullShare
  else if h : 18 ≤ n.val ∧ n.val ≤ 20 then ptPS m c ⟨n.val - 18, by omega⟩ fullShare
  else if h : 21 ≤ n.val ∧ n.val ≤ 24 then ptPR m c ⟨n.val - 21, by omega⟩ fullShare
  else iprop(emp)

theorem NQ_pos : 0 < NQ := View.dmaCredit_pos _ (by decide)
theorem NKV_pos : 0 < NKV := View.dmaCredit_pos _ (by decide)
theorem NP_pos : 0 < NP := View.dmaCredit_pos _ (by decide)
theorem amt_pos (n : DmaSem sig) : 0 < amt n := by
  unfold amt; split
  · exact NQ_pos
  · split
    · exact NKV_pos
    · exact NP_pos

def Rd : Rounds.Schedule (GSem nD τ sig) DD 𝕄 where
  duties g r := if r = 0 ∧ used g = true then {0} else ∅
  unitless _ := False
  amount g _ _ := match g.2 with | .dma n => amt n | _ => 1
  payload g _ _ := match g.2 with | .dma n => payD m g.1.1 n | _ => iprop(emp)
  amount_pos g _ _ _ := by
    cases h : g.2 with
    | dma n => simp only [h]; exact amt_pos n
    | _ => simp only [h]; exact Nat.one_pos

end Cert.KernelIdeal.Sched

end
-- ==== Proof.BarDefs.lean ====
import Idealize.ShloMosaic.Lib.Rounds
import Idealize.ShloMosaic.Lib.Tactic

noncomputable section

namespace Cert.BarCell

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.Util (total total_single)

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

variable (nD τ sig Ix D Val Name U Lvl) in

structure BarSpec where

  plane : Finset D

  column : Finset D
  disj : Disjoint plane column
  plane_card : plane.card = 3
  column_card : column.card = 3

  r : ℕ

  P : D → sProp (MT nD τ sig Ix Val Name U Lvl)

  ph : Fin 3 → ℕ × D

namespace BarSpec

variable (B : BarSpec nD τ sig Ix D Val Name U Lvl)

def all : Finset D := B.plane ∪ B.column

def amt (d : D) : ℕ := if d ∈ B.plane then 8 else 1

def units (L : Finset D) : ℕ := ∑ d ∈ L, B.amt d

end BarSpec

section Defs

variable (E : Emb (URounds (GSem nD τ sig) D) (MT nD τ sig Ix Val Name U Lvl))
variable (B : BarSpec nD τ sig Ix D Val Name U Lvl)

def phTok (g : GSem nD τ sig) (i : Fin 3) : sProp 𝕄 := dutyTok E g (B.ph i).1 (B.ph i).2

def barState (g : GSem nD τ sig) (v : ℕ) : sProp 𝕄 :=
  iprop(∃ (L : Finset D), bigSep L (fun d => dutyTok E g B.r d)
    ∗ ((phTok E B g 1 ∗ phTok E B g 2 ∗ ⌜L ⊆ B.all ∧ v = B.units L⌝ ∗ bigSep L B.P)
      ∨ (phTok E B g 0 ∗ phTok E B g 2 ∗ ⌜L ⊆ B.all ∧ B.plane ⊆ L ∧ v + 24 = B.units L⌝ ∗ bigSep (L \ B.plane) B.P)
      ∨ (phTok E B g 0 ∗ phTok E B g 1 ∗ ⌜L = B.all ∧ v = 0⌝)))

def barBody (g : GSem nD τ sig) : sProp 𝕄 := iprop(∃ v, semVal g v ∗ barState E B g v)

def barInv (κ : Name) (g : GSem nD τ sig) : sProp 𝕄 := inv κ (barBody E B g)

instance barInv_persistent (κ : Name) (g : GSem nD τ sig) : BI.Persistent (barInv E B κ g) := by
  unfold barInv; infer_instance

end Defs

end Cert.BarCell

end
-- ==== Proof.Ghost.lean ====
import proofs.«900582_g7700000000000583_dist_ring_attn_i_s256_d64_v7x_i16_f32_1_alg».proof.Proof.Sched
import proofs.«900582_g7700000000000583_dist_ring_attn_i_s256_d64_v7x_i16_f32_1_alg».proof.Proof.BarDefs

noncomputable section

namespace Cert.KernelIdeal.Ghost

open Cert.KernelIdeal Cert.KernelIdeal.Gen Cert.KernelIdeal.Mesh Cert.KernelIdeal.Cells Cert.KernelIdeal.Contents Cert.KernelIdeal.Sched
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

def s₀ : MemSt nD τ sig (Elt F) := ⟨m, fun _ => 0, ρ⟩

def up (j : Fin 3) : Fin 4 := ⟨j.val + 1, by omega⟩
def dn (j : Fin 3) : Fin 4 := ⟨3 - j.val, by omega⟩

def cP (c : Dev nD) (j : Fin 3) : Dev nD := colPeer c (up j)
def pP (c : Dev nD) (j : Fin 3) : Dev nD := planePeer c (up j)

def cS (c : Dev nD) (j : Fin 3) : Dev nD := colPeer c (dn j)
def pS (c : Dev nD) (j : Fin 3) : Dev nD := planePeer c (dn j)

def slotQ (p : Dev nD) (i : Fin 4) : sProp 𝕄 := iprop(∃ f, (qB).view.loc (p : Thread nD τ) ↦[(qS i).view.set]{fullShare} f)
def slotKV (p : Dev nD) (i : Fin 4) : sProp 𝕄 := iprop(∃ f, (kvB).view.loc (p : Thread nD τ) ↦[(kvS i).view.set]{fullShare} f)
def slotPR (p : Dev nD) (i : Fin 4) : sProp 𝕄 := iprop(∃ f, (prB).view.loc (p : Thread nD τ) ↦[(prS i).view.set]{fullShare} f)

def barPay (c : Dev nD) (d : DD) : sProp 𝕄 :=
  if h : d.val < 3 then iprop(slotQ (cS c ⟨d.val, h⟩) (zF c) ∗ slotPR (cS c ⟨d.val, h⟩) (zF c))
  else if h' : d.val < 6 then slotKV (pS c ⟨d.val - 3, by omega⟩) (sF c)
  else iprop(emp)

def colD (j : Fin 3) : DD := ⟨j.val, by omega⟩
def plaD (j : Fin 3) : DD := ⟨j.val + 3, by omega⟩

def B (c : Dev nD) : BarSpec nD τ sig Unit DD (Elt F) ℕ UU ℕ where
  plane := {3, 4, 5}
  column := {0, 1, 2}
  disj := by decide
  plane_card := by decide
  column_card := by decide
  r := 0
  P := barPay c
  ph := fun i => (0, ⟨i.val + 6, by omega⟩)

def tB (p : Dev nD) (k : ℕ) : CellTallies nD τ sig Unit := tallyAt (barCell p) () k
def tD (p : Dev nD) (n : DmaSem sig) (k : ℕ) : CellTallies nD τ sig Unit := tallyAt (dmaCell p n) () k

section Owed
variable (c : Dev nD)
def O15 : CellTallies nD τ sig Unit := 0
def O14 : CellTallies nD τ sig Unit := O15 + tD (cP c 2) (pRecvSem (zF c)) NP
def O13 : CellTallies nD τ sig Unit := O14 c + tD (cP c 1) (pRecvSem (zF c)) NP
def O12 : CellTallies nD τ sig Unit := O13 c + tD (cP c 0) (pRecvSem (zF c)) NP
def O11 : CellTallies nD τ sig Unit := O12 c + tD (cP c 2) (qRecvSem (zF c)) NQ
def O10 : CellTallies nD τ sig Unit := O11 c + tD (cP c 1) (qRecvSem (zF c)) NQ
def O9 : CellTallies nD τ sig Unit := O10 c + tD (cP c 0) (qRecvSem (zF c)) NQ
def O8 : CellTallies nD τ sig Unit := O9 c + tD (pP c 2) (kvRecvSem (sF c)) NKV
def O7 : CellTallies nD τ sig Unit := O8 c + tD (pP c 0) (kvRecvSem (sF c)) NKV
def O6 : CellTallies nD τ sig Unit := O7 c + tD (pP c 1) (kvRecvSem (sF c)) NKV
def O5 : CellTallies nD τ sig Unit := O6 c + tB (pP c 2) 8
def O4 : CellTallies nD τ sig Unit := O5 c + tB (pP c 1) 8
def O3 : CellTallies nD τ sig Unit := O4 c + tB (pP c 0) 8
def O2 : CellTallies nD τ sig Unit := O3 c + tB (cP c 2) 1
def O1 : CellTallies nD τ sig Unit := O2 c + tB (cP c 1) 1
def O0 : CellTallies nD τ sig Unit := O1 c + tB (cP c 0) 1
end Owed

def L (g : GSem nD τ sig) : Finset Unit := if g.1.2 = .tc then {()} else ∅
def lv (g : GSem nD τ sig) (_ : Unit) : ℕ :=
  match g.2 with
  | .reg _ => 1
  | .dma n => if 7 ≤ n.val ∧ n.val ≤ 10 then 2 else if 14 ≤ n.val ∧ n.val ≤ 17 then 2 else if 21 ≤ n.val then 3 else 0

def sc (k : Fin 21) : DmaSem sig := ⟨k.val + 4, by have := k.isLt; show _ < 25; omega⟩

def records (K : Dev nD × Fin 22 → ℕ) : sProp 𝕄 :=
  iprop((bigSep Finset.univ fun c : Dev nD => barInv ER (B c) (K (c, 0)) (barCell c))
    ∗ (bigSep Finset.univ fun ck : Dev nD × Fin 21 => cellInv ER (Rd m) (K (ck.1, ck.2.succ)) (dmaCell ck.1 (sc ck.2)))
    ∗ bigSep Finset.univ fun ck : Dev nD × Fin 21 => reached ER (dmaCell ck.1 (sc ck.2)) 0)

def payToks (c : Dev nD) : sProp 𝕄 :=
  iprop((bigSep Finset.univ fun j : Fin 3 => dutyTok ER (barCell (cP c j)) 0 (colD j))
    ∗ (bigSep Finset.univ fun j : Fin 3 => dutyTok ER (barCell (pP c j)) 0 (plaD j))
    ∗ (bigSep Finset.univ fun j : Fin 3 => dutyTok ER (dmaCell (pP c j) (kvRecvSem (sF c))) 0 (0 : DD))
    ∗ (bigSep Finset.univ fun j : Fin 3 => dutyTok ER (dmaCell (cP c j) (qRecvSem (zF c))) 0 (0 : DD))
    ∗ (bigSep Finset.univ fun j : Fin 3 => dutyTok ER (dmaCell (cP c j) (pRecvSem (zF c))) 0 (0 : DD))
    ∗ (bigSep Finset.univ fun j : Fin 3 => dutyTok ER (dmaCell c (kvSendSem j)) 0 (0 : DD))
    ∗ (bigSep Finset.univ fun j : Fin 3 => dutyTok ER (dmaCell c (qSendSem j)) 0 (0 : DD))
    ∗ (bigSep Finset.univ fun j : Fin 3 => dutyTok ER (dmaCell c (pSendSem j)) 0 (0 : DD)))

def linear (c : Dev nD) : sProp 𝕄 :=
  iprop((bigSep Finset.univ fun k : Fin 21 => atPos ER (dmaCell c (sc k)) 0 ∅ 0) ∗ phTok ER (B c) (barCell c) 0 ∗ payToks c)

def ghost (K : Dev nD × Fin 22 → ℕ) (c : Dev nD) : sProp 𝕄 := iprop(records m K ∗ linear c)

def creds (c : Dev nD) : sProp 𝕄 :=
  iprop(cred (tB c 27)
    ∗ (bigSep Finset.univ fun j : Fin 3 => cred (tD c (qRecvSem (zF (cP c j))) NQ))
    ∗ (bigSep Finset.univ fun j : Fin 3 => cred (tD c (kvRecvSem (sF (pP c j))) NKV))
    ∗ (bigSep Finset.univ fun j : Fin 3 => cred (tD c (pRecvSem (zF (cP c j))) NP)))

def start (c : Dev nD) : sProp 𝕄 := iprop((∃ K, ghost m K c) ∗ creds c ∗ levAts L lv)

def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

def Φ₀ (c : Dev nD) : sProp 𝕄 := iprop(start m c ∗ scratch c)
def Φ₁ (c : Dev nD) : sProp 𝕄 := iprop(scratch c ∗ bigSep Finset.univ fun k : Fin 21 => semVal (dmaCell c (sc k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X0 m c
    | ⟨1, _⟩ => X1 m c
    | ⟨2, _⟩ => X2 m c
    | ⟨3, _⟩ => OUT m c
  Φ t := match t with
    | ⟨0, _⟩ => Φ₀ m c
    | ⟨_ + 1, _⟩ => Φ₁ c
  q _ := fullShare
  owed t := match t with
    | ⟨0, _⟩ => O0 c
    | ⟨_ + 1, _⟩ => 0

end Cert.KernelIdeal.Ghost

end
-- ==== Proof.BarCell.lean ====
import proofs.«900582_g7700000000000583_dist_ring_attn_i_s256_d64_v7x_i16_f32_1_alg».proof.Proof.BarDefs

noncomputable section

namespace Cert.BarCell

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.Util (total total_single)

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

namespace BarSpec

variable {B : BarSpec nD τ sig Ix D Val Name U Lvl}

theorem units_empty : B.units ∅ = 0 := Finset.sum_empty

theorem units_insert {L : Finset D} {d : D} (h : d ∉ L) : B.units (insert d L) = B.amt d + B.units L :=
  Finset.sum_insert h

theorem units_eq (L : Finset D) : B.units L = 8 * (L ∩ B.plane).card + (L \ B.plane).card := by
  unfold units amt
  rw [Finset.sum_ite, Finset.sum_const, Finset.sum_const, Finset.filter_mem_eq_inter, Finset.filter_notMem_eq_sdiff]
  simp [Nat.mul_comm]

theorem sdiff_plane_subset {L : Finset D} (hL : L ⊆ B.all) : L \ B.plane ⊆ B.column := fun d hd => by
  rcases Finset.mem_union.mp (hL (Finset.mem_sdiff.mp hd).1) with h | h
  · exact absurd h (Finset.mem_sdiff.mp hd).2
  · exact h

theorem plane_subset_of_le {L : Finset D} (hL : L ⊆ B.all) (h : 24 ≤ B.units L) : B.plane ⊆ L := by
  have h1 : (L ∩ B.plane).card ≤ 3 := B.plane_card ▸ Finset.card_le_card Finset.inter_subset_right
  have h2 : (L \ B.plane).card ≤ 3 := B.column_card ▸ Finset.card_le_card (sdiff_plane_subset hL)
  rw [units_eq] at h
  have h3 : B.plane.card ≤ (L ∩ B.plane).card := by rw [B.plane_card]; omega
  have h4 := Finset.eq_of_subset_of_card_le Finset.inter_subset_right h3
  exact fun d hd => (Finset.mem_inter.mp (h4 ▸ hd)).1

theorem all_of_le {L : Finset D} {v : ℕ} (hL : L ⊆ B.all) (hp : B.plane ⊆ L) (hv : v + 24 = B.units L) (h : 3 ≤ v) :
    L = B.all ∧ L \ B.plane = B.column ∧ v = 3 := by
  have h2 : (L \ B.plane).card ≤ 3 := B.column_card ▸ Finset.card_le_card (sdiff_plane_subset hL)
  rw [units_eq, Finset.inter_eq_right.mpr hp, B.plane_card] at hv
  have h3 : B.column.card ≤ (L \ B.plane).card := by rw [B.column_card]; omega
  have h4 := Finset.eq_of_subset_of_card_le (sdiff_plane_subset hL) h3
  refine ⟨Finset.Subset.antisymm hL (Finset.union_subset hp fun d hd => ?_), h4, by omega⟩
  exact (Finset.mem_sdiff.mp (h4 ▸ hd)).1

end BarSpec

section Defs

variable (E : Emb (URounds (GSem nD τ sig) D) (MT nD τ sig Ix Val Name U Lvl))
variable (B : BarSpec nD τ sig Ix D Val Name U Lvl)

theorem phTok_phTok_false {g : GSem nD τ sig} {i : Fin 3} : phTok E B g i ∗ phTok E B g i ⊢ (False : sProp 𝕄) :=
  dutyTok_dutyTok_false E

section State

variable {g : GSem nD τ sig}

theorem pay_insert {L : Finset D} {d : D} (h : d ∉ L) : iprop(B.P d ∗ bigSep L B.P) ⊢ bigSep (insert d L) B.P :=
  Entails.of_eq (bigSep_insert (Φ := B.P) h).symm

theorem pay_split {L T : Finset D} (h : T ⊆ L) : bigSep L B.P ⊢ iprop(bigSep T B.P ∗ bigSep (L \ T) B.P) :=
  Entails.of_eq (bigSep_sdiff_split h)

theorem barState_land {v : ℕ} {d : D} (hd : d ∈ B.all) :
    iprop(barState E B g v ∗ B.P d ∗ dutyTok E g B.r d) ⊢ barState E B g (v + B.amt d) := by
  unfold barState
  iintro ⟨⟨%L, HL, Hph⟩, Hpay, Htok⟩
  by_cases hL : d ∈ L
  · iexfalso
    ihave H := (bigSep_pick (Φ := fun d => dutyTok E g B.r d) hL) $$ HL
    icases H with ⟨H, -⟩
    iapply (dutyTok_dutyTok_false E)
    iframe Htok H
  iexists (insert d L)
  isplitl [HL Htok]
  · iapply (progress_insert E hL); isplitl [Htok] <;> iassumption
  icases Hph with (⟨H1, H2, %hf, HP⟩ | ⟨H0, H2, %hf, HP⟩ | ⟨H0, H1, %hf⟩)
  · ileft
    iframe H1 H2
    isplitr
    · ipureintro
      exact ⟨Finset.insert_subset hd hf.1, by rw [BarSpec.units_insert hL, hf.2, Nat.add_comm]⟩
    iapply (pay_insert B hL); isplitl [Hpay] <;> iassumption
  · iright; ileft
    have hdp : d ∉ B.plane := fun h => hL (hf.2.1 h)
    iframe H0 H2
    isplitr
    · ipureintro
      exact ⟨Finset.insert_subset hd hf.1, hf.2.1.trans (Finset.subset_insert _ _), by
        rw [BarSpec.units_insert hL, ← hf.2.2]; omega⟩
    rw [Finset.insert_sdiff_of_notMem _ hdp]
    iapply (pay_insert B (fun h => hL (Finset.mem_sdiff.mp h).1)); isplitl [Hpay] <;> iassumption
  · exact absurd (hf.1 ▸ hd) hL

theorem barState_wait24 {v : ℕ} (hl : 24 ≤ v) :
    iprop(barState E B g v ∗ phTok E B g 0) ⊢ iprop(barState E B g (v - 24) ∗ phTok E B g 1 ∗ bigSep B.plane B.P) := by
  unfold barState
  iintro ⟨⟨%L, HL, Hph⟩, H0⟩
  icases Hph with (⟨H1, H2, %hf, HP⟩ | ⟨H0', -⟩ | ⟨H0', -⟩)
  rotate_left
  · iexfalso; iapply (phTok_phTok_false E B (g := g) (i := 0)); isplitl [H0] <;> iassumption
  · iexfalso; iapply (phTok_phTok_false E B (g := g) (i := 0)); isplitl [H0] <;> iassumption
  obtain ⟨hLa, hv⟩ := hf
  have hp : B.plane ⊆ L := BarSpec.plane_subset_of_le hLa (hv ▸ hl)
  ihave HP' := (pay_split B hp) $$ HP
  icases HP' with ⟨Hpl, Hrest⟩
  isplitl [HL H0 H2 Hrest]
  · iexists L
    iframe HL
    iright; ileft
    iframe H0 H2
    isplitr; · ipureintro; exact ⟨hLa, hp, by omega⟩
    iexact Hrest
  iframe H1 Hpl

theorem barState_wait3 {v : ℕ} (hl : 3 ≤ v) :
    iprop(barState E B g v ∗ phTok E B g 1) ⊢ iprop(barState E B g (v - 3) ∗ phTok E B g 2 ∗ bigSep B.column B.P) := by
  unfold barState
  iintro ⟨⟨%L, HL, Hph⟩, H1⟩
  icases Hph with (⟨H1', -⟩ | ⟨H0, H2, %hf, HP⟩ | ⟨-, H1', -⟩)
  · iexfalso; iapply (phTok_phTok_false E B (g := g) (i := 1)); isplitl [H1] <;> iassumption
  rotate_left
  · iexfalso; iapply (phTok_phTok_false E B (g := g) (i := 1)); isplitl [H1] <;> iassumption
  obtain ⟨hLa, hp, hv⟩ := hf
  obtain ⟨hall, hcol, hv3⟩ := BarSpec.all_of_le hLa hp hv hl
  ihave HP' := (Entails.of_eq (congrArg (fun s => bigSep s B.P) hcol)) $$ HP
  isplitl [HL H0 H1]
  · iexists L
    iframe HL
    iright; iright
    iframe H0 H1
    ipureintro; exact ⟨hall, by omega⟩
  iframe H2 HP'

theorem barBody_intro (g : GSem nD τ sig) : iprop(semVal g 0 ∗ phTok E B g 1 ∗ phTok E B g 2) ⊢ barBody E B g := by
  unfold barBody barState
  iintro ⟨Hv, H1, H2⟩
  iexists 0
  iframe Hv
  iexists ∅
  simp only [bigSep_empty]
  isplitr; · iempintro
  ileft
  iframe H1 H2
  isplitr; · ipureintro; exact ⟨Finset.empty_subset _, BarSpec.units_empty.symm⟩
  iempintro

end State

section Inv

variable {g : GSem nD τ sig} {κ : Name}

instance barState_storable [E.LandsIn (upEmb : UEmb _ 𝕄)] [∀ d, Storable (upEmb : UEmb _ 𝕄) (B.P d)]
    (g : GSem nD τ sig) (v : ℕ) : Storable (upEmb : UEmb _ 𝕄) (barState E B g v) := by
  unfold barState phTok; infer_instance

instance barBody_storable [E.LandsIn (upEmb : UEmb _ 𝕄)] [∀ d, Storable (upEmb : UEmb _ 𝕄) (B.P d)]
    (g : GSem nD τ sig) : Storable (upEmb : UEmb _ 𝕄) (barBody E B g) := by
  unfold barBody; infer_instance

theorem bar_alloc [Preorder Lvl] [Infinite Name] [E.LandsIn (upEmb : UEmb _ 𝕄)] [∀ d, Storable (upEmb : UEmb _ 𝕄) (B.P d)]
    (g : GSem nD τ sig) {Es : Set Name} :
    iprop(semVal g 0 ∗ phTok E B g 1 ∗ phTok E B g 2) ⊢ iprop(|={Es}=> ∃ κ : Name, barInv E B κ g) :=
  (barBody_intro E B g).trans inv_alloc

variable [Preorder Lvl]

theorem bar_acc {Es : Set Name} (hE : κ ∈ Es) :
    barInv E B κ g ⊢ |={Es, Es \ {κ}}=>
      (barBody E B g ∗ (barBody E B g -∗ |={Es \ {κ}, Es}=> (emp : sProp 𝕄))) :=
  inv_acc hE

theorem bar_land_atomically {d : D} (hd : d ∈ B.all) :
    iprop(barInv E B κ g ∗ B.P d ∗ dutyTok E g B.r d)
      ⊢ atomically frame Set.univ (raiseSpec g (B.amt d)) (fun _ => iprop(emp)) := by
  iintro ⟨Hg, Hpay, Htok⟩
  imod (bar_acc E B (Set.mem_univ _)) $$ Hg with ⟨Hb, Hclose⟩
  unfold barBody
  icases Hb with ⟨%v, Hv, Hst⟩
  imodintro
  rw [raiseSpec_apply]
  iexists v
  iframe Hv
  iintro Hv
  ihave Hst := (barState_land E B hd) $$ [Hst Hpay Htok]
  · iframe Hst
    isplitl [Hpay] <;> iassumption
  ihave Hc := Hclose $$ [Hv Hst]
  · iexists (v + B.amt d)
    iframe Hv Hst
  imod Hc
  imodintro
  iexact Hc

theorem bar_land_held {d : D} (hd : d ∈ B.all) :
    iprop(barInv E B κ g ∗ B.P d ∗ dutyTok E g B.r d) ⊢ landingUpdate g (B.amt d) iprop(emp) := by
  rw [landingUpdate_def]
  iintro H -
  iapply (bar_land_atomically E B hd) $$ H

theorem bar_open_wait (k' : ℕ) {Es : Set Name} (hE : κ ∈ Es)
    {X Y : sProp 𝕄} {K' : PUnit → sProp 𝕄}
    (h : ∀ v, k' ≤ v → iprop(barState E B g v ∗ X) ⊢ iprop(barState E B g (v - k') ∗ Y)) :
    iprop(barInv E B κ g ∗ X ∗ (Y -∗ K' ⟨⟩)) ⊢ atomically frame Es (lowerSpec g k') K' := by
  iintro ⟨Hg, HX, Hk⟩
  imod (bar_acc E B hE) $$ Hg with ⟨Hb, Hclose⟩
  unfold barBody
  icases Hb with ⟨%v, Hv, Hst⟩
  imodintro
  iapply lowerSpec_intro $$ Hv
  iintro %hle Hv
  ihave H := (h v hle) $$ [Hst HX]
  · isplitl [Hst] <;> iassumption
  icases H with ⟨Hst, HY⟩
  ihave Hc := Hclose $$ [Hv Hst]
  · iexists (v - k')
    iframe Hv Hst
  imod Hc
  imodintro
  iapply Hk $$ HY

end Inv

end Defs

section Rules

variable [Preorder Lvl] {defs : Defs nD τ sig Val Λ} (𝒱 : Variants)
variable (E : Emb (URounds (GSem nD τ sig) D) (MT nD τ sig Ix Val Name U Lvl)) (B : BarSpec nD τ sig Ix D Val Name U Lvl)
variable (c : Thread nD τ) (bd : Option 𝒱.V) {Γ : PendingWaitsCtx sig Ix}
variable {α : Type} {Q : α → sProp (MT nD τ sig Ix Val Name U Lvl)}

theorem wp_bar_signal {dst : Thread nD τ} {sem : Sem sig} {d : D} {k' : ℕ}
    {k : PUnit → Prog (TpuEff nD τ sig Val Λ c.2) α}
    {κ : Name} (hd : d ∈ B.all)
    (hk : B.amt d = k') (ι : Ix) {O₀ : CellTallies nD τ sig Ix} (O : CellTallies nD τ sig Ix)
    (hO : O₀ = O + tallyAt (dst, .reg sem) ι k') {W : Waits sig Ix} {Es : Set Name} (hr : τ.routes c dst = true := by routes) :
    iprop(barInv E B κ (dst, .reg sem) ∗ owes c O₀ W ∗ dutyTok E (dst, .reg sem) B.r d ∗ B.P d)
      ⊢ iprop((owes c O W -∗ wp frame (wpE' defs 𝒱 c bd Γ) Es (k ⟨⟩) Q)
          -∗ wp frame (wpE' defs 𝒱 c bd Γ) Es (.op (.semSignal dst sem k') k) Q) := by
  subst hk
  iintro ⟨Hg, HL, Htok, Hpay⟩ Hk
  iapply (Idealize.ShloMosaic.wp_semSignal 𝒱 c bd Es ι O hO hr) $$ HL [Hg Htok Hpay]
  · iapply (bar_land_held E B hd)
    iframe Hg
    isplitl [Hpay] <;> iassumption
  iexact Hk

-- Plane peers signal 8 and column peers 1; the column signals sum to 3, so a wait for 24 is paid by the three plane signals.
theorem wp_bar_wait24 {w : TpuEff nD τ sig Val Λ c.2 PUnit} {sm : SemLoc sig} {Es : Set Name}
    {κ : Name} (hw : ∀ K : PUnit → sProp 𝕄, wpE' defs 𝒱 c bd Γ Es w K = waitSpec c Es sm 24 K) (hE : κ ∈ Es)
    {k : PUnit → Prog (TpuEff nD τ sig Val Λ c.2) α}
    {cr : Ix →₀ ℕ} {O : CellTallies nD τ sig Ix} {W : Waits sig Ix} (N : Waits sig Ix)
    (htot : total cr = 24) (hN : cr.support.image (sm, ·) ⊆ N) :
    iprop(barInv E B κ (c, sm) ∗ cred (tallyOn (c, sm) cr) ∗ owes c O W ∗ MayOwe c N O ∗ phTok E B (c, sm) 0)
      ⊢ iprop(((owes c O (W ∪ N) ∗ phTok E B (c, sm) 1 ∗ bigSep B.plane B.P)
            -∗ wp frame (wpE' defs 𝒱 c bd Γ) Es (k ⟨⟩) Q)
          -∗ wp frame (wpE' defs 𝒱 c bd Γ) Es (.op w k) Q) := by
  iintro ⟨Hg, Hc, HL, Hlev, Hph⟩ Hk
  iapply (Idealize.ShloMosaic.wp_wait 𝒱 c bd Es hw N htot hN) $$ [Hc HL Hlev]
  · iframe Hc
    isplitl [HL] <;> iassumption
  iapply (bar_open_wait E B 24 hE (X := phTok E B (c, sm) 0)
    (Y := iprop(phTok E B (c, sm) 1 ∗ bigSep B.plane B.P)) (fun v hl => barState_wait24 E B hl))
  iframe Hg Hph
  iintro ⟨H1, Hpay⟩ HL
  iapply Hk
  iframe HL
  isplitl [H1] <;> iassumption

theorem wp_bar_wait3 {w : TpuEff nD τ sig Val Λ c.2 PUnit} {sm : SemLoc sig} {Es : Set Name}
    {κ : Name} (hw : ∀ K : PUnit → sProp 𝕄, wpE' defs 𝒱 c bd Γ Es w K = waitSpec c Es sm 3 K) (hE : κ ∈ Es)
    {k : PUnit → Prog (TpuEff nD τ sig Val Λ c.2) α}
    {cr : Ix →₀ ℕ} {O : CellTallies nD τ sig Ix} {W : Waits sig Ix} (N : Waits sig Ix)
    (htot : total cr = 3) (hN : cr.support.image (sm, ·) ⊆ N) :
    iprop(barInv E B κ (c, sm) ∗ cred (tallyOn (c, sm) cr) ∗ owes c O W ∗ MayOwe c N O ∗ phTok E B (c, sm) 1)
      ⊢ iprop(((owes c O (W ∪ N) ∗ phTok E B (c, sm) 2 ∗ bigSep B.column B.P)
            -∗ wp frame (wpE' defs 𝒱 c bd Γ) Es (k ⟨⟩) Q)
          -∗ wp frame (wpE' defs 𝒱 c bd Γ) Es (.op w k) Q) := by
  iintro ⟨Hg, Hc, HL, Hlev, Hph⟩ Hk
  iapply (Idealize.ShloMosaic.wp_wait 𝒱 c bd Es hw N htot hN) $$ [Hc HL Hlev]
  · iframe Hc
    isplitl [HL] <;> iassumption
  iapply (bar_open_wait E B 3 hE (X := phTok E B (c, sm) 1)
    (Y := iprop(phTok E B (c, sm) 2 ∗ bigSep B.column B.P)) (fun v hl => barState_wait3 E B hl))
  iframe Hg Hph
  iintro ⟨H2, Hpay⟩ HL
  iapply Hk
  iframe HL
  isplitl [H2] <;> iassumption

theorem wp_bar_wait24_token {w : TpuEff nD τ sig Val Λ c.2 PUnit} {sm : SemLoc sig} {Es : Set Name}
    {κ : Name} (hw : ∀ K : PUnit → sProp 𝕄, wpE' defs 𝒱 c bd Γ Es w K = waitSpec c Es sm 24 K) (hE : κ ∈ Es)
    {k : PUnit → Prog (TpuEff nD τ sig Val Λ c.2) α} (ι : Ix) {O : CellTallies nD τ sig Ix} {W : Waits sig Ix} :
    iprop(barInv E B κ (c, sm) ∗ cred (tallyAt (c, sm) ι 24) ∗ owes c O W ∗ MayWait c sm ι O ∗ phTok E B (c, sm) 0)
      ⊢ iprop(((owes c O (insert (sm, ι) W) ∗ phTok E B (c, sm) 1 ∗ bigSep B.plane B.P)
            -∗ wp frame (wpE' defs 𝒱 c bd Γ) Es (k ⟨⟩) Q)
          -∗ wp frame (wpE' defs 𝒱 c bd Γ) Es (.op w k) Q) := by
  rw [Finset.insert_eq, Finset.union_comm]
  exact wp_bar_wait24 𝒱 E B c bd hw hE {(sm, ι)} (cr := Finsupp.single ι 24) (by rw [total_single])
    (image_single_subset sm ι 24)

theorem wp_bar_wait3_token {w : TpuEff nD τ sig Val Λ c.2 PUnit} {sm : SemLoc sig} {Es : Set Name}
    {κ : Name} (hw : ∀ K : PUnit → sProp 𝕄, wpE' defs 𝒱 c bd Γ Es w K = waitSpec c Es sm 3 K) (hE : κ ∈ Es)
    {k : PUnit → Prog (TpuEff nD τ sig Val Λ c.2) α} (ι : Ix) {O : CellTallies nD τ sig Ix} {W : Waits sig Ix} :
    iprop(barInv E B κ (c, sm) ∗ cred (tallyAt (c, sm) ι 3) ∗ owes c O W ∗ MayWait c sm ι O ∗ phTok E B (c, sm) 1)
      ⊢ iprop(((owes c O (insert (sm, ι) W) ∗ phTok E B (c, sm) 2 ∗ bigSep B.column B.P)
            -∗ wp frame (wpE' defs 𝒱 c bd Γ) Es (k ⟨⟩) Q)
          -∗ wp frame (wpE' defs 𝒱 c bd Γ) Es (.op w k) Q) := by
  rw [Finset.insert_eq, Finset.union_comm]
  exact wp_bar_wait3 𝒱 E B c bd hw hE {(sm, ι)} (cr := Finsupp.single ι 3) (by rw [total_single])
    (image_single_subset sm ι 3)

end Rules

end Cert.BarCell

end
-- ==== Proof.LibDeal.lean ====
import Idealize.ShloMosaic.Lib.Pipeline.Launch
import Idealize.ShloMosaic.Lib.Tactic

noncomputable section

namespace Cert.LibDeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section BigOp

universe u
variable {M : Type u} [URA M]

theorem bigSep_pick {I J : Type} [Fintype I] [Fintype J] [DecidableEq J] (f : I → J) (hf : Function.Injective f)
    (Φ : J → sProp M) : bigSep Finset.univ Φ ⊢ bigSep Finset.univ fun i => Φ (f i) := by
  have e : bigSep ((Finset.univ : Finset I).map ⟨f, hf⟩) Φ = bigSep Finset.univ fun i => Φ (f i) := bigSep_map ⟨f, hf⟩
  rw [← e]
  exact bigSep_subset (Finset.subset_univ _)

theorem bigSep_deal {α J : Type} [Fintype α] [Fintype J] (e : J → α ≃ α) (Φ : α → J → sProp M) :
    (bigSep Finset.univ fun c => bigSep Finset.univ fun j => Φ c j)
      = bigSep Finset.univ fun c => bigSep Finset.univ fun j => Φ (e j c) j := by
  rw [bigSep_univ_comm Φ, bigSep_univ_comm (fun c j => Φ (e j c) j)]
  exact bigSep_congr fun j _ => bigSep_univ_equiv (e j) (fun c => Φ c j)

theorem bigSep_deal_fn {α J : Type} [Fintype α] [Fintype J] (f finv : J → α → α) (h1 : ∀ j c, f j (finv j c) = c)
    (h2 : ∀ j c, finv j (f j c) = c) (Φ : α → J → sProp M) :
    (bigSep Finset.univ fun c => bigSep Finset.univ fun j => Φ c j)
      = bigSep Finset.univ fun c => bigSep Finset.univ fun j => Φ (f j c) j :=
  bigSep_deal (fun j => ⟨f j, finv j, h2 j, h1 j⟩) Φ

end BigOp

section Credit

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem launchCred_tallyAt_dep (sm : Dev nD → SemLoc sig) (f finv : Dev nD → Dev nD) (h1 : ∀ c, f (finv c) = c)
    (h2 : ∀ d, finv (f d) = d) (ι : Ix) (n : ℕ) (c : Dev nD) :
    (Pipeline.launchCred (fun d => tallyAt (((f d).tc : Thread nD τ), sm d) ι n) c : sProp 𝕄)
      ⊢ cred (tallyAt ((c.tc : Thread nD τ), sm (finv c)) ι n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d).tc : Thread nD τ), sm d) (Finsupp.single ι n) ((c.tc : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

end Credit

end Cert.LibDeal

end
-- ==== Proof.Launch.lean ====
import proofs.«900582_g7700000000000583_dist_ring_attn_i_s256_d64_v7x_i16_f32_1_alg».proof.Proof.Ghost
import proofs.«900582_g7700000000000583_dist_ring_attn_i_s256_d64_v7x_i16_f32_1_alg».proof.Proof.BarCell
import proofs.«900582_g7700000000000583_dist_ring_attn_i_s256_d64_v7x_i16_f32_1_alg».proof.Proof.LibDeal

noncomputable section

namespace Cert.KernelIdeal.LaunchProof

open Cert.KernelIdeal Cert.KernelIdeal.Gen Cert.KernelIdeal.Mesh Cert.KernelIdeal.Cells Cert.KernelIdeal.Contents
open Cert.KernelIdeal.Sched Cert.KernelIdeal.Ghost
open Cert.BarCell Cert.LibDeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 21 → SemLoc sig := fun k => .dma (sc k)

theorem ownSemFacts : Pipeline.OwnSemFacts cfg0.spec osem := by decide

theorem share_eq (c : Dev nD) (w : Fin cfg0.W) : (dats m ρ 0 c).share w = fullShare := by unfold Dat.share; split <;> rfl

abbrev kcell (ck : Dev nD × Fin 21) : GSem nD τ sig := dmaCell ck.1 (sc ck.2)

theorem sc_injective : Function.Injective sc := fun a b h => Fin.ext (by
  have h' : a.val + 4 = b.val + 4 := congrArg Fin.val h
  omega)

theorem kcell_injective : Function.Injective (kcell : Dev nD × Fin 21 → GSem nD τ sig) := by
  rintro ⟨c, k⟩ ⟨c', k'⟩ h
  have h1 : c = c' := congrArg (fun g : GSem nD τ sig => g.1.1) h
  subst h1
  have h2 : (SemLoc.dma (sc k) : SemLoc sig) = .dma (sc k') := congrArg Prod.snd h
  have h3 : sc k = sc k' := by injection h2
  rw [sc_injective h3]

def ringCells : Finset (GSem nD τ sig) := Finset.univ.map ⟨kcell, kcell_injective⟩

abbrev TokIx : Type := Fin 3 ⊕ Fin 4 ⊕ Fin 3 ⊕ Fin 4 ⊕ Fin 3 ⊕ Fin 4 ⊕ Fin 9

abbrev tokSem : TokIx → SemLoc sig
  | .inl j => .dma (qSendSem j)
  | .inr (.inl i) => .dma (qRecvSem i)
  | .inr (.inr (.inl j)) => .dma (kvSendSem j)
  | .inr (.inr (.inr (.inl i))) => .dma (kvRecvSem i)
  | .inr (.inr (.inr (.inr (.inl j)))) => .dma (pSendSem j)
  | .inr (.inr (.inr (.inr (.inr (.inl i))))) => .dma (pRecvSem i)
  | .inr (.inr (.inr (.inr (.inr (.inr _))))) => .reg barS

abbrev tokDuty : TokIx → DD
  | .inr (.inr (.inr (.inr (.inr (.inr d))))) => d
  | _ => 0

theorem tokIn_injective : Function.Injective (fun x : TokIx => ((tokSem x, tokDuty x) : SemLoc sig × DD)) := by
  decide +kernel

abbrev tokOf (cx : Dev nD × TokIx) : GSem nD τ sig × ℕ × DD := (((cx.1 : Thread nD τ), tokSem cx.2), 0, tokDuty cx.2)

theorem tokOf_injective : Function.Injective (tokOf : Dev nD × TokIx → GSem nD τ sig × ℕ × DD) := by
  rintro ⟨c, x⟩ ⟨c', x'⟩ h
  have h1 : c = c' := congrArg (fun t : GSem nD τ sig × ℕ × DD => t.1.1.1) h
  subst h1
  have h2 : ((tokSem x, tokDuty x) : SemLoc sig × DD) = (tokSem x', tokDuty x') :=
    congrArg (fun t : GSem nD τ sig × ℕ × DD => (t.1.2, t.2.2)) h
  rw [tokIn_injective h2]

def ringToks : Finset (GSem nD τ sig × ℕ × DD) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun x : TokIx => dutyTok ER ((c : Thread nD τ), tokSem x) 0 (tokDuty x)

def own (c : Dev nD) : sProp 𝕄 :=
  iprop((bigSep Finset.univ fun j : Fin 3 => (dutyTok ER (dmaCell c (qSendSem j)) 0 (0 : DD) : sProp 𝕄))
    ∗ (bigSep Finset.univ fun i : Fin 4 => (dutyTok ER (dmaCell c (qRecvSem i)) 0 (0 : DD) : sProp 𝕄))
    ∗ (bigSep Finset.univ fun j : Fin 3 => (dutyTok ER (dmaCell c (kvSendSem j)) 0 (0 : DD) : sProp 𝕄))
    ∗ (bigSep Finset.univ fun i : Fin 4 => (dutyTok ER (dmaCell c (kvRecvSem i)) 0 (0 : DD) : sProp 𝕄))
    ∗ (bigSep Finset.univ fun j : Fin 3 => (dutyTok ER (dmaCell c (pSendSem j)) 0 (0 : DD) : sProp 𝕄))
    ∗ (bigSep Finset.univ fun i : Fin 4 => (dutyTok ER (dmaCell c (pRecvSem i)) 0 (0 : DD) : sProp 𝕄))
    ∗ (bigSep Finset.univ fun j : Fin 3 => (dutyTok ER (barCell c) 0 (colD j) : sProp 𝕄))
    ∗ (bigSep Finset.univ fun j : Fin 3 => (dutyTok ER (barCell c) 0 (plaD j) : sProp 𝕄))
    ∗ phTok ER (B c) (barCell c) 0 ∗ phTok ER (B c) (barCell c) 1 ∗ phTok ER (B c) (barCell c) 2)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem bigSep_univ_sum' {A C : Type} [Fintype A] [Fintype C] (Φ : A ⊕ C → sProp 𝕄) :
    bigSep Finset.univ Φ = iprop((bigSep Finset.univ fun a => Φ (.inl a)) ∗ bigSep Finset.univ fun b => Φ (.inr b)) :=
  bigSep_univ_sum Φ

theorem ph0_eq (c : Dev nD) : (phTok ER (B c) (barCell c) 0 : sProp 𝕄) = dutyTok ER (barCell c) 0 (6 : DD) := rfl
theorem ph1_eq (c : Dev nD) : (phTok ER (B c) (barCell c) 1 : sProp 𝕄) = dutyTok ER (barCell c) 0 (7 : DD) := rfl
theorem ph2_eq (c : Dev nD) : (phTok ER (B c) (barCell c) 2 : sProp 𝕄) = dutyTok ER (barCell c) 0 (8 : DD) := rfl

theorem toks_own (c : Dev nD) : toks (F := F) c ⊢ own c := by
  unfold toks own
  rw [ph0_eq, ph1_eq, ph2_eq, bigSep_fin3 (fun j => (dutyTok ER (barCell c) 0 (colD j) : sProp 𝕄)), bigSep_fin3 (fun j => (dutyTok ER (barCell c) 0 (plaD j) : sProp 𝕄)),
    bigSep_univ_sum', bigSep_univ_sum', bigSep_univ_sum', bigSep_univ_sum', bigSep_univ_sum', bigSep_univ_sum', bigSep_fin9]
  iintro ⟨H1, H2, H3, H4, H5, H6, B0, B1, B2, B3, B4, B5, B6, B7, B8⟩
  iframe H1 H2 H3 H4 H5 H6
  isplitl [B0 B1 B2]
  · isplitl [B0]; · iexact B0
    isplitl [B1]; · iexact B1
    iexact B2
  isplitl [B3 B4 B5]
  · isplitl [B3]; · iexact B3
    isplitl [B4]; · iexact B4
    iexact B5
  iframe B6 B7 B8

theorem toks_own_all : (bigSep Finset.univ fun c : Dev nD => (toks c : sProp 𝕄)) ⊢ bigSep Finset.univ fun c : Dev nD => (own c : sProp 𝕄) :=
  bigSep_mono fun c _ => toks_own c

theorem cP_cS (j : Fin 3) (c : Dev nD) : cP (cS c j) j = c := by
  unfold cP cS; exact colPeer_colPeer c (dn j) (up j) (by revert j; decide)
theorem cS_cP (j : Fin 3) (c : Dev nD) : cS (cP c j) j = c := by
  unfold cP cS; exact colPeer_colPeer c (up j) (dn j) (by revert j; decide)
theorem pP_pS (j : Fin 3) (c : Dev nD) : pP (pS c j) j = c := by
  unfold pP pS; exact planePeer_planePeer c (dn j) (up j) (by revert j; decide)
theorem pS_pP (j : Fin 3) (c : Dev nD) : pS (pP c j) j = c := by
  unfold pP pS; exact planePeer_planePeer c (up j) (dn j) (by revert j; decide)

theorem zF_cS_injective (c : Dev nD) : Function.Injective fun j : Fin 3 => zF (cS c j) := by revert c; decide
theorem sF_pS_injective (c : Dev nD) : Function.Injective fun j : Fin 3 => sF (pS c j) := by revert c; decide

theorem deal_col (Φ : Dev nD → Fin 3 → sProp 𝕄) :
    (bigSep Finset.univ fun c => bigSep Finset.univ fun j => Φ c j)
      = bigSep Finset.univ fun c => bigSep Finset.univ fun j => Φ (cP c j) j :=
  bigSep_deal_fn (fun j c => cP c j) (fun j c => cS c j) cP_cS cS_cP Φ
theorem deal_pla (Φ : Dev nD → Fin 3 → sProp 𝕄) :
    (bigSep Finset.univ fun c => bigSep Finset.univ fun j => Φ c j)
      = bigSep Finset.univ fun c => bigSep Finset.univ fun j => Φ (pP c j) j :=
  bigSep_deal_fn (fun j c => pP c j) (fun j c => pS c j) pP_pS pS_pP Φ

theorem deal_col_recv (sem : Fin 4 → DmaSem sig) :
    (bigSep Finset.univ fun c : Dev nD => bigSep Finset.univ fun i : Fin 4 => (dutyTok ER (dmaCell c (sem i)) 0 (0 : DD) : sProp 𝕄))
      ⊢ bigSep Finset.univ fun c : Dev nD => bigSep Finset.univ fun j : Fin 3 => (dutyTok ER (dmaCell (cP c j) (sem (zF c))) 0 (0 : DD) : sProp 𝕄) := by
  refine (bigSep_mono fun c _ => bigSep_pick (fun j : Fin 3 => zF (cS c j)) (zF_cS_injective c)
    (fun i => (dutyTok ER (dmaCell c (sem i)) 0 (0 : DD) : sProp 𝕄))).trans ?_
  refine (Entails.of_eq (deal_col (fun c j => (dutyTok ER (dmaCell c (sem (zF (cS c j)))) 0 (0 : DD) : sProp 𝕄)))).trans ?_
  refine Entails.of_eq (bigSep_congr fun c _ => bigSep_congr fun j _ => ?_)
  show (dutyTok ER (dmaCell (cP c j) (sem (zF (cS (cP c j) j)))) 0 (0 : DD) : sProp 𝕄) = (dutyTok ER (dmaCell (cP c j) (sem (zF c))) 0 (0 : DD) : sProp 𝕄)
  rw [cS_cP]

theorem deal_pla_recv (sem : Fin 4 → DmaSem sig) :
    (bigSep Finset.univ fun c : Dev nD => bigSep Finset.univ fun i : Fin 4 => (dutyTok ER (dmaCell c (sem i)) 0 (0 : DD) : sProp 𝕄))
      ⊢ bigSep Finset.univ fun c : Dev nD => bigSep Finset.univ fun j : Fin 3 => (dutyTok ER (dmaCell (pP c j) (sem (sF c))) 0 (0 : DD) : sProp 𝕄) := by
  refine (bigSep_mono fun c _ => bigSep_pick (fun j : Fin 3 => sF (pS c j)) (sF_pS_injective c)
    (fun i => (dutyTok ER (dmaCell c (sem i)) 0 (0 : DD) : sProp 𝕄))).trans ?_
  refine (Entails.of_eq (deal_pla (fun c j => (dutyTok ER (dmaCell c (sem (sF (pS c j)))) 0 (0 : DD) : sProp 𝕄)))).trans ?_
  refine Entails.of_eq (bigSep_congr fun c _ => bigSep_congr fun j _ => ?_)
  show (dutyTok ER (dmaCell (pP c j) (sem (sF (pS (pP c j) j)))) 0 (0 : DD) : sProp 𝕄) = (dutyTok ER (dmaCell (pP c j) (sem (sF c))) 0 (0 : DD) : sProp 𝕄)
  rw [pS_pP]

theorem toks_around : (bigSep Finset.univ fun c : Dev nD => (own c : sProp 𝕄))
    ⊢ iprop(((bigSep Finset.univ fun c : Dev nD => phTok ER (B c) (barCell c) 0)
        ∗ (bigSep Finset.univ fun c : Dev nD => phTok ER (B c) (barCell c) 1)
        ∗ (bigSep Finset.univ fun c : Dev nD => phTok ER (B c) (barCell c) 2))
      ∗ bigSep Finset.univ fun c : Dev nD => (payToks c : sProp 𝕄)) := by
  unfold own payToks
  simp only [bigSep_sep']
  iintro ⟨Hqs, Hqr, Hkvs, Hkvr, Hps, Hpr, Hcol, Hpla, H0, H1, H2⟩
  isplitl [H0 H1 H2]
  · iframe H0 H1 H2
  isplitl [Hcol]
  · iapply (Entails.of_eq (deal_col fun c j => (dutyTok ER (barCell c) 0 (colD j) : sProp 𝕄))); iexact Hcol
  isplitl [Hpla]
  · iapply (Entails.of_eq (deal_pla fun c j => (dutyTok ER (barCell c) 0 (plaD j) : sProp 𝕄))); iexact Hpla
  isplitl [Hkvr]; · iapply (deal_pla_recv kvRecvSem); iexact Hkvr
  isplitl [Hqr]; · iapply (deal_col_recv qRecvSem); iexact Hqr
  isplitl [Hpr]; · iapply (deal_col_recv pRecvSem); iexact Hpr
  iframe Hkvs Hqs Hps

def G (c : Dev nD) : sProp 𝕄 :=
  iprop((bigSep Finset.univ fun k : Fin 21 => roundState ER (Rd m) (kcell (c, k)) 0)
    ∗ (bigSep Finset.univ fun k : Fin 21 => iprop(atPos ER (kcell (c, k)) 0 ∅ 0 ∗ reached ER (kcell (c, k)) 0))
    ∗ (phTok ER (B c) (barCell c) 0 ∗ phTok ER (B c) (barCell c) 1 ∗ phTok ER (B c) (barCell c) 2) ∗ payToks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htk := (Entails.of_eq hT) $$ [Htok]; · iexact Htok
  ihave Hown := (toks_own_all (F := F)) $$ [Htk]; · iexact Htk
  ihave Hpay := (toks_around (F := F)) $$ [Hown]; · iexact Hown
  unfold G; simp only [bigSep_sep']
  iframe Hst'
  isplitl [Hat' Hr']
  · isplitl [Hat'] <;> iassumption
  iexact Hpay

instance Rd_payload_storable (g : GSem nD τ sig) (r : ℕ) (d : DD) :
    BI.Storable (upEmb : UEmb _ 𝕄) ((Rd (F := F) m).payload g r d) := by
  show BI.Storable upEmb (match g.2 with | .dma n => payD m g.1.1 n | _ => iprop(emp))
  split
  · unfold payD ptQ ptKV ptPS ptPR; (repeat' split) <;> infer_instance
  · infer_instance

theorem exPts_storable {ℓ : Loc nD τ sig} (S : Finset (Idx ℓ)) :
    BI.Storable (upEmb : UEmb _ 𝕄) (iprop(∃ f : Buf (Elt F) ℓ, ℓ ↦[S]{fullShare} f) : sProp 𝕄) := by infer_instance

instance slotQ_storable (p : Dev nD) (i : Fin 4) : BI.Storable (upEmb : UEmb _ 𝕄) (slotQ (F := F) p i) := exPts_storable _
instance slotKV_storable (p : Dev nD) (i : Fin 4) : BI.Storable (upEmb : UEmb _ 𝕄) (slotKV (F := F) p i) := exPts_storable _
instance slotPR_storable (p : Dev nD) (i : Fin 4) : BI.Storable (upEmb : UEmb _ 𝕄) (slotPR (F := F) p i) := exPts_storable _

instance barPay_storable (c : Dev nD) (d : DD) : BI.Storable (upEmb : UEmb _ 𝕄) ((B (F := F) c).P d) := by
  show BI.Storable upEmb (barPay c d)
  unfold barPay
  split
  · infer_instance
  · split <;> infer_instance

theorem unscopedSems0_eq (c : Dev nD) : (unscopedSems0 c : sProp 𝕄) = semVal (barCell c) 0 := by
  unfold unscopedSems0; rw [bigSep_eq_bigSepL_of_eq [SemLoc.reg barS] (by decide) (by decide)]; rfl

def kept (c : Dev nD) : sProp 𝕄 :=
  iprop((bigSep Finset.univ fun k : Fin 21 => iprop(atPos ER (kcell (c, k)) 0 ∅ 0 ∗ reached ER (kcell (c, k)) 0))
    ∗ phTok ER (B c) (barCell c) 0 ∗ payToks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((∃ κ : ℕ, barInv ER (B c) κ (barCell c))
          ∗ (bigSep Finset.univ fun k : Fin 21 => iprop(∃ κ : ℕ, cellInv ER (Rd m) κ (kcell (c, k)))) ∗ kept c) := by
  unfold G kept
  rw [unscopedSems0_eq, show (Pipeline.ownSems0 (Ix := Unit) (Name := ℕ) (U := UU) (Lvl := ℕ) (Val := Elt F) (τ := τ) osem c : sProp 𝕄)
    = bigSep Finset.univ fun k : Fin 21 => semVal (kcell (c, k)) 0 from rfl]
  iintro ⟨Hos, Hus, Hst, Hat, ⟨H0, H1, H2⟩, Hpay⟩
  imod (bar_alloc ER (B c) (barCell c) (Es := Set.univ)) $$ [Hus H1 H2] with HB
  · iframe Hus
    isplitl [H1] <;> iassumption
  imod (show iprop((bigSep Finset.univ fun k : Fin 21 => semVal (kcell (c, k)) 0) ∗ bigSep Finset.univ fun k : Fin 21 => roundState ER (Rd m) (kcell (c, k)) 0)
      ⊢ (|={Set.univ}=> bigSep Finset.univ fun k : Fin 21 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hos Hst] with Hinv
  · iframe Hos Hst
  imodintro
  iframe HB Hinv Hat H0 Hpay

def names (K0 : Dev nD → ℕ) (K1 : Dev nD × Fin 21 → ℕ) : Dev nD × Fin 22 → ℕ :=
  fun ci => Fin.cases (K0 ci.1) (fun k => K1 (ci.1, k)) ci.2

theorem names_succ (K0 : Dev nD → ℕ) (K1 : Dev nD × Fin 21 → ℕ) (ck : Dev nD × Fin 21) : names K0 K1 (ck.1, ck.2.succ) = K1 ck := by
  unfold names; exact Fin.cases_succ _

instance records_persistent (K : Dev nD × Fin 22 → ℕ) : BI.Persistent (records (F := F) m K) := by unfold records; infer_instance

theorem ghost_intro (K : Dev nD × Fin 22 → ℕ) (c : Dev nD) : iprop(records m K ∗ linear c) ⊢ G' m c := by
  unfold G' ghost
  iintro H; iexists K; iexact H

theorem regroup :
    (bigSep Finset.univ fun c : Dev nD => iprop((∃ κ : ℕ, barInv ER (B c) κ (barCell c))
          ∗ (bigSep Finset.univ fun k : Fin 21 => iprop(∃ κ : ℕ, cellInv ER (Rd m) κ (kcell (c, k)))) ∗ kept c) : sProp 𝕄)
      ⊢ bigSep Finset.univ (G' m) := by
  unfold kept
  rw [bigSep_sep', bigSep_sep', ← bigSep_univ_prod (fun ck : Dev nD × Fin 21 => iprop(∃ κ : ℕ, cellInv ER (Rd m) κ (kcell ck))),
    bigSep_sep',
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄)), bigSep_sep']
  iintro ⟨HB, HI, ⟨Hat, #HR⟩, Hph, Hpay⟩
  ihave HKb := (BI.bigSep_exists_pi Finset.univ (fun (c : Dev nD) (κ : ℕ) => (barInv ER (B c) κ (barCell c) : sProp 𝕄))) $$ HB
  icases HKb with ⟨%K0, #HB⟩
  ihave HKi := (BI.bigSep_exists_pi Finset.univ (fun (ck : Dev nD × Fin 21) (κ : ℕ) => (cellInv ER (Rd m) κ (kcell ck) : sProp 𝕄))) $$ HI
  icases HKi with ⟨%K1, #HI⟩
  iapply (bigSep_with_persistent (R := records m (names K0 K1)) fun c _ => ghost_intro m (names K0 K1) c)
  isplitr
  · unfold records
    isplitl; · iexact HB
    isplitl
    · iapply (Entails.of_eq (bigSep_congr (s := Finset.univ) fun (ck : Dev nD × Fin 21) _ =>
        show (cellInv ER (Rd m) (K1 ck) (kcell ck) : sProp 𝕄) = cellInv ER (Rd m) (names K0 K1 (ck.1, ck.2.succ)) (dmaCell ck.1 (sc ck.2)) from by rw [names_succ]))
      iexact HI
    iexact HR
  · unfold linear
    simp only [bigSep_sep']
    iframe Hat Hph Hpay

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem lc_col_bar (n : ℕ) (j : Fin 3) (c : Dev nD) : (Pipeline.launchCred (fun d : Dev nD => tB (cP d j) n) c : sProp 𝕄) ⊢ cred (tB c n) :=
  Pipeline.launchCred_tallyAt (.reg barS) (fun d => cP d j) (fun c => cS c j) (cP_cS j) (cS_cP j) () n c
theorem lc_pla_bar (n : ℕ) (j : Fin 3) (c : Dev nD) : (Pipeline.launchCred (fun d : Dev nD => tB (pP d j) n) c : sProp 𝕄) ⊢ cred (tB c n) :=
  Pipeline.launchCred_tallyAt (.reg barS) (fun d => pP d j) (fun c => pS c j) (pP_pS j) (pS_pP j) () n c
theorem lc_col_recv (sem : Fin 4 → DmaSem sig) (n : ℕ) (j : Fin 3) (c : Dev nD) :
    (Pipeline.launchCred (fun d : Dev nD => tD (cP d j) (sem (zF d)) n) c : sProp 𝕄) ⊢ cred (tD c (sem (zF (cS c j))) n) :=
  launchCred_tallyAt_dep (fun d => .dma (sem (zF d))) (fun d => cP d j) (fun c => cS c j) (cP_cS j) (cS_cP j) () n c
theorem lc_pla_recv (sem : Fin 4 → DmaSem sig) (n : ℕ) (j : Fin 3) (c : Dev nD) :
    (Pipeline.launchCred (fun d : Dev nD => tD (pP d j) (sem (sF d)) n) c : sProp 𝕄) ⊢ cred (tD c (sem (sF (pS c j))) n) :=
  launchCred_tallyAt_dep (fun d => .dma (sem (sF d))) (fun d => pP d j) (fun c => pS c j) (pP_pS j) (pS_pP j) () n c

theorem split_O0 (c : Dev nD) : (Pipeline.launchCred O0 c : sProp 𝕄)
    = iprop(((((((((((((((Pipeline.launchCred (fun _ : Dev nD => (0 : CellTallies nD τ sig Unit)) c
      ∗ (Pipeline.launchCred (fun d : Dev nD => tD (cP d 2) (pRecvSem (zF d)) NP) c : sProp 𝕄)) ∗ (Pipeline.launchCred (fun d : Dev nD => tD (cP d 1) (pRecvSem (zF d)) NP) c : sProp 𝕄)) ∗ (Pipeline.launchCred (fun d : Dev nD => tD (cP d 0) (pRecvSem (zF d)) NP) c : sProp 𝕄))
      ∗ (Pipeline.launchCred (fun d : Dev nD => tD (cP d 2) (qRecvSem (zF d)) NQ) c : sProp 𝕄)) ∗ (Pipeline.launchCred (fun d : Dev nD => tD (cP d 1) (qRecvSem (zF d)) NQ) c : sProp 𝕄)) ∗ (Pipeline.launchCred (fun d : Dev nD => tD (cP d 0) (qRecvSem (zF d)) NQ) c : sProp 𝕄))
      ∗ (Pipeline.launchCred (fun d : Dev nD => tD (pP d 2) (kvRecvSem (sF d)) NKV) c : sProp 𝕄)) ∗ (Pipeline.launchCred (fun d : Dev nD => tD (pP d 0) (kvRecvSem (sF d)) NKV) c : sProp 𝕄)) ∗ (Pipeline.launchCred (fun d : Dev nD => tD (pP d 1) (kvRecvSem (sF d)) NKV) c : sProp 𝕄))
      ∗ (Pipeline.launchCred (fun d : Dev nD => tB (pP d 2) 8) c : sProp 𝕄)) ∗ (Pipeline.launchCred (fun d : Dev nD => tB (pP d 1) 8) c : sProp 𝕄)) ∗ (Pipeline.launchCred (fun d : Dev nD => tB (pP d 0) 8) c : sProp 𝕄))
      ∗ (Pipeline.launchCred (fun d : Dev nD => tB (cP d 2) 1) c : sProp 𝕄)) ∗ (Pipeline.launchCred (fun d : Dev nD => tB (cP d 1) 1) c : sProp 𝕄)) ∗ (Pipeline.launchCred (fun d : Dev nD => tB (cP d 0) 1) c : sProp 𝕄)) := by
  rw [show (O0 : Dev nD → CellTallies nD τ sig Unit) = fun d => O1 d + tB (cP d 0) 1 from rfl, Pipeline.launchCred_add,
    show (O1 : Dev nD → CellTallies nD τ sig Unit) = fun d => O2 d + tB (cP d 1) 1 from rfl, Pipeline.launchCred_add,
    show (O2 : Dev nD → CellTallies nD τ sig Unit) = fun d => O3 d + tB (cP d 2) 1 from rfl, Pipeline.launchCred_add,
    show (O3 : Dev nD → CellTallies nD τ sig Unit) = fun d => O4 d + tB (pP d 0) 8 from rfl, Pipeline.launchCred_add,
    show (O4 : Dev nD → CellTallies nD τ sig Unit) = fun d => O5 d + tB (pP d 1) 8 from rfl, Pipeline.launchCred_add,
    show (O5 : Dev nD → CellTallies nD τ sig Unit) = fun d => O6 d + tB (pP d 2) 8 from rfl, Pipeline.launchCred_add,
    show (O6 : Dev nD → CellTallies nD τ sig Unit) = fun d => O7 d + tD (pP d 1) (kvRecvSem (sF d)) NKV from rfl, Pipeline.launchCred_add,
    show (O7 : Dev nD → CellTallies nD τ sig Unit) = fun d => O8 d + tD (pP d 0) (kvRecvSem (sF d)) NKV from rfl, Pipeline.launchCred_add,
    show (O8 : Dev nD → CellTallies nD τ sig Unit) = fun d => O9 d + tD (pP d 2) (kvRecvSem (sF d)) NKV from rfl, Pipeline.launchCred_add,
    show (O9 : Dev nD → CellTallies nD τ sig Unit) = fun d => O10 d + tD (cP d 0) (qRecvSem (zF d)) NQ from rfl, Pipeline.launchCred_add,
    show (O10 : Dev nD → CellTallies nD τ sig Unit) = fun d => O11 d + tD (cP d 1) (qRecvSem (zF d)) NQ from rfl, Pipeline.launchCred_add,
    show (O11 : Dev nD → CellTallies nD τ sig Unit) = fun d => O12 d + tD (cP d 2) (qRecvSem (zF d)) NQ from rfl, Pipeline.launchCred_add,
    show (O12 : Dev nD → CellTallies nD τ sig Unit) = fun d => O13 d + tD (cP d 0) (pRecvSem (zF d)) NP from rfl, Pipeline.launchCred_add,
    show (O13 : Dev nD → CellTallies nD τ sig Unit) = fun d => O14 d + tD (cP d 1) (pRecvSem (zF d)) NP from rfl, Pipeline.launchCred_add,
    show (O14 : Dev nD → CellTallies nD τ sig Unit) = fun d => (0 : CellTallies nD τ sig Unit) + tD (cP d 2) (pRecvSem (zF d)) NP from rfl, Pipeline.launchCred_add]

theorem cred27 (c : Dev nD) :
    iprop(cred (tB c 1) ∗ cred (tB c 1) ∗ cred (tB c 1) ∗ cred (tB c 8) ∗ cred (tB c 8) ∗ cred (tB c 8)) ⊢ (cred (tB c 27) : sProp 𝕄) := by
  have e : tB c 27 = tB c 1 + (tB c 1 + (tB c 1 + (tB c 8 + (tB c 8 + tB c 8)))) := by
    unfold tB; rw [tallyAt_add, tallyAt_add, tallyAt_add, tallyAt_add, tallyAt_add]
  rw [e]
  iintro ⟨H1, H2, H3, H4, H5, H6⟩
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iexact H6

theorem cS_0 (c : Dev nD) : cS c 0 = cP c 2 := rfl
theorem cS_1 (c : Dev nD) : cS c 1 = cP c 1 := rfl
theorem cS_2 (c : Dev nD) : cS c 2 = cP c 0 := rfl
theorem pS_0 (c : Dev nD) : pS c 0 = pP c 2 := rfl
theorem pS_1 (c : Dev nD) : pS c 1 = pP c 1 := rfl
theorem pS_2 (c : Dev nD) : pS c 2 = pP c 0 := rfl

theorem creds_intro (c : Dev nD) : (Pipeline.launchCred O0 c : sProp 𝕄) ⊢ creds c := by
  rw [split_O0]
  unfold creds
  rw [bigSep_fin3, bigSep_fin3, bigSep_fin3]
  iintro ⟨⟨⟨⟨⟨⟨⟨⟨⟨⟨⟨⟨⟨⟨⟨-, Hp2⟩, Hp1⟩, Hp0⟩, Hq2⟩, Hq1⟩, Hq0⟩, Hk2⟩, Hk0⟩, Hk1⟩, Hb2⟩, Hb1⟩, Hb0⟩, Ha2⟩, Ha1⟩, Ha0⟩
  ihave Ga0 := (lc_col_bar (F := F) 1 0 c) $$ [Ha0]; · iexact Ha0
  ihave Ga1 := (lc_col_bar (F := F) 1 1 c) $$ [Ha1]; · iexact Ha1
  ihave Ga2 := (lc_col_bar (F := F) 1 2 c) $$ [Ha2]; · iexact Ha2
  ihave Gb0 := (lc_pla_bar (F := F) 8 0 c) $$ [Hb0]; · iexact Hb0
  ihave Gb1 := (lc_pla_bar (F := F) 8 1 c) $$ [Hb1]; · iexact Hb1
  ihave Gb2 := (lc_pla_bar (F := F) 8 2 c) $$ [Hb2]; · iexact Hb2
  ihave Gk0 := (lc_pla_recv (F := F) kvRecvSem NKV 0 c) $$ [Hk0]; · iexact Hk0
  ihave Gk1 := (lc_pla_recv (F := F) kvRecvSem NKV 1 c) $$ [Hk1]; · iexact Hk1
  ihave Gk2 := (lc_pla_recv (F := F) kvRecvSem NKV 2 c) $$ [Hk2]; · iexact Hk2
  ihave Gq0 := (lc_col_recv (F := F) qRecvSem NQ 0 c) $$ [Hq0]; · iexact Hq0
  ihave Gq1 := (lc_col_recv (F := F) qRecvSem NQ 1 c) $$ [Hq1]; · iexact Hq1
  ihave Gq2 := (lc_col_recv (F := F) qRecvSem NQ 2 c) $$ [Hq2]; · iexact Hq2
  ihave Gp0 := (lc_col_recv (F := F) pRecvSem NP 0 c) $$ [Hp0]; · iexact Hp0
  ihave Gp1 := (lc_col_recv (F := F) pRecvSem NP 1 c) $$ [Hp1]; · iexact Hp1
  ihave Gp2 := (lc_col_recv (F := F) pRecvSem NP 2 c) $$ [Hp2]; · iexact Hp2
  rw [cS_0, cS_1, cS_2, pS_0, pS_1, pS_2]
  isplitl [Ga0 Ga1 Ga2 Gb0 Gb1 Gb2]
  · iapply (cred27 (F := F) c)
    iframe Ga0 Ga1 Ga2 Gb0 Gb1 Gb2
  isplitl [Gq0 Gq1 Gq2]
  · iframe Gq2 Gq1 Gq0
  isplitl [Gk0 Gk1 Gk2]
  · iframe Gk2 Gk1 Gk0
  iframe Gp2 Gp1 Gp0

theorem L_of_ne (g : GSem nD τ sig) (h : g.1.2 ≠ .tc) : L g = ∅ := if_neg h
theorem L_tc (c : Dev nD) (sm : SemLoc sig) : L ((c : Thread nD τ), sm) = {()} := if_pos rfl

theorem lv_bar (p : Dev nD) : lv (barCell p) () = 1 := rfl
theorem lv_qRecv (p : Dev nD) (i : Fin 4) : lv (dmaCell p (qRecvSem i)) () = 2 := by fin_cases i <;> rfl
theorem lv_kvRecv (p : Dev nD) (i : Fin 4) : lv (dmaCell p (kvRecvSem i)) () = 2 := by fin_cases i <;> rfl
theorem lv_pRecv (p : Dev nD) (i : Fin 4) : lv (dmaCell p (pRecvSem i)) () = 3 := by fin_cases i <;> rfl

def Above (O : CellTallies nD τ sig Unit) : Prop := ∀ (g : GSem nD τ sig) (u : Unit), 0 < O g u → u ∈ L g ∧ 0 < lv g u

theorem Above.zero : Above 0 := fun g u h => absurd h (Nat.lt_irrefl 0)
theorem Above.add {A C : CellTallies nD τ sig Unit} (hA : Above A) (hC : Above C) : Above (A + C) := fun g u h => by
  rcases Pipeline.add_pos_cases h with h | h
  · exact hA g u h
  · exact hC g u h
theorem above_bar (p : Dev nD) (k : ℕ) : Above (tB p k) := fun g u h => by
  obtain ⟨rfl, rfl⟩ := Pipeline.tallyAt_pos h
  exact ⟨by rw [L_tc]; exact Finset.mem_singleton_self _, by rw [lv_bar]; exact Nat.one_pos⟩
theorem above_q (p : Dev nD) (i : Fin 4) (k : ℕ) : Above (tD p (qRecvSem i) k) := fun g u h => by
  obtain ⟨rfl, rfl⟩ := Pipeline.tallyAt_pos h
  exact ⟨by rw [L_tc]; exact Finset.mem_singleton_self _, by rw [lv_qRecv]; decide⟩
theorem above_kv (p : Dev nD) (i : Fin 4) (k : ℕ) : Above (tD p (kvRecvSem i) k) := fun g u h => by
  obtain ⟨rfl, rfl⟩ := Pipeline.tallyAt_pos h
  exact ⟨by rw [L_tc]; exact Finset.mem_singleton_self _, by rw [lv_kvRecv]; decide⟩
theorem above_p (p : Dev nD) (i : Fin 4) (k : ℕ) : Above (tD p (pRecvSem i) k) := fun g u h => by
  obtain ⟨rfl, rfl⟩ := Pipeline.tallyAt_pos h
  exact ⟨by rw [L_tc]; exact Finset.mem_singleton_self _, by rw [lv_pRecv]; decide⟩

theorem above_O0 (c : Dev nD) : Above (O0 c) := by
  unfold O0 O1 O2 O3 O4 O5 O6 O7 O8 O9 O10 O11 O12 O13 O14 O15
  exact ((((((((((((((Above.zero.add (above_p _ _ _)).add (above_p _ _ _)).add (above_p _ _ _)).add (above_q _ _ _)).add (above_q _ _ _)).add
    (above_q _ _ _)).add (above_kv _ _ _)).add (above_kv _ _ _)).add (above_kv _ _ _)).add (above_bar _ _)).add (above_bar _ _)).add
    (above_bar _ _)).add (above_bar _ _)).add (above_bar _ _)).add (above_bar _ _)

theorem lv_stage (c : Dev nD) (q : DmaSem sig) (hq : q.val < 4) : lv ((c : Thread nD τ), .dma q) () = 0 := by
  show (if 7 ≤ q.val ∧ q.val ≤ 10 then 2 else if 14 ≤ q.val ∧ q.val ≤ 17 then 2 else if 21 ≤ q.val then 3 else 0) = 0
  rw [if_neg (by omega), if_neg (by omega), if_neg (by omega)]

theorem mayWait_stage (c : Dev nD) (q : DmaSem sig) (hq : q.val < 4) (O : CellTallies nD τ sig Unit) (hO : O = O0 c ∨ O = 0) :
    (levAts L lv : sProp 𝕄) ⊢ MayWait (c : Thread nD τ) (.dma q) () O := by
  rcases hO with rfl | rfl
  · exact Pipeline.mayWait_of_levAts (by rw [L_tc]; exact Finset.mem_singleton_self _)
      (fun g u hg => ⟨(above_O0 c g u hg).1, by rw [lv_stage c q hq]; exact (above_O0 c g u hg).2⟩)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(start m c ∗ emp) := by
  iintro ⟨-, #Hlev, Hcr, -, HG⟩
  ihave Hc := (creds_intro (F := F) c) $$ [Hcr]; · iexact Hcr
  imodintro
  unfold start G'
  isplitl
  · iframe HG Hc Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  iframe Hs Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq,
    show (Pipeline.ownSems0 (Ix := Unit) (Name := ℕ) (U := UU) (Lvl := ℕ) (Val := Elt F) (τ := τ) osem c : sProp 𝕄)
      = bigSep Finset.univ fun k : Fin 21 => semVal (dmaCell c (sc k)) 0 from rfl]
  unfold Φ₁ scratch
  iintro ⟨Hr, Hz⟩
  isplitr; · iempintro
  iframe Hz Hr

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in

-- From every device's body: the program ends under every fair schedule, each argument and result array at its computed contents.
theorem run_main (hbody : ∀ c, BodyObligation (dats (F := F) m ρ 0 c) (defs₀ (F := F)) 𝒱₀ () Set.univ) :
    θ_run defs (onTc (τ := τ) (main (F := F))) ⟨m, fun _ => 0, ρ⟩ (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_arg0 (c : Dev nD) : finalA m ρ c (0 : Fin 4) = m ((c : Thread nD τ).loc main_arg0) :=
  (dats (F := F) m ρ 0 c).arrAt_in (0 : Fin 4) rfl _
theorem finalA_arg1 (c : Dev nD) : finalA m ρ c (1 : Fin 4) = m ((c : Thread nD τ).loc main_arg1) :=
  (dats (F := F) m ρ 0 c).arrAt_in (1 : Fin 4) rfl _
theorem finalA_arg2 (c : Dev nD) : finalA m ρ c (2 : Fin 4) = m ((c : Thread nD τ).loc main_arg2) :=
  (dats (F := F) m ρ 0 c).arrAt_in (2 : Fin 4) rfl _

def outBuf (c : Dev nD) : Buf (Elt F) ((c.tc : Thread nD τ).loc main_v1) := OUT m c

theorem finalA_out (c : Dev nD) : finalA m ρ c (3 : Fin 4) = outBuf m c := by
  unfold finalA
  rw [show cfg0.N = (t0_0 : Fin cfg0.N).val + 1 from N_0, Dat.arrAt_succ]
  rw [if_pos (show (cfg0.win (3 : Fin 4)).flush t0_0 = true from rfl)]
  exact Memref.write_access_unit_zero_univ (Elt F) main_v1 (funext fun a => by fin_cases a <;> rfl) _ _ _

theorem value_of_body (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c (3 : Fin 4)).trans (finalA_out m ρ c), (h c (0 : Fin 4)).trans (finalA_arg0 m ρ c),
    (h c (1 : Fin 4)).trans (finalA_arg1 m ρ c), (h c (2 : Fin 4)).trans (finalA_arg2 m ρ c)⟩) (run_main m ρ hbody)

theorem frame_of_body (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (value_of_body m ρ hbody)

end Cert.KernelIdeal.LaunchProof

end
-- ==== Proof.Regions.lean ====
import proofs.«900582_g7700000000000583_dist_ring_attn_i_s256_d64_v7x_i16_f32_1_alg».proof.Proof.Sched
import Idealize.ShloMosaic.Lib.Pipeline.Value

noncomputable section

namespace Cert.KernelIdeal.Regions
open Cert.KernelIdeal Cert.KernelIdeal.Gen Cert.KernelIdeal.Mesh Cert.KernelIdeal.Cells Cert.KernelIdeal.Contents Cert.KernelIdeal.Sched
open Idealize.ShloMosaic Idealize.ShloMosaic.TcCoe Idealize.SL.Sem

variable {F : FTy → Type} [FloatOps F]
variable (m : (ℓ : Loc nD τ sig) → Buf (Elt F) ℓ)

theorem sF_colPeer (c : Dev nD) (r : Fin 4) : sF (colPeer c r) = sF c := by revert c r; decide
theorem zF_planePeer (c : Dev nD) (r : Fin 4) : zF (planePeer c r) = zF c := by revert c r; decide
theorem mk_zF_sF (c : Dev nD) : mk (zF c) (sF c) = c := by revert c; decide
theorem zF_colPeer_val (c : Dev nD) (r : Fin 3) : (zF (colPeer c r.succ)).val = (c.val / 4 + r.val + 1) % 4 := by revert c r; decide
theorem sF_planePeer_val (c : Dev nD) (r : Fin 3) : (sF (planePeer c r.succ)).val = (c.val % 4 + r.val + 1) % 4 := by revert c r; decide
theorem zF_colPeer_val' (c : Dev nD) (r : Fin 4) : (zF (colPeer c r)).val = (c.val / 4 + r.val) % 4 := by revert c r; decide
theorem sF_planePeer_val' (c : Dev nD) (r : Fin 4) : (sF (planePeer c r)).val = (c.val % 4 + r.val) % 4 := by revert c r; decide

theorem prSlot_congr {off off' : Fin 3 → Nat} (e : off = off') (h : ∀ a, off a + S1x256x128.size a ≤ S4x256x128.size a)
    (h' : ∀ a, off' a + S1x256x128.size a ≤ S4x256x128.size a) : prSlot off h = prSlot off' h' := by subst e; rfl

theorem k0_off9_own (c : Dev nD) : k0_off9 c = offQ (zF c) := Mesh.k0_off9_eq c
theorem k0_off21_own (c : Dev nD) : k0_off21 c = offQ (zF c) := Mesh.k0_off21_eq c
theorem k0_off7_own (c : Dev nD) : k0_off7 c = offKV (sF c) := Gen.k0_off7_eq c
theorem prSlot_own (c : Dev nD) (h : ∀ a, (k0_off21 c) a + S1x256x128.size a ≤ S4x256x128.size a) :
    prSlot (k0_off21 c) h = prS (zF c) := prSlot_congr (k0_off21_own c) _ _
theorem unit_subset {s : Shape} {off size off' size' : Fin s.rank → Nat} {inb : ∀ a, off a + size a ≤ s.size a}
    {inb' : ∀ a, off' a + size' a ≤ s.size a} (h : ∀ a, off' a ≤ off a ∧ off a + size a ≤ off' a + size' a) :
    (Rect.unit off size inb).set ⊆ (Rect.unit off' size' inb').set := by
  intro i hi
  rw [Rect.mem_set_unit] at hi ⊢
  intro a; have h1 := hi a; have h2 := h a; omega

theorem qSlot_set (off : Fin 3 → Nat) (h : ∀ a, off a + S1x256x64.size a ≤ S4x256x64.size a) :
    (qSlot off h).view.set = (Rect.unit (s := S4x256x64) off S1x256x64.size h).set := by
  simp only [Memref.view_squeeze, Memref.view_slice, View.set_reshape, Memref.view_whole, View.set_slice_whole]
theorem kvSlot_set (off : Fin 4 → Nat) (h : ∀ a, off a + S1x2x256x64.size a ≤ S4x2x256x64.size a) :
    (kvSlot off h).view.set = (Rect.unit (s := S4x2x256x64) off S1x2x256x64.size h).set := by
  simp only [Memref.view_squeeze, Memref.view_slice, View.set_reshape, Memref.view_whole, View.set_slice_whole]
theorem psSlot_set (off : Fin 3 → Nat) (h : ∀ a, off a + S1x256x128.size a ≤ S3x256x128.size a) :
    (psSlot off h).view.set = (Rect.unit (s := S3x256x128) off S1x256x128.size h).set := by
  simp only [Memref.view_squeeze, Memref.view_slice, View.set_reshape, Memref.view_whole, View.set_slice_whole]
theorem prSlot_set (off : Fin 3 → Nat) (h : ∀ a, off a + S1x256x128.size a ≤ S4x256x128.size a) :
    (prSlot off h).view.set = (Rect.unit (s := S4x256x128) off S1x256x128.size h).set := by
  simp only [Memref.view_squeeze, Memref.view_slice, View.set_reshape, Memref.view_whole, View.set_slice_whole]

abbrev vpSlot (off : Fin 3 → Nat) (h : ∀ a, off a + S1x256x128.size a ≤ S4x256x128.size a) : Memref sig .tc .vmem S256x128 .bf16 :=
  ((vpB).slice (Rect.unit (s := S4x256x128) off S1x256x128.size h) (fun _ => rfl)).squeeze S256x128 squeezes_S1x256x128_S256x128
abbrev vpSl (i : Fin 4) : Memref sig .tc .vmem S256x128 .bf16 := vpSlot (offQ i) (inbPR i)
theorem vpSlot_set (off : Fin 3 → Nat) (h : ∀ a, off a + S1x256x128.size a ≤ S4x256x128.size a) :
    (vpSlot off h).view.set = (Rect.unit (s := S4x256x128) off S1x256x128.size h).set := by
  simp only [Memref.view_squeeze, Memref.view_slice, View.set_reshape, Memref.view_whole, View.set_slice_whole]

-- Sets told apart by one coordinate of their elements are pairwise disjoint and together cover everything.
theorem keyed_disjoint {α : Type} {n : ℕ} {S : Fin n → Finset α} {k : α → Fin n}
    (h : ∀ i x, x ∈ S i ↔ (k x).val = i.val) {i j : Fin n} (hne : i ≠ j) : Disjoint (S i) (S j) := by
  rw [Finset.disjoint_left]; intro x hx hx'
  rw [h] at hx hx'; exact hne (Fin.ext (hx.symm.trans hx'))

theorem keyed_pairwise {α : Type} {n : ℕ} {S : Fin n → Finset α} {k : α → Fin n} (h : ∀ i x, x ∈ S i ↔ (k x).val = i.val) :
    ∀ t ∈ (Finset.univ : Finset (Fin n)), ∀ t' ∈ (Finset.univ : Finset (Fin n)), t ≠ t' → Disjoint (S t) (S t') :=
  fun _ _ _ _ hne => keyed_disjoint h hne

theorem keyed_cover {α : Type} [Fintype α] [DecidableEq α] {n : ℕ} {S : Fin n → Finset α} {k : α → Fin n}
    (h : ∀ i x, x ∈ S i ↔ (k x).val = i.val) : Finset.biUnion Finset.univ S = Finset.univ := by
  ext x; simp only [Finset.mem_biUnion, Finset.mem_univ, true_and, iff_true]
  exact ⟨k x, (h _ x).2 rfl⟩

theorem keyed_union4 {α : Type} [Fintype α] [DecidableEq α] {S : Fin 4 → Finset α} {k : α → Fin 4}
    (h : ∀ i x, x ∈ S i ↔ (k x).val = i.val) : S 0 ∪ (S 1 ∪ (S 2 ∪ S 3)) = Finset.univ := by
  ext x; simp only [Finset.mem_union, Finset.mem_univ, iff_true, h]
  generalize k x = j; revert j; decide

theorem keyed_union3 {α : Type} [Fintype α] [DecidableEq α] {S : Fin 3 → Finset α} {k : α → Fin 3}
    (h : ∀ i x, x ∈ S i ↔ (k x).val = i.val) : S 0 ∪ (S 1 ∪ S 2) = Finset.univ := by
  ext x; simp only [Finset.mem_union, Finset.mem_univ, iff_true, h]
  generalize k x = j; revert j; decide

-- Slot i of a buffer is the set of indices whose leading coordinate is i.
theorem mem_qS (i : Fin 4) (x : S4x256x64.Idx) : x ∈ (qS i).view.set ↔ (x 0).val = i.val := by
  rw [qSlot_set, Rect.mem_set_unit]
  constructor
  · intro h; have h0 := h 0; simp [offQ] at h0; omega
  · intro h a
    have hx := (x a).isLt
    fin_cases a <;> simp [offQ] at hx ⊢ <;> omega
theorem mem_kvS (i : Fin 4) (x : S4x2x256x64.Idx) : x ∈ (kvS i).view.set ↔ (x 0).val = i.val := by
  rw [kvSlot_set, Rect.mem_set_unit]
  constructor
  · intro h; have h0 := h 0; simp [offKV] at h0; omega
  · intro h a
    have hx := (x a).isLt
    fin_cases a <;> simp [offKV] at hx ⊢ <;> omega
theorem mem_psS (i : Fin 3) (x : S3x256x128.Idx) : x ∈ (psS i).view.set ↔ (x 0).val = i.val := by
  rw [psSlot_set, Rect.mem_set_unit]
  constructor
  · intro h; have h0 := h 0; simp at h0; omega
  · intro h a
    have hx := (x a).isLt
    fin_cases a <;> simp at hx ⊢ <;> omega
theorem mem_prS (i : Fin 4) (x : S4x256x128.Idx) : x ∈ (prS i).view.set ↔ (x 0).val = i.val := by
  rw [prSlot_set, Rect.mem_set_unit]
  constructor
  · intro h; have h0 := h 0; simp [offQ] at h0; omega
  · intro h a
    have hx := (x a).isLt
    fin_cases a <;> simp [offQ] at hx ⊢ <;> omega
theorem mem_vpSl (i : Fin 4) (x : S4x256x128.Idx) : x ∈ (vpSl i).view.set ↔ (x 0).val = i.val := by
  rw [vpSlot_set, Rect.mem_set_unit]
  constructor
  · intro h; have h0 := h 0; simp [offQ] at h0; omega
  · intro h a
    have hx := (x a).isLt
    fin_cases a <;> simp [offQ] at hx ⊢ <;> omega
theorem setOn_whole {κ : Kind} (b : Ref sig κ) (M : Finset b.ty.shape.Idx) :
    (View.whole b : View sig κ b.space b.ty.shape b.ty.elt).setOn M = M := by
  unfold View.setOn; rw [View.emb_whole]; exact Finset.map_refl
theorem qB_setOn (M : Finset S4x256x64.Idx) : (qB).view.setOn M = M := setOn_whole cc0_scratch0 M
theorem qB_access_setOn (r : Rect S4x256x64) : ((qB).access r).setOn Finset.univ = r.set := by
  rw [View.setOn_univ]; exact View.set_slice_whole cc0_scratch0 r
theorem kvB_setOn (M : Finset S4x2x256x64.Idx) : (kvB).view.setOn M = M := setOn_whole cc0_scratch1 M
theorem kvB_access_setOn (r : Rect S4x2x256x64) : ((kvB).access r).setOn Finset.univ = r.set := by
  rw [View.setOn_univ]; exact View.set_slice_whole cc0_scratch1 r
theorem vpB_setOn (M : Finset S4x256x128.Idx) : (vpB).view.setOn M = M := setOn_whole cc0_scratch2 M
theorem vpB_access_setOn (r : Rect S4x256x128) : ((vpB).access r).setOn Finset.univ = r.set := by
  rw [View.setOn_univ]; exact View.set_slice_whole cc0_scratch2 r
theorem psB_setOn (M : Finset S3x256x128.Idx) : (psB).view.setOn M = M := setOn_whole cc0_scratch3 M
theorem psB_access_setOn (r : Rect S3x256x128) : ((psB).access r).setOn Finset.univ = r.set := by
  rw [View.setOn_univ]; exact View.set_slice_whole cc0_scratch3 r
theorem prB_setOn (M : Finset S4x256x128.Idx) : (prB).view.setOn M = M := setOn_whole cc0_scratch4 M
-- A store through a rectangle touches the indices a load through it reads.
theorem qB_store {r : Rect S4x256x64} {S : Finset S4x256x64.Idx} (h : (qB).view.setOn r.toLoadRect.set ⊆ S) :
    ((qB).access r).setOn Finset.univ ⊆ S := by
  rw [qB_access_setOn]; rw [qB_setOn] at h; exact h
theorem kvB_store {r : Rect S4x2x256x64} {S : Finset S4x2x256x64.Idx} (h : (kvB).view.setOn r.toLoadRect.set ⊆ S) :
    ((kvB).access r).setOn Finset.univ ⊆ S := by
  rw [kvB_access_setOn]; rw [kvB_setOn] at h; exact h
theorem vpB_store {r : Rect S4x256x128} {S : Finset S4x256x128.Idx} (h : (vpB).view.setOn r.toLoadRect.set ⊆ S) :
    ((vpB).access r).setOn Finset.univ ⊆ S := by
  rw [vpB_access_setOn]; rw [vpB_setOn] at h; exact h
theorem psB_store {r : Rect S3x256x128} {S : Finset S3x256x128.Idx} (h : (psB).view.setOn r.toLoadRect.set ⊆ S) :
    ((psB).access r).setOn Finset.univ ⊆ S := by
  rw [psB_access_setOn]; rw [psB_setOn] at h; exact h
theorem qB_load_off1 (c : Dev nD)  (h : ∀ a, (k0_off1 c) a + S1x256x64.size a ≤ S4x256x64.size a) :
    (qB).view.setOn (Rect.unit (s := S4x256x64) (k0_off1 c) S1x256x64.size h).toLoadRect.set ⊆ (qS (zF c)).view.set := by
  rw [qB_setOn]
  rw [qSlot_set]
  apply unit_subset
  intro a; rw [Mesh.k0_off1_eq]
  fin_cases a <;> simp [offQ, zF]
theorem qB_load_off12 (c : Dev nD) (r : Fin 4) (h : ∀ a, (k0_off12 c (BitVec.ofNat 32 r.val)) a + S1x256x64.size a ≤ S4x256x64.size a) :
    (qB).view.setOn (Rect.unit (s := S4x256x64) (k0_off12 c (BitVec.ofNat 32 r.val)) S1x256x64.size h).toLoadRect.set ⊆ (qS (zF (colPeer c r))).view.set := by
  rw [qB_setOn]
  rw [qSlot_set]
  apply unit_subset
  intro a; rw [Mesh.k0_off12_eq]
  fin_cases a <;> simp [offQ, zF_colPeer_val']
theorem kvB_load_off2 (c : Dev nD)  (h : ∀ a, (k0_off2 c) a + S1x1x256x64.size a ≤ S4x2x256x64.size a) :
    (kvB).view.setOn (Rect.unit (s := S4x2x256x64) (k0_off2 c) S1x1x256x64.size h).toLoadRect.set ⊆ (kvS (sF c)).view.set := by
  rw [kvB_setOn]
  rw [kvSlot_set]
  apply unit_subset
  intro a; rw [Gen.k0_off2_eq]
  fin_cases a <;> simp [offKV, sF]
theorem kvB_load_off3 (c : Dev nD)  (h : ∀ a, (k0_off3 c) a + S1x1x256x64.size a ≤ S4x2x256x64.size a) :
    (kvB).view.setOn (Rect.unit (s := S4x2x256x64) (k0_off3 c) S1x1x256x64.size h).toLoadRect.set ⊆ (kvS (sF c)).view.set := by
  rw [kvB_setOn]
  rw [kvSlot_set]
  apply unit_subset
  intro a; rw [Gen.k0_off3_eq]
  fin_cases a <;> simp [offKV, sF]
theorem kvB_load_off16 (c : Dev nD) (r : Fin 3) (h : ∀ a, (k0_off16 c (BitVec.ofNat 32 (1 + r.val))) a + S1x1x256x64.size a ≤ S4x2x256x64.size a) :
    (kvB).view.setOn (Rect.unit (s := S4x2x256x64) (k0_off16 c (BitVec.ofNat 32 (1 + r.val))) S1x1x256x64.size h).toLoadRect.set ⊆ (kvS (sF (planePeer c r.succ))).view.set := by
  rw [kvB_setOn]
  rw [kvSlot_set]
  apply unit_subset
  intro a; rw [Gen.k0_off16_eq]
  fin_cases a <;> simp [offKV, sF_planePeer_val]
theorem kvB_load_off19 (c : Dev nD) (r : Fin 4) (h : ∀ a, (k0_off19 c (BitVec.ofNat 32 r.val)) a + S1x1x256x64.size a ≤ S4x2x256x64.size a) :
    (kvB).view.setOn (Rect.unit (s := S4x2x256x64) (k0_off19 c (BitVec.ofNat 32 r.val)) S1x1x256x64.size h).toLoadRect.set ⊆ (kvS (sF (planePeer c r))).view.set := by
  rw [kvB_setOn]
  rw [kvSlot_set]
  apply unit_subset
  intro a; rw [Gen.k0_off19_eq]
  fin_cases a <;> simp [offKV, sF_planePeer_val']
theorem prB_load_off23 (c : Dev nD) (r : Fin 3) (h : ∀ a, (k0_off23 c (BitVec.ofNat 32 (1 + r.val))) a + S1x256x128.size a ≤ S4x256x128.size a) :
    (prB).view.setOn (Rect.unit (s := S4x256x128) (k0_off23 c (BitVec.ofNat 32 (1 + r.val))) S1x256x128.size h).toLoadRect.set ⊆ (prS (zF (colPeer c r.succ))).view.set := by
  rw [prB_setOn]
  rw [prSlot_set]
  apply unit_subset
  intro a; rw [Mesh.k0_off23_eq]
  fin_cases a <;> simp [offQ, zF_colPeer_val]
theorem vpB_load_off4 (c : Dev nD)  (h : ∀ a, (k0_off4 c) a + S1x256x64.size a ≤ S4x256x128.size a) :
    (vpB).view.setOn (Rect.unit (s := S4x256x128) (k0_off4 c) S1x256x64.size h).toLoadRect.set ⊆ (vpSl (sF c)).view.set := by
  rw [vpB_setOn]
  rw [vpSlot_set]
  apply unit_subset
  intro a; rw [Gen.k0_off4_eq]
  fin_cases a <;> simp [offQ, sF]
theorem vpB_load_off5 (c : Dev nD)  (h : ∀ a, (k0_off5 c) a + S1x256x1.size a ≤ S4x256x128.size a) :
    (vpB).view.setOn (Rect.unit (s := S4x256x128) (k0_off5 c) S1x256x1.size h).toLoadRect.set ⊆ (vpSl (sF c)).view.set := by
  rw [vpB_setOn]
  rw [vpSlot_set]
  apply unit_subset
  intro a; rw [Gen.k0_off5_eq]
  fin_cases a <;> simp [offQ, sF]
theorem vpB_load_off13 (c : Dev nD)  (h : ∀ a, (k0_off13 c) a + S1x256x128.size a ≤ S4x256x128.size a) :
    (vpB).view.setOn (Rect.unit (s := S4x256x128) (k0_off13 c) S1x256x128.size h).toLoadRect.set ⊆ (vpSl (sF c)).view.set := by
  rw [vpB_setOn]
  rw [vpSlot_set]
  apply unit_subset
  intro a; rw [Gen.k0_off13_eq]
  fin_cases a <;> simp [offQ, sF]
theorem vpB_load_off17 (c : Dev nD) (r : Fin 3) (h : ∀ a, (k0_off17 c (BitVec.ofNat 32 (1 + r.val))) a + S1x256x64.size a ≤ S4x256x128.size a) :
    (vpB).view.setOn (Rect.unit (s := S4x256x128) (k0_off17 c (BitVec.ofNat 32 (1 + r.val))) S1x256x64.size h).toLoadRect.set ⊆ (vpSl (sF (planePeer c r.succ))).view.set := by
  rw [vpB_setOn]
  rw [vpSlot_set]
  apply unit_subset
  intro a; rw [Gen.k0_off17_eq]
  fin_cases a <;> simp [offQ, sF_planePeer_val]
theorem vpB_load_off18 (c : Dev nD) (r : Fin 3) (h : ∀ a, (k0_off18 c (BitVec.ofNat 32 (1 + r.val))) a + S1x256x1.size a ≤ S4x256x128.size a) :
    (vpB).view.setOn (Rect.unit (s := S4x256x128) (k0_off18 c (BitVec.ofNat 32 (1 + r.val))) S1x256x1.size h).toLoadRect.set ⊆ (vpSl (sF (planePeer c r.succ))).view.set := by
  rw [vpB_setOn]
  rw [vpSlot_set]
  apply unit_subset
  intro a; rw [Gen.k0_off18_eq]
  fin_cases a <;> simp [offQ, sF_planePeer_val]
theorem vpB_load_off20 (c : Dev nD) (r : Fin 4) (h : ∀ a, (k0_off20 c (BitVec.ofNat 32 r.val)) a + S1x256x128.size a ≤ S4x256x128.size a) :
    (vpB).view.setOn (Rect.unit (s := S4x256x128) (k0_off20 c (BitVec.ofNat 32 r.val)) S1x256x128.size h).toLoadRect.set ⊆ (vpSl (sF (planePeer c r))).view.set := by
  rw [vpB_setOn]
  rw [vpSlot_set]
  apply unit_subset
  intro a; rw [Gen.k0_off20_eq]
  fin_cases a <;> simp [offQ, sF_planePeer_val']
theorem psB_load_lit0 (h : ∀ a, (![0, 0, 0] : Fin 3 → Nat) a + S1x256x128.size a ≤ S3x256x128.size a) :
    (psB).view.setOn (Rect.unit (s := S3x256x128) ![0, 0, 0] S1x256x128.size h).toLoadRect.set ⊆ (psS 0).view.set := by
  rw [psB_setOn, psSlot_set]; exact subset_rfl
theorem psB_load_lit1 (h : ∀ a, (![1, 0, 0] : Fin 3 → Nat) a + S1x256x128.size a ≤ S3x256x128.size a) :
    (psB).view.setOn (Rect.unit (s := S3x256x128) ![1, 0, 0] S1x256x128.size h).toLoadRect.set ⊆ (psS 1).view.set := by
  rw [psB_setOn, psSlot_set]; exact subset_rfl
theorem psB_load_lit2 (h : ∀ a, (![2, 0, 0] : Fin 3 → Nat) a + S1x256x128.size a ≤ S3x256x128.size a) :
    (psB).view.setOn (Rect.unit (s := S3x256x128) ![2, 0, 0] S1x256x128.size h).toLoadRect.set ⊆ (psS 2).view.set := by
  rw [psB_setOn, psSlot_set]; exact subset_rfl

theorem qB_load_off12_own (c : Dev nD) (h : ∀ a, (k0_off12 c (BitVec.ofNat 32 0)) a + S1x256x64.size a ≤ S4x256x64.size a) :
    (qB).view.setOn (Rect.unit (s := S4x256x64) (k0_off12 c (BitVec.ofNat 32 0)) S1x256x64.size h).toLoadRect.set ⊆ (qS (zF c)).view.set := by
  have e := qB_load_off12 c 0 h; rwa [Mesh.colPeer_zero] at e
theorem kvB_load_off19_own (c : Dev nD) (h : ∀ a, (k0_off19 c (BitVec.ofNat 32 0)) a + S1x1x256x64.size a ≤ S4x2x256x64.size a) :
    (kvB).view.setOn (Rect.unit (s := S4x2x256x64) (k0_off19 c (BitVec.ofNat 32 0)) S1x1x256x64.size h).toLoadRect.set ⊆ (kvS (sF c)).view.set := by
  have e := kvB_load_off19 c 0 h; rwa [Mesh.planePeer_zero] at e
theorem vpB_load_off20_own (c : Dev nD) (h : ∀ a, (k0_off20 c (BitVec.ofNat 32 0)) a + S1x256x128.size a ≤ S4x256x128.size a) :
    (vpB).view.setOn (Rect.unit (s := S4x256x128) (k0_off20 c (BitVec.ofNat 32 0)) S1x256x128.size h).toLoadRect.set ⊆ (vpSl (sF c)).view.set := by
  have e := vpB_load_off20 c 0 h; rwa [Mesh.planePeer_zero] at e

theorem qSlot_credit (off : Fin 3 → Nat) (h : ∀ a, off a + S1x256x64.size a ≤ S4x256x64.size a) : (qSlot off h).view.dmaCredit = NQ := rfl
theorem kvSlot_credit (off : Fin 4 → Nat) (h : ∀ a, off a + S1x2x256x64.size a ≤ S4x2x256x64.size a) : (kvSlot off h).view.dmaCredit = NKV := rfl
theorem prSlot_credit (off : Fin 3 → Nat) (h : ∀ a, off a + S1x256x128.size a ≤ S4x256x128.size a) : (prSlot off h).view.dmaCredit = NP := rfl
theorem psSlot_credit (off : Fin 3 → Nat) (h : ∀ a, off a + S1x256x128.size a ≤ S3x256x128.size a) : (psSlot off h).view.dmaCredit = NP := by
  unfold NP View.dmaCredit; rfl

end Cert.KernelIdeal.Regions

end
-- ==== Proof.RegVal.lean ====
import proofs.«900582_g7700000000000583_dist_ring_attn_i_s256_d64_v7x_i16_f32_1_alg».proof.Proof.Sched
import Idealize.ShloMosaic.Lib.Pipeline.Value

noncomputable section

namespace Cert.KernelIdeal.RegVal

open Cert.KernelIdeal Cert.KernelIdeal.Gen Cert.KernelIdeal.Mesh Cert.KernelIdeal.Cells Cert.KernelIdeal.Contents Cert.KernelIdeal.Sched
open Idealize.ShloMosaic Idealize.ShloMosaic.TcCoe Idealize.SL.Sem Idealize.ShloMosaic.ValueIdx

variable {F : FTy → Type} [FloatOps F]
variable (m : (ℓ : Loc nD τ sig) → Buf (Elt F) ℓ)

section Generic
variable {κ : Kind} (b : Ref sig κ)

def AgreeOn (A : Finset b.ty.shape.Idx) (f g : b.ty.Contents (Elt F)) : Prop := ∀ i ∈ A, f i = g i

theorem AgreeOn.mono {A A' : Finset b.ty.shape.Idx} {f g : b.ty.Contents (Elt F)} (h : AgreeOn b A f g) (hs : A' ⊆ A) :
    AgreeOn b A' f g := fun i hi => h i (hs hi)

theorem agreeOn_empty (f g : b.ty.Contents (Elt F)) : AgreeOn b ∅ f g := fun i hi => absurd hi (Finset.notMem_empty i)

theorem AgreeOn.write {A : Finset b.ty.shape.Idx} {f g : b.ty.Contents (Elt F)} (h : AgreeOn b A f g) (r : Rect b.ty.shape)
    (w : r.shape.Idx → Elt F b.ty.elt) (hw : ∀ x, w x = g (r.emb x)) :
    AgreeOn b (A ∪ r.set) (((Memref.whole b).access r).write (Elt F) f w Finset.univ) g := by
  intro i hi
  have hset : ((Memref.whole b).access r).set = r.set := View.set_slice_whole b r
  by_cases hr : i ∈ r.set
  · have hv : i ∈ ((Memref.whole b).access r).set := by rw [hset]; exact hr
    obtain ⟨x, rfl⟩ := View.exists_emb_of_mem_set ((Memref.whole b).access r) hv
    rw [View.write_emb_of_mem _ _ (Finset.mem_univ x)]
    exact hw x
  · have hn : i ∉ ((Memref.whole b).access r).setOn Finset.univ := by
      rw [View.setOn_univ, hset]; exact hr
    rw [View.write_of_not_mem _ _ _ hn]
    rcases Finset.mem_union.mp hi with h1 | h1
    · exact h i h1
    · exact absurd h1 hr

theorem AgreeOn.readAt {A : Finset b.ty.shape.Idx} {f g : b.ty.Contents (Elt F)} (h : AgreeOn b A f g) (r : LoadRect b.ty.shape)
    (hr : r.set ⊆ A) : (Memref.whole b).view.readAt (Elt F) r f = (Memref.whole b).view.readAt (Elt F) r g := by
  refine View.readAt_congr fun i hi => ?_
  obtain ⟨x, hx, rfl⟩ := Finset.mem_map.mp hi
  exact h _ (hr hx)

end Generic

section Emb
variable (c : Dev nD)

theorem fin1_zero (u : Fin 1) : u = 0 := Subsingleton.elim _ _

theorem GQ_emb (i : Fin 4) (off : Fin 3 → Nat) (hoff : off = ![i.val, 0, 0]) (h : ∀ a, off a + S1x256x64.size a ≤ S4x256x64.size a)
    (x : S1x256x64.Idx) : GQ m c ((Rect.unit (s := S4x256x64) off S1x256x64.size h).emb x) = TQ m (mk i (sF c)) x := by
  subst hoff
  have e0 : ((Rect.unit (s := S4x256x64) ![i.val, 0, 0] S1x256x64.size h).emb x) 0 = i := Fin.ext (by
    show i.val + 1 * (x 0).val = i.val; have : (x 0).val < 1 := (x 0).isLt; omega)
  have e1 : ((Rect.unit (s := S4x256x64) ![i.val, 0, 0] S1x256x64.size h).emb x) 1 = x 1 := Fin.ext (by
    show 0 + 1 * (x 1).val = (x 1).val; omega)
  have e2 : ((Rect.unit (s := S4x256x64) ![i.val, 0, 0] S1x256x64.size h).emb x) 2 = x 2 := Fin.ext (by
    show 0 + 1 * (x 2).val = (x 2).val; omega)
  simp only [GQ]
  rw [e0, e1, e2]
  exact congrArg _ ((congrArg (fun u => ix3 u (x 1) (x 2)) (fin1_zero (x 0)).symm).trans (eq_ix3 x).symm)

theorem GKV_emb_k (i : Fin 4) (off : Fin 4 → Nat) (hoff : off = ![i.val, 0, 0, 0])
    (h : ∀ a, off a + S1x1x256x64.size a ≤ S4x2x256x64.size a) (x : S1x1x256x64.Idx) :
    GKV m c ((Rect.unit (s := S4x2x256x64) off S1x1x256x64.size h).emb x) = TK m (mk (zF c) i) x := by
  subst hoff
  have e0 : ((Rect.unit (s := S4x2x256x64) ![i.val, 0, 0, 0] S1x1x256x64.size h).emb x) 0 = i := Fin.ext (by
    show i.val + 1 * (x 0).val = i.val; have : (x 0).val < 1 := (x 0).isLt; omega)
  have e1 : (((Rect.unit (s := S4x2x256x64) ![i.val, 0, 0, 0] S1x1x256x64.size h).emb x) 1).val = 0 := by
    show 0 + 1 * (x 1).val = 0; have : (x 1).val < 1 := (x 1).isLt; omega
  have e2 : ((Rect.unit (s := S4x2x256x64) ![i.val, 0, 0, 0] S1x1x256x64.size h).emb x) 2 = x 2 := Fin.ext (by
    show 0 + 1 * (x 2).val = (x 2).val; omega)
  have e3 : ((Rect.unit (s := S4x2x256x64) ![i.val, 0, 0, 0] S1x1x256x64.size h).emb x) 3 = x 3 := Fin.ext (by
    show 0 + 1 * (x 3).val = (x 3).val; omega)
  simp only [GKV]
  rw [if_pos e1, e0, e2, e3]
  exact congrArg _ ((congrArg₂ (fun u u' => ix4 u u' (x 2) (x 3)) (fin1_zero (x 0)).symm (fin1_zero (x 1)).symm).trans (eq_ix4 x).symm)

theorem GKV_emb_v (i : Fin 4) (off : Fin 4 → Nat) (hoff : off = ![i.val, 1, 0, 0])
    (h : ∀ a, off a + S1x1x256x64.size a ≤ S4x2x256x64.size a) (x : S1x1x256x64.Idx) :
    GKV m c ((Rect.unit (s := S4x2x256x64) off S1x1x256x64.size h).emb x) = TV m (mk (zF c) i) x := by
  subst hoff
  have e0 : ((Rect.unit (s := S4x2x256x64) ![i.val, 1, 0, 0] S1x1x256x64.size h).emb x) 0 = i := Fin.ext (by
    show i.val + 1 * (x 0).val = i.val; have : (x 0).val < 1 := (x 0).isLt; omega)
  have e1 : ¬ (((Rect.unit (s := S4x2x256x64) ![i.val, 1, 0, 0] S1x1x256x64.size h).emb x) 1).val = 0 := by
    show ¬ (1 + 1 * (x 1).val = 0); omega
  have e2 : ((Rect.unit (s := S4x2x256x64) ![i.val, 1, 0, 0] S1x1x256x64.size h).emb x) 2 = x 2 := Fin.ext (by
    show 0 + 1 * (x 2).val = (x 2).val; omega)
  have e3 : ((Rect.unit (s := S4x2x256x64) ![i.val, 1, 0, 0] S1x1x256x64.size h).emb x) 3 = x 3 := Fin.ext (by
    show 0 + 1 * (x 3).val = (x 3).val; omega)
  simp only [GKV]
  rw [if_neg e1, e0, e2, e3]
  exact congrArg _ ((congrArg₂ (fun u u' => ix4 u u' (x 2) (x 3)) (fin1_zero (x 0)).symm (fin1_zero (x 1)).symm).trans (eq_ix4 x).symm)

theorem GVP_emb (i : Fin 4) (off : Fin 3 → Nat) (hoff : off = ![i.val, 0, 0]) (h : ∀ a, off a + S1x256x128.size a ≤ S4x256x128.size a)
    (x : S1x256x128.Idx) : GVP m c ((Rect.unit (s := S4x256x128) off S1x256x128.size h).emb x) = VP m (mk (zF c) i) x := by
  subst hoff
  have e0 : ((Rect.unit (s := S4x256x128) ![i.val, 0, 0] S1x256x128.size h).emb x) 0 = i := Fin.ext (by
    show i.val + 1 * (x 0).val = i.val; have : (x 0).val < 1 := (x 0).isLt; omega)
  have e1 : ((Rect.unit (s := S4x256x128) ![i.val, 0, 0] S1x256x128.size h).emb x) 1 = x 1 := Fin.ext (by
    show 0 + 1 * (x 1).val = (x 1).val; omega)
  have e2 : ((Rect.unit (s := S4x256x128) ![i.val, 0, 0] S1x256x128.size h).emb x) 2 = x 2 := Fin.ext (by
    show 0 + 1 * (x 2).val = (x 2).val; omega)
  simp only [GVP]
  rw [e0, e1, e2]
  exact congrArg _ ((congrArg (fun u => ix3 u (x 1) (x 2)) (fin1_zero (x 0)).symm).trans (eq_ix3 x).symm)

theorem GPR_emb (i : Fin 4) (off : Fin 3 → Nat) (hoff : off = ![i.val, 0, 0]) (h : ∀ a, off a + S1x256x128.size a ≤ S4x256x128.size a)
    (x : S1x256x128.Idx) : GPR m c ((Rect.unit (s := S4x256x128) off S1x256x128.size h).emb x)
      = Psel m ⟨((zF c).val + 4 - i.val) % 4, Nat.mod_lt _ (by decide)⟩ (mk i (sF c)) x := by
  subst hoff
  have e0 : ((Rect.unit (s := S4x256x128) ![i.val, 0, 0] S1x256x128.size h).emb x) 0 = i := Fin.ext (by
    show i.val + 1 * (x 0).val = i.val; have : (x 0).val < 1 := (x 0).isLt; omega)
  have e1 : ((Rect.unit (s := S4x256x128) ![i.val, 0, 0] S1x256x128.size h).emb x) 1 = x 1 := Fin.ext (by
    show 0 + 1 * (x 1).val = (x 1).val; omega)
  have e2 : ((Rect.unit (s := S4x256x128) ![i.val, 0, 0] S1x256x128.size h).emb x) 2 = x 2 := Fin.ext (by
    show 0 + 1 * (x 2).val = (x 2).val; omega)
  generalize (Rect.unit (s := S4x256x128) ![i.val, 0, 0] S1x256x128.size h).emb x = y at e0 e1 e2 ⊢
  simp only [GPR]
  subst e0
  rw [e1, e2]
  exact congrArg _ ((congrArg (fun u => ix3 u (x 1) (x 2)) (fin1_zero (x 0)).symm).trans (eq_ix3 x).symm)

theorem GPS_emb (j : Fin 3) (off : Fin 3 → Nat) (hoff : off = ![j.val, 0, 0]) (h : ∀ a, off a + S1x256x128.size a ≤ S3x256x128.size a)
    (x : S1x256x128.Idx) : GPS m c ((Rect.unit (s := S3x256x128) off S1x256x128.size h).emb x)
      = Psel m ⟨j.val + 1, by have := j.isLt; omega⟩ c x := by
  subst hoff
  have e0 : ((Rect.unit (s := S3x256x128) ![j.val, 0, 0] S1x256x128.size h).emb x) 0 = j := Fin.ext (by
    show j.val + 1 * (x 0).val = j.val; have : (x 0).val < 1 := (x 0).isLt; omega)
  have e1 : ((Rect.unit (s := S3x256x128) ![j.val, 0, 0] S1x256x128.size h).emb x) 1 = x 1 := Fin.ext (by
    show 0 + 1 * (x 1).val = (x 1).val; omega)
  have e2 : ((Rect.unit (s := S3x256x128) ![j.val, 0, 0] S1x256x128.size h).emb x) 2 = x 2 := Fin.ext (by
    show 0 + 1 * (x 2).val = (x 2).val; omega)
  generalize (Rect.unit (s := S3x256x128) ![j.val, 0, 0] S1x256x128.size h).emb x = y at e0 e1 e2 ⊢
  simp only [GPS]
  subst e0
  rw [e1, e2]
  exact congrArg _ ((congrArg (fun u => ix3 u (x 1) (x 2)) (fin1_zero (x 0)).symm).trans (eq_ix3 x).symm)

end Emb

theorem mk_col (c : Dev nD) (r : Fin 4) : mk ⟨(c.val / 4 + r.val) % 4, Nat.mod_lt _ (by decide)⟩ (sF c) = colPeer c r := Fin.ext rfl
theorem mk_plane (c : Dev nD) (r : Fin 4) : mk (zF c) ⟨(c.val % 4 + r.val) % 4, Nat.mod_lt _ (by decide)⟩ = planePeer c r := Fin.ext rfl
theorem mk_self (c : Dev nD) : mk (zF c) (sF c) = c := Fin.ext (by show c.val / 4 * 4 + c.val % 4 = c.val; omega)

section Reads
variable (c : Dev nD)

theorem readQ (r : Fin 4) (h : ∀ a, (k0_off12 c (BitVec.ofNat 32 r.val)) a + S1x256x64.size a ≤ S4x256x64.size a) :
    (qB).view.readAt (Elt F) (Rect.unit (s := S4x256x64) (k0_off12 c (BitVec.ofNat 32 r.val)) S1x256x64.size h).toLoadRect (GQ m c)
      = Contents.q m c r := by
  funext x
  show GQ m c ((Rect.unit (s := S4x256x64) (k0_off12 c (BitVec.ofNat 32 r.val)) S1x256x64.size h).emb x) = _
  rw [GQ_emb m c ⟨(c.val / 4 + r.val) % 4, Nat.mod_lt _ (by decide)⟩ _ (Mesh.k0_off12_eq c r) h x, mk_col]
  rfl

theorem readK0 (h : ∀ a, (k0_off2 c) a + S1x1x256x64.size a ≤ S4x2x256x64.size a) :
    (kvB).view.readAt (Elt F) (Rect.unit (s := S4x2x256x64) (k0_off2 c) S1x1x256x64.size h).toLoadRect (GKV m c)
      = Contents.k m c 0 := by
  funext x
  show GKV m c ((Rect.unit (s := S4x2x256x64) (k0_off2 c) S1x1x256x64.size h).emb x) = _
  rw [GKV_emb_k m c (sF c) _ (Gen.k0_off2_eq c) h x, mk_self]
  unfold Contents.k; rw [planePeer_zero]

theorem readK (r : Fin 4) (h : ∀ a, (k0_off19 c (BitVec.ofNat 32 r.val)) a + S1x1x256x64.size a ≤ S4x2x256x64.size a) :
    (kvB).view.readAt (Elt F) (Rect.unit (s := S4x2x256x64) (k0_off19 c (BitVec.ofNat 32 r.val)) S1x1x256x64.size h).toLoadRect (GKV m c)
      = Contents.k m c r := by
  funext x
  show GKV m c ((Rect.unit (s := S4x2x256x64) (k0_off19 c (BitVec.ofNat 32 r.val)) S1x1x256x64.size h).emb x) = _
  rw [GKV_emb_k m c ⟨(c.val % 4 + r.val) % 4, Nat.mod_lt _ (by decide)⟩ _ (Gen.k0_off19_eq c r) h x, mk_plane]
  rfl

theorem readV0 (h : ∀ a, (k0_off3 c) a + S1x1x256x64.size a ≤ S4x2x256x64.size a) :
    (kvB).view.readAt (Elt F) (Rect.unit (s := S4x2x256x64) (k0_off3 c) S1x1x256x64.size h).toLoadRect (GKV m c)
      = Contents.TV m c := by
  funext x
  show GKV m c ((Rect.unit (s := S4x2x256x64) (k0_off3 c) S1x1x256x64.size h).emb x) = _
  rw [GKV_emb_v m c (sF c) _ (Gen.k0_off3_eq c) h x, mk_self]

theorem readV (r : Fin 3) (h : ∀ a, (k0_off16 c (BitVec.ofNat 32 (1 + r.val))) a + S1x1x256x64.size a ≤ S4x2x256x64.size a) :
    (kvB).view.readAt (Elt F) (Rect.unit (s := S4x2x256x64) (k0_off16 c (BitVec.ofNat 32 (1 + r.val))) S1x1x256x64.size h).toLoadRect (GKV m c)
      = Contents.TV m (planePeer c r.succ) := by
  funext x
  show GKV m c ((Rect.unit (s := S4x2x256x64) (k0_off16 c (BitVec.ofNat 32 (1 + r.val))) S1x1x256x64.size h).emb x) = _
  rw [GKV_emb_v m c ⟨(c.val % 4 + r.val + 1) % 4, Nat.mod_lt _ (by decide)⟩ _ (Gen.k0_off16_eq c r) h x]
  exact congrArg (fun d => Contents.TV m d x) (Fin.ext (by
    show c.val / 4 * 4 + (c.val % 4 + r.val + 1) % 4 = c.val / 4 * 4 + (c.val % 4 + (r.succ).val) % 4
    rw [Fin.val_succ, Nat.add_assoc]))

theorem readVP0 (h : ∀ a, (k0_off13 c) a + S1x256x128.size a ≤ S4x256x128.size a) :
    (vpB).view.readAt (Elt F) (Rect.unit (s := S4x256x128) (k0_off13 c) S1x256x128.size h).toLoadRect (GVP m c)
      = Contents.vp m c 0 := by
  funext x
  show GVP m c ((Rect.unit (s := S4x256x128) (k0_off13 c) S1x256x128.size h).emb x) = _
  rw [GVP_emb m c (sF c) _ (Gen.k0_off13_eq c) h x, mk_self]
  unfold Contents.vp; rw [planePeer_zero]

theorem readVP (r : Fin 4) (h : ∀ a, (k0_off20 c (BitVec.ofNat 32 r.val)) a + S1x256x128.size a ≤ S4x256x128.size a) :
    (vpB).view.readAt (Elt F) (Rect.unit (s := S4x256x128) (k0_off20 c (BitVec.ofNat 32 r.val)) S1x256x128.size h).toLoadRect (GVP m c)
      = Contents.vp m c r := by
  funext x
  show GVP m c ((Rect.unit (s := S4x256x128) (k0_off20 c (BitVec.ofNat 32 r.val)) S1x256x128.size h).emb x) = _
  rw [GVP_emb m c ⟨(c.val % 4 + r.val) % 4, Nat.mod_lt _ (by decide)⟩ _ (Gen.k0_off20_eq c r) h x, mk_plane]
  rfl

theorem readPR (r : Fin 3) (h : ∀ a, (k0_off23 c (BitVec.ofNat 32 (1 + r.val))) a + S1x256x128.size a ≤ S4x256x128.size a) :
    (prB).view.readAt (Elt F) (Rect.unit (s := S4x256x128) (k0_off23 c (BitVec.ofNat 32 (1 + r.val))) S1x256x128.size h).toLoadRect (GPR m c)
      = Psel m ⟨3 - r.val, by omega⟩ (colPeer c r.succ) := by
  funext x
  show GPR m c ((Rect.unit (s := S4x256x128) (k0_off23 c (BitVec.ofNat 32 (1 + r.val))) S1x256x128.size h).emb x) = _
  rw [GPR_emb m c ⟨(c.val / 4 + r.val + 1) % 4, Nat.mod_lt _ (by decide)⟩ _ (Mesh.k0_off23_eq c r) h x]
  have hc : c.val < 16 := c.isLt
  have hr : r.val < 3 := r.isLt
  have ek : (⟨((zF c).val + 4 - (c.val / 4 + r.val + 1) % 4) % 4, Nat.mod_lt _ (by decide)⟩ : Fin 4) = ⟨3 - r.val, by omega⟩ :=
    Fin.ext (by show (c.val / 4 + 4 - (c.val / 4 + r.val + 1) % 4) % 4 = 3 - r.val; omega)
  have ed : mk ⟨(c.val / 4 + r.val + 1) % 4, Nat.mod_lt _ (by decide)⟩ (sF c) = colPeer c r.succ := Fin.ext (by
    show (c.val / 4 + r.val + 1) % 4 * 4 + c.val % 4 = (c.val / 4 + (r.succ).val) % 4 * 4 + c.val % 4
    rw [Fin.val_succ, Nat.add_assoc])
  rw [ek, ed]

theorem readPR1 (h : ∀ a, (k0_off23 c 1#32) a + S1x256x128.size a ≤ S4x256x128.size a) :
    (prB).view.readAt (Elt F) (Rect.unit (s := S4x256x128) (k0_off23 c 1#32) S1x256x128.size h).toLoadRect (GPR m c) = Contents.R1 m c :=
  (readPR m c 0 h).trans (by unfold Contents.R1 Psel; rfl)
theorem readPR2 (h : ∀ a, (k0_off23 c 2#32) a + S1x256x128.size a ≤ S4x256x128.size a) :
    (prB).view.readAt (Elt F) (Rect.unit (s := S4x256x128) (k0_off23 c 2#32) S1x256x128.size h).toLoadRect (GPR m c) = Contents.R2 m c :=
  (readPR m c 1 h).trans (by unfold Contents.R2 Psel; rfl)
theorem readPR3 (h : ∀ a, (k0_off23 c 3#32) a + S1x256x128.size a ≤ S4x256x128.size a) :
    (prB).view.readAt (Elt F) (Rect.unit (s := S4x256x128) (k0_off23 c 3#32) S1x256x128.size h).toLoadRect (GPR m c) = Contents.R3 m c :=
  (readPR m c 2 h).trans (by unfold Contents.R3 Psel; rfl)

end Reads

section Stores
variable (c : Dev nD)

theorem Psel_one : Psel m 1 c = P1 m c := by unfold Psel; rw [if_neg (by decide), if_neg (by decide)]
theorem Psel_two : Psel m 2 c = P2 m c := by unfold Psel; rw [if_pos (by decide)]
theorem Psel_three : Psel m 3 c = P3 m c := by unfold Psel; rw [if_neg (by decide), if_pos (by decide)]
theorem P1_eq : k0_pay33 (A1_2 m c) (Contents.q m c 1) (Contents.k m c 3) (Contents.vp m c 3) = Psel m 1 c := (Psel_one m c).symm
theorem P2_eq : k0_pay34 (A2_2 m c) (Contents.q m c 2) (Contents.k m c 3) (Contents.vp m c 3) = Psel m 2 c := (Psel_two m c).symm
theorem P3_eq : k0_pay35 (A3_2 m c) (Contents.q m c 3) (Contents.k m c 3) (Contents.vp m c 3) = Psel m 3 c := (Psel_three m c).symm

theorem pay16_eq (tv : FVec F S1x1x256x64 .bf16) : k0_pay16 tv = k0_pay7 tv := rfl
theorem pay24_eq (tv : FVec F S1x1x256x64 .bf16) : k0_pay24 (k0_pay23 tv) = k0_pay7 tv := rfl
theorem pay31_eq (tv : FVec F S1x1x256x64 .bf16) : k0_pay31 (k0_pay30 tv) = k0_pay7 tv := rfl
theorem pay17_eq : k0_pay17 (k0_pay6 (F := F)) = k0_pay8 (F := F) := rfl
theorem pay25_eq : k0_pay25 (k0_pay6 (F := F)) = k0_pay8 (F := F) := rfl
theorem pay32_eq : k0_pay32 (k0_pay6 (F := F)) = k0_pay8 (F := F) := rfl

theorem storeQ (h : ∀ a, (k0_off1 c) a + S1x256x64.size a ≤ S4x256x64.size a) (f : Buf (Elt F) ((qB).view.loc (c : Thread nD τ))) :
    ∀ i : S4x256x64.Idx, (i 0).val = (zF c).val →
      ((qB).access (Rect.unit (s := S4x256x64) (k0_off1 c) S1x256x64.size h)).write (Elt F) f (k0_pay2 (X0 m c)) Finset.univ i = GQ m c i := by
  intro i hi
  have hA := AgreeOn.write cc0_scratch0 (agreeOn_empty cc0_scratch0 f (GQ m c))
    (Rect.unit (s := S4x256x64) (k0_off1 c) S1x256x64.size h) (k0_pay2 (X0 m c))
    (fun x => by rw [GQ_emb m c (zF c) _ (Mesh.k0_off1_eq c) h x, mk_self]; rfl)
  refine hA i (Finset.mem_union_right _ (Rect.mem_set_unit.mpr fun a => ?_))
  rw [Mesh.k0_off1_eq c]
  have h0 : (i 0).val = c.val / 4 := hi
  have h1 : (i 1).val < 256 := (i 1).isLt
  have h2 : (i 2).val < 64 := (i 2).isLt
  match a with
  | ⟨0, _⟩ => show c.val / 4 ≤ (i 0).val ∧ (i 0).val < c.val / 4 + 1; omega
  | ⟨1, _⟩ => show 0 ≤ (i 1).val ∧ (i 1).val < 0 + 256; omega
  | ⟨2, _⟩ => show 0 ≤ (i 2).val ∧ (i 2).val < 0 + 64; omega

theorem storeKV (h2 : ∀ a, (k0_off2 c) a + S1x1x256x64.size a ≤ S4x2x256x64.size a)
    (h3 : ∀ a, (k0_off3 c) a + S1x1x256x64.size a ≤ S4x2x256x64.size a) (f : Buf (Elt F) ((kvB).view.loc (c : Thread nD τ))) :
    ∀ i : S4x2x256x64.Idx, (i 0).val = (sF c).val →
      ((kvB).access (Rect.unit (s := S4x2x256x64) (k0_off3 c) S1x1x256x64.size h3)).write (Elt F)
        (((kvB).access (Rect.unit (s := S4x2x256x64) (k0_off2 c) S1x1x256x64.size h2)).write (Elt F) f (k0_pay3 (X1 m c)) Finset.univ)
        (k0_pay4 (X2 m c)) Finset.univ i = GKV m c i := by
  intro i hi
  have hA1 := AgreeOn.write cc0_scratch1 (agreeOn_empty cc0_scratch1 f (GKV m c))
    (Rect.unit (s := S4x2x256x64) (k0_off2 c) S1x1x256x64.size h2) (k0_pay3 (X1 m c))
    (fun x => by rw [GKV_emb_k m c (sF c) _ (Gen.k0_off2_eq c) h2 x, mk_self]; rfl)
  have hA2 := AgreeOn.write cc0_scratch1 hA1
    (Rect.unit (s := S4x2x256x64) (k0_off3 c) S1x1x256x64.size h3) (k0_pay4 (X2 m c))
    (fun x => by rw [GKV_emb_v m c (sF c) _ (Gen.k0_off3_eq c) h3 x, mk_self]; rfl)
  refine hA2 i ?_
  have e0 : (i 0).val = c.val % 4 := hi
  have e1 : (i 1).val < 2 := (i 1).isLt
  have e2 : (i 2).val < 256 := (i 2).isLt
  have e3 : (i 3).val < 64 := (i 3).isLt
  by_cases hh : (i 1).val = 0
  · refine Finset.mem_union_left _ (Finset.mem_union_right _ (Rect.mem_set_unit.mpr fun a => ?_))
    rw [Gen.k0_off2_eq c]
    match a with
    | ⟨0, _⟩ => show c.val % 4 ≤ (i 0).val ∧ (i 0).val < c.val % 4 + 1; omega
    | ⟨1, _⟩ => show 0 ≤ (i 1).val ∧ (i 1).val < 0 + 1; omega
    | ⟨2, _⟩ => show 0 ≤ (i 2).val ∧ (i 2).val < 0 + 256; omega
    | ⟨3, _⟩ => show 0 ≤ (i 3).val ∧ (i 3).val < 0 + 64; omega
  · refine Finset.mem_union_right _ (Rect.mem_set_unit.mpr fun a => ?_)
    rw [Gen.k0_off3_eq c]
    match a with
    | ⟨0, _⟩ => show c.val % 4 ≤ (i 0).val ∧ (i 0).val < c.val % 4 + 1; omega
    | ⟨1, _⟩ => show 1 ≤ (i 1).val ∧ (i 1).val < 1 + 1; omega
    | ⟨2, _⟩ => show 0 ≤ (i 2).val ∧ (i 2).val < 0 + 256; omega
    | ⟨3, _⟩ => show 0 ≤ (i 3).val ∧ (i 3).val < 0 + 64; omega

theorem storePS (j : Fin 3) (h : ∀ a, (![j.val, 0, 0] : Fin 3 → Nat) a + S1x256x128.size a ≤ S3x256x128.size a)
    (f : Buf (Elt F) ((psB).view.loc (c : Thread nD τ))) (w : FVec F S1x256x128 .bf16)
    (hw : w = Psel m ⟨j.val + 1, by have := j.isLt; omega⟩ c) :
    ∀ i : S3x256x128.Idx, (i 0).val = j.val →
      ((psB).access (Rect.unit (s := S3x256x128) ![j.val, 0, 0] S1x256x128.size h)).write (Elt F) f w Finset.univ i = GPS m c i := by
  intro i hi
  have hA := AgreeOn.write cc0_scratch3 (agreeOn_empty cc0_scratch3 f (GPS m c))
    (Rect.unit (s := S3x256x128) ![j.val, 0, 0] S1x256x128.size h) w
    (fun x => by rw [GPS_emb m c j _ rfl h x, hw])
  refine hA i (Finset.mem_union_right _ (Rect.mem_set_unit.mpr fun a => ?_))
  have h1 : (i 1).val < 256 := (i 1).isLt
  have h2 : (i 2).val < 128 := (i 2).isLt
  match a with
  | ⟨0, _⟩ => show j.val ≤ (i 0).val ∧ (i 0).val < j.val + 1; omega
  | ⟨1, _⟩ => show 0 ≤ (i 1).val ∧ (i 1).val < 0 + 256; omega
  | ⟨2, _⟩ => show 0 ≤ (i 2).val ∧ (i 2).val < 0 + 128; omega

end Stores

section Padded
variable (c : Dev nD)

theorem pay5_const (x y : S4x256x128.Idx) : (k0_pay5 (F := F)) x = (k0_pay5 (F := F)) y := by
  show shapeCast S4x256x128 (broadcast S4x256x128 (Scalar.ofBits (F := F) .bf16 0x0000#16)) shapeCasts_S4x256x128_S4x256x128 x
    = shapeCast S4x256x128 (broadcast S4x256x128 (Scalar.ofBits (F := F) .bf16 0x0000#16)) shapeCasts_S4x256x128_S4x256x128 y
  rw [shapeCast_self]; rfl

theorem VP_at (d : Dev nD) (j : Fin 256) (col : Fin 128) : VP m d (ix3 (0 : Fin 1) j col)
    = if h : col.val < 64 then (k0_pay7 (TV m d)) (ix3 (0 : Fin 1) j (⟨col.val, h⟩ : Fin 64))
      else if col.val = 64 then (k0_pay8 (F := F)) (ix3 (0 : Fin 1) j (0 : Fin 1))
      else (k0_pay5 (F := F)) (ix3 (0 : Fin 4) j col) := rfl

theorem VZ_agree : ∀ i : S4x256x128.Idx, 64 < (i 2).val → (k0_pay5 (F := F)) (ix3 (i 0) (i 1) (i 2)) = GVP m c i := by
  intro i hi
  simp only [GVP]
  refine Eq.trans ?_ (VP_at m (mk (zF c) (i 0)) (i 1) (i 2)).symm
  rw [dif_neg (by omega), if_neg (by omega)]
  exact pay5_const _ _

theorem GVP_emb_cols (i : Fin 4) (off : Fin 3 → Nat) (hoff : off = ![i.val, 0, 0]) (h : ∀ a, off a + S1x256x64.size a ≤ S4x256x128.size a)
    (x : S1x256x64.Idx) : GVP m c ((Rect.unit (s := S4x256x128) off S1x256x64.size h).emb x) = k0_pay7 (TV m (mk (zF c) i)) x := by
  subst hoff
  have e0 : ((Rect.unit (s := S4x256x128) ![i.val, 0, 0] S1x256x64.size h).emb x) 0 = i := Fin.ext (by
    show i.val + 1 * (x 0).val = i.val; have : (x 0).val < 1 := (x 0).isLt; omega)
  have e1 : ((Rect.unit (s := S4x256x128) ![i.val, 0, 0] S1x256x64.size h).emb x) 1 = x 1 := Fin.ext (by
    show 0 + 1 * (x 1).val = (x 1).val; omega)
  have e2 : (((Rect.unit (s := S4x256x128) ![i.val, 0, 0] S1x256x64.size h).emb x) 2).val = (x 2).val := by
    show 0 + 1 * (x 2).val = (x 2).val; omega
  generalize (Rect.unit (s := S4x256x128) ![i.val, 0, 0] S1x256x64.size h).emb x = y at e0 e1 e2 ⊢
  simp only [GVP]
  have hlt : (y 2).val < 64 := by rw [e2]; exact (x 2).isLt
  refine (VP_at m (mk (zF c) (y 0)) (y 1) (y 2)).trans ?_
  rw [dif_pos hlt, e0, e1]
  exact congrArg _ ((congrArg₂ (fun u (v : Fin 64) => ix3 u (x 1) v) (fin1_zero (x 0)).symm (Fin.ext e2)).trans (eq_ix3 x).symm)

theorem GVP_emb_ones (i : Fin 4) (off : Fin 3 → Nat) (hoff : off = ![i.val, 0, 64]) (h : ∀ a, off a + S1x256x1.size a ≤ S4x256x128.size a)
    (x : S1x256x1.Idx) : GVP m c ((Rect.unit (s := S4x256x128) off S1x256x1.size h).emb x) = (k0_pay8 (F := F)) x := by
  subst hoff
  have e1 : ((Rect.unit (s := S4x256x128) ![i.val, 0, 64] S1x256x1.size h).emb x) 1 = x 1 := Fin.ext (by
    show 0 + 1 * (x 1).val = (x 1).val; omega)
  have e2 : (((Rect.unit (s := S4x256x128) ![i.val, 0, 64] S1x256x1.size h).emb x) 2).val = 64 := by
    show 64 + 1 * (x 2).val = 64; have : (x 2).val < 1 := (x 2).isLt; omega
  generalize (Rect.unit (s := S4x256x128) ![i.val, 0, 64] S1x256x1.size h).emb x = y at e1 e2 ⊢
  simp only [GVP]
  refine (VP_at m (mk (zF c) (y 0)) (y 1) (y 2)).trans ?_
  rw [dif_neg (by omega), if_pos e2, e1]
  exact congrArg _ ((congrArg₂ (fun u v => ix3 u (x 1) v) (fin1_zero (x 0)).symm (fin1_zero (x 2)).symm).trans (eq_ix3 x).symm)

theorem fill_block (i : Fin 4) (off17 off18 : Fin 3 → Nat) (ho17 : off17 = ![i.val, 0, 0]) (ho18 : off18 = ![i.val, 0, 64])
    (h17 : ∀ a, off17 a + S1x256x64.size a ≤ S4x256x128.size a) (h18 : ∀ a, off18 a + S1x256x1.size a ≤ S4x256x128.size a)
    (f : Buf (Elt F) ((vpB).view.loc (c : Thread nD τ))) (w1 : FVec F S1x256x64 .bf16) (w2 : FVec F S1x256x1 .bf16)
    (hw1 : w1 = k0_pay7 (TV m (mk (zF c) i))) (hw2 : w2 = k0_pay8 (F := F))
    (hf : ∀ x : S4x256x128.Idx, 64 < (x 2).val → f x = GVP m c x) :
    ∀ x : S4x256x128.Idx, (x 0).val = i.val →
      ((vpB).access (Rect.unit (s := S4x256x128) off18 S1x256x1.size h18)).write (Elt F)
        (((vpB).access (Rect.unit (s := S4x256x128) off17 S1x256x64.size h17)).write (Elt F) f w1 Finset.univ) w2 Finset.univ x
        = GVP m c x := by
  intro x hx
  have hA0 : AgreeOn cc0_scratch2 (Finset.univ.filter fun y : S4x256x128.Idx => 64 < (y 2).val) f (GVP m c) :=
    fun y hy => hf y (Finset.mem_filter.mp hy).2
  have hA1 := AgreeOn.write cc0_scratch2 hA0 (Rect.unit (s := S4x256x128) off17 S1x256x64.size h17) w1
    (fun y => by rw [GVP_emb_cols m c i _ ho17 h17 y, hw1])
  have hA2 := AgreeOn.write cc0_scratch2 hA1 (Rect.unit (s := S4x256x128) off18 S1x256x1.size h18) w2
    (fun y => by rw [GVP_emb_ones m c i _ ho18 h18 y, hw2])
  refine hA2 x ?_
  have e1 : (x 1).val < 256 := (x 1).isLt
  have e2 : (x 2).val < 128 := (x 2).isLt
  by_cases hlt : (x 2).val < 64
  · refine Finset.mem_union_left _ (Finset.mem_union_right _ (Rect.mem_set_unit.mpr fun a => ?_))
    rw [ho17]
    match a with
    | ⟨0, _⟩ => show i.val ≤ (x 0).val ∧ (x 0).val < i.val + 1; omega
    | ⟨1, _⟩ => show 0 ≤ (x 1).val ∧ (x 1).val < 0 + 256; omega
    | ⟨2, _⟩ => show 0 ≤ (x 2).val ∧ (x 2).val < 0 + 64; omega
  · by_cases heq : (x 2).val = 64
    · refine Finset.mem_union_right _ (Rect.mem_set_unit.mpr fun a => ?_)
      rw [ho18]
      match a with
      | ⟨0, _⟩ => show i.val ≤ (x 0).val ∧ (x 0).val < i.val + 1; omega
      | ⟨1, _⟩ => show 0 ≤ (x 1).val ∧ (x 1).val < 0 + 256; omega
      | ⟨2, _⟩ => show 64 ≤ (x 2).val ∧ (x 2).val < 64 + 1; omega
    · exact Finset.mem_union_left _ (Finset.mem_union_left _ (Finset.mem_filter.mpr ⟨Finset.mem_univ _, by omega⟩))

theorem fillVP (r : Fin 3) (h17 : ∀ a, (k0_off17 c (BitVec.ofNat 32 (1 + r.val))) a + S1x256x64.size a ≤ S4x256x128.size a)
    (h18 : ∀ a, (k0_off18 c (BitVec.ofNat 32 (1 + r.val))) a + S1x256x1.size a ≤ S4x256x128.size a)
    (f : Buf (Elt F) ((vpB).view.loc (c : Thread nD τ))) (w1 : FVec F S1x256x64 .bf16) (w2 : FVec F S1x256x1 .bf16)
    (hw1 : w1 = k0_pay7 (TV m (planePeer c r.succ))) (hw2 : w2 = k0_pay8 (F := F))
    (hf : ∀ x : S4x256x128.Idx, 64 < (x 2).val → f x = GVP m c x) :
    ∀ x : S4x256x128.Idx, (x 0).val = (sF (planePeer c r.succ)).val →
      ((vpB).access (Rect.unit (s := S4x256x128) (k0_off18 c (BitVec.ofNat 32 (1 + r.val))) S1x256x1.size h18)).write (Elt F)
        (((vpB).access (Rect.unit (s := S4x256x128) (k0_off17 c (BitVec.ofNat 32 (1 + r.val))) S1x256x64.size h17)).write (Elt F) f w1 Finset.univ)
        w2 Finset.univ x = GVP m c x := by
  intro x hx
  have hd : mk (zF c) ⟨(c.val % 4 + r.val + 1) % 4, Nat.mod_lt _ (by decide)⟩ = planePeer c r.succ := Fin.ext (by
    show c.val / 4 * 4 + (c.val % 4 + r.val + 1) % 4 = c.val / 4 * 4 + (c.val % 4 + (r.succ).val) % 4
    rw [Fin.val_succ, Nat.add_assoc])
  refine fill_block m c ⟨(c.val % 4 + r.val + 1) % 4, Nat.mod_lt _ (by decide)⟩ _ _ (Gen.k0_off17_eq c r) (Gen.k0_off18_eq c r) h17 h18 f w1 w2
    (by rw [hd]; exact hw1) hw2 hf x ?_
  rw [hx]
  show ((c.val / 4 * 4 + (c.val % 4 + (r.succ).val) % 4) % 4) = (c.val % 4 + r.val + 1) % 4
  rw [Fin.val_succ]; omega

theorem fillVP0 (h4 : ∀ a, (k0_off4 c) a + S1x256x64.size a ≤ S4x256x128.size a)
    (h5 : ∀ a, (k0_off5 c) a + S1x256x1.size a ≤ S4x256x128.size a)
    (f : Buf (Elt F) ((vpB).view.loc (c : Thread nD τ))) (w1 : FVec F S1x256x64 .bf16) (w2 : FVec F S1x256x1 .bf16)
    (hw1 : w1 = k0_pay7 (TV m c)) (hw2 : w2 = k0_pay8 (F := F))
    (hf : ∀ x : S4x256x128.Idx, 64 < (x 2).val → f x = GVP m c x) :
    ∀ x : S4x256x128.Idx, (x 0).val = (sF c).val →
      ((vpB).access (Rect.unit (s := S4x256x128) (k0_off5 c) S1x256x1.size h5)).write (Elt F)
        (((vpB).access (Rect.unit (s := S4x256x128) (k0_off4 c) S1x256x64.size h4)).write (Elt F) f w1 Finset.univ)
        w2 Finset.univ x = GVP m c x :=
  fill_block m c (sF c) _ _ (Gen.k0_off4_eq c) (Gen.k0_off5_eq c) h4 h5 f w1 w2 (by rw [mk_self]; exact hw1) hw2 hf

end Padded

end Cert.KernelIdeal.RegVal

end
-- ==== Proof.BodyDefs.lean ====
import proofs.«900582_g7700000000000583_dist_ring_attn_i_s256_d64_v7x_i16_f32_1_alg».proof.Proof.Ghost
import proofs.«900582_g7700000000000583_dist_ring_attn_i_s256_d64_v7x_i16_f32_1_alg».proof.Proof.BarCell

noncomputable section

namespace Cert.KernelIdeal.BodyDefs

open Cert.KernelIdeal Cert.KernelIdeal.Gen Cert.KernelIdeal.Mesh Cert.KernelIdeal.Cells Cert.KernelIdeal.Contents Cert.KernelIdeal.Sched
open Cert.KernelIdeal.Ghost
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

abbrev T3 (Φ : Fin 3 → sProp 𝕄) : sProp 𝕄 := iprop(Φ 0 ∗ Φ 1 ∗ Φ 2)

def Ow (c : Dev nD) (O : CellTallies nD τ sig Unit) : sProp 𝕄 := iprop(∃ W, owes (c : Thread nD τ) O W)

def at0 (c : Dev nD) (n : DmaSem sig) : sProp 𝕄 := atPos ER (dmaCell c n) 0 ∅ 0
def at1 (c : Dev nD) (n : DmaSem sig) : sProp 𝕄 := atPos ER (dmaCell c n) 1 ∅ 0

def tok (p : Dev nD) (n : DmaSem sig) : sProp 𝕄 := dutyTok ER (dmaCell p n) 0 (0 : DD)
def crd (c : Dev nD) (n : DmaSem sig) (N : ℕ) : sProp 𝕄 := cred (tD c n N)

def stg0 (c : Dev nD) : sProp 𝕄 := ((c : Thread nD τ).loc cc0_stg0_0) ↦{fullShare} X0 m c
def stg1 (c : Dev nD) : sProp 𝕄 := ((c : Thread nD τ).loc cc0_stg1_0) ↦{fullShare} X1 m c
def stg2 (c : Dev nD) : sProp 𝕄 := ((c : Thread nD τ).loc cc0_stg2_0) ↦{fullShare} X2 m c
def stgOut (c : Dev nD) (X : (cc0_stg3_0 : Ref sig .tc).ty.Contents (Elt F)) : sProp 𝕄 :=
  ((c : Thread nD τ).loc cc0_stg3_0) ↦{fullShare} X
def stgIn (c : Dev nD) : sProp 𝕄 := iprop(stg0 m c ∗ stg1 m c ∗ stg2 m c)

abbrev vpS (i : Fin 4) : Memref sig .tc .vmem S256x128 .bf16 :=
  ((vpB).slice (Rect.unit (s := S4x256x128) (offQ i) S1x256x128.size (inbPR i)) (fun _ => rfl)).squeeze S256x128 squeezes_S1x256x128_S256x128

def VZ (c : Dev nD) : Buf (Elt F) ((vpB).view.loc (c : Thread nD τ)) := fun idx =>
  (k0_pay5 (F := F)) (ValueIdx.ix3 (idx 0) (idx 1) (idx 2))

def ptVP (c : Dev nD) (i : Fin 4) : sProp 𝕄 := (vpB).view.loc (c : Thread nD τ) ↦[(vpS i).view.set]{fullShare} GVP m c
def zeroVP (c : Dev nD) (i : Fin 4) : sProp 𝕄 := (vpB).view.loc (c : Thread nD τ) ↦[(vpS i).view.set]{fullShare} VZ (F := F) c

def slotPS (c : Dev nD) (j : Fin 3) : sProp 𝕄 := iprop(∃ f, (psB).view.loc (c : Thread nD τ) ↦[(psS j).view.set]{fullShare} f)

abbrev zP (c : Dev nD) (j : Fin 3) : Fin 4 := zF (cP c j)
abbrev sP (c : Dev nD) (j : Fin 3) : Fin 4 := sF (pP c j)

def colTok (c : Dev nD) (j : Fin 3) : sProp 𝕄 := dutyTok ER (barCell (cP c j)) 0 (colD j)
def plaTok (c : Dev nD) (j : Fin 3) : sProp 𝕄 := dutyTok ER (barCell (pP c j)) 0 (plaD j)
def kvRtok (c : Dev nD) (j : Fin 3) : sProp 𝕄 := tok (pP c j) (kvRecvSem (sF c))
def qRtok (c : Dev nD) (j : Fin 3) : sProp 𝕄 := tok (cP c j) (qRecvSem (zF c))
def pRtok (c : Dev nD) (j : Fin 3) : sProp 𝕄 := tok (cP c j) (pRecvSem (zF c))
def kvStok (c : Dev nD) (j : Fin 3) : sProp 𝕄 := tok c (kvSendSem j)
def qStok (c : Dev nD) (j : Fin 3) : sProp 𝕄 := tok c (qSendSem j)
def pStok (c : Dev nD) (j : Fin 3) : sProp 𝕄 := tok c (pSendSem j)

def credQR (c : Dev nD) (j : Fin 3) : sProp 𝕄 := crd c (qRecvSem (zP c j)) NQ
def credKVR (c : Dev nD) (j : Fin 3) : sProp 𝕄 := crd c (kvRecvSem (sP c j)) NKV
def credPR (c : Dev nD) (j : Fin 3) : sProp 𝕄 := crd c (pRecvSem (zP c j)) NP

def credQS (c : Dev nD) (j : Fin 3) : sProp 𝕄 := crd c (qSendSem j) NQ
def credKVS (c : Dev nD) (j : Fin 3) : sProp 𝕄 := crd c (kvSendSem j) NKV
def credPS (c : Dev nD) (j : Fin 3) : sProp 𝕄 := crd c (pSendSem j) NP

def atStart (c : Dev nD) : sProp 𝕄 :=
  iprop(T3 (fun j => at0 c (qSendSem j)) ∗ T3 (fun j => at0 c (kvSendSem j)) ∗ T3 (fun j => at0 c (pSendSem j))
    ∗ at0 c (qRecvSem (zF c)) ∗ at0 c (kvRecvSem (sF c)) ∗ at0 c (pRecvSem (zF c))
    ∗ T3 (fun j => at0 c (qRecvSem (zP c j))) ∗ T3 (fun j => at0 c (kvRecvSem (sP c j))) ∗ T3 (fun j => at0 c (pRecvSem (zP c j))))

def pers : sProp 𝕄 := iprop(records m K ∗ levAts L lv)

def I0 (c : Dev nD) : sProp 𝕄 :=
  iprop(pers m K ∗ linear c ∗ creds c ∗ scratch c ∗ Ow c (O0 c) ∗ stgIn m c ∗ ∃ X, stgOut c X)

def I2 (c : Dev nD) : sProp 𝕄 :=
  iprop(pers m K ∗ Ow c (O1 c) ∗ phTok ER (B (F := F) c) (barCell c) 0
    ∗ (bigSep Finset.univ fun k : Fin 21 => atPos ER (dmaCell c (sc k)) 0 ∅ 0) ∗ creds c
    ∗ (colTok c 1 ∗ colTok c 2) ∗ T3 (plaTok c) ∗ T3 (kvRtok c) ∗ T3 (qRtok c) ∗ T3 (pRtok c) ∗ T3 (kvStok c) ∗ T3 (qStok c) ∗ T3 (pStok c)
    ∗ ptQ m c (zF c) fullShare ∗ (slotQ c (zP c 1) ∗ slotQ c (zP c 2))
    ∗ ptKV m c (sF c) fullShare ∗ T3 (fun j => slotKV c (sP c j))
    ∗ ptVP m c (sF c) ∗ T3 (fun j => zeroVP (F := F) c (sP c j))
    ∗ T3 (slotPS c)
    ∗ slotPR c (zF c) ∗ (slotPR c (zP c 1) ∗ slotPR c (zP c 2))
    ∗ stgIn m c ∗ ∃ X, stgOut c X)

def I6 (c : Dev nD) : sProp 𝕄 :=
  iprop(pers m K ∗ Ow c (O12 c) ∗ phTok ER (B (F := F) c) (barCell c) 2
    ∗ atStart c
    ∗ T3 (credQR c) ∗ T3 (credKVR c) ∗ T3 (credPR c) ∗ T3 (credKVS c) ∗ T3 (credQS c)
    ∗ T3 (pRtok c) ∗ T3 (pStok c)
    ∗ ptQ m c (zF c) keep ∗ ptKV m c (sF c) keep
    ∗ ptVP m c (sF c) ∗ T3 (fun j => zeroVP (F := F) c (sP c j))
    ∗ T3 (slotPS c)
    ∗ slotPR c (zF c) ∗ T3 (fun j => slotPR (cP c j) (zF c))
    ∗ stgIn m c ∗ ∃ X, stgOut c X)

def atRecv (c : Dev nD) : sProp 𝕄 :=
  iprop(T3 (fun j => at0 c (qSendSem j)) ∗ T3 (fun j => at0 c (kvSendSem j)) ∗ T3 (fun j => at0 c (pSendSem j))
    ∗ at0 c (qRecvSem (zF c)) ∗ at0 c (kvRecvSem (sF c)) ∗ at0 c (pRecvSem (zF c))
    ∗ T3 (fun j => at1 c (qRecvSem (zP c j))) ∗ T3 (fun j => at1 c (kvRecvSem (sP c j))) ∗ T3 (fun j => at0 c (pRecvSem (zP c j))))

def I13 (c : Dev nD) : sProp 𝕄 :=
  iprop(pers m K ∗ Ow c (O12 c) ∗ phTok ER (B (F := F) c) (barCell c) 2
    ∗ atRecv c
    ∗ T3 (credPR c) ∗ T3 (credKVS c) ∗ T3 (credQS c)
    ∗ T3 (pRtok c) ∗ T3 (pStok c)
    ∗ ptQ m c (zF c) keep ∗ T3 (fun j => ptQ m c (zP c j) fullShare)
    ∗ ptKV m c (sF c) keep ∗ T3 (fun j => ptKV m c (sP c j) fullShare)
    ∗ ptVP m c (sF c) ∗ ptVP m c (sP c 0) ∗ ptVP m c (sP c 1) ∗ zeroVP (F := F) c (sP c 2)
    ∗ T3 (slotPS c)
    ∗ slotPR c (zF c) ∗ T3 (fun j => slotPR (cP c j) (zF c))
    ∗ stgIn m c ∗ ∃ X, stgOut c X)

def I16 (c : Dev nD) : sProp 𝕄 :=
  iprop(pers m K ∗ Ow c (O14 c) ∗ phTok ER (B (F := F) c) (barCell c) 2
    ∗ atRecv c
    ∗ T3 (credPR c) ∗ T3 (credKVS c) ∗ T3 (credQS c) ∗ (credPS c 0 ∗ credPS c 1)
    ∗ pRtok c 2 ∗ pStok c 2
    ∗ ptQ m c (zF c) keep ∗ T3 (fun j => ptQ m c (zP c j) fullShare)
    ∗ ptKV m c (sF c) keep ∗ T3 (fun j => ptKV m c (sP c j) fullShare)
    ∗ ptVP m c (sF c) ∗ T3 (fun j => ptVP m c (sP c j))
    ∗ ptPS m c 2 fullShare
    ∗ slotPR c (zF c) ∗ slotPR (cP c 2) (zF c)
    ∗ stgIn m c ∗ ∃ X, stgOut c X)

def atLate (c : Dev nD) : sProp 𝕄 :=
  iprop(T3 (fun j => at0 c (qSendSem j)) ∗ (at0 c (kvSendSem 0) ∗ at1 c (kvSendSem 1) ∗ at0 c (kvSendSem 2)) ∗ T3 (fun j => at0 c (pSendSem j))
    ∗ at0 c (qRecvSem (zF c)) ∗ at0 c (kvRecvSem (sF c)) ∗ at0 c (pRecvSem (zF c))
    ∗ T3 (fun j => at1 c (qRecvSem (zP c j))) ∗ T3 (fun j => at1 c (kvRecvSem (sP c j))) ∗ T3 (fun j => at1 c (pRecvSem (zP c j))))

def I20 (c : Dev nD) : sProp 𝕄 :=
  iprop(pers m K ∗ Ow c (O15) ∗ phTok ER (B (F := F) c) (barCell c) 2
    ∗ atLate c
    ∗ (credKVS c 0 ∗ credKVS c 2) ∗ T3 (credQS c) ∗ T3 (credPS c)
    ∗ ptQ m c (zF c) keep ∗ T3 (fun j => ptQ m c (zP c j) fullShare)
    ∗ ptKV m c (sF c) keep ∗ ptKV m c (sF c) (lend 1) ∗ T3 (fun j => ptKV m c (sP c j) fullShare)
    ∗ ptVP m c (sF c) ∗ T3 (fun j => ptVP m c (sP c j))
    ∗ slotPR c (zF c) ∗ T3 (fun j => ptPR m c (zP c j) fullShare)
    ∗ stgIn m c ∗ ∃ X, stgOut c X)

def IEnd (c : Dev nD) : sProp 𝕄 :=
  iprop(Φ₁ (F := F) c ∗ Ow c (O15) ∗ stgIn m c ∗ stgOut c (OUT m c))

end Cert.KernelIdeal.BodyDefs

end
-- ==== Proof.Steps.lean ====
import proofs.«900582_g7700000000000583_dist_ring_attn_i_s256_d64_v7x_i16_f32_1_alg».proof.Proof.BodyDefs

noncomputable section

namespace Cert.KernelIdeal.Steps

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

instance records_persistent : BI.Persistent (records (F := F) m K) := by unfold records; infer_instance
instance pers_persistent : BI.Persistent (pers (F := F) m K) := by unfold pers; infer_instance

def scOf (n : DmaSem sig) (h : 4 ≤ n.val) : Fin 21 := ⟨n.val - 4, by have h25 : n.val < 25 := n.isLt; omega⟩
theorem sc_scOf (n : DmaSem sig) (h : 4 ≤ n.val) : sc (scOf n h) = n :=
  Fin.ext (by show n.val - 4 + 4 = n.val; omega)

theorem bar_at (p : Dev nD) :
    (bigSep Finset.univ fun c : Dev nD => (barInv ER (B (F := F) c) (K (c, 0)) (barCell c) : sProp 𝕄)) ⊢ barInv ER (B (F := F) p) (K (p, 0)) (barCell p) :=
  bigSep_elim (Finset.mem_univ p)
theorem cell_at (ck : Dev nD × Fin 21) :
    (bigSep Finset.univ fun ck : Dev nD × Fin 21 => (cellInv ER (Rd m) (K (ck.1, ck.2.succ)) (dmaCell ck.1 (sc ck.2)) : sProp 𝕄))
      ⊢ cellInv ER (Rd m) (K (ck.1, ck.2.succ)) (dmaCell ck.1 (sc ck.2)) :=
  bigSep_elim (Finset.mem_univ ck)
theorem reached_at (ck : Dev nD × Fin 21) :
    (bigSep Finset.univ fun ck : Dev nD × Fin 21 => (reached ER (dmaCell ck.1 (sc ck.2)) 0 : sProp 𝕄)) ⊢ reached ER (dmaCell ck.1 (sc ck.2)) 0 :=
  bigSep_elim (Finset.mem_univ ck)

theorem rec_bar (p : Dev nD) : records m K ⊢ barInv ER (B (F := F) p) (K (p, 0)) (barCell p) := by
  unfold records
  iintro ⟨H, -, -⟩
  iapply (bar_at K p) $$ H

theorem rec_cell (p : Dev nD) (n : DmaSem sig) (h : 4 ≤ n.val) :
    records m K ⊢ cellInv ER (Rd m) (K (p, (scOf n h).succ)) (dmaCell p n) := by
  have e := sc_scOf n h
  unfold records
  iintro ⟨-, H, -⟩
  ihave H' := (cell_at m K (p, scOf n h)) $$ H
  iapply (Entails.of_eq (show cellInv ER (Rd m) (K (p, (scOf n h).succ)) (dmaCell p (sc (scOf n h))) = _ from by rw [e])) $$ H'

theorem rec_reached (p : Dev nD) (n : DmaSem sig) (h : 4 ≤ n.val) :
    records m K ⊢ reached ER (dmaCell p n) 0 := by
  have e := sc_scOf n h
  unfold records
  iintro ⟨-, -, H⟩
  ihave H' := (reached_at (F := F) (p, scOf n h)) $$ H
  iapply (Entails.of_eq (show reached ER (dmaCell p (sc (scOf n h))) 0 = _ from by rw [e])) $$ H'

theorem duties_used {p : Dev nD} {n : DmaSem sig} (h : usedSem p n = true) : (Rd m).duties (dmaCell p n) 0 = {0} := by
  dsimp only [Rd]; exact if_pos ⟨rfl, h⟩
theorem duties_unused {p : Dev nD} {n : DmaSem sig} (h : usedSem p n = false) (r : ℕ) : (Rd m).duties (dmaCell p n) r = ∅ := by
  dsimp only [Rd]; exact if_neg (fun h' => by have h2 : usedSem p n = true := h'.2; rw [h] at h2; exact Bool.false_ne_true h2)
theorem duties_later (g : GSem nD τ sig) : ∀ r, 1 ≤ r → (Rd m).duties g r = ∅ := fun r hr => by
  dsimp only [Rd]; exact if_neg (fun h' => by have := h'.1; omega)
theorem expect_used {p : Dev nD} {n : DmaSem sig} (h : usedSem p n = true) : (Rd m).expect (dmaCell p n) 0 = amt n := by
  unfold Schedule.expect Schedule.amountOf; rw [duties_used m h, Finset.sum_singleton]; rfl
theorem rest_used {p : Dev nD} {n : DmaSem sig} (h : usedSem p n = true) :
    bigSep ((Rd m).duties (dmaCell p n) 0 \ ∅) (fun d => (Rd m).payload (dmaCell p n) 0 d) = payD m p n := by
  rw [Finset.sdiff_empty, duties_used m h, bigSep_singleton]; rfl

-- Waiting a cell's whole amount takes its one round and hands over that round's payload.
theorem wp_wait_cell (c : Dev nD) (n : DmaSem sig) (hu : usedSem c n = true) (h4 : 4 ≤ n.val)
    {sp sp' : Space} {s s' : Shape} {e e' : EltTy} {κ' : Kind}
    {src : Memref sig (c : Thread nD τ).2.kind sp' s' e'} {dst : Memref sig κ' sp s e} {hsrc : src.view.WordExact} {hdst : dst.view.WordExact}
    (N : ℕ) (hcr : dst.view.dmaCredit = N) (hN : amt n = N)
    {O : CellTallies nD τ sig Unit} {W : Waits sig Unit}
    {α : Type} {Q : α → sProp 𝕄} {k : PUnit → Prog (TpuEff nD τ sig (Elt F) Λ₀ .tc) α} :
    iprop(records m K ∗ crd c n N ∗ owes (c : Thread nD τ) O W ∗ MayWait (c : Thread nD τ) (.dma n) () O ∗ at0 c n)
      ⊢ iprop(((owes (c : Thread nD τ) O (insert (SemLoc.dma n, ()) W) ∗ at1 c n ∗ payD m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 n src dst hsrc hdst) k) Q) := by
  subst hcr
  unfold crd at0 at1 tD
  iintro ⟨#Hrec, Hc, HO, Hlev, Hat⟩ Hk
  ihave Hinv := (rec_cell m K c n h4) $$ Hrec
  iapply (Rounds.wp_wait_rest_token 𝒱₀ ER (Rd m) (c : Thread nD τ) none (κ := K (c, (scOf n h4).succ))
      (wpE_waitDma2_eq 𝒱₀ (c : Thread nD τ) none Set.univ) (Set.mem_univ _) () (O := O) (W := W) (R := 0) (m := 0) (T := ∅)
      (by rw [Nat.zero_add, expect_used m hu, hN])) $$ [Hc HO Hlev Hat]
  · iframe Hinv Hc
    isplitl [HO]; · iexact HO
    iframe Hlev Hat
  iintro ⟨HO, Hat, -, Hpay⟩
  iapply Hk
  isplitl [HO]; · iexact HO
  iframe Hat
  iapply (Entails.of_eq (rest_used m hu)) $$ Hpay

-- A remote copy pays one duty of the sender's send cell and one of the receiver's receive cell; the landing's payload is the destination slot at the copied contents.
theorem wp_send_cell (c p n : Dev nD) (hn : n = p) (nS nR : DmaSem sig)
    (huS : usedSem c nS = true) (huR : usedSem p nR = true) (h4S : 4 ≤ nS.val) (h4R : 4 ≤ nR.val)
    {s : Shape} {e : EltTy}
    {src : Memref sig (c : Thread nD τ).2.kind .vmem s e} {dst : Memref sig (Dev.tc n : Thread nD τ).2.kind .vmem s e}
    {hsc : dst.view.ref.isScScratch = false} {hsrc : src.view.WordExact} {hdst : dst.view.WordExact}
    {hsem : DmaTarget.Typed .vmem (.dma nR) (.remote (Dev.tc n : Thread nD τ) dst (.dma nS) hsc)}
    {q : PosShare TreeShare} {fs : Buf (Elt F) (src.view.loc (c : Thread nD τ))} {fd : Buf (Elt F) (dst.view.loc (Dev.tc n : Thread nD τ))}
    (N : ℕ) (hN : dst.view.dmaCredit = N) (hS : amt nS = N) (hR : amt nR = N)
    {O₀ : CellTallies nD τ sig Unit} (O : CellTallies nD τ sig Unit) (hO : O₀ = O + tD p nR N) {W : Waits sig Unit}
    (hpay₁ : (src.view.loc (c : Thread nD τ) ↦[src.view.set]{q} fs) ⊢ payD m c nS)
    (hpay₂ : (dst.view.loc (Dev.tc n : Thread nD τ) ↦[dst.view.set]{fullShare} (dst.view.write (Elt F) fd (src.view.read (Elt F) fs) Finset.univ)) ⊢ payD m p nR)
    {α : Type} {Q : α → sProp 𝕄} {k : PUnit → Prog (TpuEff nD τ sig (Elt F) Λ₀ .tc) α} :
    iprop(records m K ∗ (src.view.loc (c : Thread nD τ) ↦[src.view.set]{q} fs) ∗ (dst.view.loc (Dev.tc n : Thread nD τ) ↦[dst.view.set]{fullShare} fd)
        ∗ owes (c : Thread nD τ) O₀ W ∗ tok c nS ∗ tok p nR)
      ⊢ iprop(((crd c nS N ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma nS) hsc) (.dma nR) hsrc hdst hsem) k) Q) := by
  subst hn
  unfold crd tok
  unfold tD at hO ⊢
  iintro ⟨#Hrec, Hsrc, Hdst, HO, Ht1, Ht2⟩ Hk
  ihave HI1 := (rec_cell m K c nS h4S) $$ Hrec
  ihave HI2 := (rec_cell m K n nR h4R) $$ Hrec
  ihave Hr1 := (rec_reached m K c nS h4S) $$ Hrec
  ihave Hr2 := (rec_reached m K n nR h4R) $$ Hrec
  iapply (Rounds.wp_send_pointsTo 𝒱₀ ER (Rd m) (c : Thread nD τ) none (κ₁ := K (c, (scOf nS h4S).succ)) (κ₂ := K (n, (scOf nR h4R).succ))
    (sS := .dma nS) (sem := .dma nR) (r₁ := 0) (r₂ := 0) (d₁ := (0 : DD)) (d₂ := (0 : DD)) (fd := fd)
    (by rw [duties_used m huS]; exact Finset.mem_singleton_self _) (by rw [duties_used m huR]; exact Finset.mem_singleton_self _)
    () () N (show dst.view.amount (.dma nR) = N from hN) (show (Rd m).amount (dmaCell c nS) 0 0 = N from hS) (show (Rd m).amount (dmaCell n nR) 0 0 = N from hR) O hO (W := W) hpay₁ hpay₂) $$ [Hsrc Hdst HO Ht1 Ht2]
  · iframe HI1 HI2 Hsrc Hdst
    isplitl [HO]; · iexact HO
    iframe Ht1 Hr1 Ht2 Hr2
  iexact Hk

theorem wp_sig (c p n : Dev nD) (hn : n = p) (d : DD) (hd : d ∈ (B (F := F) p).all) (k' : ℕ) (hk : (B (F := F) p).amt d = k')
    {O₀ : CellTallies nD τ sig Unit} (O : CellTallies nD τ sig Unit) (hO : O₀ = O + tB p k') {W : Waits sig Unit}
    {α : Type} {Q : α → sProp 𝕄} {k : PUnit → Prog (TpuEff nD τ sig (Elt F) Λ₀ .tc) α} :
    iprop(records m K ∗ owes (c : Thread nD τ) O₀ W ∗ dutyTok ER (barCell p) 0 d ∗ barPay (F := F) p d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn
  unfold tB at hO
  iintro ⟨#Hrec, HO, Htok, Hpay⟩ Hk
  ihave HI := (rec_bar m K n) $$ Hrec
  iapply (wp_bar_signal 𝒱₀ ER (B (F := F) n) (c : Thread nD τ) none (dst := (Dev.tc n : Thread nD τ)) (sem := barS) (κ := K (n, 0))
    hd hk () O hO) $$ [HO Htok Hpay]
  · iframe HI
    isplitl [HO]; · iexact HO
    isplitl [Htok]; · iexact Htok
    iapply (Entails.of_eq (show barPay (F := F) n d = (B (F := F) n).P d from rfl)) $$ Hpay
  iexact Hk

theorem barPay_plane (c : Dev nD) :
    bigSep (B (F := F) c).plane (B (F := F) c).P ⊢ iprop(slotKV (F := F) (pS c 0) (sF c) ∗ slotKV (F := F) (pS c 1) (sF c) ∗ slotKV (F := F) (pS c 2) (sF c)) := by
  have e : (B (F := F) c).plane = insert (3 : DD) (insert (4 : DD) {(5 : DD)}) := rfl
  rw [e, bigSep_insert (by decide), bigSep_insert (by decide), bigSep_singleton]
  exact Entails.of_eq rfl

theorem barPay_column (c : Dev nD) :
    bigSep (B (F := F) c).column (B (F := F) c).P ⊢ iprop((slotQ (F := F) (cS c 0) (zF c) ∗ slotPR (F := F) (cS c 0) (zF c))
      ∗ (slotQ (F := F) (cS c 1) (zF c) ∗ slotPR (F := F) (cS c 1) (zF c)) ∗ (slotQ (F := F) (cS c 2) (zF c) ∗ slotPR (F := F) (cS c 2) (zF c))) := by
  have e : (B (F := F) c).column = insert (0 : DD) (insert (1 : DD) {(2 : DD)}) := rfl
  rw [e, bigSep_insert (by decide), bigSep_insert (by decide), bigSep_singleton]
  exact Entails.of_eq rfl

theorem wp_bar24 (c : Dev nD) {O : CellTallies nD τ sig Unit} {W : Waits sig Unit}
    {α : Type} {Q : α → sProp 𝕄} {k : PUnit → Prog (TpuEff nD τ sig (Elt F) Λ₀ .tc) α} :
    iprop(records m K ∗ cred (tB c 24) ∗ owes (c : Thread nD τ) O W ∗ MayWait (c : Thread nD τ) (.reg barS) () O ∗ phTok ER (B (F := F) c) (barCell c) 0)
      ⊢ iprop(((owes (c : Thread nD τ) O (insert (SemLoc.reg barS, ()) W) ∗ phTok ER (B (F := F) c) (barCell c) 1
              ∗ slotKV (F := F) (pS c 0) (sF c) ∗ slotKV (F := F) (pS c 1) (sF c) ∗ slotKV (F := F) (pS c 2) (sF c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 24) k) Q) := by
  unfold tB
  iintro ⟨#Hrec, Hc, HO, Hlev, Hph⟩ Hk
  ihave HI := (rec_bar m K c) $$ Hrec
  iapply (wp_bar_wait24_token 𝒱₀ ER (B (F := F) c) (c : Thread nD τ) none (κ := K (c, 0))
    (wpE_semWait_eq 𝒱₀ (c : Thread nD τ) none Set.univ) (Set.mem_univ _) () (O := O) (W := W)) $$ [Hc HO Hlev Hph]
  · iframe HI Hc
    isplitl [HO]; · iexact HO
    iframe Hlev Hph
  iintro ⟨HO, Hph, Hpay⟩
  ihave Hp := (barPay_plane c) $$ Hpay
  iapply Hk
  isplitl [HO]; · iexact HO
  iframe Hph Hp

theorem wp_bar3 (c : Dev nD) {O : CellTallies nD τ sig Unit} {W : Waits sig Unit}
    {α : Type} {Q : α → sProp 𝕄} {k : PUnit → Prog (TpuEff nD τ sig (Elt F) Λ₀ .tc) α} :
    iprop(records m K ∗ cred (tB c 3) ∗ owes (c : Thread nD τ) O W ∗ MayWait (c : Thread nD τ) (.reg barS) () O ∗ phTok ER (B (F := F) c) (barCell c) 1)
      ⊢ iprop(((owes (c : Thread nD τ) O (insert (SemLoc.reg barS, ()) W) ∗ phTok ER (B (F := F) c) (barCell c) 2
              ∗ (slotQ (F := F) (cS c 0) (zF c) ∗ slotPR (F := F) (cS c 0) (zF c))
              ∗ (slotQ (F := F) (cS c 1) (zF c) ∗ slotPR (F := F) (cS c 1) (zF c)) ∗ (slotQ (F := F) (cS c 2) (zF c) ∗ slotPR (F := F) (cS c 2) (zF c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold tB
  iintro ⟨#Hrec, Hc, HO, Hlev, Hph⟩ Hk
  ihave HI := (rec_bar m K c) $$ Hrec
  iapply (wp_bar_wait3_token 𝒱₀ ER (B (F := F) c) (c : Thread nD τ) none (κ := K (c, 0))
    (wpE_semWait_eq 𝒱₀ (c : Thread nD τ) none Set.univ) (Set.mem_univ _) () (O := O) (W := W)) $$ [Hc HO Hlev Hph]
  · iframe HI Hc
    isplitl [HO]; · iexact HO
    iframe Hlev Hph
  iintro ⟨HO, Hph, Hpay⟩
  ihave Hp := (barPay_column c) $$ Hpay
  iapply Hk
  isplitl [HO]; · iexact HO
  iframe Hph Hp

section Tables
variable (c : Dev nD)

theorem amt_qSend (j : Fin 3) : amt (qSendSem j) = NQ := by
  have := j.isLt; unfold amt; rw [if_pos (show (qSendSem j).val < 11 by show 4 + j.val < 11; omega)]
theorem amt_qRecv (i : Fin 4) : amt (qRecvSem i) = NQ := by
  have := i.isLt; unfold amt; rw [if_pos (show (qRecvSem i).val < 11 by show 7 + i.val < 11; omega)]
theorem amt_kvSend (j : Fin 3) : amt (kvSendSem j) = NKV := by
  have := j.isLt; unfold amt
  rw [if_neg (show ¬(kvSendSem j).val < 11 by show ¬11 + j.val < 11; omega), if_pos (show (kvSendSem j).val < 18 by show 11 + j.val < 18; omega)]
theorem amt_kvRecv (i : Fin 4) : amt (kvRecvSem i) = NKV := by
  have := i.isLt; unfold amt
  rw [if_neg (show ¬(kvRecvSem i).val < 11 by show ¬14 + i.val < 11; omega), if_pos (show (kvRecvSem i).val < 18 by show 14 + i.val < 18; omega)]
theorem amt_pSend (j : Fin 3) : amt (pSendSem j) = NP := by
  have := j.isLt; unfold amt
  rw [if_neg (show ¬(pSendSem j).val < 11 by show ¬18 + j.val < 11; omega), if_neg (show ¬(pSendSem j).val < 18 by show ¬18 + j.val < 18; omega)]
theorem amt_pRecv (i : Fin 4) : amt (pRecvSem i) = NP := by
  have := i.isLt; unfold amt
  rw [if_neg (show ¬(pRecvSem i).val < 11 by show ¬21 + i.val < 11; omega), if_neg (show ¬(pRecvSem i).val < 18 by show ¬21 + i.val < 18; omega)]

theorem used_qSend : ∀ (c : Dev nD) (j : Fin 3), usedSem c (qSendSem j) = true := by decide
theorem used_kvSend : ∀ (c : Dev nD) (j : Fin 3), usedSem c (kvSendSem j) = true := by decide
theorem used_pSend : ∀ (c : Dev nD) (j : Fin 3), usedSem c (pSendSem j) = true := by decide
theorem used_qRecv : ∀ (c : Dev nD) (i : Fin 4), i ≠ zF c → usedSem c (qRecvSem i) = true := by decide
theorem used_kvRecv : ∀ (c : Dev nD) (i : Fin 4), i ≠ sF c → usedSem c (kvRecvSem i) = true := by decide
theorem used_pRecv : ∀ (c : Dev nD) (i : Fin 4), i ≠ zF c → usedSem c (pRecvSem i) = true := by decide
theorem unused_qRecv : ∀ (c : Dev nD), usedSem c (qRecvSem (zF c)) = false := by decide
theorem unused_kvRecv : ∀ (c : Dev nD), usedSem c (kvRecvSem (sF c)) = false := by decide
theorem unused_pRecv : ∀ (c : Dev nD), usedSem c (pRecvSem (zF c)) = false := by decide
theorem zP_ne : ∀ (c : Dev nD) (j : Fin 3), zP c j ≠ zF c := by decide
theorem sP_ne : ∀ (c : Dev nD) (j : Fin 3), sP c j ≠ sF c := by decide

theorem zF_ne_zP : ∀ (c : Dev nD) (j : Fin 3), zF c ≠ zF (cP c j) := by decide
theorem sF_ne_sP : ∀ (c : Dev nD) (j : Fin 3), sF c ≠ sF (pP c j) := by decide

theorem payD_qSend (j : Fin 3) : payD m c (qSendSem j) = ptQ m c (zF c) (lend j) := by
  have hj := j.isLt
  have e : ∀ (h : (qSendSem j).val - 4 < 3), (⟨(qSendSem j).val - 4, h⟩ : Fin 3) = j := fun h => Fin.ext (by show 4 + j.val - 4 = j.val; omega)
  unfold payD
  rw [dif_pos (show 4 ≤ (qSendSem j).val ∧ (qSendSem j).val ≤ 6 from ⟨by show 4 ≤ 4 + j.val; omega, by show 4 + j.val ≤ 6; omega⟩)]
  simp only [e]
theorem payD_qRecv (i : Fin 4) : payD m c (qRecvSem i) = ptQ m c i fullShare := by
  have hi := i.isLt
  have e : ∀ (h : (qRecvSem i).val - 7 < 4), (⟨(qRecvSem i).val - 7, h⟩ : Fin 4) = i := fun h => Fin.ext (by show 7 + i.val - 7 = i.val; omega)
  unfold payD
  rw [dif_neg (show ¬(4 ≤ (qRecvSem i).val ∧ (qRecvSem i).val ≤ 6) from fun h => by have : 7 + i.val ≤ 6 := h.2; omega),
    dif_pos (show 7 ≤ (qRecvSem i).val ∧ (qRecvSem i).val ≤ 10 from ⟨by show 7 ≤ 7 + i.val; omega, by show 7 + i.val ≤ 10; omega⟩)]
  simp only [e]
theorem payD_kvSend (j : Fin 3) : payD m c (kvSendSem j) = ptKV m c (sF c) (lend j) := by
  have hj := j.isLt
  have e : ∀ (h : (kvSendSem j).val - 11 < 3), (⟨(kvSendSem j).val - 11, h⟩ : Fin 3) = j := fun h => Fin.ext (by show 11 + j.val - 11 = j.val; omega)
  unfold payD
  rw [dif_neg (show ¬(4 ≤ (kvSendSem j).val ∧ (kvSendSem j).val ≤ 6) from fun h => by have : 11 + j.val ≤ 6 := h.2; omega),
    dif_neg (show ¬(7 ≤ (kvSendSem j).val ∧ (kvSendSem j).val ≤ 10) from fun h => by have : 11 + j.val ≤ 10 := h.2; omega),
    dif_pos (show 11 ≤ (kvSendSem j).val ∧ (kvSendSem j).val ≤ 13 from ⟨by show 11 ≤ 11 + j.val; omega, by show 11 + j.val ≤ 13; omega⟩)]
  simp only [e]
theorem payD_kvRecv (i : Fin 4) : payD m c (kvRecvSem i) = ptKV m c i fullShare := by
  have hi := i.isLt
  have e : ∀ (h : (kvRecvSem i).val - 14 < 4), (⟨(kvRecvSem i).val - 14, h⟩ : Fin 4) = i := fun h => Fin.ext (by show 14 + i.val - 14 = i.val; omega)
  unfold payD
  rw [dif_neg (show ¬(4 ≤ (kvRecvSem i).val ∧ (kvRecvSem i).val ≤ 6) from fun h => by have : 14 + i.val ≤ 6 := h.2; omega),
    dif_neg (show ¬(7 ≤ (kvRecvSem i).val ∧ (kvRecvSem i).val ≤ 10) from fun h => by have : 14 + i.val ≤ 10 := h.2; omega),
    dif_neg (show ¬(11 ≤ (kvRecvSem i).val ∧ (kvRecvSem i).val ≤ 13) from fun h => by have : 14 + i.val ≤ 13 := h.2; omega),
    dif_pos (show 14 ≤ (kvRecvSem i).val ∧ (kvRecvSem i).val ≤ 17 from ⟨by show 14 ≤ 14 + i.val; omega, by show 14 + i.val ≤ 17; omega⟩)]
  simp only [e]
theorem payD_pSend (j : Fin 3) : payD m c (pSendSem j) = ptPS m c j fullShare := by
  have hj := j.isLt
  have e : ∀ (h : (pSendSem j).val - 18 < 3), (⟨(pSendSem j).val - 18, h⟩ : Fin 3) = j := fun h => Fin.ext (by show 18 + j.val - 18 = j.val; omega)
  unfold payD
  rw [dif_neg (show ¬(4 ≤ (pSendSem j).val ∧ (pSendSem j).val ≤ 6) from fun h => by have : 18 + j.val ≤ 6 := h.2; omega),
    dif_neg (show ¬(7 ≤ (pSendSem j).val ∧ (pSendSem j).val ≤ 10) from fun h => by have : 18 + j.val ≤ 10 := h.2; omega),
    dif_neg (show ¬(11 ≤ (pSendSem j).val ∧ (pSendSem j).val ≤ 13) from fun h => by have : 18 + j.val ≤ 13 := h.2; omega),
    dif_neg (show ¬(14 ≤ (pSendSem j).val ∧ (pSendSem j).val ≤ 17) from fun h => by have : 18 + j.val ≤ 17 := h.2; omega),
    dif_pos (show 18 ≤ (pSendSem j).val ∧ (pSendSem j).val ≤ 20 from ⟨by show 18 ≤ 18 + j.val; omega, by show 18 + j.val ≤ 20; omega⟩)]
  simp only [e]
theorem payD_pRecv (i : Fin 4) : payD m c (pRecvSem i) = ptPR m c i fullShare := by
  have hi := i.isLt
  have e : ∀ (h : (pRecvSem i).val - 21 < 4), (⟨(pRecvSem i).val - 21, h⟩ : Fin 4) = i := fun h => Fin.ext (by show 21 + i.val - 21 = i.val; omega)
  unfold payD
  rw [dif_neg (show ¬(4 ≤ (pRecvSem i).val ∧ (pRecvSem i).val ≤ 6) from fun h => by have : 21 + i.val ≤ 6 := h.2; omega),
    dif_neg (show ¬(7 ≤ (pRecvSem i).val ∧ (pRecvSem i).val ≤ 10) from fun h => by have : 21 + i.val ≤ 10 := h.2; omega),
    dif_neg (show ¬(11 ≤ (pRecvSem i).val ∧ (pRecvSem i).val ≤ 13) from fun h => by have : 21 + i.val ≤ 13 := h.2; omega),
    dif_neg (show ¬(14 ≤ (pRecvSem i).val ∧ (pRecvSem i).val ≤ 17) from fun h => by have : 21 + i.val ≤ 17 := h.2; omega),
    dif_neg (show ¬(18 ≤ (pRecvSem i).val ∧ (pRecvSem i).val ≤ 20) from fun h => by have : 21 + i.val ≤ 20 := h.2; omega),
    dif_pos (show 21 ≤ (pRecvSem i).val ∧ (pRecvSem i).val ≤ 24 from ⟨by show 21 ≤ 21 + i.val; omega, by show 21 + i.val ≤ 24; omega⟩)]
  simp only [e]

end Tables

theorem L_tc (c : Dev nD) (sm : SemLoc sig) : L ((c : Thread nD τ), sm) = {()} := if_pos rfl

def Above (l : ℕ) (g : GSem nD τ sig) : Prop := () ∈ L g ∧ l < lv g ()

theorem lv_qRecv (p : Dev nD) (i : Fin 4) : lv (dmaCell p (qRecvSem i)) () = 2 := by
  have := i.isLt
  show (if 7 ≤ 7 + i.val ∧ 7 + i.val ≤ 10 then 2 else if 14 ≤ 7 + i.val ∧ 7 + i.val ≤ 17 then 2 else if 21 ≤ 7 + i.val then 3 else 0) = 2
  rw [if_pos ⟨by omega, by omega⟩]
theorem lv_kvRecv (p : Dev nD) (i : Fin 4) : lv (dmaCell p (kvRecvSem i)) () = 2 := by
  have := i.isLt
  show (if 7 ≤ 14 + i.val ∧ 14 + i.val ≤ 10 then 2 else if 14 ≤ 14 + i.val ∧ 14 + i.val ≤ 17 then 2 else if 21 ≤ 14 + i.val then 3 else 0) = 2
  rw [if_neg (fun h => by omega), if_pos ⟨by omega, by omega⟩]
theorem lv_pRecv (p : Dev nD) (i : Fin 4) : lv (dmaCell p (pRecvSem i)) () = 3 := by
  have := i.isLt
  show (if 7 ≤ 21 + i.val ∧ 21 + i.val ≤ 10 then 2 else if 14 ≤ 21 + i.val ∧ 21 + i.val ≤ 17 then 2 else if 21 ≤ 21 + i.val then 3 else 0) = 3
  rw [if_neg (fun h => by omega), if_neg (fun h => by omega), if_pos (by omega)]

theorem above_qRecv (p : Dev nD) (i : Fin 4) : Above 1 (dmaCell p (qRecvSem i)) :=
  ⟨by rw [L_tc]; exact Finset.mem_singleton_self _, by rw [lv_qRecv]; decide⟩
theorem above_kvRecv (p : Dev nD) (i : Fin 4) : Above 1 (dmaCell p (kvRecvSem i)) :=
  ⟨by rw [L_tc]; exact Finset.mem_singleton_self _, by rw [lv_kvRecv]; decide⟩
theorem above_pRecv (p : Dev nD) (i : Fin 4) (l : ℕ) (hl : l < 3) : Above l (dmaCell p (pRecvSem i)) :=
  ⟨by rw [L_tc]; exact Finset.mem_singleton_self _, by rw [lv_pRecv]; exact hl⟩

theorem pos_zero {P : GSem nD τ sig → Prop} : ∀ g u, 0 < (0 : CellTallies nD τ sig Unit) g u → P g :=
  fun g u h => absurd h (by simp)
theorem pos_tD {p : Dev nD} {n : DmaSem sig} {N : ℕ} {P : GSem nD τ sig → Prop} (hP : P (dmaCell p n)) :
    ∀ g u, 0 < tD p n N g u → P g := fun g u h => by
  unfold tD at h; rw [tallyAt_apply] at h
  by_cases hg : g = dmaCell p n ∧ u = ()
  · rw [hg.1]; exact hP
  · rw [if_neg hg] at h; exact absurd h (Nat.lt_irrefl 0)
theorem pos_add {D₁ D₂ : CellTallies nD τ sig Unit} {P : GSem nD τ sig → Prop}
    (h1 : ∀ g u, 0 < D₁ g u → P g) (h2 : ∀ g u, 0 < D₂ g u → P g) : ∀ g u, 0 < (D₁ + D₂) g u → P g :=
  fun g u h => (Pipeline.add_pos_cases h).elim (h1 g u) (h2 g u)

theorem O12_above (c : Dev nD) (l : ℕ) (hl : l < 3) : ∀ g u, 0 < O12 c g u → Above l g := by
  unfold O12 O13 O14 O15
  exact pos_add (pos_add (pos_add pos_zero (pos_tD (above_pRecv _ _ l hl))) (pos_tD (above_pRecv _ _ l hl))) (pos_tD (above_pRecv _ _ l hl))
theorem O9_above (c : Dev nD) : ∀ g u, 0 < O9 c g u → Above 1 g := by
  unfold O9 O10 O11
  exact pos_add (pos_add (pos_add (O12_above c 1 (by decide)) (pos_tD (above_qRecv _ _))) (pos_tD (above_qRecv _ _))) (pos_tD (above_qRecv _ _))
theorem O6_above (c : Dev nD) : ∀ g u, 0 < O6 c g u → Above 1 g := by
  unfold O6 O7 O8
  exact pos_add (pos_add (pos_add (O9_above c) (pos_tD (above_kvRecv _ _))) (pos_tD (above_kvRecv _ _))) (pos_tD (above_kvRecv _ _))

theorem mayWait_of_above (c : Dev nD) (sm : SemLoc sig) (l : ℕ) (hl : lv ((c : Thread nD τ), sm) () = l) (O : CellTallies nD τ sig Unit)
    (hO : ∀ g u, 0 < O g u → Above l g) :
    (levAts L lv : sProp 𝕄) ⊢ MayWait (c : Thread nD τ) sm () O :=
  Pipeline.mayWait_of_levAts (by rw [L_tc]; exact Finset.mem_singleton_self _)
    (fun g i h => ⟨(hO g i h).1, by rw [hl]; exact (hO g i h).2⟩)

theorem mayWait_bar24 (c : Dev nD) : (levAts L lv : sProp 𝕄) ⊢ MayWait (c : Thread nD τ) (.reg barS) () (O6 c) :=
  mayWait_of_above c _ 1 rfl _ (O6_above c)
theorem mayWait_bar3 (c : Dev nD) : (levAts L lv : sProp 𝕄) ⊢ MayWait (c : Thread nD τ) (.reg barS) () (O9 c) :=
  mayWait_of_above c _ 1 rfl _ (O9_above c)
theorem mayWait_qRecv (c : Dev nD) (i : Fin 4) : (levAts L lv : sProp 𝕄) ⊢ MayWait (c : Thread nD τ) (.dma (qRecvSem i)) () (O12 c) :=
  mayWait_of_above c _ 2 (lv_qRecv c i) _ (O12_above c 2 (by decide))
theorem mayWait_kvRecv (c : Dev nD) (i : Fin 4) : (levAts L lv : sProp 𝕄) ⊢ MayWait (c : Thread nD τ) (.dma (kvRecvSem i)) () (O12 c) :=
  mayWait_of_above c _ 2 (lv_kvRecv c i) _ (O12_above c 2 (by decide))

theorem mayWait_zero (c : Dev nD) (sm : SemLoc sig) : (levAts L lv : sProp 𝕄) ⊢ MayWait (c : Thread nD τ) sm () 0 := by
  rw [MayWait_zero]; iintro -; iempintro

theorem close_used (c : Dev nD) (n : DmaSem sig) (h4 : 4 ≤ n.val) :
    iprop(records m K ∗ at1 c n) ⊢ iprop(|={Set.univ}=> semVal (dmaCell c n) 0) := by
  unfold at1
  iintro ⟨#Hrec, Hat⟩
  ihave HI := (rec_cell m K c n h4) $$ Hrec
  imod (Rounds.cell_close ER (Rd m) (Set.mem_univ (K (c, (scOf n h4).succ))) (fun h => h) (R := 0 + 1) (duties_later m (dmaCell c n))) $$ [Hat] with Hz
  · iframe HI Hat
  imodintro
  iexact Hz

theorem close_unused (c : Dev nD) (n : DmaSem sig) (h4 : 4 ≤ n.val) (hu : usedSem c n = false) :
    iprop(records m K ∗ at0 c n) ⊢ iprop(|={Set.univ}=> semVal (dmaCell c n) 0) := by
  unfold at0
  iintro ⟨#Hrec, Hat⟩
  ihave HI := (rec_cell m K c n h4) $$ Hrec
  imod (Rounds.cell_close ER (Rd m) (Set.mem_univ (K (c, (scOf n h4).succ))) (fun h => h) (R := 0) (fun r _ => duties_unused m hu r)) $$ [Hat] with Hz
  · iframe HI Hat
  imodintro
  iexact Hz

theorem cS_cP : ∀ (c : Dev nD) (j : Fin 3), cS (cP c j) j = c := by decide
theorem pS_pP : ∀ (c : Dev nD) (j : Fin 3), pS (pP c j) j = c := by decide

theorem barPay_col (c : Dev nD) (j : Fin 3) :
    iprop(slotQ (F := F) c (zP c j) ∗ slotPR (F := F) c (zP c j)) ⊢ barPay (F := F) (cP c j) (colD j) := by
  have hj := j.isLt
  have e : ∀ (h : (colD j).val < 3), (⟨(colD j).val, h⟩ : Fin 3) = j := fun h => Fin.ext rfl
  unfold barPay
  rw [dif_pos (show (colD j).val < 3 from hj)]
  simp only [e, cS_cP]
  exact Entails.refl _

theorem barPay_pla (c : Dev nD) (j : Fin 3) :
    slotKV (F := F) c (sP c j) ⊢ barPay (F := F) (pP c j) (plaD j) := by
  have hj := j.isLt
  have e : ∀ (h : (plaD j).val - 3 < 3), (⟨(plaD j).val - 3, h⟩ : Fin 3) = j := fun h => Fin.ext (by show j.val + 3 - 3 = j.val; omega)
  unfold barPay
  rw [dif_neg (show ¬(plaD j).val < 3 from by show ¬j.val + 3 < 3; omega), dif_pos (show (plaD j).val < 6 from by show j.val + 3 < 6; omega)]
  simp only [e, pS_pP]
  exact Entails.refl _

theorem colD_mem (c : Dev nD) (j : Fin 3) : colD j ∈ (B (F := F) c).all := by
  show colD j ∈ (({3, 4, 5} : Finset DD) ∪ {0, 1, 2}); revert j; decide
theorem plaD_mem (c : Dev nD) (j : Fin 3) : plaD j ∈ (B (F := F) c).all := by
  show plaD j ∈ (({3, 4, 5} : Finset DD) ∪ {0, 1, 2}); revert j; decide
theorem amt_colD (c : Dev nD) (j : Fin 3) : (B (F := F) c).amt (colD j) = 1 := by
  show (if colD j ∈ ({3, 4, 5} : Finset DD) then 8 else 1) = 1; revert j; decide
theorem amt_plaD (c : Dev nD) (j : Fin 3) : (B (F := F) c).amt (plaD j) = 8 := by
  show (if plaD j ∈ ({3, 4, 5} : Finset DD) then 8 else 1) = 8; revert j; decide

end Cert.KernelIdeal.Steps

end
-- ==== Proof.SegA.lean ====
import proofs.«900582_g7700000000000583_dist_ring_attn_i_s256_d64_v7x_i16_f32_1_alg».proof.Proof.Regions
import proofs.«900582_g7700000000000583_dist_ring_attn_i_s256_d64_v7x_i16_f32_1_alg».proof.Proof.RegVal
import proofs.«900582_g7700000000000583_dist_ring_attn_i_s256_d64_v7x_i16_f32_1_alg».proof.Proof.Steps
import Idealize.ShloMosaic.Rules.PointsTo

noncomputable section

namespace Cert.KernelIdeal.SegA

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

theorem fin4_nodup (c : Dev nD) : [zF c, zP c 0, zP c 1, zP c 2].Nodup := by revert c; decide
theorem fin4_all (c : Dev nD) : (Finset.univ : Finset (Fin 4)) = [zF c, zP c 0, zP c 1, zP c 2].toFinset := by revert c; decide
theorem fin4s_nodup (c : Dev nD) : [sF c, sP c 0, sP c 1, sP c 2].Nodup := by revert c; decide
theorem fin4s_all (c : Dev nD) : (Finset.univ : Finset (Fin 4)) = [sF c, sP c 0, sP c 1, sP c 2].toFinset := by revert c; decide

theorem bigSep_z (c : Dev nD) (Φ : Fin 4 → sProp 𝕄) :
    bigSep Finset.univ Φ = iprop(Φ (zF c) ∗ Φ (zP c 0) ∗ Φ (zP c 1) ∗ Φ (zP c 2)) :=
  bigSep_univ_eq_bigSepL [zF c, zP c 0, zP c 1, zP c 2] (fin4_all c) (fin4_nodup c) Φ

theorem bigSep_s (c : Dev nD) (Φ : Fin 4 → sProp 𝕄) :
    bigSep Finset.univ Φ = iprop(Φ (sF c) ∗ Φ (sP c 0) ∗ Φ (sP c 1) ∗ Φ (sP c 2)) :=
  bigSep_univ_eq_bigSepL [sF c, sP c 0, sP c 1, sP c 2] (fin4s_all c) (fin4s_nodup c) Φ
theorem bigSep_3 (Φ : Fin 3 → sProp 𝕄) : bigSep Finset.univ Φ = iprop(Φ 0 ∗ Φ 1 ∗ Φ 2) :=
  bigSep_univ_eq_bigSepL [(0 : Fin 3), 1, 2] (by decide) (by decide) Φ

theorem cover_q (c : Dev nD) (f : Buf (Elt F) ((qB).view.loc (c : Thread nD τ))) :
    ((((c : Thread nD τ).loc cc0_scratch0) ↦{fullShare} f) : sProp 𝕄)
      = iprop(((qB).view.loc (c : Thread nD τ) ↦[(qS (zF c)).view.set]{fullShare} f)
          ∗ ((qB).view.loc (c : Thread nD τ) ↦[(qS (zP c 0)).view.set]{fullShare} f)
          ∗ ((qB).view.loc (c : Thread nD τ) ↦[(qS (zP c 1)).view.set]{fullShare} f)
          ∗ ((qB).view.loc (c : Thread nD τ) ↦[(qS (zP c 2)).view.set]{fullShare} f)) := by
  rw [← bigSep_z c (fun i => (qB).view.loc (c : Thread nD τ) ↦[(qS i).view.set]{fullShare} f),
    ← pointsTo_biUnion _ _ (Regions.keyed_pairwise Regions.mem_qS), Regions.keyed_cover Regions.mem_qS]
theorem cover_kv (c : Dev nD) (f : Buf (Elt F) ((kvB).view.loc (c : Thread nD τ))) :
    ((((c : Thread nD τ).loc cc0_scratch1) ↦{fullShare} f) : sProp 𝕄)
      = iprop(((kvB).view.loc (c : Thread nD τ) ↦[(kvS (sF c)).view.set]{fullShare} f)
          ∗ ((kvB).view.loc (c : Thread nD τ) ↦[(kvS (sP c 0)).view.set]{fullShare} f)
          ∗ ((kvB).view.loc (c : Thread nD τ) ↦[(kvS (sP c 1)).view.set]{fullShare} f)
          ∗ ((kvB).view.loc (c : Thread nD τ) ↦[(kvS (sP c 2)).view.set]{fullShare} f)) := by
  rw [← bigSep_s c (fun i => (kvB).view.loc (c : Thread nD τ) ↦[(kvS i).view.set]{fullShare} f),
    ← pointsTo_biUnion _ _ (Regions.keyed_pairwise Regions.mem_kvS), Regions.keyed_cover Regions.mem_kvS]
theorem cover_vp (c : Dev nD) (f : Buf (Elt F) ((vpB).view.loc (c : Thread nD τ))) :
    ((((c : Thread nD τ).loc cc0_scratch2) ↦{fullShare} f) : sProp 𝕄)
      = iprop(((vpB).view.loc (c : Thread nD τ) ↦[(vpS (sF c)).view.set]{fullShare} f)
          ∗ ((vpB).view.loc (c : Thread nD τ) ↦[(vpS (sP c 0)).view.set]{fullShare} f)
          ∗ ((vpB).view.loc (c : Thread nD τ) ↦[(vpS (sP c 1)).view.set]{fullShare} f)
          ∗ ((vpB).view.loc (c : Thread nD τ) ↦[(vpS (sP c 2)).view.set]{fullShare} f)) := by
  rw [← bigSep_s c (fun i => (vpB).view.loc (c : Thread nD τ) ↦[(vpS i).view.set]{fullShare} f)]
  show _ = bigSep Finset.univ fun i => (vpB).view.loc (c : Thread nD τ) ↦[(Regions.vpSl i).view.set]{fullShare} f
  rw [← pointsTo_biUnion _ _ (Regions.keyed_pairwise Regions.mem_vpSl), Regions.keyed_cover Regions.mem_vpSl]
theorem cover_ps (c : Dev nD) (f : Buf (Elt F) ((psB).view.loc (c : Thread nD τ))) :
    ((((c : Thread nD τ).loc cc0_scratch3) ↦{fullShare} f) : sProp 𝕄)
      = iprop(((psB).view.loc (c : Thread nD τ) ↦[(psS 0).view.set]{fullShare} f)
          ∗ ((psB).view.loc (c : Thread nD τ) ↦[(psS 1).view.set]{fullShare} f)
          ∗ ((psB).view.loc (c : Thread nD τ) ↦[(psS 2).view.set]{fullShare} f)) := by
  rw [← bigSep_3 (fun i => (psB).view.loc (c : Thread nD τ) ↦[(psS i).view.set]{fullShare} f),
    ← pointsTo_biUnion _ _ (Regions.keyed_pairwise Regions.mem_psS), Regions.keyed_cover Regions.mem_psS]
theorem cover_pr (c : Dev nD) (f : Buf (Elt F) ((prB).view.loc (c : Thread nD τ))) :
    ((((c : Thread nD τ).loc cc0_scratch4) ↦{fullShare} f) : sProp 𝕄)
      = iprop(((prB).view.loc (c : Thread nD τ) ↦[(prS (zF c)).view.set]{fullShare} f)
          ∗ ((prB).view.loc (c : Thread nD τ) ↦[(prS (zP c 0)).view.set]{fullShare} f)
          ∗ ((prB).view.loc (c : Thread nD τ) ↦[(prS (zP c 1)).view.set]{fullShare} f)
          ∗ ((prB).view.loc (c : Thread nD τ) ↦[(prS (zP c 2)).view.set]{fullShare} f)) := by
  rw [← bigSep_z c (fun i => (prB).view.loc (c : Thread nD τ) ↦[(prS i).view.set]{fullShare} f),
    ← pointsTo_biUnion _ _ (Regions.keyed_pairwise Regions.mem_prS), Regions.keyed_cover Regions.mem_prS]

theorem read_stg0 (X : (cc0_stg0_0 : Ref sig .tc).ty.Contents (Elt F)) :
    (Memref.whole cc0_stg0_0 : Memref sig .tc .vmem S256x64 .f32).view.readAt (Elt F) (Rect.unit (s := S256x64) ![0, 0] S256x64.size inb_S256x64_S256x64_0_0).toLoadRect X = X :=
  Memref.readAt_unit_zero (Elt F) cc0_stg0_0 (by funext a; fin_cases a <;> rfl) _ X
theorem read_stg1 (X : (cc0_stg1_0 : Ref sig .tc).ty.Contents (Elt F)) :
    (Memref.whole cc0_stg1_0 : Memref sig .tc .vmem S256x64 .f32).view.readAt (Elt F) (Rect.unit (s := S256x64) ![0, 0] S256x64.size inb_S256x64_S256x64_0_0).toLoadRect X = X :=
  Memref.readAt_unit_zero (Elt F) cc0_stg1_0 (by funext a; fin_cases a <;> rfl) _ X
theorem read_stg2 (X : (cc0_stg2_0 : Ref sig .tc).ty.Contents (Elt F)) :
    (Memref.whole cc0_stg2_0 : Memref sig .tc .vmem S256x64 .f32).view.readAt (Elt F) (Rect.unit (s := S256x64) ![0, 0] S256x64.size inb_S256x64_S256x64_0_0).toLoadRect X = X :=
  Memref.readAt_unit_zero (Elt F) cc0_stg2_0 (by funext a; fin_cases a <;> rfl) _ X

abbrev afterK (c : Dev nD) (f : Buf (Elt F) ((kvB).view.loc (c : Thread nD τ))) : Buf (Elt F) ((kvB).view.loc (c : Thread nD τ)) :=
  ((kvB).access (Rect.unit (s := S4x2x256x64) (k0_off2 c) S1x1x256x64.size (k0_off2_inb c))).write (Elt F) f (k0_pay3 (X1 m c)) Finset.univ

def mid1 (c : Dev nD) : sProp 𝕄 :=
  iprop(pers m K ∗ linear c ∗ creds c ∗ Ow c (O0 c)
    ∗ ptQ m c (zF c) fullShare ∗ T3 (fun j => slotQ c (zP c j))
    ∗ (∃ f, (kvB).view.loc (c : Thread nD τ) ↦[(kvS (sF c)).view.set]{fullShare} afterK m c f)
    ∗ T3 (fun j => slotKV c (sP c j))
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f)
    ∗ stgIn m c ∗ ∃ X, stgOut c X)

theorem write_off1 (c : Dev nD) (f : Buf (Elt F) ((qB).view.loc (c : Thread nD τ))) :
    ∀ i ∈ (qS (zF c)).view.set, ((qB).access (Rect.unit (s := S4x256x64) (k0_off1 c) S1x256x64.size (k0_off1_inb c))).write (Elt F) f (k0_pay2 (X0 m c)) Finset.univ i = GQ m c i :=
  fun i hi => RegVal.storeQ m c (k0_off1_inb c) f i ((Regions.mem_qS (zF c) i).1 hi)

set_option maxHeartbeats 1600000 in

theorem part1 (c : Dev nD) (Kt : (Σ' (d0 : Dev nD) (v2 : BitVec 32) (v19 : BitVec 32), BitVec 32) → sProp 𝕄) :
    iprop(I0 m K c ∗ (mid1 m K c -∗ ∀ v2 v19 v20, Kt ⟨c, v2, v19, v20⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10) Kt := by
  simp only [k0_part1_eq_skeleton]; unfold k0_part1_skel
  simp only [Prog.lift, Prog.bind_op, Prog.bind_ret, Prog.pure_eq_ret, wp_deviceId]
  unfold I0 scratch stgIn stg0 stg1 stg2
  iintro ⟨⟨Hp, Hlin, Hcr, ⟨⟨%f0, Hs0⟩, ⟨%f1, Hs1⟩, Hs2, Hs3, Hs4⟩, HO, ⟨Hx0, Hx1, Hx2⟩, Hout⟩, Hk⟩

  ihave Hq := (Entails.of_eq (cover_q c f0)) $$ Hs0
  icases Hq with ⟨HQ, HQ0, HQ1, HQ2⟩
  ihave Hkv := (Entails.of_eq (cover_kv c f1)) $$ Hs1
  icases Hkv with ⟨HKV, HKV0, HKV1, HKV2⟩

  iapply (wp_load 𝒱₀ (c : Thread nD τ) none Set.univ (m := Memref.whole cc0_stg0_0) (Finset.subset_univ _)) $$ Hx0; iintro Hx0
  rw [read_stg0]
  iapply (wp_load 𝒱₀ (c : Thread nD τ) none Set.univ (m := qB) (S := (qS (zF c)).view.set) (Regions.qB_load_off1 c _)) $$ HQ; iintro HQ
  iapply (wp_store 𝒱₀ (c : Thread nD τ) none Set.univ (m := qB) (r := (Rect.unit (s := S4x256x64) (k0_off1 c) S1x256x64.size (k0_off1_inb c))) (S := (qS (zF c)).view.set)
    (Regions.qB_store (Regions.qB_load_off1 c _))) $$ HQ; iintro HQ
  ihave HQ' := (Entails.of_eq (pointsTo_congr (write_off1 m c f0))) $$ HQ

  iapply (wp_load 𝒱₀ (c : Thread nD τ) none Set.univ (m := Memref.whole cc0_stg1_0) (Finset.subset_univ _)) $$ Hx1; iintro Hx1
  rw [read_stg1]
  iapply (wp_load 𝒱₀ (c : Thread nD τ) none Set.univ (m := kvB) (S := (kvS (sF c)).view.set) (Regions.kvB_load_off2 c _)) $$ HKV; iintro HKV
  iapply (wp_store 𝒱₀ (c : Thread nD τ) none Set.univ (m := kvB) (r := (Rect.unit (s := S4x2x256x64) (k0_off2 c) S1x1x256x64.size (k0_off2_inb c))) (S := (kvS (sF c)).view.set)
    (Regions.kvB_store (Regions.kvB_load_off2 c _))) $$ HKV; iintro HKV
  rw [wp_ret]; imodintro
  ihave Hk' := Hk $$ [-]
  rotate_left
  · iapply Hk'
  unfold mid1 stgIn stg0 stg1 stg2 slotQ slotKV ptQ
  iframe Hp Hlin Hcr
  isplitl [HO]; · iexact HO
  iframe HQ'
  isplitl [HQ0 HQ1 HQ2]
  · isplitl [HQ0]; · (iexists f0; iexact HQ0)
    isplitl [HQ1]; · (iexists f0; iexact HQ1)
    iexists f0; iexact HQ2
  isplitl [HKV]; · (iexists f1; iexact HKV)
  isplitl [HKV0 HKV1 HKV2]
  · isplitl [HKV0]; · (iexists f1; iexact HKV0)
    isplitl [HKV1]; · (iexists f1; iexact HKV1)
    iexists f1; iexact HKV2
  iframe Hs2 Hs3 Hs4
  isplitl [Hx0 Hx1 Hx2]
  · iframe Hx0 Hx1 Hx2
  iexact Hout

theorem write_kv (c : Dev nD) (f : Buf (Elt F) ((kvB).view.loc (c : Thread nD τ))) :
    ∀ i ∈ (kvS (sF c)).view.set, ((kvB).access (Rect.unit (s := S4x2x256x64) (k0_off3 c) S1x1x256x64.size (k0_off3_inb c))).write (Elt F) (afterK m c f) (k0_pay4 (X2 m c)) Finset.univ i = GKV m c i :=
  fun i hi => RegVal.storeKV m c (k0_off2_inb c) (k0_off3_inb c) f i ((Regions.mem_kvS (sF c) i).1 hi)

theorem write_zero (c : Dev nD) (f : Buf (Elt F) ((vpB).view.loc (c : Thread nD τ))) :
    ∀ i ∈ (Finset.univ : Finset (Idx ((vpB).view.loc (c : Thread nD τ)))),
      ((vpB).access (Rect.unit (s := S4x256x128) ![0, 0, 0] S4x256x128.size inb_S4x256x128_S4x256x128_0_0_0)).write (Elt F) f (k0_pay5 (F := F)) Finset.univ i = VZ (F := F) c i := by
  intro i _
  have h := Memref.write_access_unit_zero_univ (Elt F) cc0_scratch2 (off := ![0, 0, 0]) (by funext a; fin_cases a <;> rfl)
    inb_S4x256x128_S4x256x128_0_0_0 f (k0_pay5 (F := F))
  exact (congrFun h i).trans (congrArg (k0_pay5 (F := F)) (ValueIdx.eq_ix3 i))

theorem write_vp (c : Dev nD) :
    ∀ i ∈ (vpS (sF c)).view.set,
      ((vpB).access (Rect.unit (s := S4x256x128) (k0_off5 c) S1x256x1.size (k0_off5_inb c))).write (Elt F) (((vpB).access (Rect.unit (s := S4x256x128) (k0_off4 c) S1x256x64.size (k0_off4_inb c))).write (Elt F) (VZ (F := F) c) (k0_pay7 (TV m c)) Finset.univ)
        (k0_pay8 (F := F)) Finset.univ i = GVP m c i :=
  fun i hi => RegVal.fillVP0 m c (k0_off4_inb c) (k0_off5_inb c) (VZ (F := F) c) _ _ rfl rfl (fun j hj => RegVal.VZ_agree m c j hj) i
    ((Regions.mem_vpSl (sF c) i).1 hi)

theorem pers_rec : pers (F := F) m K ⊢ records m K := by
  unfold pers
  iintro ⟨#H, -⟩
  iexact H

set_option maxHeartbeats 1600000 in

theorem part2 (c : Dev nD) (v19 v20 : BitVec 32) (Kt : (Σ' (v48 : FVec F S256x1 .bf16) (v60 : Sems sig S_), BitVec 32) → sProp 𝕄) :
    iprop(mid1 m K c ∗ (I2 m K c -∗ Kt ⟨k0_pay6 (F := F), SemArray.scalar (sig.barrier 0 rfl), Scalar.addi v19 2#32⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20) Kt := by
  simp only [k0_part2_eq_skeleton]; unfold k0_part2_skel
  simp only [semSignalWord, Prog.lift, Prog.bind_op, Prog.bind_ret, Prog.pure_eq_ret]
  unfold mid1 stgIn stg0 stg1 stg2
  iintro ⟨⟨#Hp, Hlin, Hcr, HO, HQ, HQs, ⟨%f1, HKV⟩, HKVs, ⟨%f2, Hs2⟩, ⟨%f3, Hs3⟩, ⟨%f4, Hs4⟩, ⟨Hx0, Hx1, Hx2⟩, Hout⟩, Hk⟩

  iapply (wp_load 𝒱₀ (c : Thread nD τ) none Set.univ (m := Memref.whole cc0_stg2_0) (Finset.subset_univ _)) $$ Hx2; iintro Hx2
  rw [read_stg2]
  iapply (wp_load 𝒱₀ (c : Thread nD τ) none Set.univ (m := kvB) (S := (kvS (sF c)).view.set) (Regions.kvB_load_off3 c _)) $$ HKV; iintro HKV
  iapply (wp_store 𝒱₀ (c : Thread nD τ) none Set.univ (m := kvB) (r := (Rect.unit (s := S4x2x256x64) (k0_off3 c) S1x1x256x64.size (k0_off3_inb c))) (S := (kvS (sF c)).view.set)
    (Regions.kvB_store (Regions.kvB_load_off3 c _))) $$ HKV; iintro HKV
  ihave HKV' := (Entails.of_eq (pointsTo_congr (ℓ := (kvB).view.loc (c : Thread nD τ)) (write_kv m c f1))) $$ HKV

  iapply (wp_load 𝒱₀ (c : Thread nD τ) none Set.univ (m := vpB) (S := Finset.univ) (Finset.subset_univ _)) $$ Hs2; iintro Hs2
  iapply (wp_store 𝒱₀ (c : Thread nD τ) none Set.univ (m := vpB) (r := (Rect.unit (s := S4x256x128) ![0, 0, 0] S4x256x128.size inb_S4x256x128_S4x256x128_0_0_0)) (S := Finset.univ)
    (Finset.subset_univ _)) $$ Hs2; iintro Hs2
  ihave Hz := (Entails.of_eq (pointsTo_congr (write_zero c f2))) $$ Hs2
  ihave Hvp := (Entails.of_eq (cover_vp c (VZ (F := F) c))) $$ Hz
  icases Hvp with ⟨HVP, HVP0, HVP1, HVP2⟩

  iapply (wp_load 𝒱₀ (c : Thread nD τ) none Set.univ (m := kvB) (S := (kvS (sF c)).view.set) (Regions.kvB_load_off3 c _)) $$ HKV'; iintro HKV'
  rw [RegVal.readV0 m c]
  iapply (wp_load 𝒱₀ (c : Thread nD τ) none Set.univ (m := vpB) (S := (vpS (sF c)).view.set) (Regions.vpB_load_off4 c _)) $$ HVP; iintro HVP
  iapply (wp_store 𝒱₀ (c : Thread nD τ) none Set.univ (m := vpB) (r := (Rect.unit (s := S4x256x128) (k0_off4 c) S1x256x64.size (k0_off4_inb c))) (S := (vpS (sF c)).view.set)
    (Regions.vpB_store (Regions.vpB_load_off4 c _))) $$ HVP; iintro HVP
  iapply (wp_load 𝒱₀ (c : Thread nD τ) none Set.univ (m := vpB) (S := (vpS (sF c)).view.set) (Regions.vpB_load_off5 c _)) $$ HVP; iintro HVP
  iapply (wp_store 𝒱₀ (c : Thread nD τ) none Set.univ (m := vpB) (r := (Rect.unit (s := S4x256x128) (k0_off5 c) S1x256x1.size (k0_off5_inb c))) (S := (vpS (sF c)).view.set)
    (Regions.vpB_store (Regions.vpB_load_off5 c _))) $$ HVP; iintro HVP
  ihave HVP' := (Entails.of_eq (pointsTo_congr (ℓ := (vpB).view.loc (c : Thread nD τ)) (write_vp m c))) $$ HVP

  ihave Hps := (Entails.of_eq (cover_ps c f3)) $$ Hs3
  icases Hps with ⟨HPS0, HPS1, HPS2⟩
  ihave Hpr := (Entails.of_eq (cover_pr c f4)) $$ Hs4
  icases Hpr with ⟨HPR, HPR0, HPR1, HPR2⟩
  icases HQs with ⟨HQ0, HQ1, HQ2⟩
  unfold Ow linear payToks
  icases HO with ⟨%W, HO⟩
  icases Hlin with ⟨Hat, Hph, Hct, Hpt, HkvR, HqR, HpR, HkvS, HqS, HpS⟩
  ihave Hct' := (Entails.of_eq (bigSep_3 _)) $$ Hct
  icases Hct' with ⟨Hc0, Hc1, Hc2⟩
  ihave Hpt' := (Entails.of_eq (bigSep_3 _)) $$ Hpt
  ihave HkvR' := (Entails.of_eq (bigSep_3 _)) $$ HkvR
  ihave HqR' := (Entails.of_eq (bigSep_3 _)) $$ HqR
  ihave HpR' := (Entails.of_eq (bigSep_3 _)) $$ HpR
  ihave HkvS' := (Entails.of_eq (bigSep_3 _)) $$ HkvS
  ihave HqS' := (Entails.of_eq (bigSep_3 _)) $$ HqS
  ihave HpS' := (Entails.of_eq (bigSep_3 _)) $$ HpS

  ihave #Hrec := (pers_rec m K) $$ Hp
  iapply (Steps.wp_sig m K c (cP c 0) ⟨k0_dev1 c, k0_dev1_lt c⟩ (Mesh.k0_dev1_eq c _) (colD 0) (Steps.colD_mem (cP c 0) 0) 1
    (Steps.amt_colD (cP c 0) 0) (O1 c) rfl) $$ [HO Hc0 HQ0 HPR0]
  · iframe Hrec
    isplitl [HO]; · iexact HO
    iframe Hc0
    iapply (Steps.barPay_col c 0)
    iframe HQ0
    unfold slotPR; iexists f4; iexact HPR0
  iintro HO
  rw [wp_ret]; imodintro
  iapply Hk
  unfold I2 T3 Ow
  unfold colTok plaTok kvRtok qRtok pRtok kvStok qStok pStok tok ptQ ptKV ptVP zeroVP slotPS slotPR slotQ slotKV stgIn stg0 stg1 stg2
  iframe Hp
  isplitl [HO]; · (iexists W; iexact HO)
  iframe Hph Hat Hcr
  isplitl [Hc1 Hc2]; · (isplitl [Hc1]; · iexact Hc1
                        iexact Hc2)
  iframe Hpt' HkvR' HqR' HpR' HkvS' HqS' HpS' HQ
  isplitl [HQ1 HQ2]; · (isplitl [HQ1]; · iexact HQ1
                        iexact HQ2)
  iframe HKV' HKVs HVP'
  isplitl [HVP0 HVP1 HVP2]
  · iframe HVP0 HVP1 HVP2
  isplitl [HPS0 HPS1 HPS2]
  · isplitl [HPS0]; · (iexists f3; iexact HPS0)
    isplitl [HPS1]; · (iexists f3; iexact HPS1)
    iexists f3; iexact HPS2
  isplitl [HPR]; · (iexists f4; iexact HPR)
  isplitl [HPR1 HPR2]
  · isplitl [HPR1]; · (iexists f4; iexact HPR1)
    iexists f4; iexact HPR2
  isplitl [Hx0 Hx1 Hx2]
  · iframe Hx0 Hx1 Hx2
  iexact Hout

end Cert.KernelIdeal.SegA
end
-- ==== Proof.Steps2.lean ====
import proofs.«900582_g7700000000000583_dist_ring_attn_i_s256_d64_v7x_i16_f32_1_alg».proof.Proof.Steps

noncomputable section

namespace Cert.KernelIdeal.Steps2

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs Cert.KernelIdeal.Steps
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

def f3 (i : Fin 4) : Fin 21 := ⟨3 + i.val, by have := i.isLt; omega⟩
def f10 (i : Fin 4) : Fin 21 := ⟨10 + i.val, by have := i.isLt; omega⟩
def f17 (i : Fin 4) : Fin 21 := ⟨17 + i.val, by have := i.isLt; omega⟩

def cellList (c : Dev nD) : List (Fin 21) :=
  [0, 1, 2, 7, 8, 9, 14, 15, 16, f3 (zF c), f10 (sF c), f17 (zF c),
   f3 (zP c 0), f3 (zP c 1), f3 (zP c 2), f10 (sP c 0), f10 (sP c 1), f10 (sP c 2), f17 (zP c 0), f17 (zP c 1), f17 (zP c 2)]

theorem cellList_univ : ∀ c : Dev nD, (Finset.univ : Finset (Fin 21)) = (cellList c).toFinset := by decide
theorem cellList_nodup : ∀ c : Dev nD, (cellList c).Nodup := by decide

theorem sc_f3 (i : Fin 4) : sc (f3 i) = qRecvSem i := Fin.ext (by show 3 + i.val + 4 = 7 + i.val; omega)
theorem sc_f10 (i : Fin 4) : sc (f10 i) = kvRecvSem i := Fin.ext (by show 10 + i.val + 4 = 14 + i.val; omega)
theorem sc_f17 (i : Fin 4) : sc (f17 i) = pRecvSem i := Fin.ext (by show 17 + i.val + 4 = 21 + i.val; omega)
theorem sc_0 : sc 0 = qSendSem 0 := by decide
theorem sc_1 : sc 1 = qSendSem 1 := by decide
theorem sc_2 : sc 2 = qSendSem 2 := by decide
theorem sc_7 : sc 7 = kvSendSem 0 := by decide
theorem sc_8 : sc 8 = kvSendSem 1 := by decide
theorem sc_9 : sc 9 = kvSendSem 2 := by decide
theorem sc_14 : sc 14 = pSendSem 0 := by decide
theorem sc_15 : sc 15 = pSendSem 1 := by decide
theorem sc_16 : sc 16 = pSendSem 2 := by decide

def cellsG (c : Dev nD) (Φ : DmaSem sig → sProp 𝕄) : sProp 𝕄 :=
  iprop(T3 (fun j => Φ (qSendSem j)) ∗ T3 (fun j => Φ (kvSendSem j)) ∗ T3 (fun j => Φ (pSendSem j))
    ∗ Φ (qRecvSem (zF c)) ∗ Φ (kvRecvSem (sF c)) ∗ Φ (pRecvSem (zF c))
    ∗ T3 (fun j => Φ (qRecvSem (zP c j))) ∗ T3 (fun j => Φ (kvRecvSem (sP c j))) ∗ T3 (fun j => Φ (pRecvSem (zP c j))))

theorem atStart_eq (c : Dev nD) : atStart (F := F) c = cellsG c (at0 (F := F) c) := rfl

theorem cells_flat (c : Dev nD) (Φ : DmaSem sig → sProp 𝕄) :
    (bigSep Finset.univ fun k : Fin 21 => Φ (sc k))
      = iprop(Φ (qSendSem 0) ∗ Φ (qSendSem 1) ∗ Φ (qSendSem 2) ∗ Φ (kvSendSem 0) ∗ Φ (kvSendSem 1) ∗ Φ (kvSendSem 2)
        ∗ Φ (pSendSem 0) ∗ Φ (pSendSem 1) ∗ Φ (pSendSem 2) ∗ Φ (qRecvSem (zF c)) ∗ Φ (kvRecvSem (sF c)) ∗ Φ (pRecvSem (zF c))
        ∗ Φ (qRecvSem (zP c 0)) ∗ Φ (qRecvSem (zP c 1)) ∗ Φ (qRecvSem (zP c 2))
        ∗ Φ (kvRecvSem (sP c 0)) ∗ Φ (kvRecvSem (sP c 1)) ∗ Φ (kvRecvSem (sP c 2))
        ∗ Φ (pRecvSem (zP c 0)) ∗ Φ (pRecvSem (zP c 1)) ∗ Φ (pRecvSem (zP c 2))) := by
  rw [bigSep_univ_eq_bigSepL (cellList c) (cellList_univ c) (cellList_nodup c)]
  unfold cellList
  simp only [bigSepL_cons_cons, bigSepL_singleton, sc_0, sc_1, sc_2, sc_7, sc_8, sc_9, sc_14, sc_15, sc_16, sc_f3, sc_f10, sc_f17]
  rfl

theorem cells_split (c : Dev nD) (Φ : DmaSem sig → sProp 𝕄) :
    (bigSep Finset.univ fun k : Fin 21 => Φ (sc k)) ⊢ cellsG c Φ := by
  rw [cells_flat c Φ]; unfold cellsG; dsimp only [T3]
  iintro ⟨H0, H1, H2, H3, H4, H5, H6, H7, H8, H9, H10, H11, H12, H13, H14, H15, H16, H17, H18, H19, H20⟩
  isplitl [H0 H1 H2]
  · iframe H0 H1 H2
  isplitl [H3 H4 H5]
  · iframe H3 H4 H5
  isplitl [H6 H7 H8]
  · iframe H6 H7 H8
  iframe H9 H10 H11
  isplitl [H12 H13 H14]
  · iframe H12 H13 H14
  isplitl [H15 H16 H17]
  · iframe H15 H16 H17
  iframe H18 H19 H20

theorem cells_join (c : Dev nD) (Φ : DmaSem sig → sProp 𝕄) :
    cellsG c Φ ⊢ (bigSep Finset.univ fun k : Fin 21 => Φ (sc k)) := by
  rw [cells_flat c Φ]; unfold cellsG; dsimp only [T3]
  iintro ⟨⟨H0, H1, H2⟩, ⟨H3, H4, H5⟩, ⟨H6, H7, H8⟩, H9, H10, H11, ⟨H12, H13, H14⟩, ⟨H15, H16, H17⟩, ⟨H18, H19, H20⟩⟩
  iframe H0 H1 H2 H3 H4 H5 H6 H7 H8 H9 H10 H11 H12 H13 H14 H15 H16 H17 H18 H19 H20

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem creds_split (c : Dev nD) :
    creds (F := F) c ⊢ iprop(cred (tB c 24) ∗ cred (tB c 3) ∗ T3 (credQR (F := F) c) ∗ T3 (credKVR (F := F) c) ∗ T3 (credPR (F := F) c)) := by
  unfold creds
  simp only [bigSep_fin3]
  have e : (tB c 27 : CellTallies nD τ sig Unit) = tB c 24 + tB c 3 := by unfold tB; rw [tallyAt_add]
  rw [e]
  iintro ⟨Hb, Hq, Hkv, Hp⟩
  ihave Hb' := (cred_add (tB c 24) (tB c 3)).1 $$ Hb
  icases Hb' with ⟨Hb1, Hb2⟩
  isplitl [Hb1]; · iexact Hb1
  isplitl [Hb2]; · iexact Hb2
  isplitl [Hq]; · iexact Hq
  isplitl [Hkv]; · iexact Hkv
  iexact Hp

section Shares
variable {ℓ : Loc nD τ sig} {I : Finset (Idx ℓ)} {f : Buf (Elt F) ℓ}

end Shares

end Cert.KernelIdeal.Steps2

end
-- ==== Proof.RegShare.lean ====
import proofs.«900582_g7700000000000583_dist_ring_attn_i_s256_d64_v7x_i16_f32_1_alg».proof.Proof.Regions

noncomputable section

namespace Cert.KernelIdeal.Regions

open Cert.KernelIdeal Cert.KernelIdeal.Gen Cert.KernelIdeal.Mesh Cert.KernelIdeal.Cells Cert.KernelIdeal.Contents Cert.KernelIdeal.Sched
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

-- A full share of a slot is three lent shares, one for each outgoing copy, and one kept.
theorem share4 {ℓ : Loc nD τ sig} (I : Finset (Idx ℓ)) (f : Buf (Elt F) ℓ) :
    ((ℓ ↦[I]{fullShare} f) : sProp 𝕄)
      ⊣⊢ iprop((ℓ ↦[I]{lend 0} f) ∗ (ℓ ↦[I]{lend 1} f) ∗ (ℓ ↦[I]{lend 2} f) ∗ (ℓ ↦[I]{keep} f)) := by
  have h0 : ((ℓ ↦[I]{fullShare} f) : sProp 𝕄) ⊣⊢ iprop((ℓ ↦[I]{fullShare.left} f) ∗ (ℓ ↦[I]{fullShare.right} f)) :=
    pointsTo_share (PosShare.mem_left_op_right fullShare)
  have h1 : ((ℓ ↦[I]{fullShare.left} f) : sProp 𝕄) ⊣⊢ iprop((ℓ ↦[I]{fullShare.left.left} f) ∗ (ℓ ↦[I]{fullShare.left.right} f)) :=
    pointsTo_share (PosShare.mem_left_op_right fullShare.left)
  have h2 : ((ℓ ↦[I]{fullShare.right} f) : sProp 𝕄) ⊣⊢ iprop((ℓ ↦[I]{fullShare.right.left} f) ∗ (ℓ ↦[I]{fullShare.right.right} f)) :=
    pointsTo_share (PosShare.mem_left_op_right fullShare.right)
  show ((ℓ ↦[I]{fullShare} f) : sProp 𝕄) ⊣⊢ iprop((ℓ ↦[I]{fullShare.left.left} f) ∗ (ℓ ↦[I]{fullShare.left.right} f)
      ∗ (ℓ ↦[I]{fullShare.right.left} f) ∗ (ℓ ↦[I]{fullShare.right.right} f))
  constructor
  · exact h0.1.trans ((BI.sep_mono h1.1 h2.1).trans BI.sep_assoc)
  · exact (BI.sep_assoc'.trans (BI.sep_mono h1.2 h2.2)).trans h0.2

theorem ptQ_share (c : Dev nD) (i : Fin 4) :
    ptQ m c i fullShare ⊣⊢ iprop(ptQ m c i (lend 0) ∗ ptQ m c i (lend 1) ∗ ptQ m c i (lend 2) ∗ ptQ m c i keep) := share4 _ _
theorem ptKV_share (c : Dev nD) (i : Fin 4) :
    ptKV m c i fullShare ⊣⊢ iprop(ptKV m c i (lend 0) ∗ ptKV m c i (lend 1) ∗ ptKV m c i (lend 2) ∗ ptKV m c i keep) := share4 _ _

theorem join_ex {ℓ : Loc nD τ sig} {I J : Finset (Idx ℓ)} (q : PosShare TreeShare) (h : Disjoint I J) :
    (iprop((∃ f : Buf (Elt F) ℓ, ℓ ↦[I]{q} f) ∗ (∃ g : Buf (Elt F) ℓ, ℓ ↦[J]{q} g)) : sProp 𝕄)
      ⊢ iprop(∃ f : Buf (Elt F) ℓ, ℓ ↦[I ∪ J]{q} f) := by
  refine sep_exists_right.1.trans (exists_elim fun f => ?_)
  refine sep_exists_left.1.trans (exists_elim fun g => ?_)
  exact (pointsTo_join h).trans (exists_intro (Φ := fun f : Buf (Elt F) ℓ => (ℓ ↦[I ∪ J]{q} f : sProp 𝕄)) _)

theorem rejoin3 {ℓ : Loc nD τ sig} (K : Fin 3 → Finset (Idx ℓ)) (hd : ∀ i j, i ≠ j → Disjoint (K i) (K j))
    (hc : K 0 ∪ (K 1 ∪ K 2) = Finset.univ) (q : PosShare TreeShare) :
    (iprop((∃ f : Buf (Elt F) ℓ, ℓ ↦[K 0]{q} f) ∗ (∃ f : Buf (Elt F) ℓ, ℓ ↦[K 1]{q} f) ∗ (∃ f : Buf (Elt F) ℓ, ℓ ↦[K 2]{q} f)) : sProp 𝕄)
      ⊢ iprop(∃ f : Buf (Elt F) ℓ, ℓ ↦{q} f) := by
  have d12 : Disjoint (K 1) (K 2) := hd 1 2 (by decide)
  have d0 : Disjoint (K 0) (K 1 ∪ K 2) := Finset.disjoint_union_right.mpr ⟨hd 0 1 (by decide), hd 0 2 (by decide)⟩
  refine (BI.sep_mono_r (join_ex q d12)).trans ?_
  refine (join_ex q d0).trans ?_
  rw [hc]
theorem agree_of_read {κ : Kind} {sp : Space} {s : Shape} {e : EltTy} (v : View sig κ sp s e) (f g : v.ty.Contents (Elt F)) :
    ∀ i ∈ v.set, v.write (Elt F) f (v.read (Elt F) g) Finset.univ i = g i := by
  intro i hi
  rw [View.write_read_eq_piecewise, Finset.piecewise_eq_of_mem _ _ _ (by rwa [View.setOn_univ])]

theorem land_q (c p : Dev nD) (hs : sF p = sF c) (fd : Buf (Elt F) ((qB).view.loc (p : Thread nD τ))) :
    (((qB).view.loc (p : Thread nD τ) ↦[(qS (zF c)).view.set]{fullShare}
        ((qS (zF c)).view.write (Elt F) fd ((qS (zF c)).view.read (Elt F) (GQ m c)) Finset.univ)) : sProp 𝕄)
      ⊢ ptQ m p (zF c) fullShare := by
  unfold ptQ
  refine Entails.of_eq (pointsTo_congr ?_)
  intro i hi
  refine (agree_of_read (F := F) (qS (zF c)).view fd (GQ m c) i hi).trans ?_
  show GQ m c i = GQ m p i
  unfold GQ; rw [hs]

theorem land_kv (c p : Dev nD) (hz : zF p = zF c) (fd : Buf (Elt F) ((kvB).view.loc (p : Thread nD τ))) :
    (((kvB).view.loc (p : Thread nD τ) ↦[(kvS (sF c)).view.set]{fullShare}
        ((kvS (sF c)).view.write (Elt F) fd ((kvS (sF c)).view.read (Elt F) (GKV m c)) Finset.univ)) : sProp 𝕄)
      ⊢ ptKV m p (sF c) fullShare := by
  unfold ptKV
  refine Entails.of_eq (pointsTo_congr ?_)
  intro i hi
  refine (agree_of_read (F := F) (kvS (sF c)).view fd (GKV m c) i hi).trans ?_
  show GKV m c i = GKV m p i
  unfold GKV; rw [hz]

theorem psS_emb (j : Fin 3) (x : S256x128.Idx) :
    ((psS j).view.emb x : S3x256x128.Idx) = ValueIdx.ix3 (⟨j.val, j.isLt⟩ : Fin 3) (x 0) (x 1) := by
  funext a
  refine Fin.ext ?_
  show ((Rect.unit (s := S3x256x128) ![j.val, 0, 0] S1x256x128.size (inbPS j)).emb
      (Shape.reshapeEquiv (Shape.Squeezes.numel_eq squeezes_S1x256x128_S256x128) x) a).val = _
  rw [Rect.emb_apply, Shape.reshapeEquiv_cons_one]
  fin_cases a <;> simp <;> rfl
theorem prS_emb (i : Fin 4) (x : S256x128.Idx) :
    ((prS i).view.emb x : S4x256x128.Idx) = ValueIdx.ix3 (⟨i.val, i.isLt⟩ : Fin 4) (x 0) (x 1) := by
  funext a
  refine Fin.ext ?_
  show ((Rect.unit (s := S4x256x128) (offQ i) S1x256x128.size (inbPR i)).emb
      (Shape.reshapeEquiv (Shape.Squeezes.numel_eq squeezes_S1x256x128_S256x128) x) a).val = _
  rw [Rect.emb_apply, Shape.reshapeEquiv_cons_one]
  fin_cases a <;> simp [offQ] <;> rfl

theorem zF_back (c : Dev nD) (j : Fin 3) : ((zF (colPeer c j.succ)).val + 4 - (zF c).val) % 4 = j.val + 1 := by revert c j; decide

theorem land_p (c : Dev nD) (j : Fin 3) (fd : Buf (Elt F) ((prB).view.loc ((colPeer c j.succ : Dev nD) : Thread nD τ))) :
    (((prB).view.loc ((colPeer c j.succ : Dev nD) : Thread nD τ) ↦[(prS (zF c)).view.set]{fullShare}
        ((prS (zF c)).view.write (Elt F) fd ((psS j).view.read (Elt F) (GPS m c)) Finset.univ)) : sProp 𝕄)
      ⊢ ptPR m (colPeer c j.succ) (zF c) fullShare := by
  unfold ptPR
  refine Entails.of_eq (pointsTo_congr ?_)
  intro i hi
  have hr : (psS j).view.read (Elt F) (GPS m c) = (prS (zF c)).view.read (Elt F) (GPR m (colPeer c j.succ)) := by
    funext x
    rw [View.read_apply, View.read_apply]
    have e1 : mk (zF c) (sF (colPeer c j.succ)) = c := by rw [sF_colPeer, mk_zF_sF]
    have e2 := zF_back c j
    show GPS m c ((psS j).view.emb x) = GPR m (colPeer c j.succ) ((prS (zF c)).view.emb x)
    rw [psS_emb, prS_emb]
    show Psel m ⟨j.val + 1, _⟩ c _ = Psel m ⟨((zF (colPeer c j.succ)).val + 4 - (zF c).val) % 4, _⟩ (mk (zF c) (sF (colPeer c j.succ))) _
    rw [e1]
    congr 1
    exact Fin.ext e2.symm
  rw [hr]
  exact agree_of_read (F := F) (prS (zF c)).view fd (GPR m (colPeer c j.succ)) i hi

end Cert.KernelIdeal.Regions

end
-- ==== Proof.SegB.lean ====
import proofs.«900582_g7700000000000583_dist_ring_attn_i_s256_d64_v7x_i16_f32_1_alg».proof.Proof.Steps2
import proofs.«900582_g7700000000000583_dist_ring_attn_i_s256_d64_v7x_i16_f32_1_alg».proof.Proof.RegShare

noncomputable section

namespace Cert.KernelIdeal.SegB

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs Cert.KernelIdeal.Steps Cert.KernelIdeal.Steps2 Cert.KernelIdeal.Regions
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

def restB (c : Dev nD) : sProp 𝕄 :=
  iprop((bigSep Finset.univ fun k : Fin 21 => atPos ER (dmaCell c (sc k)) 0 ∅ 0) ∗ T3 (pRtok c) ∗ T3 (pStok c)
    ∗ ptVP m c (sF c) ∗ T3 (fun j => zeroVP (F := F) c (sP c j)) ∗ T3 (slotPS c) ∗ slotPR c (zF c) ∗ stgIn m c ∗ ∃ X, stgOut c X)

def mid3 (c : Dev nD) : sProp 𝕄 :=
  iprop(pers m K ∗ restB m c ∗ Ow c (O5 c) ∗ phTok ER (B (F := F) c) (barCell c) 0 ∗ creds c
    ∗ plaTok c 2 ∗ T3 (kvRtok c) ∗ T3 (qRtok c) ∗ T3 (kvStok c) ∗ T3 (qStok c)
    ∗ ptQ m c (zF c) fullShare ∗ ptKV m c (sF c) fullShare ∗ slotKV c (sP c 2))

def mid4 (c : Dev nD) : sProp 𝕄 :=
  iprop(pers m K ∗ restB m c ∗ Ow c (O8 c) ∗ phTok ER (B (F := F) c) (barCell c) 1
    ∗ cred (tB c 3) ∗ T3 (credQR (F := F) c) ∗ T3 (credKVR (F := F) c) ∗ T3 (credPR (F := F) c) ∗ (credKVS (F := F) c 1 ∗ credKVS (F := F) c 0)
    ∗ kvRtok c 2 ∗ T3 (qRtok c) ∗ kvStok c 2 ∗ T3 (qStok c)
    ∗ ptQ m c (zF c) fullShare ∗ ptKV m c (sF c) (lend 2) ∗ ptKV m c (sF c) keep ∗ slotKV (F := F) (pP c 2) (sF c))

def mid5 (c : Dev nD) : sProp 𝕄 :=
  iprop(pers m K ∗ restB m c ∗ Ow c (O10 c) ∗ phTok ER (B (F := F) c) (barCell c) 2
    ∗ T3 (credQR (F := F) c) ∗ T3 (credKVR (F := F) c) ∗ T3 (credPR (F := F) c) ∗ T3 (credKVS (F := F) c) ∗ credQS (F := F) c 0
    ∗ (qRtok c 1 ∗ qRtok c 2) ∗ (qStok c 1 ∗ qStok c 2)
    ∗ ptQ m c (zF c) (lend 1) ∗ ptQ m c (zF c) (lend 2) ∗ ptQ m c (zF c) keep ∗ ptKV m c (sF c) keep
    ∗ (slotQ (F := F) (cP c 1) (zF c) ∗ slotQ (F := F) (cP c 2) (zF c)) ∗ T3 (fun j => slotPR (F := F) (cP c j) (zF c)))

theorem wp_send_kv (c : Dev nD) (j : Fin 3) (n : Dev nD) (hn : n = pP c j) (nS nR : DmaSem sig)
    (hS : nS = kvSendSem j) (hR : nR = kvRecvSem (sF c))
    (off : Fin 4 → Nat) (e : off = offKV (sF c)) (h h' : ∀ a, off a + S1x2x256x64.size a ≤ S4x2x256x64.size a)
    {hsc : (kvSlot off h' : Memref sig (Dev.tc n : Thread nD τ).2.kind .vmem S2x256x64 .bf16).view.ref.isScScratch = false}
    {hsrc : (kvSlot off h).view.WordExact} {hdst : (kvSlot off h' : Memref sig (Dev.tc n : Thread nD τ).2.kind .vmem S2x256x64 .bf16).view.WordExact}
    {hsem : DmaTarget.Typed .vmem (.dma nR) (.remote (Dev.tc n : Thread nD τ) (kvSlot off h') (.dma nS) hsc)}
    {O₀ : CellTallies nD τ sig Unit} (O : CellTallies nD τ sig Unit) (hO : O₀ = O + tD (pP c j) (kvRecvSem (sF c)) NKV) {W : Waits sig Unit}
    {α : Type} {Q : α → sProp 𝕄} {k : PUnit → Prog (TpuEff nD τ sig (Elt F) Λ₀ .tc) α} :
    iprop(records m K ∗ ptKV m c (sF c) (lend j) ∗ slotKV (F := F) (pP c j) (sF c) ∗ owes (c : Thread nD τ) O₀ W ∗ kvStok (F := F) c j ∗ kvRtok (F := F) c j)
      ⊢ iprop(((credKVS (F := F) c j ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (kvSlot off h) (.remote (Dev.tc n : Thread nD τ) (kvSlot off h') (.dma nS) hsc) (.dma nR) hsrc hdst hsem) k) Q) := by
  subst hn hS hR e
  unfold ptKV slotKV kvStok kvRtok credKVS
  iintro ⟨#Hrec, Hsrc, ⟨%fd, Hdst⟩, HO, Ht1, Ht2⟩ Hk
  iapply (wp_send_cell m K c (pP c j) (pP c j) rfl (kvSendSem j) (kvRecvSem (sF c)) (used_kvSend c j) (used_kvRecv _ _ (sF_ne_sP c j))
      (by show 4 ≤ 11 + _; omega) (by show 4 ≤ 14 + _; omega)
      (src := kvSlot (offKV (sF c)) h) (dst := kvSlot (offKV (sF c)) h') (q := lend j) (fs := GKV m c) (fd := fd)
      NKV rfl (amt_kvSend j) (amt_kvRecv _) O hO
      (by rw [payD_kvSend]; exact Entails.refl _)
      (by rw [payD_kvRecv]; exact land_kv m c (pP c j) (zF_planePeer c _) fd)) $$ [Hsrc Hdst HO Ht1 Ht2]
  · iframe Hrec Hsrc Hdst
    isplitl [HO]; · iexact HO
    iframe Ht1 Ht2
  iexact Hk

theorem wp_send_q (c : Dev nD) (j : Fin 3) (n : Dev nD) (hn : n = cP c j) (nS nR : DmaSem sig)
    (hS : nS = qSendSem j) (hR : nR = qRecvSem (zF c))
    (off : Fin 3 → Nat) (e : off = offQ (zF c)) (h h' : ∀ a, off a + S1x256x64.size a ≤ S4x256x64.size a)
    {hsc : (qSlot off h' : Memref sig (Dev.tc n : Thread nD τ).2.kind .vmem S256x64 .bf16).view.ref.isScScratch = false}
    {hsrc : (qSlot off h).view.WordExact} {hdst : (qSlot off h' : Memref sig (Dev.tc n : Thread nD τ).2.kind .vmem S256x64 .bf16).view.WordExact}
    {hsem : DmaTarget.Typed .vmem (.dma nR) (.remote (Dev.tc n : Thread nD τ) (qSlot off h') (.dma nS) hsc)}
    {O₀ : CellTallies nD τ sig Unit} (O : CellTallies nD τ sig Unit) (hO : O₀ = O + tD (cP c j) (qRecvSem (zF c)) NQ) {W : Waits sig Unit}
    {α : Type} {Q : α → sProp 𝕄} {k : PUnit → Prog (TpuEff nD τ sig (Elt F) Λ₀ .tc) α} :
    iprop(records m K ∗ ptQ m c (zF c) (lend j) ∗ slotQ (F := F) (cP c j) (zF c) ∗ owes (c : Thread nD τ) O₀ W ∗ qStok (F := F) c j ∗ qRtok (F := F) c j)
      ⊢ iprop(((credQS (F := F) c j ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (qSlot off h) (.remote (Dev.tc n : Thread nD τ) (qSlot off h') (.dma nS) hsc) (.dma nR) hsrc hdst hsem) k) Q) := by
  subst hn hS hR e
  unfold ptQ slotQ qStok qRtok credQS
  iintro ⟨#Hrec, Hsrc, ⟨%fd, Hdst⟩, HO, Ht1, Ht2⟩ Hk
  iapply (wp_send_cell m K c (cP c j) (cP c j) rfl (qSendSem j) (qRecvSem (zF c)) (used_qSend c j) (used_qRecv _ _ (zF_ne_zP c j))
      (by show 4 ≤ 4 + _; omega) (by show 4 ≤ 7 + _; omega)
      (src := qSlot (offQ (zF c)) h) (dst := qSlot (offQ (zF c)) h') (q := lend j) (fs := GQ m c) (fd := fd)
      NQ rfl (amt_qSend j) (amt_qRecv _) O hO
      (by rw [payD_qSend]; exact Entails.refl _)
      (by rw [payD_qRecv]; exact land_q m c (cP c j) (sF_colPeer c _) fd)) $$ [Hsrc Hdst HO Ht1 Ht2]
  · iframe Hrec Hsrc Hdst
    isplitl [HO]; · iexact HO
    iframe Ht1 Ht2
  iexact Hk

theorem wp_bar24' (c : Dev nD) (k' : ℕ) (hk : k' = 24) {O : CellTallies nD τ sig Unit} {W : Waits sig Unit}
    {α : Type} {Q : α → sProp 𝕄} {k : PUnit → Prog (TpuEff nD τ sig (Elt F) Λ₀ .tc) α} :
    iprop(records m K ∗ cred (tB c 24) ∗ owes (c : Thread nD τ) O W ∗ MayWait (c : Thread nD τ) (.reg barS) () O ∗ phTok ER (B (F := F) c) (barCell c) 0)
      ⊢ iprop(((owes (c : Thread nD τ) O (insert (SemLoc.reg barS, ()) W) ∗ phTok ER (B (F := F) c) (barCell c) 1
              ∗ slotKV (F := F) (pP c 2) (sF c) ∗ slotKV (F := F) (pP c 1) (sF c) ∗ slotKV (F := F) (pP c 0) (sF c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk; exact wp_bar24 m K c
theorem wp_bar3' (c : Dev nD) (k' : ℕ) (hk : k' = 3) {O : CellTallies nD τ sig Unit} {W : Waits sig Unit}
    {α : Type} {Q : α → sProp 𝕄} {k : PUnit → Prog (TpuEff nD τ sig (Elt F) Λ₀ .tc) α} :
    iprop(records m K ∗ cred (tB c 3) ∗ owes (c : Thread nD τ) O W ∗ MayWait (c : Thread nD τ) (.reg barS) () O ∗ phTok ER (B (F := F) c) (barCell c) 1)
      ⊢ iprop(((owes (c : Thread nD τ) O (insert (SemLoc.reg barS, ()) W) ∗ phTok ER (B (F := F) c) (barCell c) 2
              ∗ (slotQ (F := F) (cP c 2) (zF c) ∗ slotPR (F := F) (cP c 2) (zF c))
              ∗ (slotQ (F := F) (cP c 1) (zF c) ∗ slotPR (F := F) (cP c 1) (zF c)) ∗ (slotQ (F := F) (cP c 0) (zF c) ∗ slotPR (F := F) (cP c 0) (zF c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk; exact wp_bar3 m K c

theorem part3 (c : Dev nD) (v19 v20 v67 : BitVec 32) (Kt : BitVec 32 → sProp 𝕄) :
    iprop(I2 m K c ∗ (mid3 m K c -∗ ∀ w, Kt w))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 (SemArray.scalar (sig.barrier 0 rfl)) v67) Kt := by
  simp only [k0_part3_eq_skeleton]; unfold k0_part3_skel
  simp only [semSignalWord, semWaitWord, Prog.lift, Prog.bind_op, Prog.bind_ret, Prog.pure_eq_ret]
  unfold I2 Ow pers colTok plaTok
  iintro ⟨⟨⟨#Hrec, #Hlev⟩, ⟨%W, HO⟩, Hph, Hat, Hcr, ⟨Hc1, Hc2⟩, ⟨Hp0, Hp1, Hp2⟩, HkvR, HqR, HpR, HkvS, HqS, HpS, HQ, ⟨HQ1, HQ2⟩, HKV, ⟨HK0, HK1, HK2⟩, HVP, HVZ, HPS, HPRz, ⟨HPR1, HPR2⟩, Hstg, Hout⟩, Hk⟩
  iapply (wp_sig m K c (cP c 1) _ (k0_dev2_eq c _) (colD 1) (colD_mem _ 1) _ ((amt_colD _ 1).trans (by decide)) (O2 c) rfl) $$ [HO Hc1 HQ1 HPR1]
  · iframe Hrec
    isplitl [HO]; · iexact HO
    iframe Hc1
    iapply (barPay_col c 1); isplitl [HQ1] <;> iassumption
  iintro HO
  iapply (wp_sig m K c (cP c 2) _ (k0_dev3_eq c _) (colD 2) (colD_mem _ 2) _ ((amt_colD _ 2).trans (by decide)) (O3 c) rfl) $$ [HO Hc2 HQ2 HPR2]
  · iframe Hrec
    isplitl [HO]; · iexact HO
    iframe Hc2
    iapply (barPay_col c 2); isplitl [HQ2] <;> iassumption
  iintro HO
  iapply (wp_sig m K c (pP c 0) _ (k0_dev4_eq c _) (plaD 0) (plaD_mem _ 0) _ ((amt_plaD _ 0).trans (by decide)) (O4 c) rfl) $$ [HO Hp0 HK0]
  · iframe Hrec
    isplitl [HO]; · iexact HO
    iframe Hp0
    iapply (barPay_pla c 0); iexact HK0
  iintro HO
  iapply (wp_sig m K c (pP c 1) _ (k0_dev5_eq c _) (plaD 1) (plaD_mem _ 1) _ ((amt_plaD _ 1).trans (by decide)) (O5 c) rfl) $$ [HO Hp1 HK1]
  · iframe Hrec
    isplitl [HO]; · iexact HO
    iframe Hp1
    iapply (barPay_pla c 1); iexact HK1
  iintro HO
  rw [wp_ret]; imodintro
  ihave Hk' := Hk $$ [Hat HpR HpS HVP HVZ HPS HPRz Hstg Hout HO Hph Hcr Hp2 HkvR HqR HkvS HqS HQ HKV HK2]
  rotate_left
  · iapply Hk'
  unfold mid3 restB Ow pers plaTok
  isplitr; · isplitr <;> iassumption
  isplitl [Hat HpR HpS HVP HVZ HPS HPRz Hstg Hout]
  · iframe Hat HpR HpS HVP HVZ HPS HPRz
    isplitl [Hstg] <;> iassumption
  isplitl [HO]; · iexists W; iexact HO
  iframe Hph Hcr Hp2 HkvR HqR HkvS HqS HQ
  isplitl [HKV] <;> iassumption

theorem part4 (c : Dev nD) (v19 v20 v95 : BitVec 32) (Kt : PUnit → sProp 𝕄) :
    iprop(mid3 m K c ∗ (mid4 m K c -∗ Kt ⟨⟩))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 (SemArray.scalar (sig.barrier 0 rfl)) v95) Kt := by
  simp only [k0_part4_eq_skeleton]; unfold k0_part4_skel
  simp only [semSignalWord, semWaitWord, Prog.lift, Prog.bind_op, Prog.bind_ret, Prog.pure_eq_ret]
  unfold mid3 Ow pers plaTok
  iintro ⟨⟨⟨#Hrec, #Hlev⟩, Hrest, ⟨%W, HO⟩, Hph, Hcr, Hp2, ⟨HkvR0, HkvR1, HkvR2⟩, HqR, ⟨HkvS0, HkvS1, HkvS2⟩, HqS, HQ, HKV, HK2⟩, Hk⟩
  iapply (wp_sig m K c (pP c 2) _ (k0_dev6_eq c _) (plaD 2) (plaD_mem _ 2) _ ((amt_plaD _ 2).trans (by decide)) (O6 c) rfl) $$ [HO Hp2 HK2]
  · iframe Hrec
    isplitl [HO]; · iexact HO
    iframe Hp2
    iapply (barPay_pla c 2); iexact HK2
  iintro HO
  ihave Hcr' := (creds_split c) $$ Hcr
  icases Hcr' with ⟨Hb24, Hb3, HcQR, HcKVR, HcPR⟩
  iapply (wp_bar24' m K c _ (by decide) (O := O6 c) (W := W)) $$ [Hb24 HO Hph]
  · iframe Hrec Hb24
    isplitl [HO]; · iexact HO
    isplitr; · iapply (mayWait_bar24 c); iexact Hlev
    iexact Hph
  iintro ⟨HO, Hph, HD2, HD1, HD0⟩
  ihave HKV' := (ptKV_share m c (sF c)).1 $$ HKV
  icases HKV' with ⟨HL0, HL1, HL2, HKk⟩
  iapply (wp_send_kv m K c 1 _ (k0_dev7_eq c _) _ _ (Mesh.cc0_scratch7_sem_1 _ _) (Mesh.cc0_scratch8_sem_own c _ _) _ (k0_off7_own c) _ _ (O7 c) rfl) $$ [HL1 HD1 HO HkvS1 HkvR1]
  · iframe Hrec HL1 HD1
    isplitl [HO]; · iexact HO
    iframe HkvS1 HkvR1
  iintro ⟨HcS1, HO⟩
  iapply (wp_send_kv m K c 0 _ (k0_dev8_eq c _) _ _ (Mesh.cc0_scratch7_sem_0 _ _) (Mesh.cc0_scratch8_sem_own c _ _) _ (k0_off7_own c) _ _ (O8 c) rfl) $$ [HL0 HD0 HO HkvS0 HkvR0]
  · iframe Hrec HL0 HD0
    isplitl [HO]; · iexact HO
    iframe HkvS0 HkvR0
  iintro ⟨HcS0, HO⟩
  rw [wp_ret]; imodintro
  iapply Hk
  unfold mid4 Ow pers
  isplitr; · isplitr <;> iassumption
  iframe Hrest
  isplitl [HO]; · iexists _; iexact HO
  iframe Hph Hb3 HcQR HcKVR HcPR
  isplitl [HcS1 HcS0]; · isplitl [HcS1] <;> iassumption
  iframe HkvR2 HqR HkvS2 HqS HQ HL2 HKk HD2

theorem part5 (c : Dev nD) (v19 v20 : BitVec 32) (Kt : (Σ' (v154 : BitVec 32), BitVec 32) → sProp 𝕄) :
    iprop(mid4 m K c ∗ (mid5 m K c -∗ ∀ w, Kt w))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 (SemArray.scalar (sig.barrier 0 rfl))) Kt := by
  simp only [k0_part5_eq_skeleton]; unfold k0_part5_skel
  simp only [semSignalWord, semWaitWord, Prog.lift, Prog.bind_op, Prog.bind_ret, Prog.pure_eq_ret]
  unfold mid4 Ow pers
  iintro ⟨⟨⟨#Hrec, #Hlev⟩, Hrest, ⟨%W, HO⟩, Hph, Hb3, HcQR, HcKVR, HcPR, ⟨HcS1, HcS0⟩, HkvR2, ⟨HqR0, HqR1, HqR2⟩, HkvS2, ⟨HqS0, HqS1, HqS2⟩, HQ, HL2, HKk, HD2⟩, Hk⟩
  iapply (wp_send_kv m K c 2 _ (k0_dev9_eq c _) _ _ (Mesh.cc0_scratch7_sem_2 _ _) (Mesh.cc0_scratch8_sem_own c _ _) _ (k0_off7_own c) _ _ (O9 c) rfl) $$ [HL2 HD2 HO HkvS2 HkvR2]
  · iframe Hrec HL2 HD2
    isplitl [HO]; · iexact HO
    iframe HkvS2 HkvR2
  iintro ⟨HcS2, HO⟩
  iapply (wp_bar3' m K c _ (by decide) (O := O9 c)) $$ [Hb3 HO Hph]
  · iframe Hrec Hb3
    isplitl [HO]; · iexact HO
    isplitr; · iapply (mayWait_bar3 c); iexact Hlev
    iexact Hph
  iintro ⟨HO, Hph, ⟨HE2, HR2⟩, ⟨HE1, HR1⟩, ⟨HE0, HR0⟩⟩
  ihave HQ' := (ptQ_share m c (zF c)).1 $$ HQ
  icases HQ' with ⟨HM0, HM1, HM2, HQk⟩
  iapply (wp_send_q m K c 0 _ (k0_dev10_eq c _) _ _ (Mesh.cc0_scratch5_sem_0 _ _) (Mesh.cc0_scratch6_sem_own c _ _) _ (k0_off9_own c) _ _ (O10 c) rfl) $$ [HM0 HE0 HO HqS0 HqR0]
  · iframe Hrec HM0 HE0
    isplitl [HO]; · iexact HO
    iframe HqS0 HqR0
  iintro ⟨HcQ0, HO⟩
  rw [wp_ret]; imodintro
  ihave Hk' := Hk $$ [Hrest HO Hph HcQR HcKVR HcPR HcS0 HcS1 HcS2 HcQ0 HqR1 HqR2 HqS1 HqS2 HM1 HM2 HQk HKk HE1 HE2 HR0 HR1 HR2]
  rotate_left
  · iapply Hk'
  unfold mid5 Ow pers
  isplitr; · isplitr <;> iassumption
  iframe Hrest
  isplitl [HO]; · iexists _; iexact HO
  iframe Hph HcQR HcKVR HcPR
  isplitl [HcS0 HcS1 HcS2]
  · isplitl [HcS0]; · iexact HcS0
    isplitl [HcS1] <;> iassumption
  iframe HcQ0
  isplitl [HqR1 HqR2]; · isplitl [HqR1] <;> iassumption
  isplitl [HqS1 HqS2]; · isplitl [HqS1] <;> iassumption
  iframe HM1 HM2 HQk HKk
  isplitl [HE1 HE2]; · isplitl [HE1] <;> iassumption
  isplitl [HR0]; · iexact HR0
  isplitl [HR1] <;> iassumption

theorem part6 (c : Dev nD) (v19 v20 v154 w4 : BitVec 32)
    (Kt : (Σ' (v181 : FVec F S256x128 .f32) (v182 : FVec F S256x128 .f32) (v183 : FVec F S256x128 .f32) (v184 : FVec F S256x128 .f32) (v187 : BitVec 32), BitVec 32) → sProp 𝕄) :
    iprop(mid5 m K c ∗ (I6 m K c -∗ ∀ w w', Kt ⟨k0_pay9 (F := F), k0_pay10 (F := F), k0_pay11 (F := F), k0_pay12 (F := F), w, w'⟩))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 v154 w4) Kt := by
  simp only [k0_part6_eq_skeleton]; unfold k0_part6_skel
  simp only [semSignalWord, semWaitWord, Prog.lift, Prog.bind_op, Prog.bind_ret, Prog.pure_eq_ret]
  unfold mid5 Ow pers restB
  iintro ⟨⟨⟨#Hrec, #Hlev⟩, ⟨Hat, HpR, HpS, HVP, HVZ, HPS, HPRz, Hstg, Hout⟩, ⟨%W, HO⟩, Hph, HcQR, HcKVR, HcPR, HcKVS, HcQ0, ⟨HqR1, HqR2⟩, ⟨HqS1, HqS2⟩, HM1, HM2, HQk, HKk, ⟨HE1, HE2⟩, HPRs⟩, Hk⟩
  iapply (wp_send_q m K c 1 _ (k0_dev11_eq c _) _ _ (Mesh.cc0_scratch5_sem_1 _ _) (Mesh.cc0_scratch6_sem_own c _ _) _ (k0_off9_own c) _ _ (O11 c) rfl) $$ [HM1 HE1 HO HqS1 HqR1]
  · iframe Hrec HM1 HE1
    isplitl [HO]; · iexact HO
    iframe HqS1 HqR1
  iintro ⟨HcQ1, HO⟩
  iapply (wp_send_q m K c 2 _ (k0_dev12_eq c _) _ _ (Mesh.cc0_scratch5_sem_2 _ _) (Mesh.cc0_scratch6_sem_own c _ _) _ (k0_off9_own c) _ _ (O12 c) rfl) $$ [HM2 HE2 HO HqS2 HqR2]
  · iframe Hrec HM2 HE2
    isplitl [HO]; · iexact HO
    iframe HqS2 HqR2
  iintro ⟨HcQ2, HO⟩
  rw [wp_ret]; imodintro
  ihave Hat0 := (Entails.of_eq (show (bigSep Finset.univ fun k : Fin 21 => (atPos ER (dmaCell c (sc k)) 0 ∅ 0 : sProp 𝕄)) = bigSep Finset.univ fun k : Fin 21 => at0 (F := F) c (sc k) from rfl)) $$ Hat
  ihave Hat1 := (cells_split c (at0 (F := F) c)) $$ Hat0
  ihave Hat' := (Entails.of_eq (atStart_eq (F := F) c).symm) $$ Hat1
  ihave Hk' := Hk $$ [Hat' HpR HpS HVP HVZ HPS HPRz Hstg Hout HO Hph HcQR HcKVR HcPR HcKVS HcQ0 HcQ1 HcQ2 HQk HKk HPRs]
  rotate_left
  · iapply Hk'
  unfold I6 Ow pers
  isplitr; · isplitr <;> iassumption
  isplitl [HO]; · iexists _; iexact HO
  iframe Hph Hat' HcQR HcKVR HcPR HcKVS
  isplitl [HcQ0 HcQ1 HcQ2]
  · isplitl [HcQ0]; · iexact HcQ0
    isplitl [HcQ1] <;> iassumption
  iframe HpR HpS HQk HKk HVP HVZ HPS HPRz HPRs
  isplitl [Hstg] <;> iassumption

end Cert.KernelIdeal.SegB

end
-- ==== Proof.SegCDefs.lean ====
import proofs.«900582_g7700000000000583_dist_ring_attn_i_s256_d64_v7x_i16_f32_1_alg».proof.Proof.BodyDefs

noncomputable section

namespace Cert.KernelIdeal.SegC
open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Fin 22 → ℕ)

def Fr (c : Dev nD) : sProp 𝕄 :=
  iprop(phTok ER (B (F := F) c) (barCell c) 2
    ∗ (T3 (fun j => at0 c (qSendSem j)) ∗ T3 (fun j => at0 c (kvSendSem j)) ∗ T3 (fun j => at0 c (pSendSem j))
        ∗ at0 c (qRecvSem (zF c)) ∗ at0 c (kvRecvSem (sF c)) ∗ at0 c (pRecvSem (zF c)) ∗ T3 (fun j => at0 c (pRecvSem (zP c j))))
    ∗ T3 (credPR c) ∗ T3 (credKVS c) ∗ T3 (credQS c) ∗ T3 (pRtok c) ∗ T3 (pStok c)
    ∗ ptQ m c (zF c) keep ∗ zeroVP (F := F) c (sP c 2)
    ∗ T3 (slotPS c) ∗ slotPR c (zF c) ∗ T3 (fun j => slotPR (cP c j) (zF c))
    ∗ stgIn m c ∗ ∃ X, stgOut c X)

def qPre (c : Dev nD) (j : Fin 3) : sProp 𝕄 := iprop(at0 c (qRecvSem (zP c j)) ∗ credQR c j)
def qPost (c : Dev nD) (j : Fin 3) : sProp 𝕄 := iprop(at1 c (qRecvSem (zP c j)) ∗ ptQ m c (zP c j) fullShare)
def kvPre (c : Dev nD) (j : Fin 3) : sProp 𝕄 := iprop(at0 c (kvRecvSem (sP c j)) ∗ credKVR c j)
def kvPost (c : Dev nD) (j : Fin 3) : sProp 𝕄 := iprop(at1 c (kvRecvSem (sP c j)) ∗ ptKV m c (sP c j) fullShare)

def St (c : Dev nD) (Q0 Q1 Q2 KV0 KV1 KV2 V0 V1 : sProp 𝕄) : sProp 𝕄 :=
  iprop(pers m K ∗ Ow c (O12 c) ∗ Fr m c ∗ ptKV m c (sF c) keep ∗ ptVP m c (sF c)
    ∗ Q0 ∗ Q1 ∗ Q2 ∗ KV0 ∗ KV1 ∗ KV2 ∗ V0 ∗ V1)

def mid6 (c : Dev nD) : sProp 𝕄 :=
  St m K c (qPre c 0) (qPre c 1) (qPre c 2) (kvPre c 0) (kvPre c 1) (kvPre c 2) (zeroVP (F := F) c (sP c 0)) (zeroVP (F := F) c (sP c 1))
def mid7 (c : Dev nD) : sProp 𝕄 :=
  St m K c (qPost m c 0) (qPre c 1) (qPre c 2) (kvPre c 0) (kvPre c 1) (kvPre c 2) (zeroVP (F := F) c (sP c 0)) (zeroVP (F := F) c (sP c 1))
def mid8 (c : Dev nD) : sProp 𝕄 :=
  St m K c (qPost m c 0) (qPost m c 1) (qPost m c 2) (kvPre c 0) (kvPre c 1) (kvPre c 2) (zeroVP (F := F) c (sP c 0)) (zeroVP (F := F) c (sP c 1))
def mid9 (c : Dev nD) : sProp 𝕄 :=
  St m K c (qPost m c 0) (qPost m c 1) (qPost m c 2) (kvPost m c 0) (kvPre c 1) (kvPre c 2) (zeroVP (F := F) c (sP c 0)) (zeroVP (F := F) c (sP c 1))
def mid10 (c : Dev nD) : sProp 𝕄 :=
  St m K c (qPost m c 0) (qPost m c 1) (qPost m c 2) (kvPost m c 0) (kvPre c 1) (kvPre c 2) (ptVP m c (sP c 0)) (zeroVP (F := F) c (sP c 1))
def mid11 (c : Dev nD) : sProp 𝕄 :=
  St m K c (qPost m c 0) (qPost m c 1) (qPost m c 2) (kvPost m c 0) (kvPost m c 1) (kvPre c 2) (ptVP m c (sP c 0)) (zeroVP (F := F) c (sP c 1))
def mid12 (c : Dev nD) : sProp 𝕄 :=
  St m K c (qPost m c 0) (qPost m c 1) (qPost m c 2) (kvPost m c 0) (kvPost m c 1) (kvPre c 2) (ptVP m c (sP c 0)) (ptVP m c (sP c 1))
def mid13 (c : Dev nD) : sProp 𝕄 :=
  St m K c (qPost m c 0) (qPost m c 1) (qPost m c 2) (kvPost m c 0) (kvPost m c 1) (kvPost m c 2) (ptVP m c (sP c 0)) (ptVP m c (sP c 1))

theorem I6_mid6 (c : Dev nD) : I6 m K c ⊢ mid6 m K c := by
  unfold I6 mid6 St Fr atStart qPre kvPre
  iintro ⟨Hp, HO, Hph, ⟨HqS, HkS, HpS, Hq0, Hk0, Hp0, ⟨Hq1, Hq2, Hq3⟩, ⟨Hk1, Hk2, Hk3⟩, HpR⟩, ⟨Hcq1, Hcq2, Hcq3⟩, ⟨Hck1, Hck2, Hck3⟩, HcPR, HcKS, HcQS, HpRt, HpSt,
    HQ, HKV, HVP, ⟨Hz1, Hz2, Hz3⟩, HPS, HPR, HPRs, Hin, Hout⟩
  iframe

theorem mid13_I13 (c : Dev nD) : mid13 m K c ⊢ I13 m K c := by
  unfold I13 mid13 St Fr atRecv qPost kvPost
  dsimp only [T3]
  iintro ⟨Hp, HO, ⟨Hph, ⟨HqS, HkS, HpS, Hq0, Hk0, Hp0, HpR⟩, HcPR, HcKS, HcQS, HpRt, HpSt, HQ, Hz3, HPS, HPR, HPRs, Hin, Hout⟩, HKV, HVP,
    ⟨Hq1, HQ1⟩, ⟨Hq2, HQ2⟩, ⟨Hq3, HQ3⟩, ⟨Hk1, HK1⟩, ⟨Hk2, HK2⟩, ⟨Hk3, HK3⟩, HV1, HV2⟩
  iframe

end Cert.KernelIdeal.SegC

end
-- ==== Proof.SegCSteps.lean ====
import proofs.«900582_g7700000000000583_dist_ring_attn_i_s256_d64_v7x_i16_f32_1_alg».proof.Proof.SegCDefs
import proofs.«900582_g7700000000000583_dist_ring_attn_i_s256_d64_v7x_i16_f32_1_alg».proof.Proof.Regions
import proofs.«900582_g7700000000000583_dist_ring_attn_i_s256_d64_v7x_i16_f32_1_alg».proof.Proof.Steps
import proofs.«900582_g7700000000000583_dist_ring_attn_i_s256_d64_v7x_i16_f32_1_alg».proof.Proof.RegVal

noncomputable section

namespace Cert.KernelIdeal.SegC
open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Fin 22 → ℕ)

theorem qsem_eq : ∀ (c : Dev nD) (r : Fin 3) (h : 7 + (c.val / 4 + r.val + 1) % 4 < 25),
    (dsem (7 + (c.val / 4 + r.val + 1) % 4) h : DmaSem sig) = qRecvSem (zP c r) := by decide

theorem kvsem_eq : ∀ (c : Dev nD) (r : Fin 3) (h : 14 + (c.val % 4 + r.val + 1) % 4 < 25),
    (dsem (14 + (c.val % 4 + r.val + 1) % 4) h : DmaSem sig) = kvRecvSem (sP c r) := by decide

theorem wt_q {α : Type} (c : Dev nD) (r : Fin 3)
    (hi : ∀ a, (k0_off10 c (BitVec.ofNat 32 (1 + r.val))) a + S1.size a ≤ S4.size a) (hs : S1.Squeezes S_)
    (h11 : ∀ a, (k0_off11 c (BitVec.ofNat 32 (1 + r.val))) a + S1x256x64.size a ≤ S4x256x64.size a)
    (hsrc : (qSlot (k0_off11 c (BitVec.ofNat 32 (1 + r.val))) h11).view.WordExact)
    (hdst : (qSlot (k0_off11 c (BitVec.ofNat 32 (1 + r.val))) h11).view.WordExact)
    (k : PUnit → Prog (TpuEff nD τ sig (Elt F) Λ₀ .tc) α) (Q : α → sProp 𝕄) :
    iprop(pers m K ∗ Ow c (O12 c) ∗ qPre c r)
      ⊢ iprop(((Ow c (O12 c) ∗ qPost m c r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((cc0_scratch6.slice (Rect.unit (s := S4) (k0_off10 c (BitVec.ofNat 32 (1 + r.val))) S1.size hi)).squeeze S_ hs).sem (qSlot (k0_off11 c (BitVec.ofNat 32 (1 + r.val))) h11) (qSlot (k0_off11 c (BitVec.ofNat 32 (1 + r.val))) h11) hsrc hdst) k) Q) := by
  rw [Mesh.cc0_scratch6_sem_wait c r hi hs, qsem_eq c r]
  unfold pers Ow qPre qPost credQR
  iintro ⟨⟨#Hrec, #Hlev⟩, ⟨%W, HO⟩, Hat, Hc⟩ Hk
  iapply (Steps.wp_wait_cell m K c (qRecvSem (zP c r)) (Steps.used_qRecv c _ (Steps.zP_ne c r)) (by show 4 ≤ 7 + _; omega)
      (src := qSlot (k0_off11 c (BitVec.ofNat 32 (1 + r.val))) h11) (dst := qSlot (k0_off11 c (BitVec.ofNat 32 (1 + r.val))) h11) (hsrc := hsrc) (hdst := hdst)
      NQ (Regions.qSlot_credit _ _) (Steps.amt_qRecv _) (O := O12 c) (W := W) (Q := Q) (k := k)) $$ [Hc HO Hat]
  · iframe Hrec Hc
    isplitl [HO]; · iexact HO
    isplitr; · iapply (Steps.mayWait_qRecv c (zP c r)); iexact Hlev
    iexact Hat
  iintro ⟨HO, Hat, Hp⟩
  iapply Hk
  isplitl [HO]; · iexists _; iexact HO
  iframe Hat
  iapply (Entails.of_eq (Steps.payD_qRecv m c (zP c r))) $$ Hp

theorem wt_kv {α : Type} (c : Dev nD) (r : Fin 3)
    (hi : ∀ a, (k0_off14 c (BitVec.ofNat 32 (1 + r.val))) a + S1.size a ≤ S4.size a) (hs : S1.Squeezes S_)
    (h15 : ∀ a, (k0_off15 c (BitVec.ofNat 32 (1 + r.val))) a + S1x2x256x64.size a ≤ S4x2x256x64.size a)
    (hsrc : (kvSlot (k0_off15 c (BitVec.ofNat 32 (1 + r.val))) h15).view.WordExact)
    (hdst : (kvSlot (k0_off15 c (BitVec.ofNat 32 (1 + r.val))) h15).view.WordExact)
    (k : PUnit → Prog (TpuEff nD τ sig (Elt F) Λ₀ .tc) α) (Q : α → sProp 𝕄) :
    iprop(pers m K ∗ Ow c (O12 c) ∗ kvPre c r)
      ⊢ iprop(((Ow c (O12 c) ∗ kvPost m c r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((cc0_scratch8.slice (Rect.unit (s := S4) (k0_off14 c (BitVec.ofNat 32 (1 + r.val))) S1.size hi)).squeeze S_ hs).sem (kvSlot (k0_off15 c (BitVec.ofNat 32 (1 + r.val))) h15) (kvSlot (k0_off15 c (BitVec.ofNat 32 (1 + r.val))) h15) hsrc hdst) k) Q) := by
  rw [Mesh.cc0_scratch8_sem_wait c r hi hs, kvsem_eq c r]
  unfold pers Ow kvPre kvPost credKVR
  iintro ⟨⟨#Hrec, #Hlev⟩, ⟨%W, HO⟩, Hat, Hc⟩ Hk
  iapply (Steps.wp_wait_cell m K c (kvRecvSem (sP c r)) (Steps.used_kvRecv c _ (Steps.sP_ne c r)) (by show 4 ≤ 14 + _; omega)
      (src := kvSlot (k0_off15 c (BitVec.ofNat 32 (1 + r.val))) h15) (dst := kvSlot (k0_off15 c (BitVec.ofNat 32 (1 + r.val))) h15) (hsrc := hsrc) (hdst := hdst)
      NKV (Regions.kvSlot_credit _ _) (Steps.amt_kvRecv _) (O := O12 c) (W := W) (Q := Q) (k := k)) $$ [Hc HO Hat]
  · iframe Hrec Hc
    isplitl [HO]; · iexact HO
    isplitr; · iapply (Steps.mayWait_kvRecv c (sP c r)); iexact Hlev
    iexact Hat
  iintro ⟨HO, Hat, Hp⟩
  iapply Hk
  isplitl [HO]; · iexists _; iexact HO
  iframe Hat
  iapply (Entails.of_eq (Steps.payD_kvRecv m c (sP c r))) $$ Hp

theorem ld_q {α : Type} (c : Dev nD) (j : Fin 3) (r : Fin 4) (hr : r = up j) (sh : PosShare TreeShare)
    (h : ∀ a, (k0_off12 c (BitVec.ofNat 32 r.val)) a + S1x256x64.size a ≤ S4x256x64.size a)
    (hl : (qB).view.LoadsAt (Rect.unit (s := S4x256x64) (k0_off12 c (BitVec.ofNat 32 r.val)) S1x256x64.size h).toLoadRect)
    (k : Vec F S1x256x64 .bf16 → Prog (TpuEff nD τ sig (Elt F) Λ₀ .tc) α) (Q : α → sProp 𝕄) :
    ptQ m c (zP c j) sh
      ⊢ iprop((ptQ m c (zP c j) sh -∗ wp frame (wpE (defs₀ (F := F)) 𝒱₀ (c : Thread nD τ) none) Set.univ (k (q m c r)) Q)
          -∗ wp frame (wpE (defs₀ (F := F)) 𝒱₀ (c : Thread nD τ) none) Set.univ (.op (.load qB (Rect.unit (s := S4x256x64) (k0_off12 c (BitVec.ofNat 32 r.val)) S1x256x64.size h).toLoadRect hl) k) Q) := by
  subst hr
  have e := wp_load (defs := defs₀ (F := F)) 𝒱₀ (c : Thread nD τ) none (Γ := .empty) Set.univ (Q := Q) (m := qB) (hl := hl) (k := k)
    (S := (qS (zP c j)).view.set) (q := sh) (f := GQ m c) (Regions.qB_load_off12 c (up j) h)
  rw [RegVal.readQ m c (up j) h] at e
  exact e

theorem ld_k0 {α : Type} (c : Dev nD) (sh : PosShare TreeShare)
    (h : ∀ a, (k0_off2 c) a + S1x1x256x64.size a ≤ S4x2x256x64.size a)
    (hl : (kvB).view.LoadsAt (Rect.unit (s := S4x2x256x64) (k0_off2 c) S1x1x256x64.size h).toLoadRect)
    (k : Vec F S1x1x256x64 .bf16 → Prog (TpuEff nD τ sig (Elt F) Λ₀ .tc) α) (Q : α → sProp 𝕄) :
    ptKV m c (sF c) sh
      ⊢ iprop((ptKV m c (sF c) sh -∗ wp frame (wpE (defs₀ (F := F)) 𝒱₀ (c : Thread nD τ) none) Set.univ (k (Contents.k m c 0)) Q)
          -∗ wp frame (wpE (defs₀ (F := F)) 𝒱₀ (c : Thread nD τ) none) Set.univ (.op (.load kvB (Rect.unit (s := S4x2x256x64) (k0_off2 c) S1x1x256x64.size h).toLoadRect hl) k) Q) := by
  skip
  have e := wp_load (defs := defs₀ (F := F)) 𝒱₀ (c : Thread nD τ) none (Γ := .empty) Set.univ (Q := Q) (m := kvB) (hl := hl) (k := k)
    (S := (kvS (sF c)).view.set) (q := sh) (f := GKV m c) (Regions.kvB_load_off2 c h)
  rw [RegVal.readK0 m c h] at e
  exact e

theorem ld_vp0 {α : Type} (c : Dev nD)
    (h : ∀ a, (k0_off13 c) a + S1x256x128.size a ≤ S4x256x128.size a)
    (hl : (vpB).view.LoadsAt (Rect.unit (s := S4x256x128) (k0_off13 c) S1x256x128.size h).toLoadRect)
    (k : Vec F S1x256x128 .bf16 → Prog (TpuEff nD τ sig (Elt F) Λ₀ .tc) α) (Q : α → sProp 𝕄) :
    ptVP m c (sF c)
      ⊢ iprop((ptVP m c (sF c) -∗ wp frame (wpE (defs₀ (F := F)) 𝒱₀ (c : Thread nD τ) none) Set.univ (k (vp m c 0)) Q)
          -∗ wp frame (wpE (defs₀ (F := F)) 𝒱₀ (c : Thread nD τ) none) Set.univ (.op (.load vpB (Rect.unit (s := S4x256x128) (k0_off13 c) S1x256x128.size h).toLoadRect hl) k) Q) := by
  skip
  have e := wp_load (defs := defs₀ (F := F)) 𝒱₀ (c : Thread nD τ) none (Γ := .empty) Set.univ (Q := Q) (m := vpB) (hl := hl) (k := k)
    (S := (vpS (sF c)).view.set) (q := fullShare) (f := GVP m c) (Regions.vpB_load_off13 c h)
  rw [RegVal.readVP0 m c h] at e
  exact e

theorem ld_tv {α : Type} (c : Dev nD) (j : Fin 3) (r : Fin 4) (hr : r = up j) (sh : PosShare TreeShare)
    (h : ∀ a, (k0_off16 c (BitVec.ofNat 32 (1 + j.val))) a + S1x1x256x64.size a ≤ S4x2x256x64.size a)
    (hl : (kvB).view.LoadsAt (Rect.unit (s := S4x2x256x64) (k0_off16 c (BitVec.ofNat 32 (1 + j.val))) S1x1x256x64.size h).toLoadRect)
    (k : Vec F S1x1x256x64 .bf16 → Prog (TpuEff nD τ sig (Elt F) Λ₀ .tc) α) (Q : α → sProp 𝕄) :
    ptKV m c (sP c j) sh
      ⊢ iprop((ptKV m c (sP c j) sh -∗ wp frame (wpE (defs₀ (F := F)) 𝒱₀ (c : Thread nD τ) none) Set.univ (k (TV m (planePeer c r))) Q)
          -∗ wp frame (wpE (defs₀ (F := F)) 𝒱₀ (c : Thread nD τ) none) Set.univ (.op (.load kvB (Rect.unit (s := S4x2x256x64) (k0_off16 c (BitVec.ofNat 32 (1 + j.val))) S1x1x256x64.size h).toLoadRect hl) k) Q) := by
  subst hr
  have e := wp_load (defs := defs₀ (F := F)) 𝒱₀ (c : Thread nD τ) none (Γ := .empty) Set.univ (Q := Q) (m := kvB) (hl := hl) (k := k)
    (S := (kvS (sP c j)).view.set) (q := sh) (f := GKV m c) (Regions.kvB_load_off16 c j h)
  rw [RegVal.readV m c j h] at e
  exact e

theorem ld_k {α : Type} (c : Dev nD) (j : Fin 3) (r : Fin 4) (hr : r = up j) (sh : PosShare TreeShare)
    (h : ∀ a, (k0_off19 c (BitVec.ofNat 32 r.val)) a + S1x1x256x64.size a ≤ S4x2x256x64.size a)
    (hl : (kvB).view.LoadsAt (Rect.unit (s := S4x2x256x64) (k0_off19 c (BitVec.ofNat 32 r.val)) S1x1x256x64.size h).toLoadRect)
    (k : Vec F S1x1x256x64 .bf16 → Prog (TpuEff nD τ sig (Elt F) Λ₀ .tc) α) (Q : α → sProp 𝕄) :
    ptKV m c (sP c j) sh
      ⊢ iprop((ptKV m c (sP c j) sh -∗ wp frame (wpE (defs₀ (F := F)) 𝒱₀ (c : Thread nD τ) none) Set.univ (k (Contents.k m c r)) Q)
          -∗ wp frame (wpE (defs₀ (F := F)) 𝒱₀ (c : Thread nD τ) none) Set.univ (.op (.load kvB (Rect.unit (s := S4x2x256x64) (k0_off19 c (BitVec.ofNat 32 r.val)) S1x1x256x64.size h).toLoadRect hl) k) Q) := by
  subst hr
  have e := wp_load (defs := defs₀ (F := F)) 𝒱₀ (c : Thread nD τ) none (Γ := .empty) Set.univ (Q := Q) (m := kvB) (hl := hl) (k := k)
    (S := (kvS (sP c j)).view.set) (q := sh) (f := GKV m c) (Regions.kvB_load_off19 c (up j) h)
  rw [RegVal.readK m c (up j) h] at e
  exact e

theorem ld_vp {α : Type} (c : Dev nD) (j : Fin 3) (r : Fin 4) (hr : r = up j)
    (h : ∀ a, (k0_off20 c (BitVec.ofNat 32 r.val)) a + S1x256x128.size a ≤ S4x256x128.size a)
    (hl : (vpB).view.LoadsAt (Rect.unit (s := S4x256x128) (k0_off20 c (BitVec.ofNat 32 r.val)) S1x256x128.size h).toLoadRect)
    (k : Vec F S1x256x128 .bf16 → Prog (TpuEff nD τ sig (Elt F) Λ₀ .tc) α) (Q : α → sProp 𝕄) :
    ptVP m c (sP c j)
      ⊢ iprop((ptVP m c (sP c j) -∗ wp frame (wpE (defs₀ (F := F)) 𝒱₀ (c : Thread nD τ) none) Set.univ (k (vp m c r)) Q)
          -∗ wp frame (wpE (defs₀ (F := F)) 𝒱₀ (c : Thread nD τ) none) Set.univ (.op (.load vpB (Rect.unit (s := S4x256x128) (k0_off20 c (BitVec.ofNat 32 r.val)) S1x256x128.size h).toLoadRect hl) k) Q) := by
  subst hr
  have e := wp_load (defs := defs₀ (F := F)) 𝒱₀ (c : Thread nD τ) none (Γ := .empty) Set.univ (Q := Q) (m := vpB) (hl := hl) (k := k)
    (S := (vpS (sP c j)).view.set) (q := fullShare) (f := GVP m c) (Regions.vpB_load_off20 c (up j) h)
  rw [RegVal.readVP m c (up j) h] at e
  exact e

theorem ld_d17 {α : Type} (c : Dev nD) (j : Fin 3) (f : Buf (Elt F) ((vpB).view.loc (c : Thread nD τ)))
    (h17 : ∀ a, (k0_off17 c (BitVec.ofNat 32 (1 + j.val))) a + S1x256x64.size a ≤ S4x256x128.size a)
    (hl : (vpB).view.LoadsAt (Rect.unit (s := S4x256x128) (k0_off17 c (BitVec.ofNat 32 (1 + j.val))) S1x256x64.size h17).toLoadRect)
    (k : Vec F S1x256x64 .bf16 → Prog (TpuEff nD τ sig (Elt F) Λ₀ .tc) α) (Q : α → sProp 𝕄) :
    ((vpB).view.loc (c : Thread nD τ) ↦[(vpS (sP c j)).view.set]{fullShare} f)
      ⊢ iprop((((vpB).view.loc (c : Thread nD τ) ↦[(vpS (sP c j)).view.set]{fullShare} f) -∗ wp frame (wpE (defs₀ (F := F)) 𝒱₀ (c : Thread nD τ) none) Set.univ (k ((vpB).view.readAt (Elt F) (Rect.unit (s := S4x256x128) (k0_off17 c (BitVec.ofNat 32 (1 + j.val))) S1x256x64.size h17).toLoadRect f)) Q)
          -∗ wp frame (wpE (defs₀ (F := F)) 𝒱₀ (c : Thread nD τ) none) Set.univ (.op (.load vpB (Rect.unit (s := S4x256x128) (k0_off17 c (BitVec.ofNat 32 (1 + j.val))) S1x256x64.size h17).toLoadRect hl) k) Q) :=
  wp_load (defs := defs₀ (F := F)) 𝒱₀ (c : Thread nD τ) none (Γ := .empty) Set.univ (Q := Q) (m := vpB) (hl := hl) (k := k)
    (S := (vpS (sP c j)).view.set) (q := fullShare) (f := f) (Regions.vpB_load_off17 c j h17)

theorem ld_d18 {α : Type} (c : Dev nD) (j : Fin 3) (f : Buf (Elt F) ((vpB).view.loc (c : Thread nD τ)))
    (h18 : ∀ a, (k0_off18 c (BitVec.ofNat 32 (1 + j.val))) a + S1x256x1.size a ≤ S4x256x128.size a)
    (hl : (vpB).view.LoadsAt (Rect.unit (s := S4x256x128) (k0_off18 c (BitVec.ofNat 32 (1 + j.val))) S1x256x1.size h18).toLoadRect)
    (k : Vec F S1x256x1 .bf16 → Prog (TpuEff nD τ sig (Elt F) Λ₀ .tc) α) (Q : α → sProp 𝕄) :
    ((vpB).view.loc (c : Thread nD τ) ↦[(vpS (sP c j)).view.set]{fullShare} f)
      ⊢ iprop((((vpB).view.loc (c : Thread nD τ) ↦[(vpS (sP c j)).view.set]{fullShare} f) -∗ wp frame (wpE (defs₀ (F := F)) 𝒱₀ (c : Thread nD τ) none) Set.univ (k ((vpB).view.readAt (Elt F) (Rect.unit (s := S4x256x128) (k0_off18 c (BitVec.ofNat 32 (1 + j.val))) S1x256x1.size h18).toLoadRect f)) Q)
          -∗ wp frame (wpE (defs₀ (F := F)) 𝒱₀ (c : Thread nD τ) none) Set.univ (.op (.load vpB (Rect.unit (s := S4x256x128) (k0_off18 c (BitVec.ofNat 32 (1 + j.val))) S1x256x1.size h18).toLoadRect hl) k) Q) :=
  wp_load (defs := defs₀ (F := F)) 𝒱₀ (c : Thread nD τ) none (Γ := .empty) Set.univ (Q := Q) (m := vpB) (hl := hl) (k := k)
    (S := (vpS (sP c j)).view.set) (q := fullShare) (f := f) (Regions.vpB_load_off18 c j h18)

theorem st17 {α : Type} (c : Dev nD) (j : Fin 3) (f : Buf (Elt F) ((vpB).view.loc (c : Thread nD τ))) (w : FVec F S1x256x64 .bf16)
    (h17 : ∀ a, (k0_off17 c (BitVec.ofNat 32 (1 + j.val))) a + S1x256x64.size a ≤ S4x256x128.size a)
    (hx : ((vpB).access (Rect.unit (s := S4x256x128) (k0_off17 c (BitVec.ofNat 32 (1 + j.val))) S1x256x64.size h17)).Stores Finset.univ) (hm : (Finset.univ : Finset (Rect.unit (s := S4x256x128) (k0_off17 c (BitVec.ofNat 32 (1 + j.val))) S1x256x64.size h17).shape.Idx) = Finset.univ ∨ ∀ a, (Rect.unit (s := S4x256x128) (k0_off17 c (BitVec.ofNat 32 (1 + j.val))) S1x256x64.size h17).stride a = 1)
    (k : PUnit → Prog (TpuEff nD τ sig (Elt F) Λ₀ .tc) α) (Q : α → sProp 𝕄) :
    ((vpB).view.loc (c : Thread nD τ) ↦[(vpS (sP c j)).view.set]{fullShare} f)
      ⊢ iprop((((vpB).view.loc (c : Thread nD τ) ↦[(vpS (sP c j)).view.set]{fullShare} (((vpB).access (Rect.unit (s := S4x256x128) (k0_off17 c (BitVec.ofNat 32 (1 + j.val))) S1x256x64.size h17)).write (Elt F) f w Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.store vpB (Rect.unit (s := S4x256x128) (k0_off17 c (BitVec.ofNat 32 (1 + j.val))) S1x256x64.size h17) w Finset.univ hx hm) k) Q) :=
  wp_store (defs := defs₀ (F := F)) 𝒱₀ (c : Thread nD τ) none (Γ := .empty) Set.univ (Q := Q) (m := vpB) (r := (Rect.unit (s := S4x256x128) (k0_off17 c (BitVec.ofNat 32 (1 + j.val))) S1x256x64.size h17)) (w := w) (Mk := Finset.univ)
    (hx := hx) (hm := hm) (k := k) (S := (vpS (sP c j)).view.set) (f := f) (Regions.vpB_store (Regions.vpB_load_off17 c j h17))

theorem st18 {α : Type} (c : Dev nD) (j : Fin 3) (f : Buf (Elt F) ((vpB).view.loc (c : Thread nD τ))) (w : FVec F S1x256x1 .bf16)
    (h18 : ∀ a, (k0_off18 c (BitVec.ofNat 32 (1 + j.val))) a + S1x256x1.size a ≤ S4x256x128.size a)
    (hx : ((vpB).access (Rect.unit (s := S4x256x128) (k0_off18 c (BitVec.ofNat 32 (1 + j.val))) S1x256x1.size h18)).Stores Finset.univ) (hm : (Finset.univ : Finset (Rect.unit (s := S4x256x128) (k0_off18 c (BitVec.ofNat 32 (1 + j.val))) S1x256x1.size h18).shape.Idx) = Finset.univ ∨ ∀ a, (Rect.unit (s := S4x256x128) (k0_off18 c (BitVec.ofNat 32 (1 + j.val))) S1x256x1.size h18).stride a = 1)
    (k : PUnit → Prog (TpuEff nD τ sig (Elt F) Λ₀ .tc) α) (Q : α → sProp 𝕄) :
    ((vpB).view.loc (c : Thread nD τ) ↦[(vpS (sP c j)).view.set]{fullShare} f)
      ⊢ iprop((((vpB).view.loc (c : Thread nD τ) ↦[(vpS (sP c j)).view.set]{fullShare} (((vpB).access (Rect.unit (s := S4x256x128) (k0_off18 c (BitVec.ofNat 32 (1 + j.val))) S1x256x1.size h18)).write (Elt F) f w Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.store vpB (Rect.unit (s := S4x256x128) (k0_off18 c (BitVec.ofNat 32 (1 + j.val))) S1x256x1.size h18) w Finset.univ hx hm) k) Q) :=
  wp_store (defs := defs₀ (F := F)) 𝒱₀ (c : Thread nD τ) none (Γ := .empty) Set.univ (Q := Q) (m := vpB) (r := (Rect.unit (s := S4x256x128) (k0_off18 c (BitVec.ofNat 32 (1 + j.val))) S1x256x1.size h18)) (w := w) (Mk := Finset.univ)
    (hx := hx) (hm := hm) (k := k) (S := (vpS (sP c j)).view.set) (f := f) (Regions.vpB_store (Regions.vpB_load_off18 c j h18))

theorem filled (c : Dev nD) (j : Fin 3) (r : Fin 4) (hr : r = up j)
    (h17 : ∀ a, (k0_off17 c (BitVec.ofNat 32 (1 + j.val))) a + S1x256x64.size a ≤ S4x256x128.size a)
    (h18 : ∀ a, (k0_off18 c (BitVec.ofNat 32 (1 + j.val))) a + S1x256x1.size a ≤ S4x256x128.size a)
    (w1 : FVec F S1x256x64 .bf16) (w2 : FVec F S1x256x1 .bf16)
    (hw1 : w1 = k0_pay7 (TV m (planePeer c r))) (hw2 : w2 = k0_pay8 (F := F)) :
    ((vpB).view.loc (c : Thread nD τ) ↦[(vpS (sP c j)).view.set]{fullShare} (((vpB).access (Rect.unit (s := S4x256x128) (k0_off18 c (BitVec.ofNat 32 (1 + j.val))) S1x256x1.size h18)).write (Elt F) (((vpB).access (Rect.unit (s := S4x256x128) (k0_off17 c (BitVec.ofNat 32 (1 + j.val))) S1x256x64.size h17)).write (Elt F) (VZ (F := F) c) w1 Finset.univ) w2 Finset.univ))
      ⊢ ptVP m c (sP c j) := by
  subst hr
  unfold ptVP
  exact Entails.of_eq (pointsTo_congr fun i hi =>
    RegVal.fillVP m c j h17 h18 (VZ (F := F) c) w1 w2 hw1 hw2 (fun i hi => RegVal.VZ_agree m c i hi) i ((Regions.mem_vpSl _ i).mp hi))

end Cert.KernelIdeal.SegC

end
-- ==== Proof.SegC.lean ====
import proofs.«900582_g7700000000000583_dist_ring_attn_i_s256_d64_v7x_i16_f32_1_alg».proof.Proof.SegCSteps

noncomputable section

namespace Cert.KernelIdeal.SegC
open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Fin 22 → ℕ)

theorem part7 (c : Dev nD) (v2 v19 v20 : BitVec 32) (v182 : FVec F S256x128 .f32) (v187 c4 : BitVec 32)
    (Kt : FVec F S256x128 .f32 → sProp 𝕄) :
    iprop(I6 m K c ∗ (mid7 m K c -∗ Kt (k0_pay13 v182 (q m c 1) (Contents.k m c 0) (vp m c 0))))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v2 v19 v20 v182 v187 c4) Kt := by
  simp only [k0_part7_eq_skeleton]; unfold k0_part7_skel
  simp only [Prog.lift, Prog.bind_op, Prog.bind_ret, Prog.pure_eq_ret]
  iintro ⟨HI, Hk⟩
  ihave HM := (I6_mid6 m K c) $$ HI
  unfold mid6 St
  icases HM with ⟨#Hp, HO, HF, Hkv, Hvp, HQ0, HQ1, HQ2, HK0, HK1, HK2, HV0, HV1⟩
  iapply (wt_q m K c 0 _ _ _ _ _ _ _) $$ [HO HQ0]
  · iframe Hp
    isplitl [HO]; · iexact HO
    iexact HQ0
  iintro ⟨HO, HQ0⟩
  unfold qPost
  icases HQ0 with ⟨Hat, Hq⟩
  iapply (ld_q m c 0 1 rfl fullShare _ _ _ _) $$ Hq; iintro Hq
  iapply (ld_k0 m c keep _ _ _ _) $$ Hkv; iintro Hkv
  iapply (ld_vp0 m c _ _ _ _) $$ Hvp; iintro Hvp
  rw [wp_ret]; imodintro
  iapply Hk
  unfold mid7 St qPost
  iframe
  iexact Hp

theorem part8 (c : Dev nD) (v2 v19 v20 : BitVec 32) (v183 : FVec F S256x128 .f32)
    (Kt : (Σ' (v240 : FVec F S256x128 .f32), BitVec 32) → sProp 𝕄) :
    iprop(mid7 m K c ∗ (mid8 m K c -∗ Kt ⟨k0_pay14 v183 (q m c 2) (Contents.k m c 0) (vp m c 0), 3#32⟩))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v2 v19 v20 v183) Kt := by
  simp only [k0_part8_eq_skeleton]; unfold k0_part8_skel
  simp only [Prog.lift, Prog.bind_op, Prog.bind_ret, Prog.pure_eq_ret]
  iintro ⟨HM, Hk⟩
  unfold mid7 St
  icases HM with ⟨#Hp, HO, HF, Hkv, Hvp, HQ0, HQ1, HQ2, HK0, HK1, HK2, HV0, HV1⟩
  iapply (wt_q m K c 1 _ _ _ _ _ _ _) $$ [HO HQ1]
  · iframe Hp
    isplitl [HO]; · iexact HO
    iexact HQ1
  iintro ⟨HO, HQ1⟩
  unfold qPost
  icases HQ1 with ⟨Hat1, Hq1⟩
  iapply (ld_q m c 1 2 rfl fullShare _ _ _ _) $$ Hq1; iintro Hq1
  iapply (ld_k0 m c keep _ _ _ _) $$ Hkv; iintro Hkv
  iapply (ld_vp0 m c _ _ _ _) $$ Hvp; iintro Hvp
  iapply (wt_q m K c 2 _ _ _ _ _ _ _) $$ [HO HQ2]
  · iframe Hp
    isplitl [HO]; · iexact HO
    iexact HQ2
  iintro ⟨HO, HQ2⟩
  rw [wp_ret]; imodintro
  iapply Hk
  unfold mid8 St qPost
  iframe
  iexact Hp

theorem part9 (c : Dev nD) (v2 v19 v20 : BitVec 32) (v184 : FVec F S256x128 .f32) (c3 : BitVec 32)
    (Kt : (Σ' (v268 : FVec F S256x128 .f32) (v270 : BitVec 32), FVec F S1x256x64 .bf16) → sProp 𝕄) :
    iprop(mid8 m K c ∗ (mid9 m K c -∗ Kt ⟨k0_pay15 v184 (q m c 3) (Contents.k m c 0) (vp m c 0), Scalar.remsi (Scalar.addi v20 1#32) 4#32,
        k0_pay16 (TV m (planePeer c 1))⟩))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v2 v19 v20 v184 c3) Kt := by
  simp only [k0_part9_eq_skeleton]; unfold k0_part9_skel
  simp only [Prog.lift, Prog.bind_op, Prog.bind_ret, Prog.pure_eq_ret]
  iintro ⟨HM, Hk⟩
  unfold mid8 St qPost
  icases HM with ⟨#Hp, HO, HF, Hkv, Hvp, HQ0, HQ1, ⟨Hat2, Hq2⟩, HK0, HK1, HK2, HV0, HV1⟩
  iapply (ld_q m c 2 3 rfl fullShare _ _ _ _) $$ Hq2; iintro Hq2
  iapply (ld_k0 m c keep _ _ _ _) $$ Hkv; iintro Hkv
  iapply (ld_vp0 m c _ _ _ _) $$ Hvp; iintro Hvp
  iapply (wt_kv m K c 0 _ _ _ _ _ _ _) $$ [HO HK0]
  · iframe Hp
    isplitl [HO]; · iexact HO
    iexact HK0
  iintro ⟨HO, HK0⟩
  unfold kvPost
  icases HK0 with ⟨Hatk, Hk0⟩
  iapply (ld_tv m c 0 1 rfl fullShare _ _ _ _) $$ Hk0; iintro Hk0
  unfold zeroVP
  iapply (ld_d17 c 0 (VZ (F := F) c) _ _ _ _) $$ HV0; iintro HV0
  rw [wp_ret]; imodintro
  iapply Hk
  unfold mid9 St qPost kvPost zeroVP
  iframe
  iexact Hp

theorem part10 (c : Dev nD) (v19 : BitVec 32) (v212 : FVec F S256x128 .f32) (v270 : BitVec 32)
    (Kt : (Σ' (v305 : FVec F S256x128 .f32) (v316 : FVec F S256x256 .bf16) (v319 : FVec F S256x128 .bf16), FVec F S256x128 .f32) → sProp 𝕄) :
    iprop(mid9 m K c ∗ (mid10 m K c -∗ Kt ⟨k0_pay18 v212 (q m c 1) (Contents.k m c 1) (vp m c 1), k0_pay19 (q m c 2) (Contents.k m c 1),
        k0_pay20 (vp m c 1), constant S256x128 .f32 0x00000000#32⟩))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 (k0_pay6 (F := F)) v212 v270 (k0_pay16 (TV m (planePeer c 1)))) Kt := by
  simp only [k0_part10_eq_skeleton]; unfold k0_part10_skel
  simp only [Prog.lift, Prog.bind_op, Prog.bind_ret, Prog.pure_eq_ret]
  iintro ⟨HM, Hk⟩
  unfold mid9 St qPost kvPost zeroVP
  icases HM with ⟨#Hp, HO, HF, Hkv, Hvp, ⟨Hat0, Hq0⟩, ⟨Hat1, Hq1⟩, HQ2, ⟨Hatk, Hk0⟩, HK1, HK2, HV0, HV1⟩
  iapply (st17 c 0 (VZ (F := F) c) _ _ _ _ _ _) $$ HV0; iintro HV0
  iapply (ld_d18 c 0 _ _ _ _ _) $$ HV0; iintro HV0
  iapply (st18 c 0 _ _ _ _ _ _ _) $$ HV0; iintro HV0
  ihave HV0 := (filled m c 0 1 rfl _ _ _ _ (RegVal.pay16_eq _) RegVal.pay17_eq) $$ HV0
  iapply (ld_q m c 0 1 rfl fullShare _ _ _ _) $$ Hq0; iintro Hq0
  iapply (ld_k m c 0 1 rfl fullShare _ _ _ _) $$ Hk0; iintro Hk0
  iapply (ld_vp m c 0 1 rfl _ _ _ _) $$ HV0; iintro HV0
  iapply (ld_q m c 1 2 rfl fullShare _ _ _ _) $$ Hq1; iintro Hq1
  iapply (ld_k m c 0 1 rfl fullShare _ _ _ _) $$ Hk0; iintro Hk0
  iapply (ld_vp m c 0 1 rfl _ _ _ _) $$ HV0; iintro HV0
  rw [wp_ret]; imodintro
  iapply Hk
  unfold mid10 St qPost kvPost zeroVP
  iframe
  iexact Hp

end Cert.KernelIdeal.SegC

end
-- ==== Proof.SegC2.lean ====
import proofs.«900582_g7700000000000583_dist_ring_attn_i_s256_d64_v7x_i16_f32_1_alg».proof.Proof.SegCSteps

noncomputable section

namespace Cert.KernelIdeal.SegC2
open Cert.KernelIdeal Cert.KernelIdeal.Gen Cert.KernelIdeal.Mesh Cert.KernelIdeal.Cells Cert.KernelIdeal.Contents Cert.KernelIdeal.Sched
open Cert.KernelIdeal.Ghost Cert.KernelIdeal.BodyDefs Cert.KernelIdeal.SegC
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Fin 22 → ℕ)

theorem part11 (c : Dev nD) (v2 v19 v20 : BitVec 32) (v240 v268 : FVec F S256x128 .f32) (v270 : BitVec 32)
    (v316 : FVec F S256x256 .bf16) (v319 : FVec F S256x128 .bf16) (cst_239 : FVec F S256x128 .f32)
    (Kt : (Σ' (v321 : FVec F S256x128 .f32) (v337 : FVec F S256x128 .f32) (v339 : BitVec 32), FVec F S256x64 .bf16) → sProp 𝕄) :
    iprop(mid10 m K c ∗ (mid11 m K c -∗ Kt ⟨k0_pay21 v240 v316 v319 cst_239, k0_pay22 v268 (q m c 3) (Contents.k m c 1) (vp m c 1),
        Scalar.remsi (Scalar.addi v20 2#32) 4#32, k0_pay23 (TV m (planePeer c 2))⟩))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v2 v19 v20 v240 v268 v270 v316 v319 cst_239) Kt := by
  simp only [k0_part11_eq_skeleton]; unfold k0_part11_skel
  simp only [Prog.lift, Prog.bind_op, Prog.bind_ret, Prog.pure_eq_ret]
  iintro ⟨HM, Hk⟩
  unfold mid10 St qPost kvPost
  icases HM with ⟨#Hp, HO, HF, Hkv, Hvp, HQ0, HQ1, ⟨Hat2, Hq2⟩, ⟨Hatk0, Hk0⟩, HK1, HK2, HV0, HV1⟩
  iapply (ld_q m c 2 3 rfl fullShare _ _ _ _) $$ Hq2; iintro Hq2
  iapply (ld_k m c 0 1 rfl fullShare _ _ _ _) $$ Hk0; iintro Hk0
  iapply (ld_vp m c 0 1 rfl _ _ _ _) $$ HV0; iintro HV0
  iapply (wt_kv m K c 1 _ _ _ _ _ _ _) $$ [HO HK1]
  · iframe Hp
    isplitl [HO]; · iexact HO
    iexact HK1
  iintro ⟨HO, HK1⟩
  unfold kvPost
  icases HK1 with ⟨Hatk1, Hk1⟩
  iapply (ld_tv m c 1 2 rfl fullShare _ _ _ _) $$ Hk1; iintro Hk1
  rw [wp_ret]; imodintro
  iapply Hk
  unfold mid11 St qPost kvPost
  iframe Hp
  iframe

theorem part12 (c : Dev nD) (v19 : BitVec 32) (v305 : FVec F S256x128 .f32) (v339 : BitVec 32)
    (Kt : (Σ' (v374 : FVec F S256x128 .f32), FVec F S256x256 .bf16) → sProp 𝕄) :
    iprop(mid11 m K c ∗ (mid12 m K c -∗ Kt ⟨k0_pay26 v305 (q m c 1) (Contents.k m c 2) (vp m c 2), k0_pay27 (q m c 2) (Contents.k m c 2)⟩))
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 (k0_pay6 (F := F)) v305 v339 (k0_pay23 (TV m (planePeer c 2)))) Kt := by
  simp only [k0_part12_eq_skeleton]; unfold k0_part12_skel
  simp only [Prog.lift, Prog.bind_op, Prog.bind_ret, Prog.pure_eq_ret]
  iintro ⟨HM, Hk⟩
  unfold mid11 St qPost kvPost zeroVP
  icases HM with ⟨#Hp, HO, HF, Hkv, Hvp, ⟨Hat0, Hq0⟩, ⟨Hat1, Hq1⟩, HQ2, HK0, ⟨Hatk1, Hk1⟩, HK2, HV0, HV1⟩
  iapply (ld_d17 c 1 _ _ _ _ _) $$ HV1; iintro HV1
  iapply (st17 c 1 _ _ _ _ _ _ _) $$ HV1; iintro HV1
  iapply (ld_d18 c 1 _ _ _ _ _) $$ HV1; iintro HV1
  iapply (st18 c 1 _ _ _ _ _ _ _) $$ HV1; iintro HV1
  ihave HV1 := (filled m c 1 2 rfl _ _ _ _ (RegVal.pay24_eq _) RegVal.pay25_eq) $$ HV1
  iapply (ld_q m c 0 1 rfl fullShare _ _ _ _) $$ Hq0; iintro Hq0
  iapply (ld_k m c 1 2 rfl fullShare _ _ _ _) $$ Hk1; iintro Hk1
  iapply (ld_vp m c 1 2 rfl _ _ _ _) $$ HV1; iintro HV1
  iapply (ld_q m c 1 2 rfl fullShare _ _ _ _) $$ Hq1; iintro Hq1
  iapply (ld_k m c 1 2 rfl fullShare _ _ _ _) $$ Hk1; iintro Hk1
  rw [wp_ret]; imodintro
  iapply Hk
  unfold mid12 St qPost kvPost
  iframe Hp
  iframe

theorem part13 (c : Dev nD) (v2 v19 v20 : BitVec 32) (v321 v337 : FVec F S256x128 .f32) (v339 : BitVec 32)
    (v385 : FVec F S256x256 .bf16)
    (Kt : (Σ' (v390 : FVec F S256x128 .f32) (v406 : FVec F S256x128 .f32) (v408 : BitVec 32), FVec F S256x64 .bf16) → sProp 𝕄) :
    iprop(mid12 m K c ∗ (I13 m K c -∗ Kt ⟨k0_pay28 v321 v385 (vp m c 2), k0_pay29 v337 (q m c 3) (Contents.k m c 2) (vp m c 2),
        Scalar.remsi (Scalar.addi v20 3#32) 4#32, k0_pay30 (TV m (planePeer c 3))⟩))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v2 v19 v20 v321 v337 v339 v385) Kt := by
  simp only [k0_part13_eq_skeleton]; unfold k0_part13_skel
  simp only [Prog.lift, Prog.bind_op, Prog.bind_ret, Prog.pure_eq_ret]
  iintro ⟨HM, Hk⟩
  unfold mid12 St qPost kvPost
  icases HM with ⟨#Hp, HO, HF, Hkv, Hvp, HQ0, HQ1, ⟨Hat2, Hq2⟩, HK0, ⟨Hatk1, Hk1⟩, HK2, HV0, HV1⟩
  iapply (ld_vp m c 1 2 rfl _ _ _ _) $$ HV1; iintro HV1
  iapply (ld_q m c 2 3 rfl fullShare _ _ _ _) $$ Hq2; iintro Hq2
  iapply (ld_k m c 1 2 rfl fullShare _ _ _ _) $$ Hk1; iintro Hk1
  iapply (ld_vp m c 1 2 rfl _ _ _ _) $$ HV1; iintro HV1
  iapply (wt_kv m K c 2 _ _ _ _ _ _ _) $$ [HO HK2]
  · iframe Hp
    isplitl [HO]; · iexact HO
    iexact HK2
  iintro ⟨HO, HK2⟩
  unfold kvPost
  icases HK2 with ⟨Hatk2, Hk2⟩
  iapply (ld_tv m c 2 3 rfl fullShare _ _ _ _) $$ Hk2; iintro Hk2
  rw [wp_ret]; imodintro
  iapply Hk
  iapply (mid13_I13 m K c)
  unfold mid13 St qPost kvPost
  iframe Hp
  iframe

end Cert.KernelIdeal.SegC2

end
-- ==== Proof.SegD.lean ====
import proofs.«900582_g7700000000000583_dist_ring_attn_i_s256_d64_v7x_i16_f32_1_alg».proof.Proof.Steps
import proofs.«900582_g7700000000000583_dist_ring_attn_i_s256_d64_v7x_i16_f32_1_alg».proof.Proof.RegVal
import proofs.«900582_g7700000000000583_dist_ring_attn_i_s256_d64_v7x_i16_f32_1_alg».proof.Proof.RegShare
import Idealize.ShloMosaic.Rules.PointsTo

noncomputable section

namespace Cert.KernelIdeal.SegD

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs Cert.KernelIdeal.Steps
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

def mid14 (c : Dev nD) : sProp 𝕄 :=
  iprop(pers m K ∗ Ow c (O12 c) ∗ phTok ER (B (F := F) c) (barCell c) 2
    ∗ atRecv c
    ∗ T3 (credPR c) ∗ T3 (credKVS c) ∗ T3 (credQS c)
    ∗ T3 (pRtok c) ∗ T3 (pStok c)
    ∗ ptQ m c (zF c) keep ∗ T3 (fun j => ptQ m c (zP c j) fullShare)
    ∗ ptKV m c (sF c) keep ∗ T3 (fun j => ptKV m c (sP c j) fullShare)
    ∗ ptVP m c (sF c) ∗ T3 (fun j => ptVP m c (sP c j))
    ∗ (ptPS m c 0 fullShare ∗ slotPS c 1 ∗ slotPS c 2)
    ∗ slotPR c (zF c) ∗ T3 (fun j => slotPR (cP c j) (zF c))
    ∗ stgIn m c ∗ ∃ X, stgOut c X)

def mid15 (c : Dev nD) : sProp 𝕄 :=
  iprop(pers m K ∗ Ow c (O13 c) ∗ phTok ER (B (F := F) c) (barCell c) 2
    ∗ atRecv c
    ∗ T3 (credPR c) ∗ T3 (credKVS c) ∗ T3 (credQS c) ∗ credPS c 0
    ∗ (pRtok c 1 ∗ pRtok c 2) ∗ (pStok c 1 ∗ pStok c 2)
    ∗ ptQ m c (zF c) keep ∗ T3 (fun j => ptQ m c (zP c j) fullShare)
    ∗ ptKV m c (sF c) keep ∗ T3 (fun j => ptKV m c (sP c j) fullShare)
    ∗ ptVP m c (sF c) ∗ T3 (fun j => ptVP m c (sP c j))
    ∗ (ptPS m c 1 fullShare ∗ slotPS c 2)
    ∗ slotPR c (zF c) ∗ (slotPR (cP c 1) (zF c) ∗ slotPR (cP c 2) (zF c))
    ∗ stgIn m c ∗ ∃ X, stgOut c X)

theorem fill14 (c : Dev nD) : ∀ i ∈ (vpS (sP c 2)).view.set,
    (((vpB).access (Rect.unit (s := S4x256x128) (k0_off18 c 3#32) S1x256x1.size (k0_off18_inb c 2))).write (Elt F)
      (((vpB).access (Rect.unit (s := S4x256x128) (k0_off17 c 3#32) S1x256x64.size (k0_off17_inb c 2))).write (Elt F) (VZ (F := F) c)
        (k0_pay31 (k0_pay30 (TV m (planePeer c (2 : Fin 3).succ)))) Finset.univ) (k0_pay32 (k0_pay6 (F := F))) Finset.univ) i = GVP m c i :=
  fun i hi => RegVal.fillVP m c 2 _ _ (VZ (F := F) c) _ _ (RegVal.pay31_eq _) RegVal.pay32_eq (RegVal.VZ_agree m c) i
    ((Regions.mem_vpSl _ i).1 hi)

theorem stored0 (c : Dev nD) (f : Buf (Elt F) ((psB).view.loc (c : Thread nD τ))) : ∀ i ∈ (psS 0).view.set,
    ((psB).access (Rect.unit (s := S3x256x128) ![0, 0, 0] S1x256x128.size inb_S3x256x128_S1x256x128_0_0_0)).write (Elt F) f
      (k0_pay33 (A1_2 m c) (q m c 1) (k m c 3) (vp m c 3)) Finset.univ i = GPS m c i :=
  fun i hi => RegVal.storePS m c 0 _ f _ (RegVal.P1_eq m c) i ((Regions.mem_psS 0 i).1 hi)
theorem stored1 (c : Dev nD) (f : Buf (Elt F) ((psB).view.loc (c : Thread nD τ))) : ∀ i ∈ (psS 1).view.set,
    ((psB).access (Rect.unit (s := S3x256x128) ![1, 0, 0] S1x256x128.size inb_S3x256x128_S1x256x128_1_0_0)).write (Elt F) f
      (k0_pay34 (A2_2 m c) (q m c 2) (k m c 3) (vp m c 3)) Finset.univ i = GPS m c i :=
  fun i hi => RegVal.storePS m c 1 _ f _ (RegVal.P2_eq m c) i ((Regions.mem_psS 1 i).1 hi)
theorem stored2 (c : Dev nD) (f : Buf (Elt F) ((psB).view.loc (c : Thread nD τ))) : ∀ i ∈ (psS 2).view.set,
    ((psB).access (Rect.unit (s := S3x256x128) ![2, 0, 0] S1x256x128.size inb_S3x256x128_S1x256x128_2_0_0)).write (Elt F) f
      (k0_pay35 (A3_2 m c) (q m c 3) (k m c 3) (vp m c 3)) Finset.univ i = GPS m c i :=
  fun i hi => RegVal.storePS m c 2 _ f _ (RegVal.P3_eq m c) i ((Regions.mem_psS 2 i).1 hi)

theorem part14 (c : Dev nD) (v19 v20 : BitVec 32) (v48 : FVec F S256x1 .bf16) (v374 : FVec F S256x128 .f32) (v408 : BitVec 32)
    (v419 : FVec F S256x64 .bf16)
    (h48 : v48 = k0_pay6 (F := F)) (h374 : v374 = A1_2 m c) (h419 : v419 = k0_pay30 (TV m (planePeer c (2 : Fin 3).succ)))
    (Kt : BitVec 32 → sProp 𝕄) :
    iprop(I13 m K c ∗ (mid14 m K c -∗ Kt (Scalar.muli (Scalar.addi (Scalar.muli (Scalar.remsi (Scalar.addi v19 1#32) 4#32) 4#32) v20) 1#32)))
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 v48 v374 v408 v419) Kt := by
  subst h48 h374 h419
  simp only [k0_part14_eq_skeleton]; unfold k0_part14_skel
  simp only [Prog.lift, Prog.bind_op, Prog.bind_ret, Prog.pure_eq_ret]
  unfold I13
  iintro ⟨⟨#Hp, HO, Hph, Hat, HcPR, HcKVS, HcQS, HtR, HtS, HQ, ⟨HQa, HQb, HQc⟩, HKV, ⟨HKVa, HKVb, HKVc⟩, HVP, HVPa, HVPb, HVZ, ⟨HPSa, HPSb, HPSc⟩, HPR, HPR3, Hstg, Hout⟩, Hk⟩
  unfold zeroVP ptQ ptKV ptVP slotPS
  icases HPSa with ⟨%f0, HPSa⟩

  iapply (wp_load 𝒱₀ (c : Thread nD τ) none Set.univ (m := vpB) (S := (vpS (sP c 2)).view.set) (q := fullShare) (f := VZ (F := F) c) (Regions.vpB_load_off17 c 2 _)) $$ HVZ; iintro HVZ
  iapply (wp_store 𝒱₀ (c : Thread nD τ) none Set.univ (m := vpB) (r := (Rect.unit (s := S4x256x128) (k0_off17 c 3#32) S1x256x64.size (k0_off17_inb c 2))) (S := (vpS (sP c 2)).view.set)
    (Regions.vpB_store (Regions.vpB_load_off17 c 2 _))) $$ HVZ; iintro HVZ
  iapply (wp_load 𝒱₀ (c : Thread nD τ) none Set.univ (m := vpB) (S := (vpS (sP c 2)).view.set) (q := fullShare) (Regions.vpB_load_off18 c 2 _)) $$ HVZ; iintro HVZ
  iapply (wp_store 𝒱₀ (c : Thread nD τ) none Set.univ (m := vpB) (r := (Rect.unit (s := S4x256x128) (k0_off18 c 3#32) S1x256x1.size (k0_off18_inb c 2))) (S := (vpS (sP c 2)).view.set)
    (Regions.vpB_store (Regions.vpB_load_off18 c 2 _))) $$ HVZ; iintro HVZ
  ihave HVZ := (Entails.of_eq (pointsTo_congr (fill14 m c))) $$ HVZ

  iapply (wp_load 𝒱₀ (c : Thread nD τ) none Set.univ (m := qB) (S := (qS (zP c 0)).view.set) (q := fullShare) (f := GQ m c) (Regions.qB_load_off12 c 1 _)) $$ HQa; iintro HQa
  rw [RegVal.readQ m c 1 _]
  iapply (wp_load 𝒱₀ (c : Thread nD τ) none Set.univ (m := kvB) (S := (kvS (sP c 2)).view.set) (q := fullShare) (f := GKV m c) (Regions.kvB_load_off19 c 3 _)) $$ HKVc; iintro HKVc
  rw [RegVal.readK m c 3 _]
  iapply (wp_load 𝒱₀ (c : Thread nD τ) none Set.univ (m := vpB) (S := (vpS (sP c 2)).view.set) (q := fullShare) (f := GVP m c) (Regions.vpB_load_off20 c 3 _)) $$ HVZ; iintro HVZ
  rw [RegVal.readVP m c 3 _]

  iapply (wp_load 𝒱₀ (c : Thread nD τ) none Set.univ (m := psB) (S := (psS 0).view.set) (q := fullShare) (f := f0) (Regions.psB_load_lit0 _)) $$ HPSa; iintro HPSa
  iapply (wp_store 𝒱₀ (c : Thread nD τ) none Set.univ (m := psB) (r := (Rect.unit (s := S3x256x128) ![0, 0, 0] S1x256x128.size inb_S3x256x128_S1x256x128_0_0_0)) (S := (psS 0).view.set)
    (Regions.psB_store (Regions.psB_load_lit0 _))) $$ HPSa; iintro HPSa
  ihave HPSa := (Entails.of_eq (pointsTo_congr (stored0 m c f0))) $$ HPSa
  rw [wp_ret]; imodintro
  iapply Hk
  unfold mid14 ptQ ptKV ptVP ptPS slotPS
  simp only [T3]
  iframe
  iexact Hp

theorem h4_pRecv (i : Fin 4) : 4 ≤ (pRecvSem i).val := by show 4 ≤ 21 + i.val; omega
theorem h4_pSend (j : Fin 3) : 4 ≤ (pSendSem j).val := by show 4 ≤ 18 + j.val; omega
theorem sem_ps0 : ((cc0_scratch9.slice (Rect.unit (s := S3) ![0] S1.size inb_S3_S1_0)).squeeze S_ squeezes_S1_S_).sem = pSendSem 0 :=
  Mesh.cc0_scratch9_sem_0 _ _
theorem sem_ps1 : ((cc0_scratch9.slice (Rect.unit (s := S3) ![1] S1.size inb_S3_S1_1)).squeeze S_ squeezes_S1_S_).sem = pSendSem 1 :=
  Mesh.cc0_scratch9_sem_1 _ _
theorem sem_pr_own (c : Dev nD) : ((cc0_scratch10.slice (Rect.unit (s := S4) (k0_off8 c) S1.size (k0_off8_inb c))).squeeze S_ squeezes_S1_S_).sem = pRecvSem (zF c) :=
  Mesh.cc0_scratch10_sem_own c _ _

theorem ow_intro (c : Dev nD) (O : CellTallies nD τ sig Unit) (W : Waits sig Unit) : (owes (c : Thread nD τ) O W : sProp 𝕄) ⊢ Ow c O := by
  unfold Ow; iintro H; iexists W; iexact H

theorem send_ps (c n : Dev nD) (j : Fin 3) (hn : n = cP c j)
    {hsc : (prS (zF c) : Memref sig (Dev.tc n : Thread nD τ).2.kind .vmem S256x128 .bf16).view.ref.isScScratch = false}
    {hsrc : (psS j : Memref sig .tc .vmem S256x128 .bf16).view.WordExact} {hdst : (prS (zF c) : Memref sig .tc .vmem S256x128 .bf16).view.WordExact}
    {hsem : DmaTarget.Typed .vmem (.dma (pRecvSem (zF c))) (.remote (Dev.tc n : Thread nD τ) (prS (zF c) : Memref sig .tc .vmem S256x128 .bf16) (.dma (pSendSem j)) hsc)}
    {α : Type} {Q : α → sProp 𝕄} {k : PUnit → Prog (TpuEff nD τ sig (Elt F) Λ₀ .tc) α}
    (O₀ O : CellTallies nD τ sig Unit) (hO : O₀ = O + tD (cP c j) (pRecvSem (zF c)) NP)
    (fd : Buf (Elt F) ((prS (zF c)).view.loc ((cP c j : Dev nD) : Thread nD τ))) (W : Waits sig Unit) :
    iprop(records m K ∗ ptPS m c j fullShare ∗ ((prB).view.loc ((cP c j : Dev nD) : Thread nD τ) ↦[(prS (zF c)).view.set]{fullShare} fd)
        ∗ owes (c : Thread nD τ) O₀ W ∗ pStok c j ∗ pRtok c j)
      ⊢ iprop(((credPS c j ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (psS j) (.remote (Dev.tc n : Thread nD τ) (prS (zF c)) (.dma (pSendSem j)) hsc) (.dma (pRecvSem (zF c))) hsrc hdst hsem) k) Q) := by
  subst hn
  unfold ptPS pStok pRtok credPS
  exact wp_send_cell m K c (cP c j) (cP c j) rfl (pSendSem j) (pRecvSem (zF c)) (used_pSend c j) (used_pRecv (cP c j) (zF c) (zF_ne_zP c j)) (h4_pSend j) (h4_pRecv _)
    (src := psS j) (dst := prS (zF c)) (q := fullShare) (fs := GPS m c) (fd := fd)
    NP rfl (amt_pSend j) (amt_pRecv _) O hO (W := W)
    (by rw [payD_pSend]; unfold ptPS; exact BI.Entails.refl _)
    (by rw [payD_pRecv]; exact Regions.land_p m c j fd)

theorem part15 (c : Dev nD) (v19 v20 : BitVec 32) (v390 : FVec F S256x128 .f32) (v408 v452 : BitVec 32)
    (h390 : v390 = A2_2 m c)
    (Kt : (Σ' (v485 : BitVec 32), BitVec 32) → sProp 𝕄) :
    iprop(mid14 m K c ∗ (mid15 m K c -∗ Kt ⟨Scalar.addi (Scalar.muli (Scalar.remsi (Scalar.addi v19 2#32) 4#32) 4#32) v20, 1#32⟩))
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 v390 v408 v452) Kt := by
  subst h390
  simp only [k0_part15_eq_skeleton]; unfold k0_part15_skel
  simp only [Prog.lift, Prog.bind_op, Prog.bind_ret, Prog.pure_eq_ret]
  simp only [sem_ps0, sem_pr_own c, Regions.prSlot_own c]
  unfold mid14
  iintro ⟨⟨#Hp, HO, Hph, Hat, HcPR, HcKVS, HcQS, ⟨HtRa, HtRb, HtRc⟩, ⟨HtSa, HtSb, HtSc⟩, HQ, ⟨HQa, HQb, HQc⟩, HKV, ⟨HKVa, HKVb, HKVc⟩, HVP, ⟨HVPa, HVPb, HVPc⟩, ⟨HPSa, HPSb, HPSc⟩, HPR, ⟨HPRa, HPRb, HPRc⟩, Hstg, Hout⟩, Hk⟩
  unfold pers; icases Hp with ⟨#Hrec, #Hlev⟩
  unfold Ow; icases HO with ⟨%W, HO⟩
  unfold slotPR; icases HPRa with ⟨%fd, HPRa⟩

  iapply (send_ps m K c _ 0 (Mesh.k0_dev13_eq c _) (O12 c) (O13 c) rfl fd W) $$ [HPSa HPRa HO HtSa HtRa]
  · iframe Hrec HPSa HPRa
    isplitl [HO]; · iexact HO
    iframe HtSa HtRa
  iintro ⟨HcPS0, HO⟩

  unfold ptQ ptKV ptVP slotPS
  icases HPSb with ⟨%f1, HPSb⟩
  iapply (wp_load 𝒱₀ (c : Thread nD τ) none Set.univ (m := qB) (S := (qS (zP c 1)).view.set) (q := fullShare) (f := GQ m c) (Regions.qB_load_off12 c 2 _)) $$ HQb; iintro HQb
  rw [RegVal.readQ m c 2 _]
  iapply (wp_load 𝒱₀ (c : Thread nD τ) none Set.univ (m := kvB) (S := (kvS (sP c 2)).view.set) (q := fullShare) (f := GKV m c) (Regions.kvB_load_off19 c 3 _)) $$ HKVc; iintro HKVc
  rw [RegVal.readK m c 3 _]
  iapply (wp_load 𝒱₀ (c : Thread nD τ) none Set.univ (m := vpB) (S := (vpS (sP c 2)).view.set) (q := fullShare) (f := GVP m c) (Regions.vpB_load_off20 c 3 _)) $$ HVPc; iintro HVPc
  rw [RegVal.readVP m c 3 _]

  iapply (wp_load 𝒱₀ (c : Thread nD τ) none Set.univ (m := psB) (S := (psS 1).view.set) (q := fullShare) (f := f1) (Regions.psB_load_lit1 _)) $$ HPSb; iintro HPSb
  iapply (wp_store 𝒱₀ (c : Thread nD τ) none Set.univ (m := psB) (r := (Rect.unit (s := S3x256x128) ![1, 0, 0] S1x256x128.size inb_S3x256x128_S1x256x128_1_0_0)) (S := (psS 1).view.set)
    (Regions.psB_store (Regions.psB_load_lit1 _))) $$ HPSb; iintro HPSb
  ihave HPSb := (Entails.of_eq (pointsTo_congr (stored1 m c f1))) $$ HPSb
  rw [wp_ret]; imodintro
  ihave HOw := (ow_intro c (O13 c) W) $$ HO
  iapply Hk
  unfold mid15 pers slotPR ptQ ptKV ptVP ptPS slotPS
  simp only [T3]
  iframe
  iframe Hrec Hlev

theorem part16 (c : Dev nD) (v19 v20 : BitVec 32) (v406 : FVec F S256x128 .f32) (v408 v485 c1_i32_364 : BitVec 32)
    (h406 : v406 = A3_2 m c)
    (Kt : BitVec 32 → sProp 𝕄) :
    iprop(mid15 m K c ∗ (I16 m K c -∗ Kt (Scalar.addi (Scalar.muli (Scalar.remsi (Scalar.addi v19 3#32) 4#32) 4#32) v20)))
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 v406 v408 v485 c1_i32_364) Kt := by
  subst h406
  simp only [k0_part16_eq_skeleton]; unfold k0_part16_skel
  simp only [Prog.lift, Prog.bind_op, Prog.bind_ret, Prog.pure_eq_ret]
  simp only [sem_ps1, sem_pr_own c, Regions.prSlot_own c]
  unfold mid15
  iintro ⟨⟨#Hp, HO, Hph, Hat, HcPR, HcKVS, HcQS, HcPS0, ⟨HtRb, HtRc⟩, ⟨HtSb, HtSc⟩, HQ, ⟨HQa, HQb, HQc⟩, HKV, ⟨HKVa, HKVb, HKVc⟩, HVP, ⟨HVPa, HVPb, HVPc⟩, ⟨HPSb, HPSc⟩, HPR, ⟨HPRb, HPRc⟩, Hstg, Hout⟩, Hk⟩
  unfold pers; icases Hp with ⟨#Hrec, #Hlev⟩
  unfold Ow; icases HO with ⟨%W, HO⟩
  unfold slotPR; icases HPRb with ⟨%fd, HPRb⟩

  iapply (send_ps m K c _ 1 (Mesh.k0_dev14_eq c _) (O13 c) (O14 c) rfl fd W) $$ [HPSb HPRb HO HtSb HtRb]
  · iframe Hrec HPSb HPRb
    isplitl [HO]; · iexact HO
    iframe HtSb HtRb
  iintro ⟨HcPS1, HO⟩

  unfold ptQ ptKV ptVP slotPS
  icases HPSc with ⟨%f2, HPSc⟩
  iapply (wp_load 𝒱₀ (c : Thread nD τ) none Set.univ (m := qB) (S := (qS (zP c 2)).view.set) (q := fullShare) (f := GQ m c) (Regions.qB_load_off12 c 3 _)) $$ HQc; iintro HQc
  rw [RegVal.readQ m c 3 _]
  iapply (wp_load 𝒱₀ (c : Thread nD τ) none Set.univ (m := kvB) (S := (kvS (sP c 2)).view.set) (q := fullShare) (f := GKV m c) (Regions.kvB_load_off19 c 3 _)) $$ HKVc; iintro HKVc
  rw [RegVal.readK m c 3 _]
  iapply (wp_load 𝒱₀ (c : Thread nD τ) none Set.univ (m := vpB) (S := (vpS (sP c 2)).view.set) (q := fullShare) (f := GVP m c) (Regions.vpB_load_off20 c 3 _)) $$ HVPc; iintro HVPc
  rw [RegVal.readVP m c 3 _]

  iapply (wp_load 𝒱₀ (c : Thread nD τ) none Set.univ (m := psB) (S := (psS 2).view.set) (q := fullShare) (f := f2) (Regions.psB_load_lit2 _)) $$ HPSc; iintro HPSc
  iapply (wp_store 𝒱₀ (c : Thread nD τ) none Set.univ (m := psB) (r := (Rect.unit (s := S3x256x128) ![2, 0, 0] S1x256x128.size inb_S3x256x128_S1x256x128_2_0_0)) (S := (psS 2).view.set)
    (Regions.psB_store (Regions.psB_load_lit2 _))) $$ HPSc; iintro HPSc
  ihave HPSc := (Entails.of_eq (pointsTo_congr (stored2 m c f2))) $$ HPSc
  rw [wp_ret]; imodintro
  ihave HOw := (ow_intro c (O14 c) W) $$ HO
  iapply Hk
  unfold I16 pers slotPR ptQ ptKV ptVP ptPS
  simp only [T3]
  iframe
  iframe Hrec Hlev

end Cert.KernelIdeal.SegD
end
-- ==== Proof.SegH.lean ====
import proofs.«900582_g7700000000000583_dist_ring_attn_i_s256_d64_v7x_i16_f32_1_alg».proof.Proof.Steps
import proofs.«900582_g7700000000000583_dist_ring_attn_i_s256_d64_v7x_i16_f32_1_alg».proof.Proof.RegVal
import proofs.«900582_g7700000000000583_dist_ring_attn_i_s256_d64_v7x_i16_f32_1_alg».proof.Proof.RegShare
import Idealize.ShloMosaic.Rules.PointsTo

noncomputable section

namespace Cert.KernelIdeal.SegH

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs Cert.KernelIdeal.Steps
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

def Mid (c : Dev nD) : sProp 𝕄 :=
  iprop(pers m K ∗ Ow c (O15) ∗ phTok ER (B (F := F) c) (barCell c) 2
    ∗ atRecv c
    ∗ T3 (credPR c) ∗ T3 (credKVS c) ∗ T3 (credQS c) ∗ T3 (credPS c)
    ∗ ptQ m c (zF c) keep ∗ T3 (fun j => ptQ m c (zP c j) fullShare)
    ∗ ptKV m c (sF c) keep ∗ T3 (fun j => ptKV m c (sP c j) fullShare)
    ∗ ptVP m c (sF c) ∗ T3 (fun j => ptVP m c (sP c j))
    ∗ slotPR c (zF c)
    ∗ stgIn m c ∗ ∃ X, stgOut c X)

def at19 (c : Dev nD) : sProp 𝕄 :=
  iprop(T3 (fun j => at0 c (qSendSem j)) ∗ T3 (fun j => at0 c (kvSendSem j)) ∗ T3 (fun j => at0 c (pSendSem j))
    ∗ at0 c (qRecvSem (zF c)) ∗ at0 c (kvRecvSem (sF c)) ∗ at0 c (pRecvSem (zF c))
    ∗ T3 (fun j => at1 c (qRecvSem (zP c j))) ∗ T3 (fun j => at1 c (kvRecvSem (sP c j)))
    ∗ (at1 c (pRecvSem (zP c 0)) ∗ at0 c (pRecvSem (zP c 1)) ∗ at0 c (pRecvSem (zP c 2))))

def Mid19 (c : Dev nD) : sProp 𝕄 :=
  iprop(pers m K ∗ Ow c (O15) ∗ phTok ER (B (F := F) c) (barCell c) 2
    ∗ at19 c
    ∗ (credPR c 1 ∗ credPR c 2) ∗ T3 (credKVS c) ∗ T3 (credQS c) ∗ T3 (credPS c)
    ∗ ptQ m c (zF c) keep ∗ T3 (fun j => ptQ m c (zP c j) fullShare)
    ∗ ptKV m c (sF c) keep ∗ T3 (fun j => ptKV m c (sP c j) fullShare)
    ∗ ptVP m c (sF c) ∗ T3 (fun j => ptVP m c (sP c j))
    ∗ slotPR c (zF c) ∗ ptPR m c (zP c 0) fullShare
    ∗ stgIn m c ∗ ∃ X, stgOut c X)

theorem inQ0 (c : Dev nD) : (qB).view.setOn (Rect.unit (s := S4x256x64) (k0_off12 c 0#32) S1x256x64.size (k0_off12_inb c 0)).toLoadRect.set ⊆ (qS (zF c)).view.set :=
  Regions.qB_load_off12_own c _
theorem rdQ0 (c : Dev nD) : (qB).view.readAt (Elt F) (Rect.unit (s := S4x256x64) (k0_off12 c 0#32) S1x256x64.size (k0_off12_inb c 0)).toLoadRect (GQ m c) = q m c 0 :=
  RegVal.readQ m c 0 _

theorem inK0 (c : Dev nD) : (kvB).view.setOn (Rect.unit (s := S4x2x256x64) (k0_off19 c 0#32) S1x1x256x64.size (k0_off19_inb c 0)).toLoadRect.set ⊆ (kvS (sF c)).view.set :=
  Regions.kvB_load_off19_own c _
theorem rdK0 (c : Dev nD) : (kvB).view.readAt (Elt F) (Rect.unit (s := S4x2x256x64) (k0_off19 c 0#32) S1x1x256x64.size (k0_off19_inb c 0)).toLoadRect (GKV m c) = k m c 0 :=
  RegVal.readK m c 0 _
theorem inV0 (c : Dev nD) : (vpB).view.setOn (Rect.unit (s := S4x256x128) (k0_off20 c 0#32) S1x256x128.size (k0_off20_inb c 0)).toLoadRect.set ⊆ (vpS (sF c)).view.set :=
  Regions.vpB_load_off20_own c _
theorem rdV0 (c : Dev nD) : (vpB).view.readAt (Elt F) (Rect.unit (s := S4x256x128) (k0_off20 c 0#32) S1x256x128.size (k0_off20_inb c 0)).toLoadRect (GVP m c) = vp m c 0 :=
  RegVal.readVP m c 0 _
theorem inR1 (c : Dev nD) : (prB).view.setOn (Rect.unit (s := S4x256x128) (k0_off23 c 1#32) S1x256x128.size (k0_off23_inb c 0)).toLoadRect.set ⊆ (prS (zP c 0)).view.set :=
  Regions.prB_load_off23 c 0 _
theorem inR2 (c : Dev nD) : (prB).view.setOn (Rect.unit (s := S4x256x128) (k0_off23 c 2#32) S1x256x128.size (k0_off23_inb c 1)).toLoadRect.set ⊆ (prS (zP c 1)).view.set :=
  Regions.prB_load_off23 c 1 _
theorem inR3 (c : Dev nD) : (prB).view.setOn (Rect.unit (s := S4x256x128) (k0_off23 c 3#32) S1x256x128.size (k0_off23_inb c 2)).toLoadRect.set ⊆ (prS (zP c 2)).view.set :=
  Regions.prB_load_off23 c 2 _
theorem rdR1 (c : Dev nD) : (prB).view.readAt (Elt F) (Rect.unit (s := S4x256x128) (k0_off23 c 1#32) S1x256x128.size (k0_off23_inb c 0)).toLoadRect (GPR m c) = R1 m c :=
  RegVal.readPR1 m c _
theorem rdR2 (c : Dev nD) : (prB).view.readAt (Elt F) (Rect.unit (s := S4x256x128) (k0_off23 c 2#32) S1x256x128.size (k0_off23_inb c 1)).toLoadRect (GPR m c) = R2 m c :=
  RegVal.readPR2 m c _
theorem rdR3 (c : Dev nD) : (prB).view.readAt (Elt F) (Rect.unit (s := S4x256x128) (k0_off23 c 3#32) S1x256x128.size (k0_off23_inb c 2)).toLoadRect (GPR m c) = R3 m c :=
  RegVal.readPR3 m c _

theorem h4_pRecv (i : Fin 4) : 4 ≤ (pRecvSem i).val := by show 4 ≤ 21 + i.val; omega
theorem h4_pSend (j : Fin 3) : 4 ≤ (pSendSem j).val := by show 4 ≤ 18 + j.val; omega
theorem h4_kvSend (j : Fin 3) : 4 ≤ (kvSendSem j).val := by show 4 ≤ 11 + j.val; omega

theorem dsem_pr : ∀ (c : Dev nD) (j : Fin 3), dsem (21 + (c.val / 4 + j.val + 1) % 4) (by omega) = pRecvSem (zP c j) := by decide
theorem sem_pr (c : Dev nD) (j : Fin 3) (hi : ∀ a, (k0_off10 c (BitVec.ofNat 32 (1 + j.val))) a + S1.size a ≤ S4.size a) (hs : S1.Squeezes S_) :
    ((cc0_scratch10.slice (Rect.unit (s := S4) (k0_off10 c (BitVec.ofNat 32 (1 + j.val))) S1.size hi)).squeeze S_ hs).sem = pRecvSem (zP c j) :=
  (Mesh.cc0_scratch10_sem_wait c j hi hs).trans (dsem_pr c j)
theorem sem_pr1 (c : Dev nD) : ((cc0_scratch10.slice (Rect.unit (s := S4) (k0_off10 c 1#32) S1.size (k0_off10_inb c 0))).squeeze S_ squeezes_S1_S_).sem = pRecvSem (zP c 0) :=
  sem_pr c 0 _ _
theorem sem_pr2 (c : Dev nD) : ((cc0_scratch10.slice (Rect.unit (s := S4) (k0_off10 c 2#32) S1.size (k0_off10_inb c 1))).squeeze S_ squeezes_S1_S_).sem = pRecvSem (zP c 1) :=
  sem_pr c 1 _ _
theorem sem_pr3 (c : Dev nD) : ((cc0_scratch10.slice (Rect.unit (s := S4) (k0_off10 c 3#32) S1.size (k0_off10_inb c 2))).squeeze S_ squeezes_S1_S_).sem = pRecvSem (zP c 2) :=
  sem_pr c 2 _ _
theorem sem_ps2 : ((cc0_scratch9.slice (Rect.unit (s := S3) ![2] S1.size inb_S3_S1_2)).squeeze S_ squeezes_S1_S_).sem = pSendSem 2 :=
  Mesh.cc0_scratch9_sem_2 _ _
theorem sem_pr_own (c : Dev nD) : ((cc0_scratch10.slice (Rect.unit (s := S4) (k0_off8 c) S1.size (k0_off8_inb c))).squeeze S_ squeezes_S1_S_).sem = pRecvSem (zF c) :=
  Mesh.cc0_scratch10_sem_own c _ _
theorem sem_kvs1 : ((cc0_scratch7.slice (Rect.unit (s := S3) ![1] S1.size inb_S3_S1_1)).squeeze S_ squeezes_S1_S_).sem = kvSendSem 1 :=
  Mesh.cc0_scratch7_sem_1 _ _

theorem ow_intro (c : Dev nD) (O : CellTallies nD τ sig Unit) (W : Waits sig Unit) : (owes (c : Thread nD τ) O W : sProp 𝕄) ⊢ Ow c O := by
  unfold Ow; iintro H; iexists W; iexact H

theorem send_ps2 (c n : Dev nD) (hn : n = cP c 2)
    {hsc : (prS (zF c) : Memref sig (Dev.tc n : Thread nD τ).2.kind .vmem S256x128 .bf16).view.ref.isScScratch = false}
    {hsrc : (psS 2 : Memref sig .tc .vmem S256x128 .bf16).view.WordExact} {hdst : (prS (zF c) : Memref sig .tc .vmem S256x128 .bf16).view.WordExact}
    {hsem : DmaTarget.Typed .vmem (.dma (pRecvSem (zF c))) (.remote (Dev.tc n : Thread nD τ) (prS (zF c) : Memref sig .tc .vmem S256x128 .bf16) (.dma (pSendSem 2)) hsc)}
    {α : Type} {Q : α → sProp 𝕄} {k : PUnit → Prog (TpuEff nD τ sig (Elt F) Λ₀ .tc) α}
    (fd : Buf (Elt F) ((prS (zF c)).view.loc ((cP c 2 : Dev nD) : Thread nD τ))) (W : Waits sig Unit) :
    iprop(records m K ∗ ptPS m c 2 fullShare ∗ ((prB).view.loc ((cP c 2 : Dev nD) : Thread nD τ) ↦[(prS (zF c)).view.set]{fullShare} fd)
        ∗ owes (c : Thread nD τ) (O14 c) W ∗ pStok c 2 ∗ pRtok c 2)
      ⊢ iprop(((credPS c 2 ∗ owes (c : Thread nD τ) O15 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (psS 2) (.remote (Dev.tc n : Thread nD τ) (prS (zF c)) (.dma (pSendSem 2)) hsc) (.dma (pRecvSem (zF c))) hsrc hdst hsem) k) Q) := by
  subst hn
  unfold ptPS pStok pRtok credPS
  exact wp_send_cell m K c (cP c 2) (cP c 2) rfl (pSendSem 2) (pRecvSem (zF c)) (used_pSend c 2) (used_pRecv (cP c 2) (zF c) (zF_ne_zP c 2)) (h4_pSend 2) (h4_pRecv _)
    (src := psS 2) (dst := prS (zF c)) (q := fullShare) (fs := GPS m c) (fd := fd)
    NP rfl (amt_pSend 2) (amt_pRecv _) O15 rfl (W := W)
    (by rw [payD_pSend]; unfold ptPS; exact BI.Entails.refl _)
    (by rw [payD_pRecv]; exact Regions.land_p m c 2 fd)

theorem wait_pr (c : Dev nD) (j : Fin 3)
    {sp sp' : Space} {s s' : Shape} {e e' : EltTy} {κ' : Kind}
    {src : Memref sig (c : Thread nD τ).2.kind sp' s' e'} {dst : Memref sig κ' sp s e} {hsrc : src.view.WordExact} {hdst : dst.view.WordExact}
    (hcr : dst.view.dmaCredit = NP) (W : Waits sig Unit)
    {α : Type} {Q : α → sProp 𝕄} {k : PUnit → Prog (TpuEff nD τ sig (Elt F) Λ₀ .tc) α} :
    iprop(records m K ∗ levAts L lv ∗ credPR c j ∗ owes (c : Thread nD τ) O15 W ∗ at0 c (pRecvSem (zP c j)))
      ⊢ iprop(((owes (c : Thread nD τ) O15 (insert (SemLoc.dma (pRecvSem (zP c j)), ()) W) ∗ at1 c (pRecvSem (zP c j)) ∗ ptPR m c (zP c j) fullShare)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (pRecvSem (zP c j)) src dst hsrc hdst) k) Q) := by
  unfold credPR
  iintro ⟨#Hrec, #Hlev, Hc, HO, Hat⟩ Hk
  iapply (wp_wait_cell m K c (pRecvSem (zP c j)) (used_pRecv c _ (zP_ne c j)) (h4_pRecv _) NP hcr (amt_pRecv _) (O := O15) (W := W)) $$ [Hc HO Hat]
  · iframe Hrec Hc
    isplitl [HO]; · iexact HO
    isplitr; · iapply (mayWait_zero c _); iexact Hlev
    iexact Hat
  rw [payD_pRecv]
  iexact Hk

theorem wait_kvs1 (c : Dev nD)
    {sp sp' : Space} {s s' : Shape} {e e' : EltTy} {κ' : Kind}
    {src : Memref sig (c : Thread nD τ).2.kind sp' s' e'} {dst : Memref sig κ' sp s e} {hsrc : src.view.WordExact} {hdst : dst.view.WordExact}
    (hcr : dst.view.dmaCredit = NKV) (W : Waits sig Unit)
    {α : Type} {Q : α → sProp 𝕄} {k : PUnit → Prog (TpuEff nD τ sig (Elt F) Λ₀ .tc) α} :
    iprop(records m K ∗ levAts L lv ∗ credKVS c 1 ∗ owes (c : Thread nD τ) O15 W ∗ at0 c (kvSendSem 1))
      ⊢ iprop(((owes (c : Thread nD τ) O15 (insert (SemLoc.dma (kvSendSem 1), ()) W) ∗ at1 c (kvSendSem 1) ∗ ptKV m c (sF c) (lend 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (kvSendSem 1) src dst hsrc hdst) k) Q) := by
  unfold credKVS
  iintro ⟨#Hrec, #Hlev, Hc, HO, Hat⟩ Hk
  iapply (wp_wait_cell m K c (kvSendSem 1) (used_kvSend c 1) (h4_kvSend 1) NKV hcr (amt_kvSend 1) (O := O15) (W := W)) $$ [Hc HO Hat]
  · iframe Hrec Hc
    isplitl [HO]; · iexact HO
    isplitr; · iapply (mayWait_zero c _); iexact Hlev
    iexact Hat
  rw [payD_kvSend]
  iexact Hk

theorem part17 (c : Dev nD) (v19 v20 : BitVec 32) (v181 : FVec F S256x128 .f32) (v519 : BitVec 32)
    (Kt : (Σ' (v547 : FVec F S256x128 .f32) (v549 : BitVec 32), Vec F S1x256x64 .bf16) → sProp 𝕄) :
    iprop(I16 m K c ∗ (Mid m K c -∗ Kt ⟨k0_pay36 v181 (q m c 0) (k m c 0) (vp m c 0), Scalar.remsi (Scalar.addi v20 1#32) 4#32, q m c 0⟩))
      ⊢ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 v181 v519) Kt := by
  simp only [k0_part17_eq_skeleton]; unfold k0_part17_skel
  simp only [Prog.lift, Prog.bind_op, Prog.bind_ret, Prog.pure_eq_ret]
  simp only [sem_ps2, sem_pr_own c, Regions.prSlot_own c]
  unfold I16
  iintro ⟨⟨#Hp, HO, Hph, Hat, HcPR, HcKVS, HcQS, ⟨HcPS0, HcPS1⟩, HtR, HtS, HQ, HQ3, HKV, HKV3, HVP, HVP3, HPS, HPR, HPRp, Hstg, Hout⟩, Hk⟩
  unfold pers; icases Hp with ⟨#Hrec, #Hlev⟩
  unfold Ow; icases HO with ⟨%W, HO⟩
  unfold slotPR; icases HPRp with ⟨%fd, HPRp⟩
  iapply (send_ps2 m K c _ (Mesh.k0_dev15_eq c _) fd W) $$ [HPS HPRp HO HtS HtR]
  · iframe Hrec HPS HPRp
    isplitl [HO]; · iexact HO
    iframe HtS HtR
  iintro ⟨HcPS2, HO⟩
  unfold ptKV ptVP ptQ
  iapply (wp_load 𝒱₀ (c : Thread nD τ) none Set.univ (m := qB) (S := (qS (zF c)).view.set) (q := keep) (f := GQ m c) (inQ0 c)) $$ HQ; iintro HQ
  rw [rdQ0 m c]
  iapply (wp_load 𝒱₀ (c : Thread nD τ) none Set.univ (m := kvB) (S := (kvS (sF c)).view.set) (q := keep) (f := GKV m c) (inK0 c)) $$ HKV; iintro HKV
  rw [rdK0 m c]
  iapply (wp_load 𝒱₀ (c : Thread nD τ) none Set.univ (m := vpB) (S := (vpS (sF c)).view.set) (q := fullShare) (f := GVP m c) (inV0 c)) $$ HVP; iintro HVP
  rw [rdV0 m c]
  iapply (wp_load 𝒱₀ (c : Thread nD τ) none Set.univ (m := qB) (S := (qS (zF c)).view.set) (q := keep) (f := GQ m c) (inQ0 c)) $$ HQ; iintro HQ
  rw [rdQ0 m c]
  rw [wp_ret]; imodintro
  ihave HOw := (ow_intro c O15 W) $$ HO
  iapply Hk
  unfold Mid pers slotPR ptQ ptKV ptVP
  iframe
  isplitr
  · iframe Hrec Hlev
  isplitl [HcPS0]; · iexact HcPS0
  isplitl [HcPS1]; · iexact HcPS1
  iexact HcPS2

theorem part18 (c : Dev nD) (v19 v20 : BitVec 32) (v547 : FVec F S256x128 .f32) (v549 : BitVec 32) (v553 : Vec F S1x256x64 .bf16)
    (Kt : (Σ' (v583 : FVec F S256x128 .f32), BitVec 32) → sProp 𝕄) :
    iprop(Mid m K c ∗ (Mid m K c -∗ Kt ⟨k0_pay37 v547 v553 (k m c 1) (vp m c 1) (q m c 0) (k m c 2) (vp m c 2), Scalar.remsi (Scalar.addi v20 3#32) 4#32⟩))
      ⊢ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v19 v20 v547 v549 v553) Kt := by
  simp only [k0_part18_eq_skeleton]; unfold k0_part18_skel
  simp only [Prog.lift, Prog.bind_op, Prog.bind_ret, Prog.pure_eq_ret]
  unfold Mid
  iintro ⟨⟨#Hp, HO, Hph, Hat, HcPR, HcKVS, HcQS, HcPS, HQ, HQ3, HKV, ⟨HKVa, HKVb, HKVc⟩, HVP, ⟨HVPa, HVPb, HVPc⟩, HPR, Hstg, Hout⟩, Hk⟩
  unfold ptKV ptVP ptQ
  iapply (wp_load 𝒱₀ (c : Thread nD τ) none Set.univ (m := kvB) (S := (kvS (sP c 0)).view.set) (q := fullShare) (f := GKV m c) (Regions.kvB_load_off19 c 1 _)) $$ HKVa; iintro HKVa
  rw [RegVal.readK m c 1 _]
  iapply (wp_load 𝒱₀ (c : Thread nD τ) none Set.univ (m := vpB) (S := (vpS (sP c 0)).view.set) (q := fullShare) (f := GVP m c) (Regions.vpB_load_off20 c 1 _)) $$ HVPa; iintro HVPa
  rw [RegVal.readVP m c 1 _]
  iapply (wp_load 𝒱₀ (c : Thread nD τ) none Set.univ (m := qB) (S := (qS (zF c)).view.set) (q := keep) (f := GQ m c) (inQ0 c)) $$ HQ; iintro HQ
  rw [rdQ0 m c]
  iapply (wp_load 𝒱₀ (c : Thread nD τ) none Set.univ (m := kvB) (S := (kvS (sP c 1)).view.set) (q := fullShare) (f := GKV m c) (Regions.kvB_load_off19 c 2 _)) $$ HKVb; iintro HKVb
  rw [RegVal.readK m c 2 _]
  iapply (wp_load 𝒱₀ (c : Thread nD τ) none Set.univ (m := vpB) (S := (vpS (sP c 1)).view.set) (q := fullShare) (f := GVP m c) (Regions.vpB_load_off20 c 2 _)) $$ HVPb; iintro HVPb
  rw [RegVal.readVP m c 2 _]
  rw [wp_ret]; imodintro
  iapply Hk
  iframe
  iframe Hp
  isplitl [HKVa HKVb HKVc]
  · isplitl [HKVa]; · iexact HKVa
    isplitl [HKVb]; · iexact HKVb
    iexact HKVc
  isplitl [HVPa]; · iexact HVPa
  isplitl [HVPb]; · iexact HVPb
  iexact HVPc

theorem part19 (c : Dev nD) (v2 v19 : BitVec 32) (v583 : FVec F S256x128 .f32) (v585 : BitVec 32)
    (Kt : (Σ' (v616 : FVec F S256x128 .f32), BitVec 32) → sProp 𝕄) :
    iprop(Mid m K c ∗ (Mid19 m K c -∗ Kt ⟨k0_pay38 v583 (q m c 0) (k m c 3) (vp m c 3) (R1 m c), Scalar.remsi (Scalar.addi v19 2#32) 4#32⟩))
      ⊢ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v2 v19 v583 v585) Kt := by
  simp only [k0_part19_eq_skeleton]; unfold k0_part19_skel
  simp only [Prog.lift, Prog.bind_op, Prog.bind_ret, Prog.pure_eq_ret]
  rw [sem_pr1 c]
  unfold Mid
  iintro ⟨⟨#Hp, HO, Hph, Hat, ⟨HcPR0, HcPR1, HcPR2⟩, HcKVS, HcQS, HcPS, HQ, HQ3, HKV, ⟨HKVa, HKVb, HKVc⟩, HVP, ⟨HVPa, HVPb, HVPc⟩, HPR, Hstg, Hout⟩, Hk⟩
  unfold pers; icases Hp with ⟨#Hrec, #Hlev⟩
  unfold atRecv; icases Hat with ⟨HaQS, HaKVS, HaPS, HaQo, HaKVo, HaPo, HaQR, HaKVR, ⟨HaP0, HaP1, HaP2⟩⟩
  unfold Ow; icases HO with ⟨%W, HO⟩
  unfold ptKV ptVP ptQ
  iapply (wp_load 𝒱₀ (c : Thread nD τ) none Set.univ (m := qB) (S := (qS (zF c)).view.set) (q := keep) (f := GQ m c) (inQ0 c)) $$ HQ; iintro HQ
  rw [rdQ0 m c]
  iapply (wp_load 𝒱₀ (c : Thread nD τ) none Set.univ (m := kvB) (S := (kvS (sP c 2)).view.set) (q := fullShare) (f := GKV m c) (Regions.kvB_load_off19 c 3 _)) $$ HKVc; iintro HKVc
  rw [RegVal.readK m c 3 _]
  iapply (wp_load 𝒱₀ (c : Thread nD τ) none Set.univ (m := vpB) (S := (vpS (sP c 2)).view.set) (q := fullShare) (f := GVP m c) (Regions.vpB_load_off20 c 3 _)) $$ HVPc; iintro HVPc
  rw [RegVal.readVP m c 3 _]
  iapply (wait_pr m K c 0 (dst := prSlot (k0_off22 c 1#32) (k0_off22_inb c 0)) (Regions.prSlot_credit _ _) (W)) $$ [HcPR0 HO HaP0]
  · iframe Hrec Hlev HcPR0
    isplitl [HO]; · iexact HO
    iexact HaP0
  iintro ⟨HO, HaP0, HPR0⟩
  unfold ptPR
  iapply (wp_load 𝒱₀ (c : Thread nD τ) none Set.univ (m := prB) (S := (prS (zP c 0)).view.set) (q := fullShare) (f := GPR m c) (inR1 c)) $$ HPR0; iintro HPR0
  rw [rdR1 m c]
  rw [wp_ret]; imodintro
  ihave HOw := (ow_intro c O15 _) $$ HO
  iapply Hk
  unfold Mid19 at19 pers ptQ ptKV ptVP ptPR
  iframe
  isplitr
  · iframe Hrec Hlev
  isplitl [HKVa HKVb HKVc]
  · isplitl [HKVa]; · iexact HKVa
    isplitl [HKVb]; · iexact HKVb
    iexact HKVc
  isplitl [HVPa]; · iexact HVPa
  isplitl [HVPb]; · iexact HVPb
  iexact HVPc

theorem part20 (c : Dev nD) (v2 v19 : BitVec 32) (v616 : FVec F S256x128 .f32) (v618 : BitVec 32)
    (Kt : FVec F S256x128 .f32 → sProp 𝕄) :
    iprop(Mid19 m K c ∗ (I20 m K c -∗ Kt (k0_pay39 v616 (R2 m c) (R3 m c))))
      ⊢ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c v2 v19 v616 v618) Kt := by
  simp only [k0_part20_eq_skeleton]; unfold k0_part20_skel
  simp only [Prog.lift, Prog.bind_op, Prog.bind_ret, Prog.pure_eq_ret]
  rw [sem_pr2 c, sem_pr3 c, sem_kvs1]
  unfold Mid19
  iintro ⟨⟨#Hp, HO, Hph, Hat, ⟨HcPR1, HcPR2⟩, ⟨HcKVS0, HcKVS1, HcKVS2⟩, HcQS, HcPS, HQ, HQ3, HKV, HKV3, HVP, HVP3, HPR, HPR0, Hstg, Hout⟩, Hk⟩
  unfold pers; icases Hp with ⟨#Hrec, #Hlev⟩
  unfold at19; icases Hat with ⟨HaQS, ⟨HaKVS0, HaKVS1, HaKVS2⟩, HaPS, HaQo, HaKVo, HaPo, HaQR, HaKVR, ⟨HaP0, HaP1, HaP2⟩⟩
  unfold Ow; icases HO with ⟨%W, HO⟩
  iapply (wait_pr m K c 1 (dst := prSlot (k0_off22 c 2#32) (k0_off22_inb c 1)) (Regions.prSlot_credit _ _) (W)) $$ [HcPR1 HO HaP1]
  · iframe Hrec Hlev HcPR1
    isplitl [HO]; · iexact HO
    iexact HaP1
  iintro ⟨HO, HaP1, HPR1⟩
  unfold ptPR
  iapply (wp_load 𝒱₀ (c : Thread nD τ) none Set.univ (m := prB) (S := (prS (zP c 1)).view.set) (q := fullShare) (f := GPR m c) (inR2 c)) $$ HPR1; iintro HPR1
  rw [rdR2 m c]
  iapply (wait_pr m K c 2 (dst := prSlot (k0_off22 c 3#32) (k0_off22_inb c 2)) (Regions.prSlot_credit _ _) (insert (SemLoc.dma (pRecvSem (zP c 1)), ()) W)) $$ [HcPR2 HO HaP2]
  · iframe Hrec Hlev HcPR2
    isplitl [HO]; · iexact HO
    iexact HaP2
  iintro ⟨HO, HaP2, HPR2⟩
  unfold ptPR
  iapply (wp_load 𝒱₀ (c : Thread nD τ) none Set.univ (m := prB) (S := (prS (zP c 2)).view.set) (q := fullShare) (f := GPR m c) (inR3 c)) $$ HPR2; iintro HPR2
  rw [rdR3 m c]
  iapply (wait_kvs1 m K c (dst := kvSlot (k0_off7 c) (k0_off7_inb c)) (Regions.kvSlot_credit _ _) (insert (SemLoc.dma (pRecvSem (zP c 2)), ()) (insert (SemLoc.dma (pRecvSem (zP c 1)), ()) W))) $$ [HcKVS1 HO HaKVS1]
  · iframe Hrec Hlev HcKVS1
    isplitl [HO]; · iexact HO
    iexact HaKVS1
  iintro ⟨HO, HaKVS1, HKVl⟩
  rw [wp_ret]; imodintro
  ihave HOw := (ow_intro c O15 _) $$ HO
  iapply Hk
  unfold I20 atLate pers ptPR
  iframe
  isplitr
  · iframe Hrec Hlev
  isplitl [HaP0 HaP1 HaP2]
  · isplitl [HaP0]; · iexact HaP0
    isplitl [HaP1]; · iexact HaP1
    iexact HaP2
  isplitl [HPR0]; · iexact HPR0
  isplitl [HPR1]; · iexact HPR1
  iexact HPR2

end Cert.KernelIdeal.SegH

end
-- ==== Proof.RegEnd.lean ====
import proofs.«900582_g7700000000000583_dist_ring_attn_i_s256_d64_v7x_i16_f32_1_alg».proof.Proof.RegShare

noncomputable section

namespace Cert.KernelIdeal.Regions

open Cert.KernelIdeal Cert.KernelIdeal.Gen Cert.KernelIdeal.Mesh Cert.KernelIdeal.Cells Cert.KernelIdeal.Contents Cert.KernelIdeal.Sched
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem rejoin4_perm {ℓ : Loc nD τ sig} (K : Fin 4 → Finset (Idx ℓ)) (hd : ∀ i j, i ≠ j → Disjoint (K i) (K j))
    (hc : K 0 ∪ (K 1 ∪ (K 2 ∪ K 3)) = Finset.univ) (a b c d : Fin 4)
    (hab : a ≠ b) (hac : a ≠ c) (had : a ≠ d) (hbc : b ≠ c) (hbd : b ≠ d) (hcd : c ≠ d)
    (hall : ∀ t : Fin 4, t = a ∨ t = b ∨ t = c ∨ t = d) (q : PosShare TreeShare) :
    (iprop((∃ f : Buf (Elt F) ℓ, ℓ ↦[K a]{q} f) ∗ (∃ f : Buf (Elt F) ℓ, ℓ ↦[K b]{q} f) ∗ (∃ f : Buf (Elt F) ℓ, ℓ ↦[K c]{q} f)
        ∗ (∃ f : Buf (Elt F) ℓ, ℓ ↦[K d]{q} f)) : sProp 𝕄)
      ⊢ iprop(∃ f : Buf (Elt F) ℓ, ℓ ↦{q} f) := by
  have d23 : Disjoint (K c) (K d) := hd c d hcd
  have d1 : Disjoint (K b) (K c ∪ K d) := Finset.disjoint_union_right.mpr ⟨hd b c hbc, hd b d hbd⟩
  have d0 : Disjoint (K a) (K b ∪ (K c ∪ K d)) :=
    Finset.disjoint_union_right.mpr ⟨hd a b hab, Finset.disjoint_union_right.mpr ⟨hd a c hac, hd a d had⟩⟩
  have hu : K a ∪ (K b ∪ (K c ∪ K d)) = Finset.univ := by
    ext x
    constructor
    · intro _; exact Finset.mem_univ _
    · intro _
      have key : ∀ t, x ∈ K t → x ∈ K a ∪ (K b ∪ (K c ∪ K d)) := by
        intro t ht
        simp only [Finset.mem_union]
        rcases hall t with e | e | e | e
        · exact Or.inl (e ▸ ht)
        · exact Or.inr (Or.inl (e ▸ ht))
        · exact Or.inr (Or.inr (Or.inl (e ▸ ht)))
        · exact Or.inr (Or.inr (Or.inr (e ▸ ht)))
      have hx : x ∈ K 0 ∪ (K 1 ∪ (K 2 ∪ K 3)) := hc ▸ Finset.mem_univ x
      simp only [Finset.mem_union] at hx
      rcases hx with h | h | h | h
      · exact key 0 h
      · exact key 1 h
      · exact key 2 h
      · exact key 3 h
  refine (BI.sep_mono_r (BI.sep_mono_r (join_ex q d23))).trans ?_
  refine (BI.sep_mono_r (join_ex q d1)).trans ?_
  refine (join_ex q d0).trans ?_
  rw [hu]

theorem col_ne (c : Dev nD) : zF c ≠ zF (colPeer c 1) ∧ zF c ≠ zF (colPeer c 2) ∧ zF c ≠ zF (colPeer c 3)
    ∧ zF (colPeer c 1) ≠ zF (colPeer c 2) ∧ zF (colPeer c 1) ≠ zF (colPeer c 3) ∧ zF (colPeer c 2) ≠ zF (colPeer c 3) := by
  revert c; decide
theorem col_all (c : Dev nD) : ∀ t : Fin 4, t = zF c ∨ t = zF (colPeer c 1) ∨ t = zF (colPeer c 2) ∨ t = zF (colPeer c 3) := by
  revert c; decide
theorem plane_ne (c : Dev nD) : sF c ≠ sF (planePeer c 1) ∧ sF c ≠ sF (planePeer c 2) ∧ sF c ≠ sF (planePeer c 3)
    ∧ sF (planePeer c 1) ≠ sF (planePeer c 2) ∧ sF (planePeer c 1) ≠ sF (planePeer c 3) ∧ sF (planePeer c 2) ≠ sF (planePeer c 3) := by
  revert c; decide
theorem plane_all (c : Dev nD) : ∀ t : Fin 4, t = sF c ∨ t = sF (planePeer c 1) ∨ t = sF (planePeer c 2) ∨ t = sF (planePeer c 3) := by
  revert c; decide

theorem rejoin_q_own (c : Dev nD) (q : PosShare TreeShare) :
    (iprop((∃ f : Buf (Elt F) ((c : Thread nD τ).loc cc0_scratch0), (c : Thread nD τ).loc cc0_scratch0 ↦[(qS (zF c)).view.set]{q} f)
        ∗ (∃ f : Buf (Elt F) ((c : Thread nD τ).loc cc0_scratch0), (c : Thread nD τ).loc cc0_scratch0 ↦[(qS (zF (colPeer c 1))).view.set]{q} f)
        ∗ (∃ f : Buf (Elt F) ((c : Thread nD τ).loc cc0_scratch0), (c : Thread nD τ).loc cc0_scratch0 ↦[(qS (zF (colPeer c 2))).view.set]{q} f)
        ∗ (∃ f : Buf (Elt F) ((c : Thread nD τ).loc cc0_scratch0), (c : Thread nD τ).loc cc0_scratch0 ↦[(qS (zF (colPeer c 3))).view.set]{q} f)) : sProp 𝕄)
      ⊢ iprop(∃ f : Buf (Elt F) ((c : Thread nD τ).loc cc0_scratch0), (c : Thread nD τ).loc cc0_scratch0 ↦{q} f) :=
  rejoin4_perm (ℓ := (c : Thread nD τ).loc cc0_scratch0) (fun i => ((qS i).view.set : Finset S4x256x64.Idx)) (fun _ _ h => keyed_disjoint mem_qS h) (keyed_union4 mem_qS)
    (zF c) (zF (colPeer c 1)) (zF (colPeer c 2)) (zF (colPeer c 3))
    (col_ne c).1 (col_ne c).2.1 (col_ne c).2.2.1 (col_ne c).2.2.2.1 (col_ne c).2.2.2.2.1 (col_ne c).2.2.2.2.2 (col_all c) q

theorem rejoin_pr_own (c : Dev nD) (q : PosShare TreeShare) :
    (iprop((∃ f : Buf (Elt F) ((c : Thread nD τ).loc cc0_scratch4), (c : Thread nD τ).loc cc0_scratch4 ↦[(prS (zF c)).view.set]{q} f)
        ∗ (∃ f : Buf (Elt F) ((c : Thread nD τ).loc cc0_scratch4), (c : Thread nD τ).loc cc0_scratch4 ↦[(prS (zF (colPeer c 1))).view.set]{q} f)
        ∗ (∃ f : Buf (Elt F) ((c : Thread nD τ).loc cc0_scratch4), (c : Thread nD τ).loc cc0_scratch4 ↦[(prS (zF (colPeer c 2))).view.set]{q} f)
        ∗ (∃ f : Buf (Elt F) ((c : Thread nD τ).loc cc0_scratch4), (c : Thread nD τ).loc cc0_scratch4 ↦[(prS (zF (colPeer c 3))).view.set]{q} f)) : sProp 𝕄)
      ⊢ iprop(∃ f : Buf (Elt F) ((c : Thread nD τ).loc cc0_scratch4), (c : Thread nD τ).loc cc0_scratch4 ↦{q} f) :=
  rejoin4_perm (ℓ := (c : Thread nD τ).loc cc0_scratch4) (fun i => ((prS i).view.set : Finset S4x256x128.Idx)) (fun _ _ h => keyed_disjoint mem_prS h) (keyed_union4 mem_prS)
    (zF c) (zF (colPeer c 1)) (zF (colPeer c 2)) (zF (colPeer c 3))
    (col_ne c).1 (col_ne c).2.1 (col_ne c).2.2.1 (col_ne c).2.2.2.1 (col_ne c).2.2.2.2.1 (col_ne c).2.2.2.2.2 (col_all c) q

theorem rejoin_kv_own (c : Dev nD) (q : PosShare TreeShare) :
    (iprop((∃ f : Buf (Elt F) ((c : Thread nD τ).loc cc0_scratch1), (c : Thread nD τ).loc cc0_scratch1 ↦[(kvS (sF c)).view.set]{q} f)
        ∗ (∃ f : Buf (Elt F) ((c : Thread nD τ).loc cc0_scratch1), (c : Thread nD τ).loc cc0_scratch1 ↦[(kvS (sF (planePeer c 1))).view.set]{q} f)
        ∗ (∃ f : Buf (Elt F) ((c : Thread nD τ).loc cc0_scratch1), (c : Thread nD τ).loc cc0_scratch1 ↦[(kvS (sF (planePeer c 2))).view.set]{q} f)
        ∗ (∃ f : Buf (Elt F) ((c : Thread nD τ).loc cc0_scratch1), (c : Thread nD τ).loc cc0_scratch1 ↦[(kvS (sF (planePeer c 3))).view.set]{q} f)) : sProp 𝕄)
      ⊢ iprop(∃ f : Buf (Elt F) ((c : Thread nD τ).loc cc0_scratch1), (c : Thread nD τ).loc cc0_scratch1 ↦{q} f) :=
  rejoin4_perm (ℓ := (c : Thread nD τ).loc cc0_scratch1) (fun i => ((kvS i).view.set : Finset S4x2x256x64.Idx)) (fun _ _ h => keyed_disjoint mem_kvS h) (keyed_union4 mem_kvS)
    (sF c) (sF (planePeer c 1)) (sF (planePeer c 2)) (sF (planePeer c 3))
    (plane_ne c).1 (plane_ne c).2.1 (plane_ne c).2.2.1 (plane_ne c).2.2.2.1 (plane_ne c).2.2.2.2.1 (plane_ne c).2.2.2.2.2 (plane_all c) q

theorem rejoin_vp_own (c : Dev nD) (q : PosShare TreeShare) :
    (iprop((∃ f : Buf (Elt F) ((c : Thread nD τ).loc cc0_scratch2), (c : Thread nD τ).loc cc0_scratch2 ↦[(vpSl (sF c)).view.set]{q} f)
        ∗ (∃ f : Buf (Elt F) ((c : Thread nD τ).loc cc0_scratch2), (c : Thread nD τ).loc cc0_scratch2 ↦[(vpSl (sF (planePeer c 1))).view.set]{q} f)
        ∗ (∃ f : Buf (Elt F) ((c : Thread nD τ).loc cc0_scratch2), (c : Thread nD τ).loc cc0_scratch2 ↦[(vpSl (sF (planePeer c 2))).view.set]{q} f)
        ∗ (∃ f : Buf (Elt F) ((c : Thread nD τ).loc cc0_scratch2), (c : Thread nD τ).loc cc0_scratch2 ↦[(vpSl (sF (planePeer c 3))).view.set]{q} f)) : sProp 𝕄)
      ⊢ iprop(∃ f : Buf (Elt F) ((c : Thread nD τ).loc cc0_scratch2), (c : Thread nD τ).loc cc0_scratch2 ↦{q} f) :=
  rejoin4_perm (ℓ := (c : Thread nD τ).loc cc0_scratch2) (fun i => ((vpSl i).view.set : Finset S4x256x128.Idx)) (fun _ _ h => keyed_disjoint mem_vpSl h) (keyed_union4 mem_vpSl)
    (sF c) (sF (planePeer c 1)) (sF (planePeer c 2)) (sF (planePeer c 3))
    (plane_ne c).1 (plane_ne c).2.1 (plane_ne c).2.2.1 (plane_ne c).2.2.2.1 (plane_ne c).2.2.2.2.1 (plane_ne c).2.2.2.2.2 (plane_all c) q

theorem rejoin_ps_own (c : Dev nD) (q : PosShare TreeShare) :
    (iprop((∃ f : Buf (Elt F) ((c : Thread nD τ).loc cc0_scratch3), (c : Thread nD τ).loc cc0_scratch3 ↦[(psS 0).view.set]{q} f)
        ∗ (∃ f : Buf (Elt F) ((c : Thread nD τ).loc cc0_scratch3), (c : Thread nD τ).loc cc0_scratch3 ↦[(psS 1).view.set]{q} f)
        ∗ (∃ f : Buf (Elt F) ((c : Thread nD τ).loc cc0_scratch3), (c : Thread nD τ).loc cc0_scratch3 ↦[(psS 2).view.set]{q} f)) : sProp 𝕄)
      ⊢ iprop(∃ f : Buf (Elt F) ((c : Thread nD τ).loc cc0_scratch3), (c : Thread nD τ).loc cc0_scratch3 ↦{q} f) :=
  rejoin3 (ℓ := (c : Thread nD τ).loc cc0_scratch3) (fun i => ((psS i).view.set : Finset S3x256x128.Idx)) (fun _ _ h => keyed_disjoint mem_psS h) (keyed_union3 mem_psS) q

end Cert.KernelIdeal.Regions

end
-- ==== Proof.Finish.lean ====
import proofs.«900582_g7700000000000583_dist_ring_attn_i_s256_d64_v7x_i16_f32_1_alg».proof.Proof.Steps2
import proofs.«900582_g7700000000000583_dist_ring_attn_i_s256_d64_v7x_i16_f32_1_alg».proof.Proof.RegEnd

noncomputable section

namespace Cert.KernelIdeal.Finish

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs Cert.KernelIdeal.Steps Cert.KernelIdeal.Steps2 Cert.KernelIdeal.Regions
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

def atDone (c : Dev nD) : sProp 𝕄 :=
  iprop(T3 (fun j => at1 (F := F) c (qSendSem j)) ∗ T3 (fun j => at1 (F := F) c (kvSendSem j)) ∗ T3 (fun j => at1 (F := F) c (pSendSem j))
    ∗ at0 (F := F) c (qRecvSem (zF c)) ∗ at0 (F := F) c (kvRecvSem (sF c)) ∗ at0 (F := F) c (pRecvSem (zF c))
    ∗ T3 (fun j => at1 (F := F) c (qRecvSem (zP c j))) ∗ T3 (fun j => at1 (F := F) c (kvRecvSem (sP c j))) ∗ T3 (fun j => at1 (F := F) c (pRecvSem (zP c j))))

def bufsDone (c : Dev nD) : sProp 𝕄 :=
  iprop(ptQ m c (zF c) fullShare ∗ T3 (fun j => ptQ m c (zP c j) fullShare) ∗ ptKV m c (sF c) fullShare ∗ T3 (fun j => ptKV m c (sP c j) fullShare)
    ∗ ptVP m c (sF c) ∗ T3 (fun j => ptVP m c (sP c j)) ∗ T3 (fun j => ptPS m c j fullShare) ∗ slotPR (F := F) c (zF c)
    ∗ T3 (fun j => ptPR m c (zP c j) fullShare))

theorem h4_q (i : Fin 4) : 4 ≤ (qRecvSem i).val := by show 4 ≤ 7 + i.val; omega
theorem h4_kv (i : Fin 4) : 4 ≤ (kvRecvSem i).val := by show 4 ≤ 14 + i.val; omega
theorem h4_p (i : Fin 4) : 4 ≤ (pRecvSem i).val := by show 4 ≤ 21 + i.val; omega

theorem cells_close (c : Dev nD) :
    iprop(records m K ∗ atDone (F := F) c) ⊢ iprop(|={Set.univ}=> cellsG c (fun n => semVal (dmaCell c n) 0)) := by
  unfold atDone cellsG; dsimp only [T3]
  iintro ⟨#Hrec, ⟨H0, H1, H2⟩, ⟨H3, H4, H5⟩, ⟨H6, H7, H8⟩, H9, H10, H11, ⟨H12, H13, H14⟩, ⟨H15, H16, H17⟩, ⟨H18, H19, H20⟩⟩
  imod (close_used m K c (qSendSem 0) (by decide)) $$ [H0] with Z0
  · iframe Hrec H0
  imod (close_used m K c (qSendSem 1) (by decide)) $$ [H1] with Z1
  · iframe Hrec H1
  imod (close_used m K c (qSendSem 2) (by decide)) $$ [H2] with Z2
  · iframe Hrec H2
  imod (close_used m K c (kvSendSem 0) (by decide)) $$ [H3] with Z3
  · iframe Hrec H3
  imod (close_used m K c (kvSendSem 1) (by decide)) $$ [H4] with Z4
  · iframe Hrec H4
  imod (close_used m K c (kvSendSem 2) (by decide)) $$ [H5] with Z5
  · iframe Hrec H5
  imod (close_used m K c (pSendSem 0) (by decide)) $$ [H6] with Z6
  · iframe Hrec H6
  imod (close_used m K c (pSendSem 1) (by decide)) $$ [H7] with Z7
  · iframe Hrec H7
  imod (close_used m K c (pSendSem 2) (by decide)) $$ [H8] with Z8
  · iframe Hrec H8
  imod (close_unused m K c (qRecvSem (zF c)) (h4_q _) (unused_qRecv c)) $$ [H9] with Z9
  · iframe Hrec H9
  imod (close_unused m K c (kvRecvSem (sF c)) (h4_kv _) (unused_kvRecv c)) $$ [H10] with Z10
  · iframe Hrec H10
  imod (close_unused m K c (pRecvSem (zF c)) (h4_p _) (unused_pRecv c)) $$ [H11] with Z11
  · iframe Hrec H11
  imod (close_used m K c (qRecvSem (zP c 0)) (h4_q _)) $$ [H12] with Z12
  · iframe Hrec H12
  imod (close_used m K c (qRecvSem (zP c 1)) (h4_q _)) $$ [H13] with Z13
  · iframe Hrec H13
  imod (close_used m K c (qRecvSem (zP c 2)) (h4_q _)) $$ [H14] with Z14
  · iframe Hrec H14
  imod (close_used m K c (kvRecvSem (sP c 0)) (h4_kv _)) $$ [H15] with Z15
  · iframe Hrec H15
  imod (close_used m K c (kvRecvSem (sP c 1)) (h4_kv _)) $$ [H16] with Z16
  · iframe Hrec H16
  imod (close_used m K c (kvRecvSem (sP c 2)) (h4_kv _)) $$ [H17] with Z17
  · iframe Hrec H17
  imod (close_used m K c (pRecvSem (zP c 0)) (h4_p _)) $$ [H18] with Z18
  · iframe Hrec H18
  imod (close_used m K c (pRecvSem (zP c 1)) (h4_p _)) $$ [H19] with Z19
  · iframe Hrec H19
  imod (close_used m K c (pRecvSem (zP c 2)) (h4_p _)) $$ [H20] with Z20
  · iframe Hrec H20
  imodintro
  isplitl [Z0 Z1 Z2]
  · iframe Z0 Z1 Z2
  isplitl [Z3 Z4 Z5]
  · iframe Z3 Z4 Z5
  isplitl [Z6 Z7 Z8]
  · iframe Z6 Z7 Z8
  iframe Z9 Z10 Z11
  isplitl [Z12 Z13 Z14]
  · iframe Z12 Z13 Z14
  isplitl [Z15 Z16 Z17]
  · iframe Z15 Z16 Z17
  iframe Z18 Z19 Z20

theorem ex_q (c : Dev nD) (i : Fin 4) : ptQ m c i fullShare
    ⊢ iprop(∃ f : Buf (Elt F) ((c : Thread nD τ).loc cc0_scratch0), (c : Thread nD τ).loc cc0_scratch0 ↦[(qS i).view.set]{fullShare} f) := by
  unfold ptQ
  exact exists_intro (Φ := fun f : Buf (Elt F) ((c : Thread nD τ).loc cc0_scratch0) =>
    ((c : Thread nD τ).loc cc0_scratch0 ↦[(qS i).view.set]{fullShare} f : sProp 𝕄)) (GQ m c)
theorem ex_kv (c : Dev nD) (i : Fin 4) : ptKV m c i fullShare
    ⊢ iprop(∃ f : Buf (Elt F) ((c : Thread nD τ).loc cc0_scratch1), (c : Thread nD τ).loc cc0_scratch1 ↦[(kvS i).view.set]{fullShare} f) := by
  unfold ptKV
  exact exists_intro (Φ := fun f : Buf (Elt F) ((c : Thread nD τ).loc cc0_scratch1) =>
    ((c : Thread nD τ).loc cc0_scratch1 ↦[(kvS i).view.set]{fullShare} f : sProp 𝕄)) (GKV m c)
theorem ex_vp (c : Dev nD) (i : Fin 4) : ptVP m c i
    ⊢ iprop(∃ f : Buf (Elt F) ((c : Thread nD τ).loc cc0_scratch2), (c : Thread nD τ).loc cc0_scratch2 ↦[(vpSl i).view.set]{fullShare} f) := by
  unfold ptVP
  exact exists_intro (Φ := fun f : Buf (Elt F) ((c : Thread nD τ).loc cc0_scratch2) =>
    ((c : Thread nD τ).loc cc0_scratch2 ↦[(vpSl i).view.set]{fullShare} f : sProp 𝕄)) (GVP m c)
theorem ex_ps (c : Dev nD) (j : Fin 3) : ptPS m c j fullShare
    ⊢ iprop(∃ f : Buf (Elt F) ((c : Thread nD τ).loc cc0_scratch3), (c : Thread nD τ).loc cc0_scratch3 ↦[(psS j).view.set]{fullShare} f) := by
  unfold ptPS
  exact exists_intro (Φ := fun f : Buf (Elt F) ((c : Thread nD τ).loc cc0_scratch3) =>
    ((c : Thread nD τ).loc cc0_scratch3 ↦[(psS j).view.set]{fullShare} f : sProp 𝕄)) (GPS m c)
theorem ex_pr (c : Dev nD) (i : Fin 4) : ptPR m c i fullShare
    ⊢ iprop(∃ f : Buf (Elt F) ((c : Thread nD τ).loc cc0_scratch4), (c : Thread nD τ).loc cc0_scratch4 ↦[(prS i).view.set]{fullShare} f) := by
  unfold ptPR
  exact exists_intro (Φ := fun f : Buf (Elt F) ((c : Thread nD τ).loc cc0_scratch4) =>
    ((c : Thread nD τ).loc cc0_scratch4 ↦[(prS i).view.set]{fullShare} f : sProp 𝕄)) (GPR m c)

theorem scratch_of_bufs (c : Dev nD) : bufsDone m c ⊢ scratch (F := F) c := by
  unfold bufsDone scratch slotPR; dsimp only [T3]
  iintro ⟨Q0, ⟨Q1, Q2, Q3⟩, KV0, ⟨KV1, KV2, KV3⟩, VP0, ⟨VP1, VP2, VP3⟩, ⟨PS0, PS1, PS2⟩, PR0, ⟨PR1, PR2, PR3⟩⟩
  isplitl [Q0 Q1 Q2 Q3]
  · iapply (rejoin_q_own (F := F) c fullShare)
    isplitl [Q0]; · iapply (ex_q m c _) $$ Q0
    isplitl [Q1]; · iapply (ex_q m c _) $$ Q1
    isplitl [Q2]; · iapply (ex_q m c _) $$ Q2
    iapply (ex_q m c _) $$ Q3
  isplitl [KV0 KV1 KV2 KV3]
  · iapply (rejoin_kv_own (F := F) c fullShare)
    isplitl [KV0]; · iapply (ex_kv m c _) $$ KV0
    isplitl [KV1]; · iapply (ex_kv m c _) $$ KV1
    isplitl [KV2]; · iapply (ex_kv m c _) $$ KV2
    iapply (ex_kv m c _) $$ KV3
  isplitl [VP0 VP1 VP2 VP3]
  · iapply (rejoin_vp_own (F := F) c fullShare)
    isplitl [VP0]; · iapply (ex_vp m c _) $$ VP0
    isplitl [VP1]; · iapply (ex_vp m c _) $$ VP1
    isplitl [VP2]; · iapply (ex_vp m c _) $$ VP2
    iapply (ex_vp m c _) $$ VP3
  isplitl [PS0 PS1 PS2]
  · iapply (rejoin_ps_own (F := F) c fullShare)
    isplitl [PS0]; · iapply (ex_ps m c _) $$ PS0
    isplitl [PS1]; · iapply (ex_ps m c _) $$ PS1
    iapply (ex_ps m c _) $$ PS2
  iapply (rejoin_pr_own (F := F) c fullShare)
  iframe PR0
  isplitl [PR1]; · iapply (ex_pr m c _) $$ PR1
  isplitl [PR2]; · iapply (ex_pr m c _) $$ PR2
  iapply (ex_pr m c _) $$ PR3

-- At the end each transfer cell's one round is consumed, or was never used, so the cells close and the device holds its scratch buffers whole again.
theorem finish (c : Dev nD) :
    iprop(records m K ∗ atDone (F := F) c ∗ bufsDone m c) ⊢ iprop(|={Set.univ}=> Φ₁ (F := F) c) := by
  unfold Φ₁
  iintro ⟨#Hrec, Hat, Hb⟩
  imod (cells_close m K c) $$ [Hat] with Hz
  · iframe Hrec Hat
  imodintro
  isplitl [Hb]
  · iapply (scratch_of_bufs m c) $$ Hb
  iapply (cells_join c (fun n => semVal (dmaCell c n) 0)) $$ Hz

end Cert.KernelIdeal.Finish

end
-- ==== Proof.SegZ.lean ====
import proofs.«900582_g7700000000000583_dist_ring_attn_i_s256_d64_v7x_i16_f32_1_alg».proof.Proof.Finish
import Idealize.ShloMosaic.Rules.PointsTo

noncomputable section

namespace Cert.KernelIdeal.SegZ

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

theorem pers_rec : pers (F := F) m K ⊢ records m K := by
  unfold pers
  iintro ⟨#H, -⟩
  iexact H

theorem wait_send (c : Dev nD) (n n' : DmaSem sig) (e : n = n') (hu : usedSem c n' = true) (h4 : 4 ≤ n'.val)
    {sp sp' : Space} {s s' : Shape} {e₁ e₂ : EltTy} {κ' : Kind}
    {src : Memref sig (c : Thread nD τ).2.kind sp' s' e₂} {dst : Memref sig κ' sp s e₁} {hsrc : src.view.WordExact} {hdst : dst.view.WordExact}
    (N : ℕ) (hcr : dst.view.dmaCredit = N) (hN : amt n' = N) {W : Waits sig Unit}
    {α : Type} {Q : α → sProp 𝕄} {k : PUnit → Prog (TpuEff nD τ sig (Elt F) Λ₀ .tc) α} :
    iprop(pers m K ∗ crd c n' N ∗ owes (c : Thread nD τ) 0 W ∗ at0 c n')
      ⊢ iprop(((owes (c : Thread nD τ) 0 (insert (SemLoc.dma n', ()) W) ∗ at1 c n' ∗ payD m c n')
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 n src dst hsrc hdst) k) Q) := by
  subst e
  unfold pers
  iintro ⟨⟨#Hrec, #Hlev⟩, Hc, HO, Hat⟩
  iapply (Steps.wp_wait_cell m K c n hu h4 N hcr hN)
  iframe Hrec Hc
  isplitl [HO]; · iexact HO
  isplitr; · (iapply (Steps.mayWait_zero c _); iexact Hlev)
  iexact Hat

def mid21 (c : Dev nD) : sProp 𝕄 :=
  iprop(pers m K ∗ Ow c (O15) ∗ phTok ER (B (F := F) c) (barCell c) 2
    ∗ (at1 c (qSendSem 0) ∗ at1 c (qSendSem 1) ∗ at0 c (qSendSem 2)) ∗ T3 (fun j => at1 c (kvSendSem j)) ∗ T3 (fun j => at0 c (pSendSem j))
    ∗ at0 c (qRecvSem (zF c)) ∗ at0 c (kvRecvSem (sF c)) ∗ at0 c (pRecvSem (zF c))
    ∗ T3 (fun j => at1 c (qRecvSem (zP c j))) ∗ T3 (fun j => at1 c (kvRecvSem (sP c j))) ∗ T3 (fun j => at1 c (pRecvSem (zP c j)))
    ∗ credQS c 2 ∗ T3 (credPS c)
    ∗ (ptQ m c (zF c) keep ∗ ptQ m c (zF c) (lend 0) ∗ ptQ m c (zF c) (lend 1)) ∗ T3 (fun j => ptQ m c (zP c j) fullShare)
    ∗ ptKV m c (sF c) fullShare ∗ T3 (fun j => ptKV m c (sP c j) fullShare)
    ∗ ptVP m c (sF c) ∗ T3 (fun j => ptVP m c (sP c j))
    ∗ slotPR c (zF c) ∗ T3 (fun j => ptPR m c (zP c j) fullShare)
    ∗ stgIn m c ∗ ∃ X, stgOut c X)

set_option maxHeartbeats 1600000 in

theorem part21 (c : Dev nD) (Kt : PUnit → sProp 𝕄) :
    iprop(I20 m K c ∗ (mid21 m K c -∗ Kt ⟨⟩))
      ⊢ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10 c) Kt := by
  simp only [k0_part21_eq_skeleton]; unfold k0_part21_skel
  simp only [Prog.lift, Prog.bind_op, Prog.bind_ret, Prog.pure_eq_ret]
  unfold I20 atLate Ow O15 T3 credKVS credQS credPS
  iintro ⟨⟨#Hp, ⟨%W, HO⟩, Hph, ⟨⟨Hq0, Hq1, Hq2⟩, ⟨Hk0, Hk1, Hk2⟩, Hps, Hrq, Hrkv, Hrp, Hrqs, Hrkvs, Hrps⟩, ⟨Hck0, Hck2⟩, ⟨Hcq0, Hcq1, Hcq2⟩, HcPS,
    HQk, HQp, HKVk, HKV1, HKVp, HVP, HVPp, HPR, HPRp, Hstg, Hout⟩, Hk⟩

  iapply (wait_send m K c _ (kvSendSem 0) (Mesh.cc0_scratch7_sem_0 _ _) (Steps.used_kvSend c 0) (by decide) NKV (Regions.kvSlot_credit _ _) (Steps.amt_kvSend 0)) $$ [HO Hck0 Hk0]
  · iframe Hp Hck0
    isplitl [HO]; · iexact HO
    iexact Hk0
  iintro ⟨HO, Hk0, Hpay⟩
  ihave HKV0 := (Entails.of_eq (Steps.payD_kvSend m c 0)) $$ Hpay

  iapply (wait_send m K c _ (kvSendSem 2) (Mesh.cc0_scratch7_sem_2 _ _) (Steps.used_kvSend c 2) (by decide) NKV (Regions.kvSlot_credit _ _) (Steps.amt_kvSend 2)) $$ [HO Hck2 Hk2]
  · iframe Hp Hck2
    isplitl [HO]; · iexact HO
    iexact Hk2
  iintro ⟨HO, Hk2, Hpay⟩
  ihave HKV2 := (Entails.of_eq (Steps.payD_kvSend m c 2)) $$ Hpay

  iapply (wait_send m K c _ (qSendSem 0) (Mesh.cc0_scratch5_sem_0 _ _) (Steps.used_qSend c 0) (by decide) NQ (Regions.qSlot_credit _ _) (Steps.amt_qSend 0)) $$ [HO Hcq0 Hq0]
  · iframe Hp Hcq0
    isplitl [HO]; · iexact HO
    iexact Hq0
  iintro ⟨HO, Hq0, Hpay⟩
  ihave HQ0 := (Entails.of_eq (Steps.payD_qSend m c 0)) $$ Hpay

  iapply (wait_send m K c _ (qSendSem 1) (Mesh.cc0_scratch5_sem_1 _ _) (Steps.used_qSend c 1) (by decide) NQ (Regions.qSlot_credit _ _) (Steps.amt_qSend 1)) $$ [HO Hcq1 Hq1]
  · iframe Hp Hcq1
    isplitl [HO]; · iexact HO
    iexact Hq1
  iintro ⟨HO, Hq1, Hpay⟩
  ihave HQ1 := (Entails.of_eq (Steps.payD_qSend m c 1)) $$ Hpay

  ihave HKV := (Regions.ptKV_share m c (sF c)).2 $$ [HKV0 HKV1 HKV2 HKVk]
  · iframe HKV0 HKV1 HKV2 HKVk
  rw [wp_ret]; imodintro
  iapply Hk
  unfold mid21 Ow O15 T3 credQS credPS
  iframe Hp
  isplitl [HO]; · (iexists _; iexact HO)
  iframe Hph
  isplitl [Hq0 Hq1 Hq2]
  · iframe Hq0 Hq1 Hq2
  isplitl [Hk0 Hk1 Hk2]
  · iframe Hk0 Hk1 Hk2
  iframe Hps Hrq Hrkv Hrp Hrqs Hrkvs Hrps Hcq2 HcPS
  isplitl [HQk HQ0 HQ1]
  · iframe HQk HQ0 HQ1
  iframe HQp HKV HKVp HVP HVPp HPR HPRp Hstg Hout

abbrev tailProg (c : Dev nD) (v646 : FVec F S256x128 .f32) : Prog (TpuEff nD τ sig (Elt F) Λ₀ .tc) PUnit :=
  .op (.waitDma2 ((cc0_scratch5.slice (Rect.unit (s := S3) ![2] S1.size inb_S3_S1_2)).squeeze S_ squeezes_S1_S_).sem
      (qSlot (k0_off9 c) (k0_off9_inb c)) (qSlot (k0_off9 c) (k0_off9_inb c))
      ((hqB.wordExact_slice rfl _ (k0_off9_wordsbf16 c)).reshape _ _) ((hqB.wordExact_slice rfl _ (k0_off9_wordsbf16 c)).reshape _ _)) fun _ =>
  .op (.waitDma2 ((cc0_scratch9.slice (Rect.unit (s := S3) ![0] S1.size inb_S3_S1_0)).squeeze S_ squeezes_S1_S_).sem
      (prSlot (k0_off21 c) (k0_off21_inb c)) (psSlot ![0, 0, 0] inb_S3x256x128_S1x256x128_0_0_0)
      ((hprB.wordExact_slice rfl _ (k0_off21_wordsbf16 c)).reshape _ _) ((hpsB.wordExact_slice rfl _ wordsbf16_S3x256x128_S1x256x128_0_0_0).reshape _ _)) fun _ =>
  .op (.waitDma2 ((cc0_scratch9.slice (Rect.unit (s := S3) ![1] S1.size inb_S3_S1_1)).squeeze S_ squeezes_S1_S_).sem
      (prSlot (k0_off21 c) (k0_off21_inb c)) (psSlot ![1, 0, 0] inb_S3x256x128_S1x256x128_1_0_0)
      ((hprB.wordExact_slice rfl _ (k0_off21_wordsbf16 c)).reshape _ _) ((hpsB.wordExact_slice rfl _ wordsbf16_S3x256x128_S1x256x128_1_0_0).reshape _ _)) fun _ =>
  .op (.waitDma2 ((cc0_scratch9.slice (Rect.unit (s := S3) ![2] S1.size inb_S3_S1_2)).squeeze S_ squeezes_S1_S_).sem
      (prSlot (k0_off21 c) (k0_off21_inb c)) (psSlot ![2, 0, 0] inb_S3x256x128_S1x256x128_2_0_0)
      ((hprB.wordExact_slice rfl _ (k0_off21_wordsbf16 c)).reshape _ _) ((hpsB.wordExact_slice rfl _ wordsbf16_S3x256x128_S1x256x128_2_0_0).reshape _ _)) fun _ =>
  .op (.load (Memref.whole cc0_stg3_0) (Rect.unit (s := S256x64) ![0, 0] S256x64.size inb_S256x64_S256x64_0_0).toLoadRect (View.loadsAt_vmem h_S256x64)) fun _ =>
  .op (.store (Memref.whole cc0_stg3_0) (Rect.unit (s := S256x64) ![0, 0] S256x64.size inb_S256x64_S256x64_0_0) (k0_pay1 v646) Finset.univ
      (View.stores_vmem_bits_univ h_S256x64 rfl) (.inl rfl)) fun _ =>
  .ret ⟨⟩

theorem write_out (c : Dev nD) (X : (cc0_stg3_0 : Ref sig .tc).ty.Contents (Elt F)) :
    ∀ i ∈ (Finset.univ : Finset (Idx (((c : Thread nD τ)).loc cc0_stg3_0))),
      ((Memref.whole cc0_stg3_0 : Memref sig .tc .vmem S256x64 .f32).access (Rect.unit (s := S256x64) ![0, 0] S256x64.size inb_S256x64_S256x64_0_0)).write (Elt F) X (k0_pay1 (TOT m c)) Finset.univ i = OUT m c i := by
  intro i _
  have h := Memref.write_access_unit_zero_univ (Elt F) cc0_stg3_0 (off := ![0, 0]) (by funext a; fin_cases a <;> rfl)
    inb_S256x64_S256x64_0_0 X (k0_pay1 (TOT m c))
  exact congrFun h i

def mid22 (c : Dev nD) : sProp 𝕄 :=
  iprop(pers m K ∗ Ow c (O15) ∗ phTok ER (B (F := F) c) (barCell c) 2
    ∗ T3 (fun j => at1 c (qSendSem j)) ∗ T3 (fun j => at1 c (kvSendSem j)) ∗ T3 (fun j => at1 c (pSendSem j))
    ∗ at0 c (qRecvSem (zF c)) ∗ at0 c (kvRecvSem (sF c)) ∗ at0 c (pRecvSem (zF c))
    ∗ T3 (fun j => at1 c (qRecvSem (zP c j))) ∗ T3 (fun j => at1 c (kvRecvSem (sP c j))) ∗ T3 (fun j => at1 c (pRecvSem (zP c j)))
    ∗ ptQ m c (zF c) fullShare ∗ T3 (fun j => ptQ m c (zP c j) fullShare)
    ∗ ptKV m c (sF c) fullShare ∗ T3 (fun j => ptKV m c (sP c j) fullShare)
    ∗ ptVP m c (sF c) ∗ T3 (fun j => ptVP m c (sP c j))
    ∗ T3 (fun j => ptPS m c j fullShare)
    ∗ slotPR c (zF c) ∗ T3 (fun j => ptPR m c (zP c j) fullShare)
    ∗ stgIn m c ∗ stgOut c (OUT m c))

set_option maxHeartbeats 1600000 in

theorem tail_ops (c : Dev nD) (v646 : FVec F S256x128 .f32) (hv : v646 = TOT m c) (Kt : PUnit → sProp 𝕄) :
    iprop(mid21 m K c ∗ (mid22 m K c -∗ |={Set.univ}=> Kt ⟨⟩))
      ⊢ wp frame (wpE (defs₀ (F := F)) 𝒱₀ (c : Thread nD τ) none) Set.univ (tailProg c v646) Kt := by
  subst hv
  unfold tailProg
  unfold mid21 Ow O15 T3 credQS credPS
  iintro ⟨⟨#Hp, ⟨%W, HO⟩, Hph, ⟨Hq0, Hq1, Hq2⟩, Hks, ⟨Hp0, Hp1, Hp2⟩, Hrq, Hrkv, Hrp, Hrqs, Hrkvs, Hrps, Hcq2, ⟨Hcp0, Hcp1, Hcp2⟩,
    ⟨HQk, HQ0, HQ1⟩, HQp, HKV, HKVp, HVP, HVPp, HPR, HPRp, Hstg, ⟨%X, Hout⟩⟩, Hk⟩

  iapply (wait_send m K c _ (qSendSem 2) (Mesh.cc0_scratch5_sem_2 _ _) (Steps.used_qSend c 2) (by decide) NQ (Regions.qSlot_credit _ _) (Steps.amt_qSend 2)) $$ [HO Hcq2 Hq2]
  · iframe Hp Hcq2
    isplitl [HO]; · iexact HO
    iexact Hq2
  iintro ⟨HO, Hq2, Hpay⟩
  ihave HQ2 := (Entails.of_eq (Steps.payD_qSend m c 2)) $$ Hpay
  ihave HQ := (Regions.ptQ_share m c (zF c)).2 $$ [HQ0 HQ1 HQ2 HQk]
  · iframe HQ0 HQ1 HQ2 HQk

  iapply (wait_send m K c _ (pSendSem 0) (Mesh.cc0_scratch9_sem_0 _ _) (Steps.used_pSend c 0) (by decide) NP (Regions.psSlot_credit _ _) (Steps.amt_pSend 0)) $$ [HO Hcp0 Hp0]
  · iframe Hp Hcp0
    isplitl [HO]; · iexact HO
    iexact Hp0
  iintro ⟨HO, Hp0, Hpay⟩
  ihave HPS0 := (Entails.of_eq (Steps.payD_pSend m c 0)) $$ Hpay
  iapply (wait_send m K c _ (pSendSem 1) (Mesh.cc0_scratch9_sem_1 _ _) (Steps.used_pSend c 1) (by decide) NP (Regions.psSlot_credit _ _) (Steps.amt_pSend 1)) $$ [HO Hcp1 Hp1]
  · iframe Hp Hcp1
    isplitl [HO]; · iexact HO
    iexact Hp1
  iintro ⟨HO, Hp1, Hpay⟩
  ihave HPS1 := (Entails.of_eq (Steps.payD_pSend m c 1)) $$ Hpay
  iapply (wait_send m K c _ (pSendSem 2) (Mesh.cc0_scratch9_sem_2 _ _) (Steps.used_pSend c 2) (by decide) NP (Regions.psSlot_credit _ _) (Steps.amt_pSend 2)) $$ [HO Hcp2 Hp2]
  · iframe Hp Hcp2
    isplitl [HO]; · iexact HO
    iexact Hp2
  iintro ⟨HO, Hp2, Hpay⟩
  ihave HPS2 := (Entails.of_eq (Steps.payD_pSend m c 2)) $$ Hpay

  unfold stgOut
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0) (r := (Rect.unit (s := S256x64) ![0, 0] S256x64.size inb_S256x64_S256x64_0_0)) (S := Finset.univ)
    (Finset.subset_univ _)) $$ Hout; iintro Hout
  ihave Hout' := (Entails.of_eq (pointsTo_congr (ℓ := ((c : Thread nD τ)).loc cc0_stg3_0) (write_out m c X))) $$ Hout
  rw [wp_ret]
  iapply Hk
  unfold mid22 Ow O15 T3 stgOut
  iframe Hp
  isplitl [HO]; · (iexists _; iexact HO)
  iframe Hph
  isplitl [Hq0 Hq1 Hq2]
  · iframe Hq0 Hq1 Hq2
  iframe Hks
  isplitl [Hp0 Hp1 Hp2]
  · iframe Hp0 Hp1 Hp2
  iframe Hrq Hrkv Hrp Hrqs Hrkvs Hrps HQ HQp HKV HKVp HVP HVPp
  isplitl [HPS0 HPS1 HPS2]
  · iframe HPS0 HPS1 HPS2
  iframe HPR HPRp Hstg Hout'

set_option maxHeartbeats 800000 in

theorem tail_spec (c : Dev nD) (v646 : FVec F S256x128 .f32) (Kt : PUnit → sProp 𝕄) :
    iprop(mid21 m K c ∗ ⌜v646 = TOT m c⌝ ∗ (IEnd m c -∗ Kt ⟨⟩))
      ⊢ wp frame (wpE (defs₀ (F := F)) 𝒱₀ (c : Thread nD τ) none) Set.univ (tailProg c v646) Kt := by
  iintro ⟨H21, %hv, Hk⟩
  iapply (tail_ops m K c v646 hv Kt)
  iframe H21
  unfold mid22
  iintro ⟨#Hp, HO, Hph, Hs1, Hs2, Hs3, Hr1, Hr2, Hr3, Hr4, Hr5, Hr6, HQ, HQp, HKV, HKVp, HVP, HVPp, HPS, HPR, HPRp, Hstg, Hout⟩
  ihave #Hrec := (pers_rec m K) $$ Hp
  imod (Finish.finish m K c) $$ [Hs1 Hs2 Hs3 Hr1 Hr2 Hr3 Hr4 Hr5 Hr6 HQ HQp HKV HKVp HVP HVPp HPS HPR HPRp] with HΦ
  · unfold Finish.atDone Finish.bufsDone
    iframe Hrec
    isplitl [Hs1 Hs2 Hs3 Hr1 Hr2 Hr3 Hr4 Hr5 Hr6]
    · iframe Hs1 Hs2 Hs3 Hr1 Hr2 Hr3 Hr4 Hr5 Hr6
    iframe HQ HQp HKV HKVp HVP HVPp HPS HPR HPRp
  imodintro
  iclear Hph
  iapply Hk
  unfold IEnd
  isplitl [HΦ]; · iexact HΦ
  isplitl [HO]; · iexact HO
  iframe Hstg Hout

end Cert.KernelIdeal.SegZ
end
-- ==== Proof.Body.lean ====
import proofs.«900582_g7700000000000583_dist_ring_attn_i_s256_d64_v7x_i16_f32_1_alg».proof.Proof.SegA
import proofs.«900582_g7700000000000583_dist_ring_attn_i_s256_d64_v7x_i16_f32_1_alg».proof.Proof.SegB
import proofs.«900582_g7700000000000583_dist_ring_attn_i_s256_d64_v7x_i16_f32_1_alg».proof.Proof.SegC
import proofs.«900582_g7700000000000583_dist_ring_attn_i_s256_d64_v7x_i16_f32_1_alg».proof.Proof.SegC2
import proofs.«900582_g7700000000000583_dist_ring_attn_i_s256_d64_v7x_i16_f32_1_alg».proof.Proof.SegD
import proofs.«900582_g7700000000000583_dist_ring_attn_i_s256_d64_v7x_i16_f32_1_alg».proof.Proof.SegH
import proofs.«900582_g7700000000000583_dist_ring_attn_i_s256_d64_v7x_i16_f32_1_alg».proof.Proof.SegZ

noncomputable section

namespace Cert.KernelIdeal.Body

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs Cert.KernelIdeal.Steps Cert.KernelIdeal.Steps2 Cert.KernelIdeal.Regions
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (K : Dev nD × Fin 22 → ℕ)

set_option maxRecDepth 65536 in
set_option maxHeartbeats 1600000 in

-- One device's body, part by part in program order, from what the launch hands it to the state in which every transfer cell has closed.
theorem sound_body (c : Dev nD) (Kt : PUnit → sProp 𝕄) :
    iprop(I0 m K c ∗ (IEnd m c -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10) Kt := by
  simp only [cc0_body_eq_skeleton]; unfold cc0_body_skel
  simp only [k0_part22_eq_skeleton]; unfold k0_part22_skel
  simp only [Prog.lift, Prog.bind_op, Prog.bind_ret, Prog.pure_eq_ret, Prog.bind_assoc]
  iintro ⟨H, Hend⟩
  rw [wp_bind]
  iapply (SegA.part1 m K c _)
  iframe H
  iintro H %v2 %v19 %v20
  try dsimp only
  rw [wp_bind]
  iapply (SegA.part2 m K c v19 v20 _)
  iframe H
  iintro H
  try dsimp only
  rw [wp_bind]
  iapply (SegB.part3 m K c v19 v20 _ _)
  iframe H
  iintro H %v95
  try dsimp only
  rw [wp_bind]
  iapply (SegB.part4 m K c v19 v20 v95 _)
  iframe H
  iintro H
  try dsimp only
  rw [wp_bind]
  iapply (SegB.part5 m K c v19 v20 _)
  iframe H
  iintro H %w5
  try dsimp only
  rw [wp_bind]
  iapply (SegB.part6 m K c v19 v20 _ _ _)
  iframe H
  iintro H %w6 %w6'
  try dsimp only
  rw [wp_bind]
  iapply (SegC.part7 m K c v2 v19 v20 _ _ _ _)
  iframe H
  iintro H
  try dsimp only
  rw [wp_bind]
  iapply (SegC.part8 m K c v2 v19 v20 _ _)
  iframe H
  iintro H
  try dsimp only
  rw [wp_bind]
  iapply (SegC.part9 m K c v2 v19 v20 _ _ _)
  iframe H
  iintro H
  try dsimp only
  rw [wp_bind]
  iapply (SegC.part10 m K c v19 _ _ _)
  iframe H
  iintro H
  try dsimp only
  rw [wp_bind]
  iapply (SegC2.part11 m K c v2 v19 v20 _ _ _ _ _ _ _)
  iframe H
  iintro H
  try dsimp only
  rw [wp_bind]
  iapply (SegC2.part12 m K c v19 _ _ _)
  iframe H
  iintro H
  try dsimp only
  rw [wp_bind]
  iapply (SegC2.part13 m K c v2 v19 v20 _ _ _ _ _)
  iframe H
  iintro H
  try dsimp only
  rw [wp_bind]
  iapply (SegD.part14 m K c v19 v20 _ _ _ _ rfl rfl rfl _)
  iframe H
  iintro H
  try dsimp only
  rw [wp_bind]
  iapply (SegD.part15 m K c v19 v20 _ _ _ rfl _)
  iframe H
  iintro H
  try dsimp only
  rw [wp_bind]
  iapply (SegD.part16 m K c v19 v20 _ _ _ _ rfl _)
  iframe H
  iintro H
  try dsimp only
  rw [wp_bind]
  iapply (SegH.part17 m K c v19 v20 _ _ _)
  iframe H
  iintro H
  try dsimp only
  rw [wp_bind]
  iapply (SegH.part18 m K c v19 v20 _ _ _ _)
  iframe H
  iintro H
  try dsimp only
  rw [wp_bind]
  iapply (SegH.part19 m K c v2 v19 _ _ _)
  iframe H
  iintro H
  try dsimp only
  rw [wp_bind]
  iapply (SegH.part20 m K c v2 v19 _ _ _)
  iframe H
  iintro H
  try dsimp only
  rw [wp_bind]
  iapply (SegZ.part21 m K c _)
  iframe H
  iintro H
  try dsimp only
  iapply (SegZ.tail_spec m K c (TOT m c) _)
  iframe H
  isplitr; · ipureintro; rfl
  iexact Hend

end Cert.KernelIdeal.Body

end
-- ==== Proof.BodyWrap.lean ====
import proofs.«900582_g7700000000000583_dist_ring_attn_i_s256_d64_v7x_i16_f32_1_alg».proof.Proof.Body

noncomputable section

namespace Cert.KernelIdeal.BodyWrap

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

omit [FloatOps F] in

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in

def bodyPre' (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ (F := F) c ∗ (dats m ρ 0 c).owesAt () t0_0.succ
    ∗ stg c cc0_stg0_0 (X0 m c) ∗ stg c cc0_stg1_0 (X1 m c) ∗ stg c cc0_stg2_0 (X2 m c) ∗ stg c cc0_stg3_0 (OUT m c))

end Cert.KernelIdeal.BodyWrap

namespace Cert.KernelIdeal.Body

open Cert.KernelIdeal Cert.KernelIdeal.Gen Cert.KernelIdeal.Mesh Cert.KernelIdeal.Cells Cert.KernelIdeal.Contents Cert.KernelIdeal.Sched
open Cert.KernelIdeal.Ghost Cert.KernelIdeal.BodyDefs
open Cert.BarCell
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.BodyWrap
variable {F : FTy → Type} [FloatOps F]
local notation "𝕄" => MT nD τ sig Unit (Elt F) ℕ UU ℕ
variable (m : (ℓ : Loc nD τ sig) → Buf (Elt F) ℓ) (ρ : Dev nD → PrngReg)

set_option maxRecDepth 100000 in
set_option maxHeartbeats 1600000 in

-- The body lemma in the form the launch asks for.
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) qB hqB kvB hkvB vpB hvpB psB hpsB prB hprB cc0_scratch5 cc0_scratch6 cc0_scratch7 cc0_scratch8 cc0_scratch9 cc0_scratch10) (fun _ => bodyPost m ρ c)
  unfold bodyPre' Φ₀ start ghost
  iintro ⟨⟨⟨⟨%K, Hrec, Hlin⟩, Hcreds, Hlev⟩, Hscr⟩, Ho, ⟨%d0, %g0, %hg0, Hx0⟩, ⟨%d1, %g1, %hg1, Hx1⟩, ⟨%d2, %g2, %hg2, Hx2⟩, ⟨%d3, %g3, %hg3, Hout⟩⟩
  have hx0 : g0 = X0 m c := by rw [hg0]; unfold Dat.before; rw [if_pos (fetch_0 t0_0)]; rfl
  have hx1 : g1 = X1 m c := by rw [hg1]; unfold Dat.before; rw [if_pos (fetch_1 t0_0)]; rfl
  have hx2 : g2 = X2 m c := by rw [hg2]; unfold Dat.before; rw [if_pos (fetch_2 t0_0)]; rfl
  subst hx0 hx1 hx2
  unfold Dat.owesAt Pipeline.owesWithin
  icases Ho with ⟨%W, %hW, HO⟩
  rw [show (dats m ρ 0 c).owed t0_0.castSucc = O0 c from rfl]
  iapply (sound_body m K c fun _ => bodyPost m ρ c)
  isplitr []
  · unfold I0 pers Ow stgIn stg0 stg1 stg2 stgOut
    isplitl [Hrec Hlev]
    · iframe Hrec Hlev
    iframe Hlin Hcreds Hscr
    isplitl [HO]; · iexists W; iexact HO
    isplitl [Hx0 Hx1 Hx2]
    · iframe Hx0 Hx1 Hx2
    iexists g3; iexact Hout
  · unfold IEnd bodyPost Ow stgIn stg0 stg1 stg2 stgOut Dat.owesAt Pipeline.owesWithin
    rw [show (dats m ρ 0 c).owed t0_0.succ = O15 from rfl]
    iintro ⟨HΦ, ⟨%W', HO⟩, ⟨Hx0, Hx1, Hx2⟩, Hout⟩
    isplitl [HΦ]; · iexact HΦ
    isplitl [HO]
    · iexists W'
      isplitr; · ipureintro; exact fun _ _ => Or.inl trivial
      iexact HO
    isplitl [Hx0]
    · iexists _; isplitr; · (ipureintro; rfl)
      iexact Hx0
    isplitl [Hx1]
    · iexists _; isplitr; · (ipureintro; rfl)
      iexact Hx1
    isplitl [Hx2]
    · iexists _; isplitr; · (ipureintro; rfl)
      iexact Hx2
    iexists _; isplitr; · (ipureintro; rfl)
    iexact Hout

end Cert.KernelIdeal.Body

end
-- ==== Proof.Assembly.lean ====
import proofs.«900582_g7700000000000583_dist_ring_attn_i_s256_d64_v7x_i16_f32_1_alg».proof.Proof.Gen.Kernel
import proofs.«900582_g7700000000000583_dist_ring_attn_i_s256_d64_v7x_i16_f32_1_alg».proof.Proof.RefValue
import proofs.«900582_g7700000000000583_dist_ring_attn_i_s256_d64_v7x_i16_f32_1_alg».proof.Proof.KerValue
import proofs.«900582_g7700000000000583_dist_ring_attn_i_s256_d64_v7x_i16_f32_1_alg».proof.Proof.Finite
import proofs.«900582_g7700000000000583_dist_ring_attn_i_s256_d64_v7x_i16_f32_1_alg».proof.Proof.Launch
import proofs.«900582_g7700000000000583_dist_ring_attn_i_s256_d64_v7x_i16_f32_1_alg».proof.Proof.BodyWrap

noncomputable section

namespace Cert.Proof.Assembly

open Idealize.ShloMosaic Idealize.SL.Sem Idealize.ShloMosaic.ValueIdx
open Cert.KernelIdeal.LaunchProof Cert.KernelIdeal.Body

-- With real inputs, each device's quotient of accumulated sums is its row block of the stabilised softmax against the values.
theorem algebraic : Cert.algebraic_KernelIdeal_ReferenceIdeal := by
  intro m g m' g' hpre hagree
  obtain ⟨hQ, hK, hV⟩ := Cert.KernelIdeal.Finite.args_real m m' hpre hagree
  refine ⟨Cert.RefValue.refArr _ _ _, ?_, Cert.RefValue.run_ri m' g'⟩
  refine (θ_run (Cert.KernelIdeal.defs (F := Ideal)) _ _).mono (fun r h c => ⟨?_, (h c).2⟩)
    (value_of_body m g (body_obligation m g))
  rw [(h c).1]
  show Cert.KernelIdeal.Contents.OUT m c = _
  rw [Cert.KernelIdeal.KerValue.out_eq m _ _ _ (fun c => (hagree c).1) (fun c => (hagree c).2.1)
    (fun c => (hagree c).2.2) c]
  congr 1
  funext i
  refine (Cert.AttnMath.ker_eq_ref _ _ _ (fun r k => hQ _) (fun r k => hK _) (fun r k => hV _) (i 0) (i 1)).trans ?_
  exact ((congrArg (Cert.RefValue.refArr _ _ _) (eq_ix2 i)).trans (Cert.RefValue.refArr_apply _ _ _ (i 0) (i 1))).symm

variable {F : FTy → Type} [FloatOps F]

-- The two kernel programs are one text, so their body tables agree label by label.
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_eq : Cert.Kernel.defs (F := F) = Cert.KernelIdeal.defs (F := F) :=
  congrArg (Pipeline.defs Cert.KernelIdeal.pcfgs) defs₀_eq

-- Both kernel frames are the one run, proved for every float instance, taken at the two instances.
theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    fun m g _ => by rw [defs_eq]; exact frame_of_body (F := Bits) m g (body_obligation m g),
    fun m g _ => frame_of_body m g (body_obligation m g),
    Cert.RefValue.frame_ri,
    trivial,
    algebraic⟩

end Cert.Proof.Assembly

end
-- ==== Proof.lean ====
import proofs.«900582_g7700000000000583_dist_ring_attn_i_s256_d64_v7x_i16_f32_1_alg».proof.Defs
import proofs.«900582_g7700000000000583_dist_ring_attn_i_s256_d64_v7x_i16_f32_1_alg».proof.Proof.Assembly

noncomputable section

namespace Cert.Proof

theorem claim : Cert.Claim := Cert.Proof.Assembly.claim

end Cert.Proof

end
